-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v158)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v158) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x1024 : Shape := ⟨2, ![10000, 1024]⟩
abbrev S2x160000 : Shape := ⟨2, ![2, 160000]⟩
abbrev S10000 : Shape := ⟨1, ![10000]⟩
abbrev S1024x1024 : Shape := ⟨2, ![1024, 1024]⟩
abbrev S1024 : Shape := ⟨1, ![1024]⟩
abbrev S1024x128 : Shape := ⟨2, ![1024, 128]⟩
abbrev S128 : Shape := ⟨1, ![128]⟩
abbrev S256x1 : Shape := ⟨2, ![256, 1]⟩
abbrev S1 : Shape := ⟨1, ![1]⟩
abbrev S_ : Shape := ⟨0, ![]⟩

class Facts : Prop where
  bcast_S_S10000x1024 : S_.BroadcastsInDim S10000x1024 (![] : Fin 0 → Fin S10000x1024.rank)
  reducesTo_S10000x1024_S_d0_1 : S10000x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x128 : S_.BroadcastsInDim S1024x128 (![] : Fin 0 → Fin S1024x128.rank)
  reducesTo_S1024x128_S_d0_1 : S1024x128.ReducesTo [0, 1] S_
  bcast_S_S128 : S_.BroadcastsInDim S128 (![] : Fin 0 → Fin S128.rank)
  reducesTo_S128_S_d0 : S128.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S2x160000 : S_.BroadcastsInDim S2x160000 (![] : Fin 0 → Fin S2x160000.rank)
  reducesTo_S2x160000_S_d0_1 : S2x160000.ReducesTo [0, 1] S_

variable [Facts]

def fn_part4 {F : FTy → Type} [FloatOps F] (main_arg4 : IVec S2x160000 32) (main_v65 : IVec S_ 1) (main_v67 : IVec S2x160000 1) : IVec S_ 1 :=
  let main_c_26 : IVec S_ 32 := constantI S_ 32 10000#32
  let main_v68 : IVec S2x160000 32 := broadcastInDim S2x160000 ![] bcast_S_S2x160000 main_c_26
  let main_v69 : IVec S2x160000 1 := cmpi .slt main_arg4 main_v68
  let main_v70 : IVec S2x160000 1 := andi main_v67 main_v69
  let main_c_27 : IVec S_ 1 := constantI S_ 1 1#1
  let main_v71 : IVec S_ 1 := (fun x v => Host.reduce IntOp.andi x v reducesTo_S2x160000_S_d0_1 h_S_) main_v70 main_c_27
  let main_v72 : IVec S_ 1 := andi main_v65 main_v71
  main_v72

def fn_part3 {F : FTy → Type} [FloatOps F] (main_arg1 : IVec S2x160000 32) (main_arg4 : IVec S2x160000 32) (main_arg15 : FVec F S1 .f32) (main_v48 : IVec S_ 1) (main_v49 : FVec F S256x1 .f32) (main_v50 : FVec F S256x1 .f32) : IVec S_ 1 :=
  let main_v51 : IVec S256x1 1 := cmpf .olt main_v49 main_v50
  let main_c_19 : IVec S_ 1 := constantI S_ 1 1#1
  let main_v52 : IVec S_ 1 := (fun x v => Host.reduce IntOp.andi x v reducesTo_S256x1_S_d0_1 h_S_) main_v51 main_c_19
  let main_v53 : IVec S_ 1 := andi main_v48 main_v52
  let main_v54 : FVec F S1 .f32 := Host.absf main_arg15
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_c_22 : IVec S_ 32 := constantI S_ 32 0#32
  let main_v59 : IVec S2x160000 32 := broadcastInDim S2x160000 ![] bcast_S_S2x160000 main_c_22
  let main_v60 : IVec S2x160000 1 := cmpi .sge main_arg1 main_v59
  let main_c_23 : IVec S_ 32 := constantI S_ 32 10000#32
  let main_v61 : IVec S2x160000 32 := broadcastInDim S2x160000 ![] bcast_S_S2x160000 main_c_23
  let main_v62 : IVec S2x160000 1 := cmpi .slt main_arg1 main_v61
  let main_v63 : IVec S2x160000 1 := andi main_v60 main_v62
  let main_c_24 : IVec S_ 1 := constantI S_ 1 1#1
  let main_v64 : IVec S_ 1 := (fun x v => Host.reduce IntOp.andi x v reducesTo_S2x160000_S_d0_1 h_S_) main_v63 main_c_24
  let main_v65 : IVec S_ 1 := andi main_v58 main_v64
  let main_c_25 : IVec S_ 32 := constantI S_ 32 0#32
  let main_v66 : IVec S2x160000 32 := broadcastInDim S2x160000 ![] bcast_S_S2x160000 main_c_25
  let main_v67 : IVec S2x160000 1 := cmpi .sge main_arg4 main_v66
  fn_part4 (F := F) main_arg4 main_v65 main_v67

def fn_part2 {F : FTy → Type} [FloatOps F] (main_arg1 : IVec S2x160000 32) (main_arg4 : IVec S2x160000 32) (main_arg11 : FVec F S1024 .f32) (main_arg12 : FVec F S1024x128 .f32) (main_arg13 : FVec F S128 .f32) (main_arg14 : FVec F S256x1 .f32) (main_arg15 : FVec F S1 .f32) (main_v33 : IVec S_ 1) : IVec S_ 1 :=
  let main_v34 : FVec F S1024 .f32 := Host.absf main_arg11
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x128 .f32 := Host.absf main_arg12
  let main_cst_14 : FVec F S_ .f32 := constant S_ .f32 0x7F800000#32
  let main_v40 : FVec F S1024x128 .f32 := broadcastInDim S1024x128 ![] bcast_S_S1024x128 main_cst_14
  let main_v41 : IVec S1024x128 1 := cmpf .olt main_v39 main_v40
  let main_c_15 : IVec S_ 1 := constantI S_ 1 1#1
  let main_v42 : IVec S_ 1 := (fun x v => Host.reduce IntOp.andi x v reducesTo_S1024x128_S_d0_1 h_S_) main_v41 main_c_15
  let main_v43 : IVec S_ 1 := andi main_v38 main_v42
  let main_v44 : FVec F S128 .f32 := Host.absf main_arg13
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S256x1 .f32 := Host.absf main_arg14
  let main_cst_18 : FVec F S_ .f32 := constant S_ .f32 0x7F800000#32
  let main_v50 : FVec F S256x1 .f32 := broadcastInDim S256x1 ![] bcast_S_S256x1 main_cst_18
  fn_part3 (F := F) main_arg1 main_arg4 main_arg15 main_v48 main_v49 main_v50

def fn_part1 {F : FTy → Type} [FloatOps F] (main_arg1 : IVec S2x160000 32) (main_arg4 : IVec S2x160000 32) (main_arg8 : FVec F S1024x128 .f32) (main_arg9 : FVec F S128 .f32) (main_arg10 : FVec F S1024x1024 .f32) (main_arg11 : FVec F S1024 .f32) (main_arg12 : FVec F S1024x128 .f32) (main_arg13 : FVec F S128 .f32) (main_arg14 : FVec F S256x1 .f32) (main_arg15 : FVec F S1 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x128 .f32 := Host.absf main_arg8
  let main_cst_6 : FVec F S_ .f32 := constant S_ .f32 0x7F800000#32
  let main_v20 : FVec F S1024x128 .f32 := broadcastInDim S1024x128 ![] bcast_S_S1024x128 main_cst_6
  let main_v21 : IVec S1024x128 1 := cmpf .olt main_v19 main_v20
  let main_c_7 : IVec S_ 1 := constantI S_ 1 1#1
  let main_v22 : IVec S_ 1 := (fun x v => Host.reduce IntOp.andi x v reducesTo_S1024x128_S_d0_1 h_S_) main_v21 main_c_7
  let main_v23 : IVec S_ 1 := andi main_v18 main_v22
  let main_v24 : FVec F S128 .f32 := Host.absf main_arg9
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S1024x1024 .f32 := Host.absf main_arg10
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg1 main_arg4 main_arg11 main_arg12 main_arg13 main_arg14 main_arg15 main_v33

def fn {F : FTy → Type} [FloatOps F] (main_arg0 : FVec F S10000x1024 .f32) (main_arg1 : IVec S2x160000 32) (main_arg2 : IVec S10000 32) (main_arg3 : FVec F S10000x1024 .f32) (main_arg4 : IVec S2x160000 32) (main_arg5 : IVec S10000 32) (main_arg6 : FVec F S1024x1024 .f32) (main_arg7 : FVec F S1024 .f32) (main_arg8 : FVec F S1024x128 .f32) (main_arg9 : FVec F S128 .f32) (main_arg10 : FVec F S1024x1024 .f32) (main_arg11 : FVec F S1024 .f32) (main_arg12 : FVec F S1024x128 .f32) (main_arg13 : FVec F S128 .f32) (main_arg14 : FVec F S256x1 .f32) (main_arg15 : FVec F S1 .f32) : IVec S_ 1 :=
  let main_v0 : FVec F S10000x1024 .f32 := Host.absf main_arg0
  let main_cst : FVec F S_ .f32 := constant S_ .f32 0x7F800000#32
  let main_v1 : FVec F S10000x1024 .f32 := broadcastInDim S10000x1024 ![] bcast_S_S10000x1024 main_cst
  let main_v2 : IVec S10000x1024 1 := cmpf .olt main_v0 main_v1
  let main_c : IVec S_ 1 := constantI S_ 1 1#1
  let main_v3 : IVec S_ 1 := (fun x v => Host.reduce IntOp.andi x v reducesTo_S10000x1024_S_d0_1 h_S_) main_v2 main_c
  let main_v4 : FVec F S10000x1024 .f32 := Host.absf main_arg3
  let main_cst_0 : FVec F S_ .f32 := constant S_ .f32 0x7F800000#32
  let main_v5 : FVec F S10000x1024 .f32 := broadcastInDim S10000x1024 ![] bcast_S_S10000x1024 main_cst_0
  let main_v6 : IVec S10000x1024 1 := cmpf .olt main_v4 main_v5
  let main_c_1 : IVec S_ 1 := constantI S_ 1 1#1
  let main_v7 : IVec S_ 1 := (fun x v => Host.reduce IntOp.andi x v reducesTo_S10000x1024_S_d0_1 h_S_) main_v6 main_c_1
  let main_v8 : IVec S_ 1 := andi main_v3 main_v7
  let main_v9 : FVec F S1024x1024 .f32 := Host.absf main_arg6
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg7
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg1 main_arg4 main_arg8 main_arg9 main_arg10 main_arg11 main_arg12 main_arg13 main_arg14 main_arg15 main_v13 main_v16
-- ==== Kernel.lean ====
abbrev S10000x1024 : Shape := ⟨2, ![10000, 1024]⟩
abbrev S2x160000 : Shape := ⟨2, ![2, 160000]⟩
abbrev S10000 : Shape := ⟨1, ![10000]⟩
abbrev S1024x1024 : Shape := ⟨2, ![1024, 1024]⟩
abbrev S1024 : Shape := ⟨1, ![1024]⟩
abbrev S1024x128 : Shape := ⟨2, ![1024, 128]⟩
abbrev S128 : Shape := ⟨1, ![128]⟩
abbrev S256x1 : Shape := ⟨2, ![256, 1]⟩
abbrev S1 : Shape := ⟨1, ![1]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S170000 : Shape := ⟨1, ![170000]⟩
abbrev S10240x10240 : Shape := ⟨2, ![10240, 10240]⟩
abbrev S170000x1 : Shape := ⟨2, ![170000, 1]⟩
abbrev S170000x2 : Shape := ⟨2, ![170000, 2]⟩
abbrev S10240x1024 : Shape := ⟨2, ![10240, 1024]⟩
abbrev S1x1024 : Shape := ⟨2, ![1, 1024]⟩
abbrev S1280x1024 : Shape := ⟨2, ![1280, 1024]⟩
abbrev S128x10240 : Shape := ⟨2, ![128, 10240]⟩
abbrev S128x1024 : Shape := ⟨2, ![128, 1024]⟩
abbrev S10240 : Shape := ⟨1, ![10240]⟩
abbrev S64 : Shape := ⟨1, ![64]⟩
abbrev S1x10240 : Shape := ⟨2, ![1, 10240]⟩
abbrev S64x1 : Shape := ⟨2, ![64, 1]⟩
abbrev S64x10240 : Shape := ⟨2, ![64, 10240]⟩
abbrev S64x1024 : Shape := ⟨2, ![64, 1024]⟩
abbrev S64x2560 : Shape := ⟨2, ![64, 2560]⟩
abbrev S2560x1024 : Shape := ⟨2, ![2560, 1024]⟩
abbrev S1x128 : Shape := ⟨2, ![1, 128]⟩
abbrev S64x128 : Shape := ⟨2, ![64, 128]⟩
abbrev S64x256 : Shape := ⟨2, ![64, 256]⟩
abbrev S1x1 : Shape := ⟨2, ![1, 1]⟩

abbrev nBuf : Space → Nat
  | .hbm => 219
  | .vmem => 52
  | .smem => 0
  | _ => 0

abbrev hbmTy0_0 (i : Nat) : BufTy := match i % 128 with
  | 0 => ⟨S10000x1024, .f32⟩
  | 1 => ⟨S2x160000, .i32⟩
  | 2 => ⟨S10000, .i32⟩
  | 3 => ⟨S10000x1024, .f32⟩
  | 4 => ⟨S2x160000, .i32⟩
  | 5 => ⟨S10000, .i32⟩
  | 6 => ⟨S1024x1024, .f32⟩
  | 7 => ⟨S1024, .f32⟩
  | 8 => ⟨S1024x128, .f32⟩
  | 9 => ⟨S128, .f32⟩
  | 10 => ⟨S1024x1024, .f32⟩
  | 11 => ⟨S1024, .f32⟩
  | 12 => ⟨S1024x128, .f32⟩
  | 13 => ⟨S128, .f32⟩
  | 14 => ⟨S256x1, .f32⟩
  | 15 => ⟨S1, .f32⟩
  | 16 => ⟨S1x160000, .i32⟩
  | 17 => ⟨S160000, .i32⟩
  | 18 => ⟨S1x160000, .i32⟩
  | 19 => ⟨S160000, .i32⟩
  | 20 => ⟨S_, .f32⟩
  | 21 => ⟨S10000, .f32⟩
  | 22 => ⟨S_, .i32⟩
  | 23 => ⟨S160000, .i32⟩
  | 24 => ⟨S160000, .i1⟩
  | 25 => ⟨S_, .i32⟩
  | 26 => ⟨S160000, .i32⟩
  | 27 => ⟨S160000, .i32⟩
  | 28 => ⟨S160000, .i32⟩
  | 29 => ⟨S160000x1, .i32⟩
  | 30 => ⟨S_, .f32⟩
  | 31 => ⟨S160000, .f32⟩
  | 32 => ⟨S10000, .f32⟩
  | 33 => ⟨S_, .f32⟩
  | 34 => ⟨S10000, .f32⟩
  | 35 => ⟨S10000, .f32⟩
  | 36 => ⟨S10000, .f32⟩
  | 37 => ⟨S_, .i32⟩
  | 38 => ⟨S160000, .i32⟩
  | 39 => ⟨S160000, .i1⟩
  | 40 => ⟨S_, .i32⟩
  | 41 => ⟨S160000, .i32⟩
  | 42 => ⟨S160000, .i32⟩
  | 43 => ⟨S160000, .i32⟩
  | 44 => ⟨S160000x1, .i32⟩
  | 45 => ⟨S160000, .f32⟩
  | 46 => ⟨S_, .i32⟩
  | 47 => ⟨S160000, .i32⟩
  | 48 => ⟨S160000, .i1⟩
  | 49 => ⟨S_, .i32⟩
  | 50 => ⟨S160000, .i32⟩
  | 51 => ⟨S160000, .i32⟩
  | 52 => ⟨S160000, .i32⟩
  | 53 => ⟨S160000x1, .i32⟩
  | 54 => ⟨S160000, .f32⟩
  | 55 => ⟨S160000, .f32⟩
  | 56 => ⟨S10000, .i32⟩
  | 57 => ⟨S10000, .f32⟩
  | 58 => ⟨S170000, .i32⟩
  | 59 => ⟨S170000, .i32⟩
  | 60 => ⟨S170000, .f32⟩
  | 61 => ⟨S_, .f32⟩
  | 62 => ⟨S10240x10240, .f32⟩
  | 63 => ⟨S_, .i32⟩
  | 64 => ⟨S170000, .i32⟩
  | 65 => ⟨S170000, .i1⟩
  | 66 => ⟨S_, .i32⟩
  | 67 => ⟨S170000, .i32⟩
  | 68 => ⟨S170000, .i32⟩
  | 69 => ⟨S170000, .i32⟩
  | 70 => ⟨S_, .i32⟩
  | 71 => ⟨S170000, .i32⟩
  | 72 => ⟨S170000, .i1⟩
  | 73 => ⟨S_, .i32⟩
  | 74 => ⟨S170000, .i32⟩
  | 75 => ⟨S170000, .i32⟩
  | 76 => ⟨S170000, .i32⟩
  | 77 => ⟨S170000x1, .i32⟩
  | 78 => ⟨S170000x1, .i32⟩
  | 79 => ⟨S170000x2, .i32⟩
  | 80 => ⟨S10240x10240, .f32⟩
  | 81 => ⟨S_, .i32⟩
  | 82 => ⟨S_, .f32⟩
  | 83 => ⟨S10240x1024, .f32⟩
  | 84 => ⟨S10240x1024, .bf16⟩
  | 85 => ⟨S1024x1024, .bf16⟩
  | 86 => ⟨S_, .f32⟩
  | 87 => ⟨S1x1024, .f32⟩
  | 88 => ⟨S10240x1024, .bf16⟩
  | 89 => ⟨S1x1024, .f32⟩
  | 90 => ⟨S10240x1024, .bf16⟩
  | 91 => ⟨S_, .i32⟩
  | 92 => ⟨S_, .i32⟩
  | 93 => ⟨S10240, .i32⟩
  | 94 => ⟨S64, .i32⟩
  | 95 => ⟨S1x10240, .i32⟩
  | 96 => ⟨S64x1, .i32⟩
  | 97 => ⟨S64x10240, .i32⟩
  | 98 => ⟨S64x10240, .i32⟩
  | 99 => ⟨S64x10240, .i1⟩
  | 100 => ⟨S64x10240, .bf16⟩
  | 101 => ⟨S_, .f32⟩
  | 102 => ⟨S1x1024, .f32⟩
  | 103 => ⟨S64x1024, .f32⟩
  | 104 => ⟨S64x10240, .f32⟩
  | 105 => ⟨S_, .f32⟩
  | 106 => ⟨S64, .f32⟩
  | 107 => ⟨S_, .f32⟩
  | 108 => ⟨S64, .f32⟩
  | 109 => ⟨S64, .f32⟩
  | 110 => ⟨S64x1, .f32⟩
  | 111 => ⟨S64x1024, .f32⟩
  | 112 => ⟨S64x1024, .f32⟩
  | 113 => ⟨S1x128, .f32⟩
  | 114 => ⟨S64x128, .f32⟩
  | 115 => ⟨S1x160000, .i32⟩
  | 116 => ⟨S160000, .i32⟩
  | 117 => ⟨S1x160000, .i32⟩
  | 118 => ⟨S160000, .i32⟩
  | 119 => ⟨S_, .f32⟩
  | 120 => ⟨S10000, .f32⟩
  | 121 => ⟨S_, .i32⟩
  | 122 => ⟨S160000, .i32⟩
  | 123 => ⟨S160000, .i1⟩
  | 124 => ⟨S_, .i32⟩
  | 125 => ⟨S160000, .i32⟩
  | 126 => ⟨S160000, .i32⟩
  | 127 => ⟨S160000, .i32⟩
  | _ => ⟨S10000x1024, .f32⟩

abbrev hbmTy0_1 (i : Nat) : BufTy := match i % 128 with
  | 0 => ⟨S160000x1, .i32⟩
  | 1 => ⟨S_, .f32⟩
  | 2 => ⟨S160000, .f32⟩
  | 3 => ⟨S10000, .f32⟩
  | 4 => ⟨S_, .f32⟩
  | 5 => ⟨S10000, .f32⟩
  | 6 => ⟨S10000, .f32⟩
  | 7 => ⟨S10000, .f32⟩
  | 8 => ⟨S_, .i32⟩
  | 9 => ⟨S160000, .i32⟩
  | 10 => ⟨S160000, .i1⟩
  | 11 => ⟨S_, .i32⟩
  | 12 => ⟨S160000, .i32⟩
  | 13 => ⟨S160000, .i32⟩
  | 14 => ⟨S160000, .i32⟩
  | 15 => ⟨S160000x1, .i32⟩
  | 16 => ⟨S160000, .f32⟩
  | 17 => ⟨S_, .i32⟩
  | 18 => ⟨S160000, .i32⟩
  | 19 => ⟨S160000, .i1⟩
  | 20 => ⟨S_, .i32⟩
  | 21 => ⟨S160000, .i32⟩
  | 22 => ⟨S160000, .i32⟩
  | 23 => ⟨S160000, .i32⟩
  | 24 => ⟨S160000x1, .i32⟩
  | 25 => ⟨S160000, .f32⟩
  | 26 => ⟨S160000, .f32⟩
  | 27 => ⟨S10000, .i32⟩
  | 28 => ⟨S10000, .f32⟩
  | 29 => ⟨S170000, .i32⟩
  | 30 => ⟨S170000, .i32⟩
  | 31 => ⟨S170000, .f32⟩
  | 32 => ⟨S_, .f32⟩
  | 33 => ⟨S10240x10240, .f32⟩
  | 34 => ⟨S_, .i32⟩
  | 35 => ⟨S170000, .i32⟩
  | 36 => ⟨S170000, .i1⟩
  | 37 => ⟨S_, .i32⟩
  | 38 => ⟨S170000, .i32⟩
  | 39 => ⟨S170000, .i32⟩
  | 40 => ⟨S170000, .i32⟩
  | 41 => ⟨S_, .i32⟩
  | 42 => ⟨S170000, .i32⟩
  | 43 => ⟨S170000, .i1⟩
  | 44 => ⟨S_, .i32⟩
  | 45 => ⟨S170000, .i32⟩
  | 46 => ⟨S170000, .i32⟩
  | 47 => ⟨S170000, .i32⟩
  | 48 => ⟨S170000x1, .i32⟩
  | 49 => ⟨S170000x1, .i32⟩
  | 50 => ⟨S170000x2, .i32⟩
  | 51 => ⟨S10240x10240, .f32⟩
  | 52 => ⟨S_, .i32⟩
  | 53 => ⟨S_, .f32⟩
  | 54 => ⟨S10240x1024, .f32⟩
  | 55 => ⟨S10240x1024, .bf16⟩
  | 56 => ⟨S1024x1024, .bf16⟩
  | 57 => ⟨S_, .f32⟩
  | 58 => ⟨S1x1024, .f32⟩
  | 59 => ⟨S10240x1024, .bf16⟩
  | 60 => ⟨S1x1024, .f32⟩
  | 61 => ⟨S10240x1024, .bf16⟩
  | 62 => ⟨S_, .i32⟩
  | 63 => ⟨S_, .i32⟩
  | 64 => ⟨S10240, .i32⟩
  | 65 => ⟨S64, .i32⟩
  | 66 => ⟨S1x10240, .i32⟩
  | 67 => ⟨S64x1, .i32⟩
  | 68 => ⟨S64x10240, .i32⟩
  | 69 => ⟨S64x10240, .i32⟩
  | 70 => ⟨S64x10240, .i1⟩
  | 71 => ⟨S64x10240, .bf16⟩
  | 72 => ⟨S_, .f32⟩
  | 73 => ⟨S1x1024, .f32⟩
  | 74 => ⟨S64x1024, .f32⟩
  | 75 => ⟨S64x10240, .f32⟩
  | 76 => ⟨S_, .f32⟩
  | 77 => ⟨S64, .f32⟩
  | 78 => ⟨S_, .f32⟩
  | 79 => ⟨S64, .f32⟩
  | 80 => ⟨S64, .f32⟩
  | 81 => ⟨S64x1, .f32⟩
  | 82 => ⟨S64x1024, .f32⟩
  | 83 => ⟨S64x1024, .f32⟩
  | 84 => ⟨S1x128, .f32⟩
  | 85 => ⟨S64x128, .f32⟩
  | 86 => ⟨S64x256, .f32⟩
  | 87 => ⟨S64x1, .f32⟩
  | 88 => ⟨S1x1, .f32⟩
  | 89 => ⟨S64x1, .f32⟩
  | 90 => ⟨S64x1, .f32⟩
  | _ => ⟨S10000x1024, .f32⟩

abbrev hbmTy (i : Nat) : BufTy := match i / 128 with
  | 0 => hbmTy0_0 i
  | 1 => hbmTy0_1 i
  | _ => ⟨S10000x1024, .f32⟩

abbrev bufTy : (tb : Table) → Fin (tcTables nBuf tb) → BufTy
  | .hbm, ⟨i, _⟩ => hbmTy i
  | .local _ .vmem, ⟨0, _⟩ => ⟨S1280x1024, .bf16⟩
  | .local _ .vmem, ⟨1, _⟩ => ⟨S1280x1024, .bf16⟩
  | .local _ .vmem, ⟨2, _⟩ => ⟨S1024x1024, .bf16⟩
  | .local _ .vmem, ⟨3, _⟩ => ⟨S1x1024, .f32⟩
  | .local _ .vmem, ⟨4, _⟩ => ⟨S1280x1024, .bf16⟩
  | .local _ .vmem, ⟨5, _⟩ => ⟨S1280x1024, .bf16⟩
  | .local _ .vmem, ⟨6, _⟩ => ⟨S1280x1024, .f32⟩
  | .local _ .vmem, ⟨7, _⟩ => ⟨S128x10240, .f32⟩
  | .local _ .vmem, ⟨8, _⟩ => ⟨S128x10240, .f32⟩
  | .local _ .vmem, ⟨9, _⟩ => ⟨S10240x1024, .bf16⟩
  | .local _ .vmem, ⟨10, _⟩ => ⟨S1x1024, .f32⟩
  | .local _ .vmem, ⟨11, _⟩ => ⟨S128x1024, .bf16⟩
  | .local _ .vmem, ⟨12, _⟩ => ⟨S128x1024, .bf16⟩
  | .local _ .vmem, ⟨13, _⟩ => ⟨S128x1024, .f32⟩
  | .local _ .vmem, ⟨14, _⟩ => ⟨S64x2560, .bf16⟩
  | .local _ .vmem, ⟨15, _⟩ => ⟨S64x2560, .bf16⟩
  | .local _ .vmem, ⟨16, _⟩ => ⟨S2560x1024, .bf16⟩
  | .local _ .vmem, ⟨17, _⟩ => ⟨S2560x1024, .bf16⟩
  | .local _ .vmem, ⟨18, _⟩ => ⟨S1x1024, .f32⟩
  | .local _ .vmem, ⟨19, _⟩ => ⟨S64x1024, .f32⟩
  | .local _ .vmem, ⟨20, _⟩ => ⟨S64x1024, .f32⟩
  | .local _ .vmem, ⟨21, _⟩ => ⟨S64x1024, .f32⟩
  | .local _ .vmem, ⟨22, _⟩ => ⟨S1024x128, .f32⟩
  | .local _ .vmem, ⟨23, _⟩ => ⟨S1x128, .f32⟩
  | .local _ .vmem, ⟨24, _⟩ => ⟨S64x128, .f32⟩
  | .local _ .vmem, ⟨25, _⟩ => ⟨S64x128, .f32⟩
  | .local _ .vmem, ⟨26, _⟩ => ⟨S1280x1024, .bf16⟩
  | .local _ .vmem, ⟨27, _⟩ => ⟨S1280x1024, .bf16⟩
  | .local _ .vmem, ⟨28, _⟩ => ⟨S1024x1024, .bf16⟩
  | .local _ .vmem, ⟨29, _⟩ => ⟨S1x1024, .f32⟩
  | .local _ .vmem, ⟨30, _⟩ => ⟨S1280x1024, .bf16⟩
  | .local _ .vmem, ⟨31, _⟩ => ⟨S1280x1024, .bf16⟩
  | .local _ .vmem, ⟨32, _⟩ => ⟨S1280x1024, .f32⟩
  | .local _ .vmem, ⟨33, _⟩ => ⟨S128x10240, .f32⟩
  | .local _ .vmem, ⟨34, _⟩ => ⟨S128x10240, .f32⟩
  | .local _ .vmem, ⟨35, _⟩ => ⟨S10240x1024, .bf16⟩
  | .local _ .vmem, ⟨36, _⟩ => ⟨S1x1024, .f32⟩
  | .local _ .vmem, ⟨37, _⟩ => ⟨S128x1024, .bf16⟩
  | .local _ .vmem, ⟨38, _⟩ => ⟨S128x1024, .bf16⟩
  | .local _ .vmem, ⟨39, _⟩ => ⟨S128x1024, .f32⟩
  | .local _ .vmem, ⟨40, _⟩ => ⟨S64x2560, .bf16⟩
  | .local _ .vmem, ⟨41, _⟩ => ⟨S64x2560, .bf16⟩
  | .local _ .vmem, ⟨42, _⟩ => ⟨S2560x1024, .bf16⟩
  | .local _ .vmem, ⟨43, _⟩ => ⟨S2560x1024, .bf16⟩
  | .local _ .vmem, ⟨44, _⟩ => ⟨S1x1024, .f32⟩
  | .local _ .vmem, ⟨45, _⟩ => ⟨S64x1024, .f32⟩
  | .local _ .vmem, ⟨46, _⟩ => ⟨S64x1024, .f32⟩
  | .local _ .vmem, ⟨47, _⟩ => ⟨S64x1024, .f32⟩
  | .local _ .vmem, ⟨48, _⟩ => ⟨S1024x128, .f32⟩
  | .local _ .vmem, ⟨49, _⟩ => ⟨S1x128, .f32⟩
  | .local _ .vmem, ⟨50, _⟩ => ⟨S64x128, .f32⟩
  | .local _ .vmem, ⟨51, _⟩ => ⟨S64x128, .f32⟩
  | _, _ => ⟨S10000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_c : Ref sig .tc := ⟨.hbm, 22, rfl⟩
abbrev main_v5 : Ref sig .tc := ⟨.hbm, 23, rfl⟩
abbrev main_v6 : Ref sig .tc := ⟨.hbm, 24, rfl⟩
abbrev main_c_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_cst_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_c_3 : Ref sig .tc := ⟨.hbm, 37, rfl⟩
abbrev main_v16 : Ref sig .tc := ⟨.hbm, 38, rfl⟩
abbrev main_v17 : Ref sig .tc := ⟨.hbm, 39, rfl⟩
abbrev main_c_4 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c_5 : Ref sig .tc := ⟨.hbm, 46, rfl⟩
abbrev main_v23 : Ref sig .tc := ⟨.hbm, 47, rfl⟩
abbrev main_v24 : Ref sig .tc := ⟨.hbm, 48, rfl⟩
abbrev main_c_6 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_7 : Ref sig .tc := ⟨.hbm, 61, rfl⟩
abbrev main_v36 : Ref sig .tc := ⟨.hbm, 62, rfl⟩
abbrev main_c_8 : Ref sig .tc := ⟨.hbm, 63, rfl⟩
abbrev main_v37 : Ref sig .tc := ⟨.hbm, 64, rfl⟩
abbrev main_v38 : Ref sig .tc := ⟨.hbm, 65, rfl⟩
abbrev main_c_9 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_c_10 : Ref sig .tc := ⟨.hbm, 70, rfl⟩
abbrev main_v42 : Ref sig .tc := ⟨.hbm, 71, rfl⟩
abbrev main_v43 : Ref sig .tc := ⟨.hbm, 72, rfl⟩
abbrev main_c_11 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_c_12 : Ref sig .tc := ⟨.hbm, 81, rfl⟩
abbrev main_call0_v0 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_13 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_c_14 : Ref sig .tc := ⟨.hbm, 91, rfl⟩
abbrev main_call1_v0 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_15 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_cst_16 : Ref sig .tc := ⟨.hbm, 105, rfl⟩
abbrev main_v69 : Ref sig .tc := ⟨.hbm, 106, rfl⟩
abbrev main_cst_17 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_cst_18 : Ref sig .tc := ⟨.hbm, 119, rfl⟩
abbrev main_v81 : Ref sig .tc := ⟨.hbm, 120, rfl⟩
abbrev main_c_19 : Ref sig .tc := ⟨.hbm, 121, rfl⟩
abbrev main_v82 : Ref sig .tc := ⟨.hbm, 122, rfl⟩
abbrev main_v83 : Ref sig .tc := ⟨.hbm, 123, rfl⟩
abbrev main_c_20 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_cst_21 : Ref sig .tc := ⟨.hbm, 129, rfl⟩
abbrev main_v88 : Ref sig .tc := ⟨.hbm, 130, rfl⟩
abbrev main_v89 : Ref sig .tc := ⟨.hbm, 131, rfl⟩
abbrev main_cst_22 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_c_23 : Ref sig .tc := ⟨.hbm, 136, rfl⟩
abbrev main_v93 : Ref sig .tc := ⟨.hbm, 137, rfl⟩
abbrev main_v94 : Ref sig .tc := ⟨.hbm, 138, rfl⟩
abbrev main_c_24 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_c_25 : Ref sig .tc := ⟨.hbm, 145, rfl⟩
abbrev main_v100 : Ref sig .tc := ⟨.hbm, 146, rfl⟩
abbrev main_v101 : Ref sig .tc := ⟨.hbm, 147, rfl⟩
abbrev main_c_26 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_cst_27 : Ref sig .tc := ⟨.hbm, 160, rfl⟩
abbrev main_v113 : Ref sig .tc := ⟨.hbm, 161, rfl⟩
abbrev main_c_28 : Ref sig .tc := ⟨.hbm, 162, rfl⟩
abbrev main_v114 : Ref sig .tc := ⟨.hbm, 163, rfl⟩
abbrev main_v115 : Ref sig .tc := ⟨.hbm, 164, rfl⟩
abbrev main_c_29 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_c_30 : Ref sig .tc := ⟨.hbm, 169, rfl⟩
abbrev main_v119 : Ref sig .tc := ⟨.hbm, 170, rfl⟩
abbrev main_v120 : Ref sig .tc := ⟨.hbm, 171, rfl⟩
abbrev main_c_31 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_c_32 : Ref sig .tc := ⟨.hbm, 180, rfl⟩
abbrev main_call2_v0 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_cst_33 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_c_34 : Ref sig .tc := ⟨.hbm, 190, rfl⟩
abbrev main_call3_v0 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_cst_35 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_cst_36 : Ref sig .tc := ⟨.hbm, 204, rfl⟩
abbrev main_v146 : Ref sig .tc := ⟨.hbm, 205, rfl⟩
abbrev main_cst_37 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_scratch0 : Ref sig .tc := ⟨.vmem, 20, rfl⟩
abbrev cc3_stg0_0 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_scratch0 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg3_1 : Ref sig .tc := ⟨.vmem, 31, rfl⟩
abbrev cc4_scratch0 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg3_0 : Ref sig .tc := ⟨.vmem, 37, rfl⟩
abbrev cc5_stg3_1 : Ref sig .tc := ⟨.vmem, 38, rfl⟩
abbrev cc5_scratch0 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg1_1 : Ref sig .tc := ⟨.vmem, 43, rfl⟩
abbrev cc6_stg2_0 : Ref sig .tc := ⟨.vmem, 44, rfl⟩
abbrev cc6_stg3_0 : Ref sig .tc := ⟨.vmem, 45, rfl⟩
abbrev cc6_scratch0 : Ref sig .tc := ⟨.vmem, 46, rfl⟩
abbrev cc7_stg0_0 : Ref sig .tc := ⟨.vmem, 47, rfl⟩
abbrev cc7_stg1_0 : Ref sig .tc := ⟨.vmem, 48, rfl⟩
abbrev cc7_stg2_0 : Ref sig .tc := ⟨.vmem, 49, rfl⟩
abbrev cc7_stg3_0 : Ref sig .tc := ⟨.vmem, 50, rfl⟩
abbrev cc7_scratch0 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc3_sem0_0 : DmaSem sig := 18
abbrev cc3_sem1_0 : DmaSem sig := 19
abbrev cc3_sem2_0 : DmaSem sig := 20
abbrev cc3_sem3_0 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem3_0 : DmaSem sig := 26
abbrev cc4_sem3_1 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem3_0 : DmaSem sig := 32
abbrev cc5_sem3_1 : DmaSem sig := 33
abbrev cc6_sem0_0 : DmaSem sig := 34
abbrev cc6_sem0_1 : DmaSem sig := 35
abbrev cc6_sem1_0 : DmaSem sig := 36
abbrev cc6_sem1_1 : DmaSem sig := 37
abbrev cc6_sem2_0 : DmaSem sig := 38
abbrev cc6_sem3_0 : DmaSem sig := 39
abbrev cc7_sem0_0 : DmaSem sig := 40
abbrev cc7_sem1_0 : DmaSem sig := 41
abbrev cc7_sem2_0 : DmaSem sig := 42
abbrev cc7_sem3_0 : DmaSem sig := 43

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1280x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1280x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![80, 1], ![false, false]⟩

def k1_cond2 (i : grid1.Coords) : BitVec 1 :=
  let arg1 : BitVec 32 := BitVec.ofNat 32 (i 1).val
  let c0_i32_8 : BitVec 32 := 0#32
  let v14 : BitVec 1 := Scalar.cmpi .eq arg1 c0_i32_8
  let v15 : BitVec 32 := Scalar.extui v14
  let c0_i32_9 : BitVec 32 := 0#32
  let v16 : BitVec 1 := Scalar.cmpi .ne v15 c0_i32_9
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S128x10240 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S10240x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S128x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![1, 4], ![false, false]⟩

def k2_cond2 (i : grid2.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S64x2560 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2560x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S64x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true, false]

abbrev grid3 : Pipeline.Grid := ⟨2, ![1, 1], ![false, false]⟩

def k3_cond2 (i : grid3.Coords) : BitVec 1 :=
  let arg1 : BitVec 32 := BitVec.ofNat 32 (i 1).val
  let c0_i32_8 : BitVec 32 := 0#32
  let v14 : BitVec 1 := Scalar.cmpi .eq arg1 c0_i32_8
  let v15 : BitVec 32 := Scalar.extui v14
  let c0_i32_9 : BitVec 32 := 0#32
  let v16 : BitVec 1 := Scalar.cmpi .ne v15 c0_i32_9
  v16

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 1 → Memref sig .tc .vmem S64x1024 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, true]

abbrev stage3_1 : Fin 1 → Memref sig .tc .vmem S1024x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S64x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true, false]

abbrev grid4 : Pipeline.Grid := ⟨2, ![8, 1], ![false, false]⟩

def k4_cond2 (i : grid4.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1280x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 1 → Memref sig .tc .vmem S1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 1 → Memref sig .tc .vmem S1x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 2 → Memref sig .tc .vmem S1280x1024 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨2, ![80, 1], ![false, false]⟩

def k5_cond2 (i : grid5.Coords) : BitVec 1 :=
  let arg1 : BitVec 32 := BitVec.ofNat 32 (i 1).val
  let c0_i32_8 : BitVec 32 := 0#32
  let v14 : BitVec 1 := Scalar.cmpi .eq arg1 c0_i32_8
  let v15 : BitVec 32 := Scalar.extui v14
  let c0_i32_9 : BitVec 32 := 0#32
  let v16 : BitVec 1 := Scalar.cmpi .ne v15 c0_i32_9
  v16

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S128x10240 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 1 → Memref sig .tc .vmem S10240x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true]

abbrev stage5_2 : Fin 1 → Memref sig .tc .vmem S1x1024 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 2 → Memref sig .tc .vmem S128x1024 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

abbrev grid6 : Pipeline.Grid := ⟨2, ![1, 4], ![false, false]⟩

def k6_cond2 (i : grid6.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage6_0 : Fin 2 → Memref sig .tc .vmem S64x2560 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S2560x1024 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 1 → Memref sig .tc .vmem S1x1024 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false, false]

abbrev stage6_3 : Fin 1 → Memref sig .tc .vmem S64x1024 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![true, false]

abbrev grid7 : Pipeline.Grid := ⟨2, ![1, 1], ![false, false]⟩

def k7_cond2 (i : grid7.Coords) : BitVec 1 :=
  let arg1 : BitVec 32 := BitVec.ofNat 32 (i 1).val
  let c0_i32_8 : BitVec 32 := 0#32
  let v14 : BitVec 1 := Scalar.cmpi .eq arg1 c0_i32_8
  let v15 : BitVec 32 := Scalar.extui v14
  let c0_i32_9 : BitVec 32 := 0#32
  let v16 : BitVec 1 := Scalar.cmpi .ne v15 c0_i32_9
  v16

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 1 → Memref sig .tc .vmem S64x1024 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true, true]

abbrev stage7_1 : Fin 1 → Memref sig .tc .vmem S1024x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, true]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false, false]

abbrev stage7_3 : Fin 1 → Memref sig .tc .vmem S64x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![true, false]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S10000 : S_.BroadcastsInDim S10000 (![] : Fin 0 → Fin S10000.rank)
  bcast_S_S160000 : S_.BroadcastsInDim S160000 (![] : Fin 0 → Fin S160000.rank)
  bcast_S160000_S160000x1_0 : S160000.BroadcastsInDim S160000x1 (![0] : Fin 1 → Fin S160000x1.rank)
  concatenates_S160000_S10000_S170000_d0 : Shape.Concatenates [S160000, S10000] S170000 0
  bcast_S_S10240x10240 : S_.BroadcastsInDim S10240x10240 (![] : Fin 0 → Fin S10240x10240.rank)
  bcast_S_S170000 : S_.BroadcastsInDim S170000 (![] : Fin 0 → Fin S170000.rank)
  bcast_S170000_S170000x1_0 : S170000.BroadcastsInDim S170000x1 (![0] : Fin 1 → Fin S170000x1.rank)
  concatenates_S170000x1_S170000x1_S170000x2_d1 : Shape.Concatenates [S170000x1, S170000x1] S170000x2 1
  pads_S10000x1024_S10240x1024_02400_000 : S10000x1024.Pads (![0, 0] : Fin 2 → Nat) ![240, 0] ![0, 0] S10240x1024
  h_S_ : 0 < S_.numel
  bitsLt_bf16_f32 : FTy.bits .bf16 < FTy.bits .f32
  bcast_S_S1x1024 : S_.BroadcastsInDim S1x1024 (![] : Fin 0 → Fin S1x1024.rank)
  inb_S1280x1024_S1280x1024_0_0 : ∀ a, (![0, 0] : Fin 2 → Nat) a + S1280x1024.size a ≤ S1280x1024.size a
  h_S1280x1024 : 0 < S1280x1024.numel
  shapeCasts_S1280x1024_S1280x1024 : S1280x1024.ShapeCasts S1280x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1280x1024_S1280x1024_0_0 : (Rect.unit (s := S1280x1024) ![0, 0] S1280x1024.size inb_S1280x1024_S1280x1024_0_0).PackedRows (EltTy.packing .bf16)
  shapeCasts_S1024_S1x1024 : S1024.ShapeCasts S1x1024
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S128x10240_S128x10240_0_0 : ∀ a, (![0, 0] : Fin 2 → Nat) a + S128x10240.size a ≤ S128x10240.size a
  h_S128x10240 : 0 < S128x10240.numel
  shapeCasts_S128x10240_S128x10240 : S128x10240.ShapeCasts S128x10240
  inb_S10240x1024_S10240x1024_0_0 : ∀ a, (![0, 0] : Fin 2 → Nat) a + S10240x1024.size a ≤ S10240x1024.size a
  h_S10240x1024 : 0 < S10240x1024.numel
  shapeCasts_S10240x1024_S10240x1024 : S10240x1024.ShapeCasts S10240x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  packedbf16_S128x1024_S128x1024_0_0 : (Rect.unit (s := S128x1024) ![0, 0] S128x1024.size inb_S128x1024_S128x1024_0_0).PackedRows (EltTy.packing .bf16)
  pads_S10000_S10240_02400 : S10000.Pads (![0] : Fin 1 → Nat) ![240] ![0] S10240
  bcast_S10240_S1x10240_1 : S10240.BroadcastsInDim S1x10240 (![1] : Fin 1 → Fin S1x10240.rank)
  bcast_S64_S64x1_0 : S64.BroadcastsInDim S64x1 (![0] : Fin 1 → Fin S64x1.rank)
  bcast_S1x10240_S64x10240_0_1 : S1x10240.BroadcastsInDim S64x10240 (![0, 1] : Fin 2 → Fin S64x10240.rank)
  bcast_S64x1_S64x10240_0_1 : S64x1.BroadcastsInDim S64x10240 (![0, 1] : Fin 2 → Fin S64x10240.rank)
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S64x2560_S64x2560_0_0 : ∀ a, (![0, 0] : Fin 2 → Nat) a + S64x2560.size a ≤ S64x2560.size a
  h_S64x2560 : 0 < S64x2560.numel
  shapeCasts_S64x2560_S64x2560 : S64x2560.ShapeCasts S64x2560
  inb_S2560x1024_S2560x1024_0_0 : ∀ a, (![0, 0] : Fin 2 → Nat) a + S2560x1024.size a ≤ S2560x1024.size a
  h_S2560x1024 : 0 < S2560x1024.numel
  shapeCasts_S2560x1024_S2560x1024 : S2560x1024.ShapeCasts S2560x1024
  reducesTo_S64x10240_S64_d1 : S64x10240.ReducesTo [1] S64
  bcast_S_S64 : S_.BroadcastsInDim S64 (![] : Fin 0 → Fin S64.rank)
  bcast_S64x1_S64x1024_0_1 : S64x1.BroadcastsInDim S64x1024 (![0, 1] : Fin 2 → Fin S64x1024.rank)
  shapeCasts_S128_S1x128 : S128.ShapeCasts S1x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1024x128_S1024x128_0_0 : ∀ a, (![0, 0] : Fin 2 → Nat) a + S1024x128.size a ≤ S1024x128.size a
  h_S1024x128 : 0 < S1024x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S64x128 : S1x128.Broadcasts S64x128
  concatenates_S64x128_S64x128_S64x256_d1 : Shape.Concatenates [S64x128, S64x128] S64x256 1
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  scatter_S10000_S160000x1_S160000_n_0_0_1_wf : ScatterDims.WF S10000 S160000x1 S160000 [] [0] [0] 1
  gather_S10000_S160000x1_S160000_n_0_n_n_0_1_1_wf : GatherDims.WF S10000 S160000x1 S160000 [] [0] [] [0] [] 1 ![1]
  scatter_S10240x10240_S170000x2_S170000_n_01_01_1_wf : ScatterDims.WF S10240x10240 S170000x2 S170000 [] [0, 1] [0, 1] 1
  dot_S1280x1024_S1024x1024_S1280x1024_1_0_0_1_n_n_wf : DotDims.WF S1280x1024 S1024x1024 S1280x1024 [1] [0] [0] [1] [] []
  dot_S128x10240_S10240x1024_S128x1024_1_0_0_1_n_n_wf : DotDims.WF S128x10240 S10240x1024 S128x1024 [1] [0] [0] [1] [] []
  dot_S64x2560_S2560x1024_S64x1024_1_0_0_1_n_n_wf : DotDims.WF S64x2560 S2560x1024 S64x1024 [1] [0] [0] [1] [] []
  dot_S64x1024_S1024x128_S64x128_1_0_0_1_n_n_wf : DotDims.WF S64x1024 S1024x128 S64x128 [1] [0] [0] [1] [] []
  dot_S64x256_S256x1_S64x1_1_0_0_1_n_n_wf : DotDims.WF S64x256 S256x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1280x1024.size a ≤ S10240x1024.size a
  hwx0_0 : ∀ i : grid0.Coords, EltTy.bits .bf16 = 32 ∨ (Rect.block (s := S10240x1024) S1280x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1280x1024.size a ≤ S10240x1024.size a
  hwx0_3 : ∀ i : grid0.Coords, EltTy.bits .bf16 = 32 ∨ (Rect.block (s := S10240x1024) S1280x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x10240.size a ≤ S10240x10240.size a
  hwx1_0 : ∀ i : grid1.Coords, EltTy.bits .f32 = 32 ∨ (Rect.block (s := S10240x10240) S128x10240.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10240x1024.size a ≤ S10240x1024.size a
  hwx1_1 : ∀ i : grid1.Coords, EltTy.bits .bf16 = 32 ∨ (Rect.block (s := S10240x1024) S10240x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x1024.size a ≤ S10240x1024.size a
  hwx1_3 : ∀ i : grid1.Coords, EltTy.bits .bf16 = 32 ∨ (Rect.block (s := S10240x1024) S128x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S64x2560.size a ≤ S64x10240.size a
  hwx2_0 : ∀ i : grid2.Coords, EltTy.bits .bf16 = 32 ∨ (Rect.block (s := S64x10240) S64x2560.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2560x1024.size a ≤ S10240x1024.size a
  hwx2_1 : ∀ i : grid2.Coords, EltTy.bits .bf16 = 32 ∨ (Rect.block (s := S10240x1024) S2560x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 1
  hreads2_3 : ∀ i i' : grid2.Coords, (∀ a, reads2_3 a = true → i a = i' a) → cc2_transform_3 i = cc2_transform_3 i'
  hinb2_3 : ∀ (i : grid2.Coords) a, (cc2_transform_3 i a + 1) * S64x1024.size a ≤ S64x1024.size a
  hwx2_3 : ∀ i : grid2.Coords, EltTy.bits .f32 = 32 ∨ (Rect.block (s := S64x1024) S64x1024.size (cc2_transform_3 i) (hinb2_3 i)).WholeWords (EltTy.packing .f32)
  hrank3 : 0 < grid3.rank
  hstage3_0 : ∀ j, (stage3_0 j).IsWhole
  nbuf3_0 : grid3.bufCount reads3_0 false = 1
  hreads3_0 : ∀ i i' : grid3.Coords, (∀ a, reads3_0 a = true → i a = i' a) → cc3_transform_0 i = cc3_transform_0 i'
  hinb3_0 : ∀ (i : grid3.Coords) a, (cc3_transform_0 i a + 1) * S64x1024.size a ≤ S64x1024.size a
  hwx3_0 : ∀ i : grid3.Coords, EltTy.bits .f32 = 32 ∨ (Rect.block (s := S64x1024) S64x1024.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1024x128.size a ≤ S1024x128.size a
  hwx3_1 : ∀ i : grid3.Coords, EltTy.bits .f32 = 32 ∨ (Rect.block (s := S1024x128) S1024x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 1
  hreads3_3 : ∀ i i' : grid3.Coords, (∀ a, reads3_3 a = true → i a = i' a) → cc3_transform_3 i = cc3_transform_3 i'
  hinb3_3 : ∀ (i : grid3.Coords) a, (cc3_transform_3 i a + 1) * S64x128.size a ≤ S64x128.size a
  hwx3_3 : ∀ i : grid3.Coords, EltTy.bits .f32 = 32 ∨ (Rect.block (s := S64x128) S64x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1280x1024.size a ≤ S10240x1024.size a
  hwx4_0 : ∀ i : grid4.Coords, EltTy.bits .bf16 = 32 ∨ (Rect.block (s := S10240x1024) S1280x1024.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x1024.size a
  hwx4_1 : ∀ i : grid4.Coords, EltTy.bits .bf16 = 32 ∨ (Rect.block (s := S1024x1024) S1024x1024.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1024.size a ≤ S1x1024.size a
  hwx4_2 : ∀ i : grid4.Coords, EltTy.bits .f32 = 32 ∨ (Rect.block (s := S1x1024) S1x1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1280x1024.size a ≤ S10240x1024.size a
  hwx4_3 : ∀ i : grid4.Coords, EltTy.bits .bf16 = 32 ∨ (Rect.block (s := S10240x1024) S1280x1024.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S128x10240.size a ≤ S10240x10240.size a
  hwx5_0 : ∀ i : grid5.Coords, EltTy.bits .f32 = 32 ∨ (Rect.block (s := S10240x10240) S128x10240.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S10240x1024.size a ≤ S10240x1024.size a
  hwx5_1 : ∀ i : grid5.Coords, EltTy.bits .bf16 = 32 ∨ (Rect.block (s := S10240x1024) S10240x1024.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x1024.size a ≤ S1x1024.size a
  hwx5_2 : ∀ i : grid5.Coords, EltTy.bits .f32 = 32 ∨ (Rect.block (s := S1x1024) S1x1024.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S128x1024.size a ≤ S10240x1024.size a
  hwx5_3 : ∀ i : grid5.Coords, EltTy.bits .bf16 = 32 ∨ (Rect.block (s := S10240x1024) S128x1024.size (cc5_transform_3 i) (hinb5_3 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S64x2560.size a ≤ S64x10240.size a
  hwx6_0 : ∀ i : grid6.Coords, EltTy.bits .bf16 = 32 ∨ (Rect.block (s := S64x10240) S64x2560.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2560x1024.size a ≤ S10240x1024.size a
  hwx6_1 : ∀ i : grid6.Coords, EltTy.bits .bf16 = 32 ∨ (Rect.block (s := S10240x1024) S2560x1024.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x1024.size a ≤ S1x1024.size a
  hwx6_2 : ∀ i : grid6.Coords, EltTy.bits .f32 = 32 ∨ (Rect.block (s := S1x1024) S1x1024.size (cc6_transform_2 i) (hinb6_2 i)).WholeWords (EltTy.packing .f32)
  hstage6_3 : ∀ j, (stage6_3 j).IsWhole
  nbuf6_3 : grid6.bufCount reads6_3 false = 1
  hreads6_3 : ∀ i i' : grid6.Coords, (∀ a, reads6_3 a = true → i a = i' a) → cc6_transform_3 i = cc6_transform_3 i'
  hinb6_3 : ∀ (i : grid6.Coords) a, (cc6_transform_3 i a + 1) * S64x1024.size a ≤ S64x1024.size a
  hwx6_3 : ∀ i : grid6.Coords, EltTy.bits .f32 = 32 ∨ (Rect.block (s := S64x1024) S64x1024.size (cc6_transform_3 i) (hinb6_3 i)).WholeWords (EltTy.packing .f32)
  hrank7 : 0 < grid7.rank
  hstage7_0 : ∀ j, (stage7_0 j).IsWhole
  nbuf7_0 : grid7.bufCount reads7_0 false = 1
  hreads7_0 : ∀ i i' : grid7.Coords, (∀ a, reads7_0 a = true → i a = i' a) → cc7_transform_0 i = cc7_transform_0 i'
  hinb7_0 : ∀ (i : grid7.Coords) a, (cc7_transform_0 i a + 1) * S64x1024.size a ≤ S64x1024.size a
  hwx7_0 : ∀ i : grid7.Coords, EltTy.bits .f32 = 32 ∨ (Rect.block (s := S64x1024) S64x1024.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1024x128.size a ≤ S1024x128.size a
  hwx7_1 : ∀ i : grid7.Coords, EltTy.bits .f32 = 32 ∨ (Rect.block (s := S1024x128) S1024x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 1
  hreads7_3 : ∀ i i' : grid7.Coords, (∀ a, reads7_3 a = true → i a = i' a) → cc7_transform_3 i = cc7_transform_3 i'
  hinb7_3 : ∀ (i : grid7.Coords) a, (cc7_transform_3 i a + 1) * S64x128.size a ≤ S64x128.size a
  hwx7_3 : ∀ i : grid7.Coords, EltTy.bits .f32 = 32 ∨ (Rect.block (s := S64x128) S64x128.size (cc7_transform_3 i) (hinb7_3 i)).WholeWords (EltTy.packing .f32)

variable [Facts₀]

def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def gather_S10000_S160000x1_S160000_n_0_n_n_0_1_1 : GatherDims S10000 S160000x1 S160000 where
  offsetDims := []
  collapsedSliceDims := [0]
  operandBatchingDims := []
  startIndicesBatchingDims := []
  startIndexMap := [0]
  indexVectorDim := 1
  sliceSizes := ![1]
  wf := gather_S10000_S160000x1_S160000_n_0_n_n_0_1_1_wf
def scatter_S10240x10240_S170000x2_S170000_n_01_01_1 : ScatterDims S10240x10240 S170000x2 S170000 where
  updateWindowDims := []
  insertedWindowDims := [0, 1]
  scatterDimsToOperandDims := [0, 1]
  indexVectorDim := 1
  wf := scatter_S10240x10240_S170000x2_S170000_n_01_01_1_wf
def dot_S1280x1024_S1024x1024_S1280x1024_1_0_0_1_n_n : DotDims S1280x1024 S1024x1024 S1280x1024 where
  lhsContracting := [1]
  rhsContracting := [0]
  lhsNonContracting := [0]
  rhsNonContracting := [1]
  lhsBatch := []
  rhsBatch := []
  wf := dot_S1280x1024_S1024x1024_S1280x1024_1_0_0_1_n_n_wf
def dot_S128x10240_S10240x1024_S128x1024_1_0_0_1_n_n : DotDims S128x10240 S10240x1024 S128x1024 where
  lhsContracting := [1]
  rhsContracting := [0]
  lhsNonContracting := [0]
  rhsNonContracting := [1]
  lhsBatch := []
  rhsBatch := []
  wf := dot_S128x10240_S10240x1024_S128x1024_1_0_0_1_n_n_wf
def dot_S64x2560_S2560x1024_S64x1024_1_0_0_1_n_n : DotDims S64x2560 S2560x1024 S64x1024 where
  lhsContracting := [1]
  rhsContracting := [0]
  lhsNonContracting := [0]
  rhsNonContracting := [1]
  lhsBatch := []
  rhsBatch := []
  wf := dot_S64x2560_S2560x1024_S64x1024_1_0_0_1_n_n_wf
def dot_S64x1024_S1024x128_S64x128_1_0_0_1_n_n : DotDims S64x1024 S1024x128 S64x128 where
  lhsContracting := [1]
  rhsContracting := [0]
  lhsNonContracting := [0]
  rhsNonContracting := [1]
  lhsBatch := []
  rhsBatch := []
  wf := dot_S64x1024_S1024x128_S64x128_1_0_0_1_n_n_wf
def dot_S64x256_S256x1_S64x1_1_0_0_1_n_n : DotDims S64x256 S256x1 S64x1 where
  lhsContracting := [1]
  rhsContracting := [0]
  lhsNonContracting := [0]
  rhsNonContracting := [1]
  lhsBatch := []
  rhsBatch := []
  wf := dot_S64x256_S256x1_S64x1_1_0_0_1_n_n_wf

abbrev win0_0 : Pipeline.Window sig grid0 :=
  Pipeline.Window.ofSpec (Memref.whole main_v52) S1280x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v53) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v54) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v55) S1280x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v50) S128x10240.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v55) S10240x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v56) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v57) S128x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v65) S64x2560.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S2560x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v66) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v67) S64x1024.size cc2_transform_3 reads2_3 true false 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v74) S64x1024.size cc3_transform_0 reads3_0 false false 1 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S1024x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v75) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v76) S64x128.size cc3_transform_3 reads3_3 true false 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v129) S1280x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v130) S1024x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v131) S1x1024.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v132) S1280x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v127) S128x10240.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v132) S10240x1024.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v133) S1x1024.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v134) S128x1024.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

abbrev win6_0 : Pipeline.Window sig grid6 :=
  Pipeline.Window.ofSpec (Memref.whole main_v142) S64x2560.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v134) S2560x1024.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v143) S1x1024.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v144) S64x1024.size cc6_transform_3 reads6_3 true false 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev idle6 : Fin 4 → grid6.Coords → Bool := fun | 0 => fun _ => false | 1 => fun _ => false | 2 => fun _ => false | 3 => fun i => !(k6_cond2 i == 1#1) | ⟨_ + 4, h⟩ => absurd h (Nat.not_lt.2 (Nat.le_add_left _ _))

abbrev win7_0 : Pipeline.Window sig grid7 :=
  Pipeline.Window.ofSpec (Memref.whole main_v151) S64x1024.size cc7_transform_0 reads7_0 false false 1 stage7_0 sem7_0
    hrank7 hreads7_0 hinb7_0 nbuf7_0 (Memref.isWhole_whole _) hwx7_0 hstage7_0

abbrev win7_1 : Pipeline.Window sig grid7 :=
  Pipeline.Window.ofSpec (Memref.whole main_arg12) S1024x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v152) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v153) S64x128.size cc7_transform_3 reads7_3 true false 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev idle7 : Fin 4 → grid7.Coords → Bool := fun | 0 => fun _ => false | 1 => fun _ => false | 2 => fun _ => false | 3 => fun i => !(k7_cond2 i == 1#1) | ⟨_ + 4, h⟩ => absurd h (Nat.not_lt.2 (Nat.le_add_left _ _))

class Facts : Prop extends Facts₀ where

variable [Facts]
-- ==== ReferenceIdeal.lean ====
abbrev S10000x1024 : Shape := ⟨2, ![10000, 1024]⟩
abbrev S2x160000 : Shape := ⟨2, ![2, 160000]⟩
abbrev S10000 : Shape := ⟨1, ![10000]⟩
abbrev S1024x1024 : Shape := ⟨2, ![1024, 1024]⟩
abbrev S1024 : Shape := ⟨1, ![1024]⟩
abbrev S1024x128 : Shape := ⟨2, ![1024, 128]⟩
abbrev S128 : Shape := ⟨1, ![128]⟩
abbrev S256x1 : Shape := ⟨2, ![256, 1]⟩
abbrev S1 : Shape := ⟨1, ![1]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x1024 : Shape := ⟨2, ![160000, 1024]⟩
abbrev S10000x1 : Shape := ⟨2, ![10000, 1]⟩
abbrev S1x1024 : Shape := ⟨2, ![1, 1024]⟩
abbrev S64x1024 : Shape := ⟨2, ![64, 1024]⟩
abbrev S64 : Shape := ⟨1, ![64]⟩
abbrev S64x1 : Shape := ⟨2, ![64, 1]⟩
abbrev S64x128 : Shape := ⟨2, ![64, 128]⟩
abbrev S1x128 : Shape := ⟨2, ![1, 128]⟩
abbrev S64x256 : Shape := ⟨2, ![64, 256]⟩
abbrev S1x1 : Shape := ⟨2, ![1, 1]⟩

abbrev nBuf : Space → Nat
  | .hbm => 223
  | .vmem => 0
  | .smem => 0
  | _ => 0

abbrev hbmTy0_0 (i : Nat) : BufTy := match i % 128 with
  | 0 => ⟨S10000x1024, .f32⟩
  | 1 => ⟨S2x160000, .i32⟩
  | 2 => ⟨S10000, .i32⟩
  | 3 => ⟨S10000x1024, .f32⟩
  | 4 => ⟨S2x160000, .i32⟩
  | 5 => ⟨S10000, .i32⟩
  | 6 => ⟨S1024x1024, .f32⟩
  | 7 => ⟨S1024, .f32⟩
  | 8 => ⟨S1024x128, .f32⟩
  | 9 => ⟨S128, .f32⟩
  | 10 => ⟨S1024x1024, .f32⟩
  | 11 => ⟨S1024, .f32⟩
  | 12 => ⟨S1024x128, .f32⟩
  | 13 => ⟨S128, .f32⟩
  | 14 => ⟨S256x1, .f32⟩
  | 15 => ⟨S1, .f32⟩
  | 16 => ⟨S1x160000, .i32⟩
  | 17 => ⟨S160000, .i32⟩
  | 18 => ⟨S1x160000, .i32⟩
  | 19 => ⟨S160000, .i32⟩
  | 20 => ⟨S10000x1024, .f32⟩
  | 21 => ⟨S_, .f32⟩
  | 22 => ⟨S10000, .f32⟩
  | 23 => ⟨S_, .i32⟩
  | 24 => ⟨S160000, .i32⟩
  | 25 => ⟨S160000, .i1⟩
  | 26 => ⟨S_, .i32⟩
  | 27 => ⟨S160000, .i32⟩
  | 28 => ⟨S160000, .i32⟩
  | 29 => ⟨S160000, .i32⟩
  | 30 => ⟨S160000x1, .i32⟩
  | 31 => ⟨S_, .f32⟩
  | 32 => ⟨S160000, .f32⟩
  | 33 => ⟨S10000, .f32⟩
  | 34 => ⟨S_, .f32⟩
  | 35 => ⟨S10000, .f32⟩
  | 36 => ⟨S10000, .f32⟩
  | 37 => ⟨S10000, .f32⟩
  | 38 => ⟨S_, .i32⟩
  | 39 => ⟨S160000, .i32⟩
  | 40 => ⟨S160000, .i1⟩
  | 41 => ⟨S_, .i32⟩
  | 42 => ⟨S160000, .i32⟩
  | 43 => ⟨S160000, .i32⟩
  | 44 => ⟨S160000, .i32⟩
  | 45 => ⟨S160000x1, .i32⟩
  | 46 => ⟨S160000, .f32⟩
  | 47 => ⟨S_, .i32⟩
  | 48 => ⟨S160000, .i32⟩
  | 49 => ⟨S160000, .i1⟩
  | 50 => ⟨S_, .i32⟩
  | 51 => ⟨S160000, .i32⟩
  | 52 => ⟨S160000, .i32⟩
  | 53 => ⟨S160000, .i32⟩
  | 54 => ⟨S160000x1, .i32⟩
  | 55 => ⟨S160000, .f32⟩
  | 56 => ⟨S160000, .f32⟩
  | 57 => ⟨S_, .i32⟩
  | 58 => ⟨S160000, .i32⟩
  | 59 => ⟨S160000, .i1⟩
  | 60 => ⟨S_, .i32⟩
  | 61 => ⟨S160000, .i32⟩
  | 62 => ⟨S160000, .i32⟩
  | 63 => ⟨S160000, .i32⟩
  | 64 => ⟨S160000x1, .i32⟩
  | 65 => ⟨S160000x1024, .f32⟩
  | 66 => ⟨S160000x1, .f32⟩
  | 67 => ⟨S160000x1024, .f32⟩
  | 68 => ⟨S160000x1024, .f32⟩
  | 69 => ⟨S_, .f32⟩
  | 70 => ⟨S10000x1024, .f32⟩
  | 71 => ⟨S160000x1, .i32⟩
  | 72 => ⟨S10000x1024, .f32⟩
  | 73 => ⟨S_, .f32⟩
  | 74 => ⟨S10000, .f32⟩
  | 75 => ⟨S10000, .f32⟩
  | 76 => ⟨S10000x1, .f32⟩
  | 77 => ⟨S10000x1024, .f32⟩
  | 78 => ⟨S10000x1024, .f32⟩
  | 79 => ⟨S10000x1024, .f32⟩
  | 80 => ⟨S1x1024, .f32⟩
  | 81 => ⟨S10000x1024, .f32⟩
  | 82 => ⟨S10000x1024, .f32⟩
  | 83 => ⟨S_, .f32⟩
  | 84 => ⟨S10000x1024, .f32⟩
  | 85 => ⟨S10000x1024, .i1⟩
  | 86 => ⟨S_, .f32⟩
  | 87 => ⟨S10000x1024, .f32⟩
  | 88 => ⟨S10000x1024, .f32⟩
  | 89 => ⟨S10000x1024, .f32⟩
  | 90 => ⟨S_, .f32⟩
  | 91 => ⟨S64x1024, .f32⟩
  | 92 => ⟨S10000x1, .i32⟩
  | 93 => ⟨S64x1024, .f32⟩
  | 94 => ⟨S_, .f32⟩
  | 95 => ⟨S10000, .f32⟩
  | 96 => ⟨S_, .f32⟩
  | 97 => ⟨S64, .f32⟩
  | 98 => ⟨S10000x1, .i32⟩
  | 99 => ⟨S64, .f32⟩
  | 100 => ⟨S_, .f32⟩
  | 101 => ⟨S64, .f32⟩
  | 102 => ⟨S64, .f32⟩
  | 103 => ⟨S64x1, .f32⟩
  | 104 => ⟨S64x1024, .f32⟩
  | 105 => ⟨S64x1024, .f32⟩
  | 106 => ⟨S64x128, .f32⟩
  | 107 => ⟨S1x128, .f32⟩
  | 108 => ⟨S64x128, .f32⟩
  | 109 => ⟨S64x128, .f32⟩
  | 110 => ⟨S_, .f32⟩
  | 111 => ⟨S64x128, .f32⟩
  | 112 => ⟨S64x128, .i1⟩
  | 113 => ⟨S_, .f32⟩
  | 114 => ⟨S64x128, .f32⟩
  | 115 => ⟨S64x128, .f32⟩
  | 116 => ⟨S64x128, .f32⟩
  | 117 => ⟨S1x160000, .i32⟩
  | 118 => ⟨S160000, .i32⟩
  | 119 => ⟨S1x160000, .i32⟩
  | 120 => ⟨S160000, .i32⟩
  | 121 => ⟨S10000x1024, .f32⟩
  | 122 => ⟨S_, .f32⟩
  | 123 => ⟨S10000, .f32⟩
  | 124 => ⟨S_, .i32⟩
  | 125 => ⟨S160000, .i32⟩
  | 126 => ⟨S160000, .i1⟩
  | 127 => ⟨S_, .i32⟩
  | _ => ⟨S10000x1024, .f32⟩

abbrev hbmTy0_1 (i : Nat) : BufTy := match i % 128 with
  | 0 => ⟨S160000, .i32⟩
  | 1 => ⟨S160000, .i32⟩
  | 2 => ⟨S160000, .i32⟩
  | 3 => ⟨S160000x1, .i32⟩
  | 4 => ⟨S_, .f32⟩
  | 5 => ⟨S160000, .f32⟩
  | 6 => ⟨S10000, .f32⟩
  | 7 => ⟨S_, .f32⟩
  | 8 => ⟨S10000, .f32⟩
  | 9 => ⟨S10000, .f32⟩
  | 10 => ⟨S10000, .f32⟩
  | 11 => ⟨S_, .i32⟩
  | 12 => ⟨S160000, .i32⟩
  | 13 => ⟨S160000, .i1⟩
  | 14 => ⟨S_, .i32⟩
  | 15 => ⟨S160000, .i32⟩
  | 16 => ⟨S160000, .i32⟩
  | 17 => ⟨S160000, .i32⟩
  | 18 => ⟨S160000x1, .i32⟩
  | 19 => ⟨S160000, .f32⟩
  | 20 => ⟨S_, .i32⟩
  | 21 => ⟨S160000, .i32⟩
  | 22 => ⟨S160000, .i1⟩
  | 23 => ⟨S_, .i32⟩
  | 24 => ⟨S160000, .i32⟩
  | 25 => ⟨S160000, .i32⟩
  | 26 => ⟨S160000, .i32⟩
  | 27 => ⟨S160000x1, .i32⟩
  | 28 => ⟨S160000, .f32⟩
  | 29 => ⟨S160000, .f32⟩
  | 30 => ⟨S_, .i32⟩
  | 31 => ⟨S160000, .i32⟩
  | 32 => ⟨S160000, .i1⟩
  | 33 => ⟨S_, .i32⟩
  | 34 => ⟨S160000, .i32⟩
  | 35 => ⟨S160000, .i32⟩
  | 36 => ⟨S160000, .i32⟩
  | 37 => ⟨S160000x1, .i32⟩
  | 38 => ⟨S160000x1024, .f32⟩
  | 39 => ⟨S160000x1, .f32⟩
  | 40 => ⟨S160000x1024, .f32⟩
  | 41 => ⟨S160000x1024, .f32⟩
  | 42 => ⟨S_, .f32⟩
  | 43 => ⟨S10000x1024, .f32⟩
  | 44 => ⟨S160000x1, .i32⟩
  | 45 => ⟨S10000x1024, .f32⟩
  | 46 => ⟨S_, .f32⟩
  | 47 => ⟨S10000, .f32⟩
  | 48 => ⟨S10000, .f32⟩
  | 49 => ⟨S10000x1, .f32⟩
  | 50 => ⟨S10000x1024, .f32⟩
  | 51 => ⟨S10000x1024, .f32⟩
  | 52 => ⟨S10000x1024, .f32⟩
  | 53 => ⟨S1x1024, .f32⟩
  | 54 => ⟨S10000x1024, .f32⟩
  | 55 => ⟨S10000x1024, .f32⟩
  | 56 => ⟨S_, .f32⟩
  | 57 => ⟨S10000x1024, .f32⟩
  | 58 => ⟨S10000x1024, .i1⟩
  | 59 => ⟨S_, .f32⟩
  | 60 => ⟨S10000x1024, .f32⟩
  | 61 => ⟨S10000x1024, .f32⟩
  | 62 => ⟨S10000x1024, .f32⟩
  | 63 => ⟨S_, .f32⟩
  | 64 => ⟨S64x1024, .f32⟩
  | 65 => ⟨S10000x1, .i32⟩
  | 66 => ⟨S64x1024, .f32⟩
  | 67 => ⟨S_, .f32⟩
  | 68 => ⟨S10000, .f32⟩
  | 69 => ⟨S_, .f32⟩
  | 70 => ⟨S64, .f32⟩
  | 71 => ⟨S10000x1, .i32⟩
  | 72 => ⟨S64, .f32⟩
  | 73 => ⟨S_, .f32⟩
  | 74 => ⟨S64, .f32⟩
  | 75 => ⟨S64, .f32⟩
  | 76 => ⟨S64x1, .f32⟩
  | 77 => ⟨S64x1024, .f32⟩
  | 78 => ⟨S64x1024, .f32⟩
  | 79 => ⟨S64x128, .f32⟩
  | 80 => ⟨S1x128, .f32⟩
  | 81 => ⟨S64x128, .f32⟩
  | 82 => ⟨S64x128, .f32⟩
  | 83 => ⟨S_, .f32⟩
  | 84 => ⟨S64x128, .f32⟩
  | 85 => ⟨S64x128, .i1⟩
  | 86 => ⟨S_, .f32⟩
  | 87 => ⟨S64x128, .f32⟩
  | 88 => ⟨S64x128, .f32⟩
  | 89 => ⟨S64x128, .f32⟩
  | 90 => ⟨S64x256, .f32⟩
  | 91 => ⟨S64x1, .f32⟩
  | 92 => ⟨S1x1, .f32⟩
  | 93 => ⟨S64x1, .f32⟩
  | 94 => ⟨S64x1, .f32⟩
  | _ => ⟨S10000x1024, .f32⟩

abbrev hbmTy (i : Nat) : BufTy := match i / 128 with
  | 0 => hbmTy0_0 i
  | 1 => hbmTy0_1 i
  | _ => ⟨S10000x1024, .f32⟩

abbrev bufTy : (tb : Table) → Fin (tcTables nBuf tb) → BufTy
  | .hbm, ⟨i, _⟩ => hbmTy i
  | _, _ => ⟨S10000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_c : Ref sig .tc := ⟨.hbm, 23, rfl⟩
abbrev main_v6 : Ref sig .tc := ⟨.hbm, 24, rfl⟩
abbrev main_v7 : Ref sig .tc := ⟨.hbm, 25, rfl⟩
abbrev main_c_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_cst_2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_c_4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_c_6 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_7 : Ref sig .tc := ⟨.hbm, 57, rfl⟩
abbrev main_v32 : Ref sig .tc := ⟨.hbm, 58, rfl⟩
abbrev main_v33 : Ref sig .tc := ⟨.hbm, 59, rfl⟩
abbrev main_c_8 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_9 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_10 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_11 : Ref sig .tc := ⟨.hbm, 83, rfl⟩
abbrev main_v54 : Ref sig .tc := ⟨.hbm, 84, rfl⟩
abbrev main_v55 : Ref sig .tc := ⟨.hbm, 85, rfl⟩
abbrev main_cst_12 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_13 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_14 : Ref sig .tc := ⟨.hbm, 94, rfl⟩
abbrev main_v62 : Ref sig .tc := ⟨.hbm, 95, rfl⟩
abbrev main_cst_15 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_16 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_17 : Ref sig .tc := ⟨.hbm, 110, rfl⟩
abbrev main_v75 : Ref sig .tc := ⟨.hbm, 111, rfl⟩
abbrev main_v76 : Ref sig .tc := ⟨.hbm, 112, rfl⟩
abbrev main_cst_18 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_19 : Ref sig .tc := ⟨.hbm, 122, rfl⟩
abbrev main_v85 : Ref sig .tc := ⟨.hbm, 123, rfl⟩
abbrev main_c_20 : Ref sig .tc := ⟨.hbm, 124, rfl⟩
abbrev main_v86 : Ref sig .tc := ⟨.hbm, 125, rfl⟩
abbrev main_v87 : Ref sig .tc := ⟨.hbm, 126, rfl⟩
abbrev main_c_21 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_22 : Ref sig .tc := ⟨.hbm, 132, rfl⟩
abbrev main_v92 : Ref sig .tc := ⟨.hbm, 133, rfl⟩
abbrev main_v93 : Ref sig .tc := ⟨.hbm, 134, rfl⟩
abbrev main_cst_23 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_c_24 : Ref sig .tc := ⟨.hbm, 139, rfl⟩
abbrev main_v97 : Ref sig .tc := ⟨.hbm, 140, rfl⟩
abbrev main_v98 : Ref sig .tc := ⟨.hbm, 141, rfl⟩
abbrev main_c_25 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_c_26 : Ref sig .tc := ⟨.hbm, 148, rfl⟩
abbrev main_v104 : Ref sig .tc := ⟨.hbm, 149, rfl⟩
abbrev main_v105 : Ref sig .tc := ⟨.hbm, 150, rfl⟩
abbrev main_c_27 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_c_28 : Ref sig .tc := ⟨.hbm, 158, rfl⟩
abbrev main_v112 : Ref sig .tc := ⟨.hbm, 159, rfl⟩
abbrev main_v113 : Ref sig .tc := ⟨.hbm, 160, rfl⟩
abbrev main_c_29 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_cst_30 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_cst_31 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_cst_32 : Ref sig .tc := ⟨.hbm, 184, rfl⟩
abbrev main_v134 : Ref sig .tc := ⟨.hbm, 185, rfl⟩
abbrev main_v135 : Ref sig .tc := ⟨.hbm, 186, rfl⟩
abbrev main_cst_33 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_cst_34 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_cst_35 : Ref sig .tc := ⟨.hbm, 195, rfl⟩
abbrev main_v142 : Ref sig .tc := ⟨.hbm, 196, rfl⟩
abbrev main_cst_36 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_cst_37 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_cst_38 : Ref sig .tc := ⟨.hbm, 211, rfl⟩
abbrev main_v155 : Ref sig .tc := ⟨.hbm, 212, rfl⟩
abbrev main_v156 : Ref sig .tc := ⟨.hbm, 213, rfl⟩
abbrev main_cst_39 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S10000 : S_.BroadcastsInDim S10000 (![] : Fin 0 → Fin S10000.rank)
  bcast_S_S160000 : S_.BroadcastsInDim S160000 (![] : Fin 0 → Fin S160000.rank)
  bcast_S160000_S160000x1_0 : S160000.BroadcastsInDim S160000x1 (![0] : Fin 1 → Fin S160000x1.rank)
  bcast_S160000x1_S160000x1024_0_1 : S160000x1.BroadcastsInDim S160000x1024 (![0, 1] : Fin 2 → Fin S160000x1024.rank)
  bcast_S_S10000x1024 : S_.BroadcastsInDim S10000x1024 (![] : Fin 0 → Fin S10000x1024.rank)
  bcast_S10000_S10000x1_0 : S10000.BroadcastsInDim S10000x1 (![0] : Fin 1 → Fin S10000x1.rank)
  bcast_S10000x1_S10000x1024_0_1 : S10000x1.BroadcastsInDim S10000x1024 (![0, 1] : Fin 2 → Fin S10000x1024.rank)
  bcast_S1024_S1x1024_1 : S1024.BroadcastsInDim S1x1024 (![1] : Fin 1 → Fin S1x1024.rank)
  bcast_S1x1024_S10000x1024_0_1 : S1x1024.BroadcastsInDim S10000x1024 (![0, 1] : Fin 2 → Fin S10000x1024.rank)
  bcast_S_S64x1024 : S_.BroadcastsInDim S64x1024 (![] : Fin 0 → Fin S64x1024.rank)
  bcast_S_S64 : S_.BroadcastsInDim S64 (![] : Fin 0 → Fin S64.rank)
  bcast_S64_S64x1_0 : S64.BroadcastsInDim S64x1 (![0] : Fin 1 → Fin S64x1.rank)
  bcast_S64x1_S64x1024_0_1 : S64x1.BroadcastsInDim S64x1024 (![0, 1] : Fin 2 → Fin S64x1024.rank)
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  bcast_S_S64x128 : S_.BroadcastsInDim S64x128 (![] : Fin 0 → Fin S64x128.rank)
  concatenates_S64x128_S64x128_S64x256_d1 : Shape.Concatenates [S64x128, S64x128] S64x256 1
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  dot_S10000x1024_S1024x1024_S10000x1024_1_0_0_1_n_n_wf : DotDims.WF S10000x1024 S1024x1024 S10000x1024 [1] [0] [0] [1] [] []
  scatter_S10000_S160000x1_S160000_n_0_0_1_wf : ScatterDims.WF S10000 S160000x1 S160000 [] [0] [0] 1
  gather_S10000_S160000x1_S160000_n_0_n_n_0_1_1_wf : GatherDims.WF S10000 S160000x1 S160000 [] [0] [] [0] [] 1 ![1]
  gather_S10000x1024_S160000x1_S160000x1024_1_0_n_n_0_1_11024_wf : GatherDims.WF S10000x1024 S160000x1 S160000x1024 [1] [0] [] [0] [] 1 ![1, 1024]
  scatter_S10000x1024_S160000x1_S160000x1024_1_0_0_1_wf : ScatterDims.WF S10000x1024 S160000x1 S160000x1024 [1] [0] [0] 1
  scatter_S64x1024_S10000x1_S10000x1024_1_0_0_1_wf : ScatterDims.WF S64x1024 S10000x1 S10000x1024 [1] [0] [0] 1
  scatter_S64_S10000x1_S10000_n_0_0_1_wf : ScatterDims.WF S64 S10000x1 S10000 [] [0] [0] 1
  dot_S64x1024_S1024x128_S64x128_1_0_0_1_n_n_wf : DotDims.WF S64x1024 S1024x128 S64x128 [1] [0] [0] [1] [] []
  dot_S64x256_S256x1_S64x1_1_0_0_1_n_n_wf : DotDims.WF S64x256 S256x1 S64x1 [1] [0] [0] [1] [] []

variable [Facts₀]

def dot_S10000x1024_S1024x1024_S10000x1024_1_0_0_1_n_n : DotDims S10000x1024 S1024x1024 S10000x1024 where
  lhsContracting := [1]
  rhsContracting := [0]
  lhsNonContracting := [0]
  rhsNonContracting := [1]
  lhsBatch := []
  rhsBatch := []
  wf := dot_S10000x1024_S1024x1024_S10000x1024_1_0_0_1_n_n_wf
def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def gather_S10000_S160000x1_S160000_n_0_n_n_0_1_1 : GatherDims S10000 S160000x1 S160000 where
  offsetDims := []
  collapsedSliceDims := [0]
  operandBatchingDims := []
  startIndicesBatchingDims := []
  startIndexMap := [0]
  indexVectorDim := 1
  sliceSizes := ![1]
  wf := gather_S10000_S160000x1_S160000_n_0_n_n_0_1_1_wf
def gather_S10000x1024_S160000x1_S160000x1024_1_0_n_n_0_1_11024 : GatherDims S10000x1024 S160000x1 S160000x1024 where
  offsetDims := [1]
  collapsedSliceDims := [0]
  operandBatchingDims := []
  startIndicesBatchingDims := []
  startIndexMap := [0]
  indexVectorDim := 1
  sliceSizes := ![1, 1024]
  wf := gather_S10000x1024_S160000x1_S160000x1024_1_0_n_n_0_1_11024_wf
def scatter_S10000x1024_S160000x1_S160000x1024_1_0_0_1 : ScatterDims S10000x1024 S160000x1 S160000x1024 where
  updateWindowDims := [1]
  insertedWindowDims := [0]
  scatterDimsToOperandDims := [0]
  indexVectorDim := 1
  wf := scatter_S10000x1024_S160000x1_S160000x1024_1_0_0_1_wf
def scatter_S64x1024_S10000x1_S10000x1024_1_0_0_1 : ScatterDims S64x1024 S10000x1 S10000x1024 where
  updateWindowDims := [1]
  insertedWindowDims := [0]
  scatterDimsToOperandDims := [0]
  indexVectorDim := 1
  wf := scatter_S64x1024_S10000x1_S10000x1024_1_0_0_1_wf
def scatter_S64_S10000x1_S10000_n_0_0_1 : ScatterDims S64 S10000x1 S10000 where
  updateWindowDims := []
  insertedWindowDims := [0]
  scatterDimsToOperandDims := [0]
  indexVectorDim := 1
  wf := scatter_S64_S10000x1_S10000_n_0_0_1_wf
def dot_S64x1024_S1024x128_S64x128_1_0_0_1_n_n : DotDims S64x1024 S1024x128 S64x128 where
  lhsContracting := [1]
  rhsContracting := [0]
  lhsNonContracting := [0]
  rhsNonContracting := [1]
  lhsBatch := []
  rhsBatch := []
  wf := dot_S64x1024_S1024x128_S64x128_1_0_0_1_n_n_wf
def dot_S64x256_S256x1_S64x1_1_0_0_1_n_n : DotDims S64x256 S256x1 S64x1 where
  lhsContracting := [1]
  rhsContracting := [0]
  lhsNonContracting := [0]
  rhsNonContracting := [1]
  lhsBatch := []
  rhsBatch := []
  wf := dot_S64x256_S256x1_S64x1_1_0_0_1_n_n_wf

class Facts : Prop extends Facts₀ where

variable [Facts]
-- ==== Proof.KIReg0.lean ====
import proofs.«419261_j25872882991625_3_alg».proof.Proof.Gen.KernelIdeal.Launch
import proofs.«419261_j25872882991625_3_alg».proof.Proof.Gen.KernelIdeal.Skeleton
import proofs.«419261_j25872882991625_3_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (k0_pay2 (iblk0 V c 0 t) (iblk0 V c 1 t) k0_pay1)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay3 (k0_pay2 (iblk0 V c 0 t) (iblk0 V c 1 t) k0_pay1) := by dsimp only [dat0]

theorem coordOne_reg0 (i : grid0.Coords) : (i 1).val = 0 := Nat.lt_one_iff.mp (i 1).isLt

theorem condTwo_reg0 (i : grid0.Coords) : k0_cond2 i = 1#1 := by
  unfold k0_cond2
  rw [coordOne_reg0 i]
  decide

theorem offZero_reg0 : (![0, 0] : Fin 2 → Nat) = fun _ => 0 := by
  funext a; match a with | ⟨0, _⟩ => rfl | ⟨1, _⟩ => rfl

set_option maxHeartbeats 1000000 in

theorem sound_kernel_reg0 (c : Dev nD) (E : Set ℕ) (i : grid0.Coords)
    (arg2 : Memref sig .tc .vmem S1280x1024 .bf16) (harg2 : arg2.IsWhole)
    (arg3 : Memref sig .tc .vmem S1024x1024 .bf16) (harg3 : arg3.IsWhole)
    (arg4 : Memref sig .tc .vmem S1x1024 .f32) (harg4 : arg4.IsWhole)
    (arg5 : Memref sig .tc .vmem S1280x1024 .bf16) (harg5 : arg5.IsWhole)
    (arg6 : Memref sig .tc .vmem S1280x1024 .f32) (harg6 : arg6.IsWhole)
    (x0 : Vec F S1280x1024 .bf16) (x1 : Vec F S1024x1024 .bf16) (x2 : Vec F S1x1024 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2
            ∗ owns (c : Thread nD τ) arg5 fullShare (k0_pay3 (k0_pay2 x0 x1 k0_pay1))
            ∗ (∃ d, owns (c : Thread nD τ) arg6 fullShare d)) -∗ K ⟨⟩))
      ⊢ wp frame (wpE (defs₀ (F := F)) Variants.none c none) E
          (cc0_kernel i arg2 harg2 arg3 harg3 arg4 harg4 arg5 harg5 arg6 harg6) K := by
  simp only [cc0_kernel_eq_skeleton]; unfold cc0_kernel_skel
  simp only [condTwo_reg0 i, coordOne_reg0 i]
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (fun y => ⟨_, List.mem_singleton_self _, View.mem_set_unit_zero offZero_reg0 inb_S1280x1024_S1280x1024_0_0 y⟩),
      View.canon_unit_zero offZero_reg0]
    sl_unfold_run_names
    simp only [View.readCov_cons_toLoadRect, View.readAt_eq_ld, View.ld_unit_zero (S := S1280x1024) offZero_reg0,
      View.ld_unit_zero (S := S1024x1024) offZero_reg0]
  iexists _, _; isplitr
  swap; · iexact H4
  ipureintro; rfl

theorem inv_reg0 (c : Dev nD) (k : Fin (cfg0.N + 1)) : (dat0 V c).Φ k = Pipeline.ΦA spec0 c := by dsimp only [dat0]

theorem owes_reg0 (c : Dev nD) (k k' : Fin (cfg0.N + 1)) : (dat0 V c).owesAt () k = (dat0 V c).owesAt () k' := by
  unfold Dat.owesAt Dat.bound; dsimp only [dat0]

theorem beforeX_reg0 (c : Dev nD) (t : Fin cfg0.N) (d) : (dat0 V c).before 0 t d = iblk0 V c 0 t := by
  rw [(dat0 V c).before_in_eq_fetched 0 rfl (fun _ => rfl) (fun _ _ _ => rfl)
    (fun s => by rw [after0_0]; unfold Dat.blockOf iblk0; rw [A_eq0] <;> rfl) t d]
  unfold Dat.fetched Dat.blockOf iblk0; rw [A_eq0] <;> rfl

theorem beforeW_reg0 (c : Dev nD) (t : Fin cfg0.N) (d) : (dat0 V c).before 1 t d = iblk0 V c 1 t := by
  rw [(dat0 V c).before_in_eq_fetched 1 rfl (fun _ => rfl) (fun _ _ _ => rfl)
    (fun s => by rw [after0_1]; unfold Dat.blockOf iblk0; rw [A_eq0] <;> rfl) t d]
  unfold Dat.fetched Dat.blockOf iblk0; rw [A_eq0] <;> rfl

theorem beforeB_reg0 (c : Dev nD) (t : Fin cfg0.N) (d) : (dat0 V c).before 2 t d = iblk0 V c 2 t := by
  rw [(dat0 V c).before_in_eq_fetched 2 rfl (fun _ => rfl) (fun _ _ _ => rfl)
    (fun s => by rw [after0_2]; unfold Dat.blockOf iblk0; rw [A_eq0] <;> rfl) t d]
  unfold Dat.fetched Dat.blockOf iblk0; rw [A_eq0] <;> rfl

theorem live_reg0 (t : Fin cfg0.N) : cfg0.idle 3 (cfg0.grid.coords t) = false := by
  show (!(k0_cond2 (grid0.coords t) == 1#1)) = false
  rw [condTwo_reg0]; rfl

theorem acc_reg0 (c : Dev nD) :
    (iprop(∃ d, owns (c : Thread nD τ) (Memref.whole cc0_scratch0) fullShare d) : sProp 𝕄)
      = iprop(∃ f : Buf (Elt F) ((c : Thread nD τ).loc cc0_scratch0), ((c : Thread nD τ).loc cc0_scratch0) ↦{fullShare} f) := by
  simp only [owns_whole]

def bodyPre_reg0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost_reg0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 1000000 in

theorem sound_body_reg0 (c : Dev nD) (t : Fin cfg0.N) :
    bodyPre_reg0 V c t ⊢ wp frame (wpE (defs₀ (F := F)) Variants.none c none) Set.univ (bodyAt0 t) (fun _ => bodyPost_reg0 V c t) := by
  unfold bodyPre_reg0 bodyPost_reg0 bodyAt0
  simp only [beforeX_reg0, beforeW_reg0, beforeB_reg0]
  rw [inv_reg0, inv_reg0, owes_reg0 V c t.succ t.castSucc, after0_0, after0_1, after0_2, after0_3]
  unfold Pipeline.ΦA
  rw [scopedRest0_split, ← acc_reg0]
  iintro ⟨⟨⟨Hs, Hr⟩, Hg⟩, Ho, ⟨%d0, H0⟩, ⟨%d1, H1⟩, ⟨%d2, H2⟩, ⟨%d3, H3⟩⟩
  iapply (sound_kernel_reg0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [Hs]; · iexact Hs
  iintro ⟨H0, H1, H2, H3, Hs⟩
  isplitl [Hs Hr Hg]
  · isplitr [Hg]
    · isplitl [Hs]; · iexact Hs
      iexact Hr
    iexact Hg
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0, live_reg0 t]
  exact sound_body_reg0 V c t

theorem hin0 (c : Dev nD) : (Pipeline.ΦA spec0 c : sProp 𝕄) ⊢ (dat0 V c).Φ 0 := by
  rw [inv_reg0]

theorem hout0 (c : Dev nD) : (dat0 V c).Φ (Fin.last cfg0.N) ⊢ (Pipeline.ΦA spec0 c : sProp 𝕄) := by
  rw [inv_reg0]

end Cert.KernelIdeal.Hand

end
-- ==== Proof.KIReg1.lean ====
import proofs.«419261_j25872882991625_3_alg».proof.Proof.Gen.KernelIdeal.Launch
import proofs.«419261_j25872882991625_3_alg».proof.Proof.Gen.KernelIdeal.Skeleton
import proofs.«419261_j25872882991625_3_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem k1_cond2_eq (i : grid1.Coords) : k1_cond2 i = 1#1 := by
  have h : (i 1).val = 0 := Nat.lt_one_iff.mp (i 1).isLt
  unfold k1_cond2; rw [h]; rfl

private theorem zeroOff : (![0, 0] : Fin 2 → Nat) = fun _ => 0 := funext fun a => by fin_cases a <;> rfl

def outBlk1 (x0 : Vec F S128x10240 .f32) (x1 : Vec F S10240x1024 .bf16) (x2 : Vec F S1x1024 .f32) : Vec F S128x1024 .bf16 :=
  k1_pay3 (k1_pay2 x0 x1 (k1_pay1 (F := F))) x2

set_option maxHeartbeats 1000000 in

theorem sound_kernel1 (c : Dev nD) (E : Set ℕ) (i : grid1.Coords)
    (arg2 : Memref sig .tc .vmem S128x10240 .f32) (harg2 : arg2.IsWhole) (arg3 : Memref sig .tc .vmem S10240x1024 .bf16) (harg3 : arg3.IsWhole)
    (arg4 : Memref sig .tc .vmem S1x1024 .f32) (harg4 : arg4.IsWhole) (arg5 : Memref sig .tc .vmem S128x1024 .bf16) (harg5 : arg5.IsWhole)
    (x0 : Vec F S128x10240 .f32) (x1 : Vec F S10240x1024 .bf16) (x2 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (∃ a, owns (c : Thread nD τ) (Memref.whole cc1_scratch0) fullShare a)
        ∗ (iprop(owns (c : Thread nD τ) arg2 fullShare x0 ∗ owns (c : Thread nD τ) arg3 fullShare x1 ∗ owns (c : Thread nD τ) arg4 fullShare x2
            ∗ owns (c : Thread nD τ) arg5 fullShare (outBlk1 x0 x1 x2)
            ∗ (∃ a, owns (c : Thread nD τ) (Memref.whole cc1_scratch0) fullShare a)) -∗ K ⟨⟩))
      ⊢ wp frame (wpE (defs₀ (F := F)) Variants.none c none) E
          (cc1_kernel i arg2 harg2 arg3 harg3 arg4 harg4 arg5 harg5 (Memref.whole cc1_scratch0) (Memref.isWhole_whole _)) K := by
  simp only [cc1_kernel_eq_skeleton]; unfold cc1_kernel_skel
  have hc2 : k1_cond2 i = 1#1 := k1_cond2_eq i
  have hc1 : Scalar.cmpi .ne (Scalar.extui (Scalar.cmpi .eq (BitVec.ofNat 32 (i 1).val) 0#32)) 0#32 = 1#1 := hc2
  unfold owns
  iintro ⟨⟨%f0, %hf0, H0⟩, ⟨%f1, %hf1, H1⟩, ⟨%f2, %hf2, H2⟩, ⟨%d3, %f3, -, H3⟩, ⟨%a, %fa, -, Ha⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (fun y => ⟨_, List.mem_singleton_self _,
      View.mem_set_unit_zero zeroOff inb_S128x1024_S128x1024_0_0 y⟩)]
    sl_unfold_words
    rw [View.canon_unit_zero zeroOff]
    unfold outBlk1
    simp only [View.readAt_eq_ld, View.ld_unit_zero (S := S128x10240) zeroOff, View.ld_unit_zero (S := S10240x1024) zeroOff,
      View.ld_unit_zero (S := S1x1024) zeroOff, View.readCov_cons_toLoadRect]
  iexists _; iexists _; isplitr
  swap; · iexact Ha
  ipureintro; rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outBlk1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = outBlk1 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

theorem hin1 (c : Dev nD) : Pipeline.ΦA spec1 c ⊢ (dat1 V c).Φ 0 := by
  dsimp only [dat1]; iintro H; iexact H

theorem hout1 (c : Dev nD) : (dat1 V c).Φ (Fin.last cfg1.N) ⊢ Pipeline.ΦA spec1 c := by
  dsimp only [dat1]; iintro H; iexact H

theorem live1_3 (t : Fin cfg1.N) : idle1 3 (grid1.coords t) = false := by
  show (!(k1_cond2 (grid1.coords t) == 1#1)) = false
  rw [k1_cond2_eq]; rfl

private theorem scratch_eq (c : Dev nD) :
    (iprop(∃ a, owns (c : Thread nD τ) (Memref.whole cc1_scratch0) fullShare a) : sProp 𝕄)
      = iprop(∃ f : Buf (Elt F) ((c : Thread nD τ).loc cc1_scratch0), ((c : Thread nD τ).loc cc1_scratch0) ↦{fullShare} f) := by
  simp only [owns_whole]

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = Pipeline.ΦA spec1 c from rfl, show (dat1 V c).Φ t.castSucc = Pipeline.ΦA spec1 c from rfl,
    show (dat1 V c).owesAt () t.succ = (dat1 V c).owesAt () t.castSucc from rfl,
    after1_0, after1_1, after1_2, after1_3]
  unfold Pipeline.ΦA
  rw [scopedRest1_split, ← scratch_eq]
  iintro ⟨⟨⟨Ha, Hrest⟩, Hp⟩, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [Ha]; · iexact Ha
  iintro ⟨H0, H1, H2, H3, Ha⟩
  isplitl [Ha Hrest Hp]
  · isplitr [Hp]
    · isplitl [Ha]; · iexact Ha
      iexact Hrest
    iexact Hp
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  simp only [live1_3]
  split
  · rename_i h; rw [live1_3] at h; exact absurd h Bool.false_ne_true
  · exact sound_body1 V c t

end Cert.KernelIdeal.Hand

end
-- ==== Proof.KIReg2.lean ====
import proofs.«419261_j25872882991625_3_alg».proof.Proof.Gen.KernelIdeal.Launch
import proofs.«419261_j25872882991625_3_alg».proof.Proof.Gen.KernelIdeal.Skeleton
import proofs.«419261_j25872882991625_3_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def acc2 (c : Dev nD) : (n : ℕ) → n < cfg2.N → Vec F S64x1024 .f32
  | 0, hn => k2_pay2 (iblk2 V c 0 ⟨0, hn⟩) (iblk2 V c 1 ⟨0, hn⟩) (k2_pay1 (F := F))
  | n + 1, hn => k2_pay2 (iblk2 V c 0 ⟨n + 1, hn⟩) (iblk2 V c 1 ⟨n + 1, hn⟩) (acc2 c n (Nat.lt_of_succ_lt hn))

def Phi2 (c : Dev nD) : (n : ℕ) → n ≤ cfg2.N → sProp 𝕄
  | 0, _ => Pipeline.ΦA spec2 c
  | n + 1, hn => iprop(Pipeline.scopedRestBut (Ix := Unit) (Name := ℕ) (U := UR sig nD τ) (Lvl := ℕ) (Val := Elt F) spec2 c [cc2_scratch0]
      ∗ (∃ r, prngReg c r)
      ∗ owns (c : Thread nD τ) (Memref.whole cc2_scratch0 : Memref sig .tc .vmem S64x1024 .f32) fullShare (acc2 V c n hn))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => acc2 V c t.val t.isLt
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = acc2 V c t.val t.isLt := by dsimp only [dat2]

theorem zeroOff2 : (![0, 0] : Fin 2 → ℕ) = fun _ => 0 := by
  funext a; fin_cases a <;> rfl

theorem readAt_all2 {S : Shape} {e : EltTy} {m : Memref sig .tc .vmem S e} (h : m.IsWhole) (X : S.Idx → Elt F e)
    {off : Fin S.rank → ℕ} (hz : off = fun _ => 0) (inb : ∀ a, off a + S.size a ≤ S.size a) :
    View.readAt (Elt F) m.view (Rect.unit off S.size inb).toLoadRect (h.unread X) = X := by
  rw [View.readAt_eq_ld, h.read_unread, View.ld_unit_zero hz]

theorem read_stored_all2 {S : Shape} {e : EltTy} {m : Memref sig .tc .vmem S e} (f : m.view.ty.Contents (Elt F))
    {off : Fin S.rank → ℕ} (hz : off = fun _ => 0) (inb : ∀ a, off a + S.size a ≤ S.size a) (w : S.Idx → Elt F e)
    (L : List (View.Piece (Elt F) S e)) :
    m.view.read (Elt F) (m.view.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz]

abbrev isFirst2 (i : grid2.Coords) : Prop :=
  Scalar.cmpi .ne (Scalar.extui (Scalar.cmpi .eq (BitVec.ofNat 32 (i 1).val) 0#32)) 0#32 = 1#1

theorem isFirst2_iff : ∀ t : Fin cfg2.N, isFirst2 (grid2.coords t) ↔ t.val = 0 :=
  (by decide +kernel : ∀ t : Fin grid2.N, isFirst2 (grid2.coords t) ↔ t.val = 0)

abbrev isLast2 (i : grid2.Coords) : Prop := k2_cond2 i = 1#1

theorem isLast2_iff : ∀ t : Fin cfg2.N, isLast2 (grid2.coords t) ↔ t.val = 3 :=
  (by decide +kernel : ∀ t : Fin grid2.N, isLast2 (grid2.coords t) ↔ t.val = 3)

theorem runFirst2 (c : Dev nD) (i : grid2.Coords) (hf : isFirst2 i) (hl : ¬isLast2 i)
    (mP : Memref sig .tc .vmem S64x2560 .bf16) (wP : mP.IsWhole) (mA : Memref sig .tc .vmem S2560x1024 .bf16) (wA : mA.IsWhole)
    (mB : Memref sig .tc .vmem S1x1024 .f32) (wB : mB.IsWhole) (mO : Memref sig .tc .vmem S64x1024 .f32) (wO : mO.IsWhole)
    (mS : Memref sig .tc .vmem S64x1024 .f32) (wS : mS.IsWhole)
    (x0 : Vec F S64x2560 .bf16) (x1 : Vec F S2560x1024 .bf16) (s : Vec F S64x1024 .f32) (K : PUnit → sProp 𝕄) :
    iprop(owns (c : Thread nD τ) mP fullShare x0 ∗ owns (c : Thread nD τ) mA fullShare x1 ∗ owns (c : Thread nD τ) mS fullShare s
        ∗ (iprop(owns (c : Thread nD τ) mP fullShare x0 ∗ owns (c : Thread nD τ) mA fullShare x1
            ∗ owns (c : Thread nD τ) mS fullShare (k2_pay2 x0 x1 (k2_pay1 (F := F)))) -∗ K ⟨⟩))
      ⊢ wp frame (wpE (defs₀ (F := F)) Variants.none c none) Set.univ (cc2_kernel i mP wP mA wA mB wB mO wO mS wS) K := by
  simp only [cc2_kernel_eq_skeleton]; unfold cc2_kernel_skel
  unfold owns
  iintro ⟨⟨%fP, %eP, HP⟩, ⟨%fA, %eA, HA⟩, ⟨%fS, %eS, HS⟩, Hk⟩
  obtain rfl := wP.eq_unread eP; obtain rfl := wA.eq_unread eA; obtain rfl := wS.eq_unread eS
  sl_exec (disch := first | exact hf | exact hl)
  sl_step
  iapply Hk
  isplitl [HP]
  · iexists _; isplitr; · ipureintro; exact wP.read_unread _
    iexact HP
  isplitl [HA]
  · iexists _; isplitr; · ipureintro; exact wA.read_unread _
    iexact HA
  iexists _; isplitr
  swap; · iexact HS
  ipureintro
  sl_unfold_run_names
  rw [read_stored_all2 _ zeroOff2, readAt_all2 wP x0 zeroOff2, readAt_all2 wA x1 zeroOff2, View.readCov_unit_zero _ zeroOff2]

theorem runMid2 (c : Dev nD) (i : grid2.Coords) (hf : ¬isFirst2 i) (hl : ¬isLast2 i)
    (mP : Memref sig .tc .vmem S64x2560 .bf16) (wP : mP.IsWhole) (mA : Memref sig .tc .vmem S2560x1024 .bf16) (wA : mA.IsWhole)
    (mB : Memref sig .tc .vmem S1x1024 .f32) (wB : mB.IsWhole) (mO : Memref sig .tc .vmem S64x1024 .f32) (wO : mO.IsWhole)
    (mS : Memref sig .tc .vmem S64x1024 .f32) (wS : mS.IsWhole)
    (x0 : Vec F S64x2560 .bf16) (x1 : Vec F S2560x1024 .bf16) (s : Vec F S64x1024 .f32) (K : PUnit → sProp 𝕄) :
    iprop(owns (c : Thread nD τ) mP fullShare x0 ∗ owns (c : Thread nD τ) mA fullShare x1 ∗ owns (c : Thread nD τ) mS fullShare s
        ∗ (iprop(owns (c : Thread nD τ) mP fullShare x0 ∗ owns (c : Thread nD τ) mA fullShare x1
            ∗ owns (c : Thread nD τ) mS fullShare (k2_pay2 x0 x1 s)) -∗ K ⟨⟩))
      ⊢ wp frame (wpE (defs₀ (F := F)) Variants.none c none) Set.univ (cc2_kernel i mP wP mA wA mB wB mO wO mS wS) K := by
  simp only [cc2_kernel_eq_skeleton]; unfold cc2_kernel_skel
  unfold owns
  iintro ⟨⟨%fP, %eP, HP⟩, ⟨%fA, %eA, HA⟩, ⟨%fS, %eS, HS⟩, Hk⟩
  obtain rfl := wP.eq_unread eP; obtain rfl := wA.eq_unread eA; obtain rfl := wS.eq_unread eS
  sl_exec (disch := first | exact hf | exact hl)
  sl_step
  iapply Hk
  isplitl [HP]
  · iexists _; isplitr; · ipureintro; exact wP.read_unread _
    iexact HP
  isplitl [HA]
  · iexists _; isplitr; · ipureintro; exact wA.read_unread _
    iexact HA
  iexists _; isplitr
  swap; · iexact HS
  ipureintro
  rw [read_stored_all2 _ zeroOff2, readAt_all2 wP x0 zeroOff2, readAt_all2 wA x1 zeroOff2, readAt_all2 wS s zeroOff2]

theorem runLast2 (c : Dev nD) (i : grid2.Coords) (hf : ¬isFirst2 i) (hl : isLast2 i)
    (mP : Memref sig .tc .vmem S64x2560 .bf16) (wP : mP.IsWhole) (mA : Memref sig .tc .vmem S2560x1024 .bf16) (wA : mA.IsWhole)
    (mB : Memref sig .tc .vmem S1x1024 .f32) (wB : mB.IsWhole) (mO : Memref sig .tc .vmem S64x1024 .f32) (wO : mO.IsWhole)
    (mS : Memref sig .tc .vmem S64x1024 .f32) (wS : mS.IsWhole)
    (x0 : Vec F S64x2560 .bf16) (x1 : Vec F S2560x1024 .bf16) (s o : Vec F S64x1024 .f32) (K : PUnit → sProp 𝕄) :
    iprop(owns (c : Thread nD τ) mP fullShare x0 ∗ owns (c : Thread nD τ) mA fullShare x1 ∗ owns (c : Thread nD τ) mS fullShare s
        ∗ owns (c : Thread nD τ) mO fullShare o
        ∗ (iprop(owns (c : Thread nD τ) mP fullShare x0 ∗ owns (c : Thread nD τ) mA fullShare x1
            ∗ owns (c : Thread nD τ) mS fullShare (k2_pay2 x0 x1 s) ∗ owns (c : Thread nD τ) mO fullShare (k2_pay2 x0 x1 s)) -∗ K ⟨⟩))
      ⊢ wp frame (wpE (defs₀ (F := F)) Variants.none c none) Set.univ (cc2_kernel i mP wP mA wA mB wB mO wO mS wS) K := by
  simp only [cc2_kernel_eq_skeleton]; unfold cc2_kernel_skel
  unfold owns
  iintro ⟨⟨%fP, %eP, HP⟩, ⟨%fA, %eA, HA⟩, ⟨%fS, %eS, HS⟩, ⟨%fO, %eO, HO⟩, Hk⟩
  obtain rfl := wP.eq_unread eP; obtain rfl := wA.eq_unread eA; obtain rfl := wS.eq_unread eS; obtain rfl := wO.eq_unread eO
  sl_exec (disch := first | exact hf | exact hl)
  sl_step
  iapply Hk
  isplitl [HP]
  · iexists _; isplitr; · ipureintro; exact wP.read_unread _
    iexact HP
  isplitl [HA]
  · iexists _; isplitr; · ipureintro; exact wA.read_unread _
    iexact HA
  isplitl [HS]
  · iexists _; isplitr
    swap; · iexact HS
    ipureintro
    sl_unfold_run_names
    rw [read_stored_all2 _ zeroOff2, readAt_all2 wP x0 zeroOff2, readAt_all2 wA x1 zeroOff2, readAt_all2 wS s zeroOff2]
  iexists _; isplitr
  swap; · iexact HO
  ipureintro
  sl_unfold_run_names
  rw [read_stored_all2 _ zeroOff2, View.readCov_unit_zero _ zeroOff2, readAt_all2 wP x0 zeroOff2, readAt_all2 wA x1 zeroOff2,
    readAt_all2 wS s zeroOff2]

theorem acc2_first (c : Dev nD) (t : Fin cfg2.N) (h : t.val = 0) :
    acc2 V c t.val t.isLt = k2_pay2 (iblk2 V c 0 t) (iblk2 V c 1 t) (k2_pay1 (F := F)) := by
  obtain ⟨n, hn⟩ := t
  cases n with
  | zero => rfl
  | succ n => exact absurd h (Nat.succ_ne_zero n)

theorem acc2_next (c : Dev nD) (t : Fin cfg2.N) (h : t.val ≠ 0) :
    acc2 V c t.val t.isLt = k2_pay2 (iblk2 V c 0 t) (iblk2 V c 1 t)
      (acc2 V c (t.val - 1) (Nat.lt_of_le_of_lt (Nat.sub_le _ _) t.isLt)) := by
  obtain ⟨n, hn⟩ := t
  cases n with
  | zero => exact absurd rfl h
  | succ n => rfl

theorem Phi2_zero (c : Dev nD) (n : ℕ) (h : n ≤ cfg2.N) (hz : n = 0) : Phi2 V c n h = Pipeline.ΦA spec2 c := by
  subst hz; rfl

theorem Phi2_succ (c : Dev nD) (n : ℕ) (hn : n < cfg2.N) :
    Phi2 V c (n + 1) hn = iprop(Pipeline.scopedRestBut (Ix := Unit) (Name := ℕ) (U := UR sig nD τ) (Lvl := ℕ) (Val := Elt F) spec2 c [cc2_scratch0]
      ∗ (∃ r, prngReg c r)
      ∗ owns (c : Thread nD τ) (Memref.whole cc2_scratch0 : Memref sig .tc .vmem S64x1024 .f32) fullShare (acc2 V c n hn)) := rfl

theorem Phi2_pos (c : Dev nD) (n : ℕ) (h : n ≤ cfg2.N) (hz : n ≠ 0) :
    Phi2 V c n h = iprop(Pipeline.scopedRestBut (Ix := Unit) (Name := ℕ) (U := UR sig nD τ) (Lvl := ℕ) (Val := Elt F) spec2 c [cc2_scratch0]
      ∗ (∃ r, prngReg c r)
      ∗ owns (c : Thread nD τ) (Memref.whole cc2_scratch0 : Memref sig .tc .vmem S64x1024 .f32) fullShare
          (acc2 V c (n - 1) (by omega))) := by
  cases n with
  | zero => exact absurd rfl hz
  | succ n => rfl

theorem PhiA2_eq (c : Dev nD) :
    (Pipeline.ΦA spec2 c : sProp 𝕄)
      = iprop(iprop(iprop(∃ d, owns (c : Thread nD τ) (Memref.whole cc2_scratch0 : Memref sig .tc .vmem S64x1024 .f32) fullShare d)
          ∗ Pipeline.scopedRestBut (Ix := Unit) (Name := ℕ) (U := UR sig nD τ) (Lvl := ℕ) (Val := Elt F) spec2 c [cc2_scratch0])
        ∗ (∃ r, prngReg c r)) := by
  unfold Pipeline.ΦA; rw [scopedRest2_split]; simp only [owns_whole]; try rfl

theorem hin2 (c : Dev nD) : Pipeline.ΦA spec2 c ⊢ (dat2 V c).Φ 0 := by
  rw [show (dat2 V c).Φ 0 = Phi2 V c 0 (Nat.zero_le _) from rfl, Phi2_zero V c 0 _ rfl]

theorem hout2 (c : Dev nD) : (dat2 V c).Φ (Fin.last cfg2.N) ⊢ Pipeline.ΦA spec2 c := by
  rw [show (dat2 V c).Φ (Fin.last cfg2.N) = Phi2 V c cfg2.N (Nat.le_refl _) from rfl,
    Phi2_pos V c _ _ (by rw [show cfg2.N = 4 from N_2]; decide), PhiA2_eq]
  iintro ⟨HR, Hg, HS⟩
  isplitr [Hg]
  · isplitl [HS]
    · iexists _; iexact HS
    iexact HR
  iexact Hg

theorem before2_0 (c : Dev nD) (t : Fin cfg2.N) (d) : (dat2 V c).before 0 t d = iblk2 V c 0 t := by
  rw [(dat2 V c).before_in_eq_fetched 0 rfl (fun _ => rfl) (fun _ _ _ => rfl)
    (fun u => by rw [after2_0]; unfold Dat.blockOf iblk2; rw [A_eq2]) t d]
  unfold Dat.fetched Dat.blockOf iblk2; rw [A_eq2]; rfl
theorem before2_1 (c : Dev nD) (t : Fin cfg2.N) (d) : (dat2 V c).before 1 t d = iblk2 V c 1 t := by
  rw [(dat2 V c).before_in_eq_fetched 1 rfl (fun _ => rfl) (fun _ _ _ => rfl)
    (fun u => by rw [after2_1]; unfold Dat.blockOf iblk2; rw [A_eq2]) t d]
  unfold Dat.fetched Dat.blockOf iblk2; rw [A_eq2]; rfl
theorem before2_2 (c : Dev nD) (t : Fin cfg2.N) (d) : (dat2 V c).before 2 t d = iblk2 V c 2 t := by
  rw [(dat2 V c).before_in_eq_fetched 2 rfl (fun _ => rfl) (fun _ _ _ => rfl)
    (fun u => by rw [after2_2]; unfold Dat.blockOf iblk2; rw [A_eq2]) t d]
  unfold Dat.fetched Dat.blockOf iblk2; rw [A_eq2]; rfl

theorem leaves2_0 (c : Dev nD) (t : Fin cfg2.N) :
    (dat2 V c).leavesExact 0 t = owns (c : Thread nD τ) (st2_0 t) fullShare (iblk2 V c 0 t) := by
  unfold Dat.leavesExact; rw [show cfg2.idle 0 (cfg2.grid.coords t) = false from rfl, after2_0]
theorem leaves2_1 (c : Dev nD) (t : Fin cfg2.N) :
    (dat2 V c).leavesExact 1 t = owns (c : Thread nD τ) (st2_1 t) fullShare (iblk2 V c 1 t) := by
  unfold Dat.leavesExact; rw [show cfg2.idle 1 (cfg2.grid.coords t) = false from rfl, after2_1]
theorem leaves2_2 (c : Dev nD) (t : Fin cfg2.N) :
    (dat2 V c).leavesExact 2 t = owns (c : Thread nD τ) (st2_2 t) fullShare (iblk2 V c 2 t) := by
  unfold Dat.leavesExact; rw [show cfg2.idle 2 (cfg2.grid.coords t) = false from rfl, after2_2]

theorem leaves2_3_idle (c : Dev nD) (t : Fin cfg2.N) (hl : ¬isLast2 (grid2.coords t)) :
    (dat2 V c).leavesExact 3 t
      = iprop(∃ d, owns (c : Thread nD τ) (st2_3 t) fullShare ((dat2 V c).before 3 t d)) := by
  refine Dat.leavesExact_idle (dat2 V c) 3 t ?_ ?_
  · show (!(k2_cond2 (grid2.coords t) == 1#1)) = true
    rw [Bool.not_eq_true', beq_eq_false_iff_ne]; exact hl
  · have hN : t.val < 4 := lt_of_lt_of_eq t.isLt (show cfg2.N = 4 from N_2)
    have hlast : ¬t.val = 3 := fun h => hl ((isLast2_iff t).mpr h)
    exact Bool.eq_false_iff.mpr fun h => hlast (by have := (flush2_3 t).mp h; omega)

theorem leaves2_3_live (c : Dev nD) (t : Fin cfg2.N) (hl : isLast2 (grid2.coords t)) :
    (dat2 V c).leavesExact 3 t = owns (c : Thread nD τ) (st2_3 t) fullShare (acc2 V c t.val t.isLt) := by
  unfold Dat.leavesExact
  rw [show cfg2.idle 3 (cfg2.grid.coords t) = false from by
    show (!(k2_cond2 (grid2.coords t) == 1#1)) = false
    rw [show k2_cond2 (grid2.coords t) = 1#1 from hl]; rfl, after2_3]

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t ∗ (dat2 V c).leavesExact 3 t)

set_option maxHeartbeats 1600000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl,
    show (dat2 V c).Φ t.succ = Phi2 V c (t.val + 1) t.isLt from rfl,
    show (dat2 V c).Φ t.castSucc = Phi2 V c t.val (Nat.le_of_lt t.isLt) from rfl,
    leaves2_0, leaves2_1, leaves2_2]
  have hN : t.val < 4 := lt_of_lt_of_eq t.isLt (show cfg2.N = 4 from N_2)
  by_cases hz : t.val = 0
  · have hf : isFirst2 (grid2.coords t) := (isFirst2_iff t).mpr hz
    have hl : ¬isLast2 (grid2.coords t) := fun h => by have := (isLast2_iff t).mp h; omega
    rw [Phi2_zero V c _ _ hz, PhiA2_eq, leaves2_3_idle V c t hl,
      Phi2_succ, acc2_first V c t hz]
    iintro ⟨⟨⟨⟨%sv, HS⟩, HR⟩, Hg⟩, Ho, ⟨%dP, HP⟩, ⟨%dA, HA⟩, ⟨%dB, HB⟩, ⟨%dO, HO⟩⟩
    iapply (runFirst2 c (grid2.coords t) hf hl _ _ _ _ _ _ _ _ _ _ (iblk2 V c 0 t) (iblk2 V c 1 t) sv _)
    isplitl [HP]; · iexact HP
    isplitl [HA]; · iexact HA
    isplitl [HS]; · iexact HS
    iintro ⟨HP, HA, HS⟩
    isplitl [HR Hg HS]
    · isplitl [HR]; · iexact HR
      isplitl [Hg]; · iexact Hg
      iexact HS
    isplitl [Ho]; · iexact Ho
    isplitl [HP]; · iexact HP
    isplitl [HA]; · iexact HA
    isplitl [HB]; · iexact HB
    iexists _; iexact HO
  · have hf : ¬isFirst2 (grid2.coords t) := fun h => hz ((isFirst2_iff t).mp h)
    by_cases hlast : t.val = 3
    · have hl : isLast2 (grid2.coords t) := (isLast2_iff t).mpr hlast
      rw [Phi2_pos V c _ _ hz, leaves2_3_live V c t hl,
        Phi2_succ, acc2_next V c t hz]
      iintro ⟨⟨HR, Hg, HS⟩, Ho, ⟨%dP, HP⟩, ⟨%dA, HA⟩, ⟨%dB, HB⟩, ⟨%dO, HO⟩⟩
      iapply (runLast2 c (grid2.coords t) hf hl _ _ _ _ _ _ _ _ _ _ (iblk2 V c 0 t) (iblk2 V c 1 t) _ _ _)
      isplitl [HP]; · iexact HP
      isplitl [HA]; · iexact HA
      isplitl [HS]; · iexact HS
      isplitl [HO]; · iexact HO
      iintro ⟨HP, HA, HS, HO⟩
      isplitl [HR Hg HS]
      · isplitl [HR]; · iexact HR
        isplitl [Hg]; · iexact Hg
        iexact HS
      isplitl [Ho]; · iexact Ho
      isplitl [HP]; · iexact HP
      isplitl [HA]; · iexact HA
      isplitl [HB]; · iexact HB
      iexact HO
    · have hl : ¬isLast2 (grid2.coords t) := fun h => hlast ((isLast2_iff t).mp h)
      rw [Phi2_pos V c _ _ hz, leaves2_3_idle V c t hl,
        Phi2_succ, acc2_next V c t hz]
      iintro ⟨⟨HR, Hg, HS⟩, Ho, ⟨%dP, HP⟩, ⟨%dA, HA⟩, ⟨%dB, HB⟩, ⟨%dO, HO⟩⟩
      iapply (runMid2 c (grid2.coords t) hf hl _ _ _ _ _ _ _ _ _ _ (iblk2 V c 0 t) (iblk2 V c 1 t) _ _)
      isplitl [HP]; · iexact HP
      isplitl [HA]; · iexact HA
      isplitl [HS]; · iexact HS
      iintro ⟨HP, HA, HS⟩
      isplitl [HR Hg HS]
      · isplitl [HR]; · iexact HR
        isplitl [Hg]; · iexact Hg
        iexact HS
      isplitl [Ho]; · iexact Ho
      isplitl [HP]; · iexact HP
      isplitl [HA]; · iexact HA
      isplitl [HB]; · iexact HB
      iexists _; iexact HO

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIReg3.lean ====
import proofs.«419261_j25872882991625_3_alg».proof.Proof.Gen.KernelIdeal.Launch
import proofs.«419261_j25872882991625_3_alg».proof.Proof.Gen.KernelIdeal.Skeleton
import proofs.«419261_j25872882991625_3_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => k3_pay3 (k3_pay2 (iblk3 V c 0 t) (iblk3 V c 1 t) (k3_pay1 (F := F))) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = k3_pay3 (k3_pay2 (iblk3 V c 0 t) (iblk3 V c 1 t) (k3_pay1 (F := F))) (iblk3 V c 2 t) := by
  dsimp only [dat3]

theorem zoff3 : (![0, 0] : Fin 2 → Nat) = fun _ => 0 := by funext a; fin_cases a <;> rfl

set_option maxHeartbeats 2000000 in

theorem sound_kernel3 (c : Dev nD) (E : Set ℕ) (i : grid3.Coords) (hi : (i 1).val = 0)
    (arg2 : Memref sig .tc .vmem S64x1024 .f32) (harg2 : arg2.IsWhole) (arg3 : Memref sig .tc .vmem S1024x128 .f32) (harg3 : arg3.IsWhole)
    (arg4 : Memref sig .tc .vmem S1x128 .f32) (harg4 : arg4.IsWhole) (arg5 : Memref sig .tc .vmem S64x128 .f32) (harg5 : arg5.IsWhole)
    (arg6 : Memref sig .tc .vmem S64x128 .f32) (harg6 : arg6.IsWhole)
    (x0 : Vec F S64x1024 .f32) (x1 : Vec F S1024x128 .f32) (x2 : Vec F S1x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k3_pay3 (k3_pay2 x0 x1 (k3_pay1 (F := F))) x2)
            ∗ (∃ d, owns (c : Thread nD τ) arg6 fullShare d)) -∗ K ⟨⟩))
      ⊢ wp frame (wpE (defs₀ (F := F)) Variants.none c none) E (cc3_kernel i arg2 harg2 arg3 harg3 arg4 harg4 arg5 harg5 arg6 harg6) K := by
  simp only [cc3_kernel_eq_skeleton]; unfold cc3_kernel_skel
  have hw : BitVec.ofNat 32 (i 1).val = 0#32 := by rw [hi]
  have hc2 : k3_cond2 i = 1#1 := by unfold k3_cond2; rw [hw]; decide
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec (disch := first | sl_exact hc2 | (rw [hw]; decide))
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (fun y => ⟨_, List.mem_singleton_self _, View.mem_set_unit_zero zoff3 inb_S64x128_S64x128_0_0 y⟩),
      View.canon_unit_zero zoff3]
    sl_unfold_words
    rw [View.readCov_cons_toLoadRect, View.readCov_unit_zero _ zoff3]
    simp only [View.readAt_eq_ld, View.ld_unit_zero (S := S64x1024) zoff3, View.ld_unit_zero (S := S1024x128) zoff3,
      View.ld_unit_zero (S := S1x128) zoff3]
  iexists _, _; isplitr
  swap; · iexact H4
  ipureintro; rfl

theorem PhiA3_eq (c : Dev nD) :
    (Pipeline.ΦA spec3 c : sProp 𝕄)
      = iprop(iprop((∃ d, owns (c : Thread nD τ) (Memref.whole cc3_scratch0) fullShare d) ∗ Pipeline.scopedRestBut spec3 c [cc3_scratch0])
          ∗ (∃ r, prngReg c r)) := by
  unfold Pipeline.ΦA; rw [scopedRest3_split]; simp only [owns_whole]

theorem before3_0 (c : Dev nD) (t : Fin cfg3.N) (d) : (dat3 V c).before 0 t d = iblk3 V c 0 t :=
  ((dat3 V c).before_fetched 0 t (fetch3_0 t) d).trans (by unfold Dat.fetched Dat.blockOf iblk3; rw [A_eq3]; try rfl)
theorem before3_1 (c : Dev nD) (t : Fin cfg3.N) (d) : (dat3 V c).before 1 t d = iblk3 V c 1 t :=
  ((dat3 V c).before_fetched 1 t (fetch3_1 t) d).trans (by unfold Dat.fetched Dat.blockOf iblk3; rw [A_eq3]; try rfl)
theorem before3_2 (c : Dev nD) (t : Fin cfg3.N) (d) : (dat3 V c).before 2 t d = iblk3 V c 2 t :=
  ((dat3 V c).before_fetched 2 t (fetch3_2 t) d).trans (by unfold Dat.fetched Dat.blockOf iblk3; rw [A_eq3]; try rfl)

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t ∗ (dat3 V c).leavesExact 1 t ∗ (dat3 V c).leavesExact 2 t ∗ (dat3 V c).leavesExact 3 t)

set_option maxHeartbeats 2000000 in

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  have hi : ((grid3.coords t) 1).val = 0 := Nat.lt_one_iff.mp ((grid3.coords t) 1).isLt
  have hc2 : k3_cond2 (grid3.coords t) = 1#1 := by
    unfold k3_cond2; rw [show BitVec.ofNat 32 ((grid3.coords t) 1).val = 0#32 from by rw [hi]]; decide
  have hlive : cfg3.idle 3 (cfg3.grid.coords t) = false := by
    show (!(k3_cond2 (grid3.coords t) == 1#1)) = false
    rw [hc2]; rfl
  rw [show (dat3 V c).Φ t.succ = Pipeline.ΦA spec3 c from rfl, show (dat3 V c).Φ t.castSucc = Pipeline.ΦA spec3 c from rfl,
    show (dat3 V c).owesAt () t.succ = (dat3 V c).owesAt () t.castSucc from rfl,
    show (dat3 V c).leavesExact 0 t = owns (c : Thread nD τ) (st3_0 t) fullShare ((dat3 V c).after 0 t) from rfl,
    show (dat3 V c).leavesExact 1 t = owns (c : Thread nD τ) (st3_1 t) fullShare ((dat3 V c).after 1 t) from rfl,
    show (dat3 V c).leavesExact 2 t = owns (c : Thread nD τ) (st3_2 t) fullShare ((dat3 V c).after 2 t) from rfl,
    show (dat3 V c).leavesExact 3 t = owns (c : Thread nD τ) (st3_3 t) fullShare ((dat3 V c).after 3 t) from by
      unfold Dat.leavesExact; rw [hlive],
    after3_0, after3_1, after3_2, after3_3, PhiA3_eq]
  iintro ⟨⟨⟨HS, HR⟩, Hg⟩, Ho, ⟨%d0, H0⟩, ⟨%d1, H1⟩, ⟨%d2, H2⟩, ⟨%d3, H3⟩⟩
  iapply (sound_kernel3 c Set.univ _ hi _ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  iexact H3

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  dsimp only [dat3]; exact .rfl

theorem hout3 (c : Dev nD) : (dat3 V c).Φ (Fin.last cfg3.N) ⊢ Pipeline.ΦA spec3 c := by
  dsimp only [dat3]; exact .rfl

end Cert.KernelIdeal.Hand

end
-- ==== Proof.KIReg4.lean ====
import proofs.«419261_j25872882991625_3_alg».proof.Proof.Gen.KernelIdeal.Launch
import proofs.«419261_j25872882991625_3_alg».proof.Proof.Gen.KernelIdeal.Skeleton
import proofs.«419261_j25872882991625_3_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => k4_pay3 (k4_pay2 (iblk4 V c 0 t) (iblk4 V c 1 t) k4_pay1)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = k4_pay3 (k4_pay2 (iblk4 V c 0 t) (iblk4 V c 1 t) k4_pay1) := by dsimp only [dat4]

theorem coordOne_reg4 (i : grid4.Coords) : (i 1).val = 0 := Nat.lt_one_iff.mp (i 1).isLt

theorem condTwo_reg4 (i : grid4.Coords) : k4_cond2 i = 1#1 := by
  unfold k4_cond2
  rw [coordOne_reg4 i]
  decide

theorem offZero_reg4 : (![0, 0] : Fin 2 → Nat) = fun _ => 0 := by
  funext a; match a with | ⟨0, _⟩ => rfl | ⟨1, _⟩ => rfl

set_option maxHeartbeats 1000000 in

theorem sound_kernel_reg4 (c : Dev nD) (E : Set ℕ) (i : grid4.Coords)
    (arg2 : Memref sig .tc .vmem S1280x1024 .bf16) (harg2 : arg2.IsWhole)
    (arg3 : Memref sig .tc .vmem S1024x1024 .bf16) (harg3 : arg3.IsWhole)
    (arg4 : Memref sig .tc .vmem S1x1024 .f32) (harg4 : arg4.IsWhole)
    (arg5 : Memref sig .tc .vmem S1280x1024 .bf16) (harg5 : arg5.IsWhole)
    (arg6 : Memref sig .tc .vmem S1280x1024 .f32) (harg6 : arg6.IsWhole)
    (x0 : Vec F S1280x1024 .bf16) (x1 : Vec F S1024x1024 .bf16) (x2 : Vec F S1x1024 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2
            ∗ owns (c : Thread nD τ) arg5 fullShare (k4_pay3 (k4_pay2 x0 x1 k4_pay1))
            ∗ (∃ d, owns (c : Thread nD τ) arg6 fullShare d)) -∗ K ⟨⟩))
      ⊢ wp frame (wpE (defs₀ (F := F)) Variants.none c none) E
          (cc4_kernel i arg2 harg2 arg3 harg3 arg4 harg4 arg5 harg5 arg6 harg6) K := by
  simp only [cc4_kernel_eq_skeleton]; unfold cc4_kernel_skel
  simp only [condTwo_reg4 i, coordOne_reg4 i]
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (fun y => ⟨_, List.mem_singleton_self _, View.mem_set_unit_zero offZero_reg4 inb_S1280x1024_S1280x1024_0_0 y⟩),
      View.canon_unit_zero offZero_reg4]
    sl_unfold_run_names
    simp only [View.readCov_cons_toLoadRect, View.readAt_eq_ld, View.ld_unit_zero (S := S1280x1024) offZero_reg4,
      View.ld_unit_zero (S := S1024x1024) offZero_reg4]
  iexists _, _; isplitr
  swap; · iexact H4
  ipureintro; rfl

theorem inv_reg4 (c : Dev nD) (k : Fin (cfg4.N + 1)) : (dat4 V c).Φ k = Pipeline.ΦA spec4 c := by dsimp only [dat4]

theorem owes_reg4 (c : Dev nD) (k k' : Fin (cfg4.N + 1)) : (dat4 V c).owesAt () k = (dat4 V c).owesAt () k' := by
  unfold Dat.owesAt Dat.bound; dsimp only [dat4]

theorem beforeX_reg4 (c : Dev nD) (t : Fin cfg4.N) (d) : (dat4 V c).before 0 t d = iblk4 V c 0 t := by
  rw [(dat4 V c).before_in_eq_fetched 0 rfl (fun _ => rfl) (fun _ _ _ => rfl)
    (fun s => by rw [after4_0]; unfold Dat.blockOf iblk4; rw [A_eq4] <;> rfl) t d]
  unfold Dat.fetched Dat.blockOf iblk4; rw [A_eq4] <;> rfl

theorem beforeW_reg4 (c : Dev nD) (t : Fin cfg4.N) (d) : (dat4 V c).before 1 t d = iblk4 V c 1 t := by
  rw [(dat4 V c).before_in_eq_fetched 1 rfl (fun _ => rfl) (fun _ _ _ => rfl)
    (fun s => by rw [after4_1]; unfold Dat.blockOf iblk4; rw [A_eq4] <;> rfl) t d]
  unfold Dat.fetched Dat.blockOf iblk4; rw [A_eq4] <;> rfl

theorem beforeB_reg4 (c : Dev nD) (t : Fin cfg4.N) (d) : (dat4 V c).before 2 t d = iblk4 V c 2 t := by
  rw [(dat4 V c).before_in_eq_fetched 2 rfl (fun _ => rfl) (fun _ _ _ => rfl)
    (fun s => by rw [after4_2]; unfold Dat.blockOf iblk4; rw [A_eq4] <;> rfl) t d]
  unfold Dat.fetched Dat.blockOf iblk4; rw [A_eq4] <;> rfl

theorem live_reg4 (t : Fin cfg4.N) : cfg4.idle 3 (cfg4.grid.coords t) = false := by
  show (!(k4_cond2 (grid4.coords t) == 1#1)) = false
  rw [condTwo_reg4]; rfl

theorem acc_reg4 (c : Dev nD) :
    (iprop(∃ d, owns (c : Thread nD τ) (Memref.whole cc4_scratch0) fullShare d) : sProp 𝕄)
      = iprop(∃ f : Buf (Elt F) ((c : Thread nD τ).loc cc4_scratch0), ((c : Thread nD τ).loc cc4_scratch0) ↦{fullShare} f) := by
  simp only [owns_whole]

def bodyPre_reg4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

def bodyPost_reg4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

set_option maxHeartbeats 1000000 in

theorem sound_body_reg4 (c : Dev nD) (t : Fin cfg4.N) :
    bodyPre_reg4 V c t ⊢ wp frame (wpE (defs₀ (F := F)) Variants.none c none) Set.univ (bodyAt4 t) (fun _ => bodyPost_reg4 V c t) := by
  unfold bodyPre_reg4 bodyPost_reg4 bodyAt4
  simp only [beforeX_reg4, beforeW_reg4, beforeB_reg4]
  rw [inv_reg4, inv_reg4, owes_reg4 V c t.succ t.castSucc, after4_0, after4_1, after4_2, after4_3]
  unfold Pipeline.ΦA
  rw [scopedRest4_split, ← acc_reg4]
  iintro ⟨⟨⟨Hs, Hr⟩, Hg⟩, Ho, ⟨%d0, H0⟩, ⟨%d1, H1⟩, ⟨%d2, H2⟩, ⟨%d3, H3⟩⟩
  iapply (sound_kernel_reg4 c Set.univ _ _ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  isplitl [Hs]; · iexact Hs
  iintro ⟨H0, H1, H2, H3, Hs⟩
  isplitl [Hs Hr Hg]
  · isplitr [Hg]
    · isplitl [Hs]; · iexact Hs
      iexact Hr
    iexact Hg
  isplitl [Ho]; · iexact Ho
  isplitl [H0]; · iexact H0
  isplitl [H1]; · iexact H1
  isplitl [H2]; · iexact H2
  iexact H3

theorem body_obligation4 (c : Dev nD) : BodyObligation (dat4 (F := F) V c) (defs₀ (F := F)) Variants.none () Set.univ := fun t => by
  rw [bigSep_W4, bigSep_W4, live_reg4 t]
  exact sound_body_reg4 V c t

theorem hin4 (c : Dev nD) : (Pipeline.ΦA spec4 c : sProp 𝕄) ⊢ (dat4 V c).Φ 0 := by
  rw [inv_reg4]

theorem hout4 (c : Dev nD) : (dat4 V c).Φ (Fin.last cfg4.N) ⊢ (Pipeline.ΦA spec4 c : sProp 𝕄) := by
  rw [inv_reg4]

end Cert.KernelIdeal.Hand

end
-- ==== Proof.KIReg5.lean ====
import proofs.«419261_j25872882991625_3_alg».proof.Proof.Gen.KernelIdeal.Launch
import proofs.«419261_j25872882991625_3_alg».proof.Proof.Gen.KernelIdeal.Skeleton
import proofs.«419261_j25872882991625_3_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem k5_cond2_eq (i : grid5.Coords) : k5_cond2 i = 1#1 := by
  have h : (i 1).val = 0 := Nat.lt_one_iff.mp (i 1).isLt
  unfold k5_cond2; rw [h]; rfl

private theorem zeroOff : (![0, 0] : Fin 2 → Nat) = fun _ => 0 := funext fun a => by fin_cases a <;> rfl

def outBlk5 (x0 : Vec F S128x10240 .f32) (x1 : Vec F S10240x1024 .bf16) (x2 : Vec F S1x1024 .f32) : Vec F S128x1024 .bf16 :=
  k5_pay3 (k5_pay2 x0 x1 (k5_pay1 (F := F))) x2

set_option maxHeartbeats 1000000 in

theorem sound_kernel5 (c : Dev nD) (E : Set ℕ) (i : grid5.Coords)
    (arg2 : Memref sig .tc .vmem S128x10240 .f32) (harg2 : arg2.IsWhole) (arg3 : Memref sig .tc .vmem S10240x1024 .bf16) (harg3 : arg3.IsWhole)
    (arg4 : Memref sig .tc .vmem S1x1024 .f32) (harg4 : arg4.IsWhole) (arg5 : Memref sig .tc .vmem S128x1024 .bf16) (harg5 : arg5.IsWhole)
    (x0 : Vec F S128x10240 .f32) (x1 : Vec F S10240x1024 .bf16) (x2 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (∃ a, owns (c : Thread nD τ) (Memref.whole cc5_scratch0) fullShare a)
        ∗ (iprop(owns (c : Thread nD τ) arg2 fullShare x0 ∗ owns (c : Thread nD τ) arg3 fullShare x1 ∗ owns (c : Thread nD τ) arg4 fullShare x2
            ∗ owns (c : Thread nD τ) arg5 fullShare (outBlk5 x0 x1 x2)
            ∗ (∃ a, owns (c : Thread nD τ) (Memref.whole cc5_scratch0) fullShare a)) -∗ K ⟨⟩))
      ⊢ wp frame (wpE (defs₀ (F := F)) Variants.none c none) E
          (cc5_kernel i arg2 harg2 arg3 harg3 arg4 harg4 arg5 harg5 (Memref.whole cc5_scratch0) (Memref.isWhole_whole _)) K := by
  simp only [cc5_kernel_eq_skeleton]; unfold cc5_kernel_skel
  have hc2 : k5_cond2 i = 1#1 := k5_cond2_eq i
  have hc1 : Scalar.cmpi .ne (Scalar.extui (Scalar.cmpi .eq (BitVec.ofNat 32 (i 1).val) 0#32)) 0#32 = 1#1 := hc2
  unfold owns
  iintro ⟨⟨%f0, %hf0, H0⟩, ⟨%f1, %hf1, H1⟩, ⟨%f2, %hf2, H2⟩, ⟨%d3, %f3, -, H3⟩, ⟨%a, %fa, -, Ha⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (fun y => ⟨_, List.mem_singleton_self _,
      View.mem_set_unit_zero zeroOff inb_S128x1024_S128x1024_0_0 y⟩)]
    sl_unfold_words
    rw [View.canon_unit_zero zeroOff]
    unfold outBlk5
    simp only [View.readAt_eq_ld, View.ld_unit_zero (S := S128x10240) zeroOff, View.ld_unit_zero (S := S10240x1024) zeroOff,
      View.ld_unit_zero (S := S1x1024) zeroOff, View.readCov_cons_toLoadRect]
  iexists _; iexists _; isplitr
  swap; · iexact Ha
  ipureintro; rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => outBlk5 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = outBlk5 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

theorem hin5 (c : Dev nD) : Pipeline.ΦA spec5 c ⊢ (dat5 V c).Φ 0 := by
  dsimp only [dat5]; iintro H; iexact H

theorem hout5 (c : Dev nD) : (dat5 V c).Φ (Fin.last cfg5.N) ⊢ Pipeline.ΦA spec5 c := by
  dsimp only [dat5]; iintro H; iexact H

theorem live5_3 (t : Fin cfg5.N) : idle5 3 (grid5.coords t) = false := by
  show (!(k5_cond2 (grid5.coords t) == 1#1)) = false
  rw [k5_cond2_eq]; rfl

private theorem scratch_eq (c : Dev nD) :
    (iprop(∃ a, owns (c : Thread nD τ) (Memref.whole cc5_scratch0) fullShare a) : sProp 𝕄)
      = iprop(∃ f : Buf (Elt F) ((c : Thread nD τ).loc cc5_scratch0), ((c : Thread nD τ).loc cc5_scratch0) ↦{fullShare} f) := by
  simp only [owns_whole]

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = Pipeline.ΦA spec5 c from rfl, show (dat5 V c).Φ t.castSucc = Pipeline.ΦA spec5 c from rfl,
    show (dat5 V c).owesAt () t.succ = (dat5 V c).owesAt () t.castSucc from rfl,
    after5_0, after5_1, after5_2, after5_3]
  unfold Pipeline.ΦA
  rw [scopedRest5_split, ← scratch_eq]
  iintro ⟨⟨⟨Ha, Hrest⟩, Hp⟩, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  isplitl [Ha]; · iexact Ha
  iintro ⟨H0, H1, H2, H3, Ha⟩
  isplitl [Ha Hrest Hp]
  · isplitr [Hp]
    · isplitl [Ha]; · iexact Ha
      iexact Hrest
    iexact Hp
  isplitl [Ho]; · iexact Ho
  isplitl [H0]; · iexact H0
  isplitl [H1]; · iexact H1
  isplitl [H2]; · iexact H2
  iexact H3

theorem body_obligation5 (c : Dev nD) : BodyObligation (dat5 (F := F) V c) (defs₀ (F := F)) Variants.none () Set.univ := fun t => by
  rw [bigSep_W5, bigSep_W5]
  simp only [live5_3]
  split
  · rename_i h; rw [live5_3] at h; exact absurd h Bool.false_ne_true
  · exact sound_body5 V c t

end Cert.KernelIdeal.Hand

end
-- ==== Proof.KIReg6.lean ====
import proofs.«419261_j25872882991625_3_alg».proof.Proof.Gen.KernelIdeal.Launch
import proofs.«419261_j25872882991625_3_alg».proof.Proof.Gen.KernelIdeal.Skeleton
import proofs.«419261_j25872882991625_3_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def acc6 (c : Dev nD) : (n : ℕ) → n < cfg6.N → Vec F S64x1024 .f32
  | 0, hn => k6_pay2 (iblk6 V c 0 ⟨0, hn⟩) (iblk6 V c 1 ⟨0, hn⟩) (k6_pay1 (F := F))
  | n + 1, hn => k6_pay2 (iblk6 V c 0 ⟨n + 1, hn⟩) (iblk6 V c 1 ⟨n + 1, hn⟩) (acc6 c n (Nat.lt_of_succ_lt hn))

def Phi6 (c : Dev nD) : (n : ℕ) → n ≤ cfg6.N → sProp 𝕄
  | 0, _ => Pipeline.ΦA spec6 c
  | n + 1, hn => iprop(Pipeline.scopedRestBut (Ix := Unit) (Name := ℕ) (U := UR sig nD τ) (Lvl := ℕ) (Val := Elt F) spec6 c [cc6_scratch0]
      ∗ (∃ r, prngReg c r)
      ∗ owns (c : Thread nD τ) (Memref.whole cc6_scratch0 : Memref sig .tc .vmem S64x1024 .f32) fullShare (acc6 V c n hn))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => acc6 V c t.val t.isLt
  Φ t := Phi6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = acc6 V c t.val t.isLt := by dsimp only [dat6]

theorem zeroOff6 : (![0, 0] : Fin 2 → ℕ) = fun _ => 0 := by
  funext a; fin_cases a <;> rfl

theorem readAt_all6 {S : Shape} {e : EltTy} {m : Memref sig .tc .vmem S e} (h : m.IsWhole) (X : S.Idx → Elt F e)
    {off : Fin S.rank → ℕ} (hz : off = fun _ => 0) (inb : ∀ a, off a + S.size a ≤ S.size a) :
    View.readAt (Elt F) m.view (Rect.unit off S.size inb).toLoadRect (h.unread X) = X := by
  rw [View.readAt_eq_ld, h.read_unread, View.ld_unit_zero hz]

theorem read_stored_all6 {S : Shape} {e : EltTy} {m : Memref sig .tc .vmem S e} (f : m.view.ty.Contents (Elt F))
    {off : Fin S.rank → ℕ} (hz : off = fun _ => 0) (inb : ∀ a, off a + S.size a ≤ S.size a) (w : S.Idx → Elt F e)
    (L : List (View.Piece (Elt F) S e)) :
    m.view.read (Elt F) (m.view.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz]

abbrev isFirst6 (i : grid6.Coords) : Prop :=
  Scalar.cmpi .ne (Scalar.extui (Scalar.cmpi .eq (BitVec.ofNat 32 (i 1).val) 0#32)) 0#32 = 1#1

theorem isFirst6_iff : ∀ t : Fin cfg6.N, isFirst6 (grid6.coords t) ↔ t.val = 0 :=
  (by decide +kernel : ∀ t : Fin grid6.N, isFirst6 (grid6.coords t) ↔ t.val = 0)

abbrev isLast6 (i : grid6.Coords) : Prop := k6_cond2 i = 1#1

theorem isLast6_iff : ∀ t : Fin cfg6.N, isLast6 (grid6.coords t) ↔ t.val = 3 :=
  (by decide +kernel : ∀ t : Fin grid6.N, isLast6 (grid6.coords t) ↔ t.val = 3)

theorem runFirst6 (c : Dev nD) (i : grid6.Coords) (hf : isFirst6 i) (hl : ¬isLast6 i)
    (mP : Memref sig .tc .vmem S64x2560 .bf16) (wP : mP.IsWhole) (mA : Memref sig .tc .vmem S2560x1024 .bf16) (wA : mA.IsWhole)
    (mB : Memref sig .tc .vmem S1x1024 .f32) (wB : mB.IsWhole) (mO : Memref sig .tc .vmem S64x1024 .f32) (wO : mO.IsWhole)
    (mS : Memref sig .tc .vmem S64x1024 .f32) (wS : mS.IsWhole)
    (x0 : Vec F S64x2560 .bf16) (x1 : Vec F S2560x1024 .bf16) (s : Vec F S64x1024 .f32) (K : PUnit → sProp 𝕄) :
    iprop(owns (c : Thread nD τ) mP fullShare x0 ∗ owns (c : Thread nD τ) mA fullShare x1 ∗ owns (c : Thread nD τ) mS fullShare s
        ∗ (iprop(owns (c : Thread nD τ) mP fullShare x0 ∗ owns (c : Thread nD τ) mA fullShare x1
            ∗ owns (c : Thread nD τ) mS fullShare (k6_pay2 x0 x1 (k6_pay1 (F := F)))) -∗ K ⟨⟩))
      ⊢ wp frame (wpE (defs₀ (F := F)) Variants.none c none) Set.univ (cc6_kernel i mP wP mA wA mB wB mO wO mS wS) K := by
  simp only [cc6_kernel_eq_skeleton]; unfold cc6_kernel_skel
  unfold owns
  iintro ⟨⟨%fP, %eP, HP⟩, ⟨%fA, %eA, HA⟩, ⟨%fS, %eS, HS⟩, Hk⟩
  obtain rfl := wP.eq_unread eP; obtain rfl := wA.eq_unread eA; obtain rfl := wS.eq_unread eS
  sl_exec (disch := first | exact hf | exact hl)
  sl_step
  iapply Hk
  isplitl [HP]
  · iexists _; isplitr; · ipureintro; exact wP.read_unread _
    iexact HP
  isplitl [HA]
  · iexists _; isplitr; · ipureintro; exact wA.read_unread _
    iexact HA
  iexists _; isplitr
  swap; · iexact HS
  ipureintro
  sl_unfold_run_names
  rw [read_stored_all6 _ zeroOff6, readAt_all6 wP x0 zeroOff6, readAt_all6 wA x1 zeroOff6, View.readCov_unit_zero _ zeroOff6]

theorem runMid6 (c : Dev nD) (i : grid6.Coords) (hf : ¬isFirst6 i) (hl : ¬isLast6 i)
    (mP : Memref sig .tc .vmem S64x2560 .bf16) (wP : mP.IsWhole) (mA : Memref sig .tc .vmem S2560x1024 .bf16) (wA : mA.IsWhole)
    (mB : Memref sig .tc .vmem S1x1024 .f32) (wB : mB.IsWhole) (mO : Memref sig .tc .vmem S64x1024 .f32) (wO : mO.IsWhole)
    (mS : Memref sig .tc .vmem S64x1024 .f32) (wS : mS.IsWhole)
    (x0 : Vec F S64x2560 .bf16) (x1 : Vec F S2560x1024 .bf16) (s : Vec F S64x1024 .f32) (K : PUnit → sProp 𝕄) :
    iprop(owns (c : Thread nD τ) mP fullShare x0 ∗ owns (c : Thread nD τ) mA fullShare x1 ∗ owns (c : Thread nD τ) mS fullShare s
        ∗ (iprop(owns (c : Thread nD τ) mP fullShare x0 ∗ owns (c : Thread nD τ) mA fullShare x1
            ∗ owns (c : Thread nD τ) mS fullShare (k6_pay2 x0 x1 s)) -∗ K ⟨⟩))
      ⊢ wp frame (wpE (defs₀ (F := F)) Variants.none c none) Set.univ (cc6_kernel i mP wP mA wA mB wB mO wO mS wS) K := by
  simp only [cc6_kernel_eq_skeleton]; unfold cc6_kernel_skel
  unfold owns
  iintro ⟨⟨%fP, %eP, HP⟩, ⟨%fA, %eA, HA⟩, ⟨%fS, %eS, HS⟩, Hk⟩
  obtain rfl := wP.eq_unread eP; obtain rfl := wA.eq_unread eA; obtain rfl := wS.eq_unread eS
  sl_exec (disch := first | exact hf | exact hl)
  sl_step
  iapply Hk
  isplitl [HP]
  · iexists _; isplitr; · ipureintro; exact wP.read_unread _
    iexact HP
  isplitl [HA]
  · iexists _; isplitr; · ipureintro; exact wA.read_unread _
    iexact HA
  iexists _; isplitr
  swap; · iexact HS
  ipureintro
  rw [read_stored_all6 _ zeroOff6, readAt_all6 wP x0 zeroOff6, readAt_all6 wA x1 zeroOff6, readAt_all6 wS s zeroOff6]

theorem runLast6 (c : Dev nD) (i : grid6.Coords) (hf : ¬isFirst6 i) (hl : isLast6 i)
    (mP : Memref sig .tc .vmem S64x2560 .bf16) (wP : mP.IsWhole) (mA : Memref sig .tc .vmem S2560x1024 .bf16) (wA : mA.IsWhole)
    (mB : Memref sig .tc .vmem S1x1024 .f32) (wB : mB.IsWhole) (mO : Memref sig .tc .vmem S64x1024 .f32) (wO : mO.IsWhole)
    (mS : Memref sig .tc .vmem S64x1024 .f32) (wS : mS.IsWhole)
    (x0 : Vec F S64x2560 .bf16) (x1 : Vec F S2560x1024 .bf16) (s o : Vec F S64x1024 .f32) (K : PUnit → sProp 𝕄) :
    iprop(owns (c : Thread nD τ) mP fullShare x0 ∗ owns (c : Thread nD τ) mA fullShare x1 ∗ owns (c : Thread nD τ) mS fullShare s
        ∗ owns (c : Thread nD τ) mO fullShare o
        ∗ (iprop(owns (c : Thread nD τ) mP fullShare x0 ∗ owns (c : Thread nD τ) mA fullShare x1
            ∗ owns (c : Thread nD τ) mS fullShare (k6_pay2 x0 x1 s) ∗ owns (c : Thread nD τ) mO fullShare (k6_pay2 x0 x1 s)) -∗ K ⟨⟩))
      ⊢ wp frame (wpE (defs₀ (F := F)) Variants.none c none) Set.univ (cc6_kernel i mP wP mA wA mB wB mO wO mS wS) K := by
  simp only [cc6_kernel_eq_skeleton]; unfold cc6_kernel_skel
  unfold owns
  iintro ⟨⟨%fP, %eP, HP⟩, ⟨%fA, %eA, HA⟩, ⟨%fS, %eS, HS⟩, ⟨%fO, %eO, HO⟩, Hk⟩
  obtain rfl := wP.eq_unread eP; obtain rfl := wA.eq_unread eA; obtain rfl := wS.eq_unread eS; obtain rfl := wO.eq_unread eO
  sl_exec (disch := first | exact hf | exact hl)
  sl_step
  iapply Hk
  isplitl [HP]
  · iexists _; isplitr; · ipureintro; exact wP.read_unread _
    iexact HP
  isplitl [HA]
  · iexists _; isplitr; · ipureintro; exact wA.read_unread _
    iexact HA
  isplitl [HS]
  · iexists _; isplitr
    swap; · iexact HS
    ipureintro
    sl_unfold_run_names
    rw [read_stored_all6 _ zeroOff6, readAt_all6 wP x0 zeroOff6, readAt_all6 wA x1 zeroOff6, readAt_all6 wS s zeroOff6]
  iexists _; isplitr
  swap; · iexact HO
  ipureintro
  sl_unfold_run_names
  rw [read_stored_all6 _ zeroOff6, View.readCov_unit_zero _ zeroOff6, readAt_all6 wP x0 zeroOff6, readAt_all6 wA x1 zeroOff6,
    readAt_all6 wS s zeroOff6]

theorem acc6_first (c : Dev nD) (t : Fin cfg6.N) (h : t.val = 0) :
    acc6 V c t.val t.isLt = k6_pay2 (iblk6 V c 0 t) (iblk6 V c 1 t) (k6_pay1 (F := F)) := by
  obtain ⟨n, hn⟩ := t
  cases n with
  | zero => rfl
  | succ n => exact absurd h (Nat.succ_ne_zero n)

theorem acc6_next (c : Dev nD) (t : Fin cfg6.N) (h : t.val ≠ 0) :
    acc6 V c t.val t.isLt = k6_pay2 (iblk6 V c 0 t) (iblk6 V c 1 t)
      (acc6 V c (t.val - 1) (Nat.lt_of_le_of_lt (Nat.sub_le _ _) t.isLt)) := by
  obtain ⟨n, hn⟩ := t
  cases n with
  | zero => exact absurd rfl h
  | succ n => rfl

theorem Phi6_zero (c : Dev nD) (n : ℕ) (h : n ≤ cfg6.N) (hz : n = 0) : Phi6 V c n h = Pipeline.ΦA spec6 c := by
  subst hz; rfl

theorem Phi6_succ (c : Dev nD) (n : ℕ) (hn : n < cfg6.N) :
    Phi6 V c (n + 1) hn = iprop(Pipeline.scopedRestBut (Ix := Unit) (Name := ℕ) (U := UR sig nD τ) (Lvl := ℕ) (Val := Elt F) spec6 c [cc6_scratch0]
      ∗ (∃ r, prngReg c r)
      ∗ owns (c : Thread nD τ) (Memref.whole cc6_scratch0 : Memref sig .tc .vmem S64x1024 .f32) fullShare (acc6 V c n hn)) := rfl

theorem Phi6_pos (c : Dev nD) (n : ℕ) (h : n ≤ cfg6.N) (hz : n ≠ 0) :
    Phi6 V c n h = iprop(Pipeline.scopedRestBut (Ix := Unit) (Name := ℕ) (U := UR sig nD τ) (Lvl := ℕ) (Val := Elt F) spec6 c [cc6_scratch0]
      ∗ (∃ r, prngReg c r)
      ∗ owns (c : Thread nD τ) (Memref.whole cc6_scratch0 : Memref sig .tc .vmem S64x1024 .f32) fullShare
          (acc6 V c (n - 1) (by omega))) := by
  cases n with
  | zero => exact absurd rfl hz
  | succ n => rfl

theorem PhiA6_eq (c : Dev nD) :
    (Pipeline.ΦA spec6 c : sProp 𝕄)
      = iprop(iprop(iprop(∃ d, owns (c : Thread nD τ) (Memref.whole cc6_scratch0 : Memref sig .tc .vmem S64x1024 .f32) fullShare d)
          ∗ Pipeline.scopedRestBut (Ix := Unit) (Name := ℕ) (U := UR sig nD τ) (Lvl := ℕ) (Val := Elt F) spec6 c [cc6_scratch0])
        ∗ (∃ r, prngReg c r)) := by
  unfold Pipeline.ΦA; rw [scopedRest6_split]; simp only [owns_whole]; try rfl

theorem hin6 (c : Dev nD) : Pipeline.ΦA spec6 c ⊢ (dat6 V c).Φ 0 := by
  rw [show (dat6 V c).Φ 0 = Phi6 V c 0 (Nat.zero_le _) from rfl, Phi6_zero V c 0 _ rfl]

theorem hout6 (c : Dev nD) : (dat6 V c).Φ (Fin.last cfg6.N) ⊢ Pipeline.ΦA spec6 c := by
  rw [show (dat6 V c).Φ (Fin.last cfg6.N) = Phi6 V c cfg6.N (Nat.le_refl _) from rfl,
    Phi6_pos V c _ _ (by rw [show cfg6.N = 4 from N_6]; decide), PhiA6_eq]
  iintro ⟨HR, Hg, HS⟩
  isplitr [Hg]
  · isplitl [HS]
    · iexists _; iexact HS
    iexact HR
  iexact Hg

theorem before6_0 (c : Dev nD) (t : Fin cfg6.N) (d) : (dat6 V c).before 0 t d = iblk6 V c 0 t := by
  rw [(dat6 V c).before_in_eq_fetched 0 rfl (fun _ => rfl) (fun _ _ _ => rfl)
    (fun u => by rw [after6_0]; unfold Dat.blockOf iblk6; rw [A_eq6]) t d]
  unfold Dat.fetched Dat.blockOf iblk6; rw [A_eq6]; rfl
theorem before6_1 (c : Dev nD) (t : Fin cfg6.N) (d) : (dat6 V c).before 1 t d = iblk6 V c 1 t := by
  rw [(dat6 V c).before_in_eq_fetched 1 rfl (fun _ => rfl) (fun _ _ _ => rfl)
    (fun u => by rw [after6_1]; unfold Dat.blockOf iblk6; rw [A_eq6]) t d]
  unfold Dat.fetched Dat.blockOf iblk6; rw [A_eq6]; rfl
theorem before6_2 (c : Dev nD) (t : Fin cfg6.N) (d) : (dat6 V c).before 2 t d = iblk6 V c 2 t := by
  rw [(dat6 V c).before_in_eq_fetched 2 rfl (fun _ => rfl) (fun _ _ _ => rfl)
    (fun u => by rw [after6_2]; unfold Dat.blockOf iblk6; rw [A_eq6]) t d]
  unfold Dat.fetched Dat.blockOf iblk6; rw [A_eq6]; rfl

theorem leaves6_0 (c : Dev nD) (t : Fin cfg6.N) :
    (dat6 V c).leavesExact 0 t = owns (c : Thread nD τ) (st6_0 t) fullShare (iblk6 V c 0 t) := by
  unfold Dat.leavesExact; rw [show cfg6.idle 0 (cfg6.grid.coords t) = false from rfl, after6_0]
theorem leaves6_1 (c : Dev nD) (t : Fin cfg6.N) :
    (dat6 V c).leavesExact 1 t = owns (c : Thread nD τ) (st6_1 t) fullShare (iblk6 V c 1 t) := by
  unfold Dat.leavesExact; rw [show cfg6.idle 1 (cfg6.grid.coords t) = false from rfl, after6_1]
theorem leaves6_2 (c : Dev nD) (t : Fin cfg6.N) :
    (dat6 V c).leavesExact 2 t = owns (c : Thread nD τ) (st6_2 t) fullShare (iblk6 V c 2 t) := by
  unfold Dat.leavesExact; rw [show cfg6.idle 2 (cfg6.grid.coords t) = false from rfl, after6_2]

theorem leaves6_3_idle (c : Dev nD) (t : Fin cfg6.N) (hl : ¬isLast6 (grid6.coords t)) :
    (dat6 V c).leavesExact 3 t
      = iprop(∃ d, owns (c : Thread nD τ) (st6_3 t) fullShare ((dat6 V c).before 3 t d)) := by
  refine Dat.leavesExact_idle (dat6 V c) 3 t ?_ ?_
  · show (!(k6_cond2 (grid6.coords t) == 1#1)) = true
    rw [Bool.not_eq_true', beq_eq_false_iff_ne]; exact hl
  · have hN : t.val < 4 := lt_of_lt_of_eq t.isLt (show cfg6.N = 4 from N_6)
    have hlast : ¬t.val = 3 := fun h => hl ((isLast6_iff t).mpr h)
    exact Bool.eq_false_iff.mpr fun h => hlast (by have := (flush6_3 t).mp h; omega)

theorem leaves6_3_live (c : Dev nD) (t : Fin cfg6.N) (hl : isLast6 (grid6.coords t)) :
    (dat6 V c).leavesExact 3 t = owns (c : Thread nD τ) (st6_3 t) fullShare (acc6 V c t.val t.isLt) := by
  unfold Dat.leavesExact
  rw [show cfg6.idle 3 (cfg6.grid.coords t) = false from by
    show (!(k6_cond2 (grid6.coords t) == 1#1)) = false
    rw [show k6_cond2 (grid6.coords t) = 1#1 from hl]; rfl, after6_3]

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

def bodyPost6 (c : Dev nD) (t : Fin cfg6.N) : sProp 𝕄 :=
  iprop((dat6 V c).Φ t.succ ∗ (dat6 V c).owesAt () t.succ
    ∗ (dat6 V c).leavesExact 0 t ∗ (dat6 V c).leavesExact 1 t ∗ (dat6 V c).leavesExact 2 t ∗ (dat6 V c).leavesExact 3 t)

set_option maxHeartbeats 1600000 in

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).owesAt () t.succ = (dat6 V c).owesAt () t.castSucc from rfl,
    show (dat6 V c).Φ t.succ = Phi6 V c (t.val + 1) t.isLt from rfl,
    show (dat6 V c).Φ t.castSucc = Phi6 V c t.val (Nat.le_of_lt t.isLt) from rfl,
    leaves6_0, leaves6_1, leaves6_2]
  have hN : t.val < 4 := lt_of_lt_of_eq t.isLt (show cfg6.N = 4 from N_6)
  by_cases hz : t.val = 0
  · have hf : isFirst6 (grid6.coords t) := (isFirst6_iff t).mpr hz
    have hl : ¬isLast6 (grid6.coords t) := fun h => by have := (isLast6_iff t).mp h; omega
    rw [Phi6_zero V c _ _ hz, PhiA6_eq, leaves6_3_idle V c t hl,
      Phi6_succ, acc6_first V c t hz]
    iintro ⟨⟨⟨⟨%sv, HS⟩, HR⟩, Hg⟩, Ho, ⟨%dP, HP⟩, ⟨%dA, HA⟩, ⟨%dB, HB⟩, ⟨%dO, HO⟩⟩
    iapply (runFirst6 c (grid6.coords t) hf hl _ _ _ _ _ _ _ _ _ _ (iblk6 V c 0 t) (iblk6 V c 1 t) sv _)
    isplitl [HP]; · iexact HP
    isplitl [HA]; · iexact HA
    isplitl [HS]; · iexact HS
    iintro ⟨HP, HA, HS⟩
    isplitl [HR Hg HS]
    · isplitl [HR]; · iexact HR
      isplitl [Hg]; · iexact Hg
      iexact HS
    isplitl [Ho]; · iexact Ho
    isplitl [HP]; · iexact HP
    isplitl [HA]; · iexact HA
    isplitl [HB]; · iexact HB
    iexists _; iexact HO
  · have hf : ¬isFirst6 (grid6.coords t) := fun h => hz ((isFirst6_iff t).mp h)
    by_cases hlast : t.val = 3
    · have hl : isLast6 (grid6.coords t) := (isLast6_iff t).mpr hlast
      rw [Phi6_pos V c _ _ hz, leaves6_3_live V c t hl,
        Phi6_succ, acc6_next V c t hz]
      iintro ⟨⟨HR, Hg, HS⟩, Ho, ⟨%dP, HP⟩, ⟨%dA, HA⟩, ⟨%dB, HB⟩, ⟨%dO, HO⟩⟩
      iapply (runLast6 c (grid6.coords t) hf hl _ _ _ _ _ _ _ _ _ _ (iblk6 V c 0 t) (iblk6 V c 1 t) _ _ _)
      isplitl [HP]; · iexact HP
      isplitl [HA]; · iexact HA
      isplitl [HS]; · iexact HS
      isplitl [HO]; · iexact HO
      iintro ⟨HP, HA, HS, HO⟩
      isplitl [HR Hg HS]
      · isplitl [HR]; · iexact HR
        isplitl [Hg]; · iexact Hg
        iexact HS
      isplitl [Ho]; · iexact Ho
      isplitl [HP]; · iexact HP
      isplitl [HA]; · iexact HA
      isplitl [HB]; · iexact HB
      iexact HO
    · have hl : ¬isLast6 (grid6.coords t) := fun h => hlast ((isLast6_iff t).mp h)
      rw [Phi6_pos V c _ _ hz, leaves6_3_idle V c t hl,
        Phi6_succ, acc6_next V c t hz]
      iintro ⟨⟨HR, Hg, HS⟩, Ho, ⟨%dP, HP⟩, ⟨%dA, HA⟩, ⟨%dB, HB⟩, ⟨%dO, HO⟩⟩
      iapply (runMid6 c (grid6.coords t) hf hl _ _ _ _ _ _ _ _ _ _ (iblk6 V c 0 t) (iblk6 V c 1 t) _ _)
      isplitl [HP]; · iexact HP
      isplitl [HA]; · iexact HA
      isplitl [HS]; · iexact HS
      iintro ⟨HP, HA, HS⟩
      isplitl [HR Hg HS]
      · isplitl [HR]; · iexact HR
        isplitl [Hg]; · iexact Hg
        iexact HS
      isplitl [Ho]; · iexact Ho
      isplitl [HP]; · iexact HP
      isplitl [HA]; · iexact HA
      isplitl [HB]; · iexact HB
      iexists _; iexact HO

theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KIReg7.lean ====
import proofs.«419261_j25872882991625_3_alg».proof.Proof.Gen.KernelIdeal.Launch
import proofs.«419261_j25872882991625_3_alg».proof.Proof.Gen.KernelIdeal.Skeleton
import proofs.«419261_j25872882991625_3_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => k7_pay3 (k7_pay2 (iblk7 V c 0 t) (iblk7 V c 1 t) (k7_pay1 (F := F))) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) :
    (dat7 V c).after 3 t = k7_pay3 (k7_pay2 (iblk7 V c 0 t) (iblk7 V c 1 t) (k7_pay1 (F := F))) (iblk7 V c 2 t) := by
  dsimp only [dat7]

theorem zoff7 : (![0, 0] : Fin 2 → Nat) = fun _ => 0 := by funext a; fin_cases a <;> rfl

set_option maxHeartbeats 2000000 in

theorem sound_kernel7 (c : Dev nD) (E : Set ℕ) (i : grid7.Coords) (hi : (i 1).val = 0)
    (arg2 : Memref sig .tc .vmem S64x1024 .f32) (harg2 : arg2.IsWhole) (arg3 : Memref sig .tc .vmem S1024x128 .f32) (harg3 : arg3.IsWhole)
    (arg4 : Memref sig .tc .vmem S1x128 .f32) (harg4 : arg4.IsWhole) (arg5 : Memref sig .tc .vmem S64x128 .f32) (harg5 : arg5.IsWhole)
    (arg6 : Memref sig .tc .vmem S64x128 .f32) (harg6 : arg6.IsWhole)
    (x0 : Vec F S64x1024 .f32) (x1 : Vec F S1024x128 .f32) (x2 : Vec F S1x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k7_pay3 (k7_pay2 x0 x1 (k7_pay1 (F := F))) x2)
            ∗ (∃ d, owns (c : Thread nD τ) arg6 fullShare d)) -∗ K ⟨⟩))
      ⊢ wp frame (wpE (defs₀ (F := F)) Variants.none c none) E (cc7_kernel i arg2 harg2 arg3 harg3 arg4 harg4 arg5 harg5 arg6 harg6) K := by
  simp only [cc7_kernel_eq_skeleton]; unfold cc7_kernel_skel
  have hw : BitVec.ofNat 32 (i 1).val = 0#32 := by rw [hi]
  have hc2 : k7_cond2 i = 1#1 := by unfold k7_cond2; rw [hw]; decide
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec (disch := first | sl_exact hc2 | (rw [hw]; decide))
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (fun y => ⟨_, List.mem_singleton_self _, View.mem_set_unit_zero zoff7 inb_S64x128_S64x128_0_0 y⟩),
      View.canon_unit_zero zoff7]
    sl_unfold_words
    rw [View.readCov_cons_toLoadRect, View.readCov_unit_zero _ zoff7]
    simp only [View.readAt_eq_ld, View.ld_unit_zero (S := S64x1024) zoff7, View.ld_unit_zero (S := S1024x128) zoff7,
      View.ld_unit_zero (S := S1x128) zoff7]
  iexists _, _; isplitr
  swap; · iexact H4
  ipureintro; rfl

theorem PhiA7_eq (c : Dev nD) :
    (Pipeline.ΦA spec7 c : sProp 𝕄)
      = iprop(iprop((∃ d, owns (c : Thread nD τ) (Memref.whole cc7_scratch0) fullShare d) ∗ Pipeline.scopedRestBut spec7 c [cc7_scratch0])
          ∗ (∃ r, prngReg c r)) := by
  unfold Pipeline.ΦA; rw [scopedRest7_split]; simp only [owns_whole]

theorem before7_0 (c : Dev nD) (t : Fin cfg7.N) (d) : (dat7 V c).before 0 t d = iblk7 V c 0 t :=
  ((dat7 V c).before_fetched 0 t (fetch7_0 t) d).trans (by unfold Dat.fetched Dat.blockOf iblk7; rw [A_eq7]; try rfl)
theorem before7_1 (c : Dev nD) (t : Fin cfg7.N) (d) : (dat7 V c).before 1 t d = iblk7 V c 1 t :=
  ((dat7 V c).before_fetched 1 t (fetch7_1 t) d).trans (by unfold Dat.fetched Dat.blockOf iblk7; rw [A_eq7]; try rfl)
theorem before7_2 (c : Dev nD) (t : Fin cfg7.N) (d) : (dat7 V c).before 2 t d = iblk7 V c 2 t :=
  ((dat7 V c).before_fetched 2 t (fetch7_2 t) d).trans (by unfold Dat.fetched Dat.blockOf iblk7; rw [A_eq7]; try rfl)

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

def bodyPost7 (c : Dev nD) (t : Fin cfg7.N) : sProp 𝕄 :=
  iprop((dat7 V c).Φ t.succ ∗ (dat7 V c).owesAt () t.succ
    ∗ (dat7 V c).leavesExact 0 t ∗ (dat7 V c).leavesExact 1 t ∗ (dat7 V c).leavesExact 2 t ∗ (dat7 V c).leavesExact 3 t)

set_option maxHeartbeats 2000000 in

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  have hi : ((grid7.coords t) 1).val = 0 := Nat.lt_one_iff.mp ((grid7.coords t) 1).isLt
  have hc2 : k7_cond2 (grid7.coords t) = 1#1 := by
    unfold k7_cond2; rw [show BitVec.ofNat 32 ((grid7.coords t) 1).val = 0#32 from by rw [hi]]; decide
  have hlive : cfg7.idle 3 (cfg7.grid.coords t) = false := by
    show (!(k7_cond2 (grid7.coords t) == 1#1)) = false
    rw [hc2]; rfl
  rw [show (dat7 V c).Φ t.succ = Pipeline.ΦA spec7 c from rfl, show (dat7 V c).Φ t.castSucc = Pipeline.ΦA spec7 c from rfl,
    show (dat7 V c).owesAt () t.succ = (dat7 V c).owesAt () t.castSucc from rfl,
    show (dat7 V c).leavesExact 0 t = owns (c : Thread nD τ) (st7_0 t) fullShare ((dat7 V c).after 0 t) from rfl,
    show (dat7 V c).leavesExact 1 t = owns (c : Thread nD τ) (st7_1 t) fullShare ((dat7 V c).after 1 t) from rfl,
    show (dat7 V c).leavesExact 2 t = owns (c : Thread nD τ) (st7_2 t) fullShare ((dat7 V c).after 2 t) from rfl,
    show (dat7 V c).leavesExact 3 t = owns (c : Thread nD τ) (st7_3 t) fullShare ((dat7 V c).after 3 t) from by
      unfold Dat.leavesExact; rw [hlive],
    after7_0, after7_1, after7_2, after7_3, PhiA7_eq]
  iintro ⟨⟨⟨HS, HR⟩, Hg⟩, Ho, ⟨%d0, H0⟩, ⟨%d1, H1⟩, ⟨%d2, H2⟩, ⟨%d3, H3⟩⟩
  iapply (sound_kernel7 c Set.univ _ hi _ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  iexact H3

theorem body_obligation7 (c : Dev nD) : BodyObligation (dat7 (F := F) V c) (defs₀ (F := F)) Variants.none () Set.univ := fun t => by
  rw [bigSep_W7, bigSep_W7]
  exact sound_body7 V c t

theorem hin7 (c : Dev nD) : Pipeline.ΦA spec7 c ⊢ (dat7 V c).Φ 0 := by
  dsimp only [dat7]; exact .rfl

theorem hout7 (c : Dev nD) : (dat7 V c).Φ (Fin.last cfg7.N) ⊢ Pipeline.ΦA spec7 c := by
  dsimp only [dat7]; exact .rfl

end Cert.KernelIdeal.Hand

end
-- ==== Proof.KIRegFacts.lean ====
import proofs.«419261_j25872882991625_3_alg».proof.Proof.KIReg0
import proofs.«419261_j25872882991625_3_alg».proof.Proof.KIReg1
import proofs.«419261_j25872882991625_3_alg».proof.Proof.KIReg2
import proofs.«419261_j25872882991625_3_alg».proof.Proof.KIReg3
import proofs.«419261_j25872882991625_3_alg».proof.Proof.KIReg4
import proofs.«419261_j25872882991625_3_alg».proof.Proof.KIReg5
import proofs.«419261_j25872882991625_3_alg».proof.Proof.KIReg6
import proofs.«419261_j25872882991625_3_alg».proof.Proof.KIReg7

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.Sem
open Idealize.ShloMosaic.Rounds
open Idealize.ShloMosaic.Pipeline (Dat Cfg Window BodyObligation cellOf)

variable {F : FTy → Type} [FloatOps F]

theorem q_eq0 (V : (c : Dev nD) → (b : Ref sig .tc) → Buf (Elt F) ((c : Thread nD τ).loc b)) (c : Dev nD) (w : Fin cfg0.W) : (dat0 V c).q w = fullShare := rfl
theorem owed_eq0 (V : (c : Dev nD) → (b : Ref sig .tc) → Buf (Elt F) ((c : Thread nD τ).loc b)) (c : Dev nD) (t : Fin (cfg0.N + 1)) : (dat0 V c).owed t = 0 := rfl
theorem recorded_eq0 (V : (c : Dev nD) → (b : Ref sig .tc) → Buf (Elt F) ((c : Thread nD τ).loc b)) (c : Dev nD) (t : Fin (cfg0.N + 1)) : (dat0 V c).recorded t = Set.univ := rfl

theorem q_eq1 (V : (c : Dev nD) → (b : Ref sig .tc) → Buf (Elt F) ((c : Thread nD τ).loc b)) (c : Dev nD) (w : Fin cfg1.W) : (dat1 V c).q w = fullShare := rfl
theorem owed_eq1 (V : (c : Dev nD) → (b : Ref sig .tc) → Buf (Elt F) ((c : Thread nD τ).loc b)) (c : Dev nD) (t : Fin (cfg1.N + 1)) : (dat1 V c).owed t = 0 := rfl
theorem recorded_eq1 (V : (c : Dev nD) → (b : Ref sig .tc) → Buf (Elt F) ((c : Thread nD τ).loc b)) (c : Dev nD) (t : Fin (cfg1.N + 1)) : (dat1 V c).recorded t = Set.univ := rfl

theorem q_eq2 (V : (c : Dev nD) → (b : Ref sig .tc) → Buf (Elt F) ((c : Thread nD τ).loc b)) (c : Dev nD) (w : Fin cfg2.W) : (dat2 V c).q w = fullShare := rfl
theorem owed_eq2 (V : (c : Dev nD) → (b : Ref sig .tc) → Buf (Elt F) ((c : Thread nD τ).loc b)) (c : Dev nD) (t : Fin (cfg2.N + 1)) : (dat2 V c).owed t = 0 := rfl
theorem recorded_eq2 (V : (c : Dev nD) → (b : Ref sig .tc) → Buf (Elt F) ((c : Thread nD τ).loc b)) (c : Dev nD) (t : Fin (cfg2.N + 1)) : (dat2 V c).recorded t = Set.univ := rfl

theorem q_eq3 (V : (c : Dev nD) → (b : Ref sig .tc) → Buf (Elt F) ((c : Thread nD τ).loc b)) (c : Dev nD) (w : Fin cfg3.W) : (dat3 V c).q w = fullShare := rfl
theorem owed_eq3 (V : (c : Dev nD) → (b : Ref sig .tc) → Buf (Elt F) ((c : Thread nD τ).loc b)) (c : Dev nD) (t : Fin (cfg3.N + 1)) : (dat3 V c).owed t = 0 := rfl
theorem recorded_eq3 (V : (c : Dev nD) → (b : Ref sig .tc) → Buf (Elt F) ((c : Thread nD τ).loc b)) (c : Dev nD) (t : Fin (cfg3.N + 1)) : (dat3 V c).recorded t = Set.univ := rfl

theorem q_eq4 (V : (c : Dev nD) → (b : Ref sig .tc) → Buf (Elt F) ((c : Thread nD τ).loc b)) (c : Dev nD) (w : Fin cfg4.W) : (dat4 V c).q w = fullShare := rfl
theorem owed_eq4 (V : (c : Dev nD) → (b : Ref sig .tc) → Buf (Elt F) ((c : Thread nD τ).loc b)) (c : Dev nD) (t : Fin (cfg4.N + 1)) : (dat4 V c).owed t = 0 := rfl
theorem recorded_eq4 (V : (c : Dev nD) → (b : Ref sig .tc) → Buf (Elt F) ((c : Thread nD τ).loc b)) (c : Dev nD) (t : Fin (cfg4.N + 1)) : (dat4 V c).recorded t = Set.univ := rfl

theorem q_eq5 (V : (c : Dev nD) → (b : Ref sig .tc) → Buf (Elt F) ((c : Thread nD τ).loc b)) (c : Dev nD) (w : Fin cfg5.W) : (dat5 V c).q w = fullShare := rfl
theorem owed_eq5 (V : (c : Dev nD) → (b : Ref sig .tc) → Buf (Elt F) ((c : Thread nD τ).loc b)) (c : Dev nD) (t : Fin (cfg5.N + 1)) : (dat5 V c).owed t = 0 := rfl
theorem recorded_eq5 (V : (c : Dev nD) → (b : Ref sig .tc) → Buf (Elt F) ((c : Thread nD τ).loc b)) (c : Dev nD) (t : Fin (cfg5.N + 1)) : (dat5 V c).recorded t = Set.univ := rfl

theorem q_eq6 (V : (c : Dev nD) → (b : Ref sig .tc) → Buf (Elt F) ((c : Thread nD τ).loc b)) (c : Dev nD) (w : Fin cfg6.W) : (dat6 V c).q w = fullShare := rfl
theorem owed_eq6 (V : (c : Dev nD) → (b : Ref sig .tc) → Buf (Elt F) ((c : Thread nD τ).loc b)) (c : Dev nD) (t : Fin (cfg6.N + 1)) : (dat6 V c).owed t = 0 := rfl
theorem recorded_eq6 (V : (c : Dev nD) → (b : Ref sig .tc) → Buf (Elt F) ((c : Thread nD τ).loc b)) (c : Dev nD) (t : Fin (cfg6.N + 1)) : (dat6 V c).recorded t = Set.univ := rfl

theorem q_eq7 (V : (c : Dev nD) → (b : Ref sig .tc) → Buf (Elt F) ((c : Thread nD τ).loc b)) (c : Dev nD) (w : Fin cfg7.W) : (dat7 V c).q w = fullShare := rfl
theorem owed_eq7 (V : (c : Dev nD) → (b : Ref sig .tc) → Buf (Elt F) ((c : Thread nD τ).loc b)) (c : Dev nD) (t : Fin (cfg7.N + 1)) : (dat7 V c).owed t = 0 := rfl
theorem recorded_eq7 (V : (c : Dev nD) → (b : Ref sig .tc) → Buf (Elt F) ((c : Thread nD τ).loc b)) (c : Dev nD) (t : Fin (cfg7.N + 1)) : (dat7 V c).recorded t = Set.univ := rfl

end Cert.KernelIdeal.Hand

end
-- ==== Proof.KIBound.lean ====
import proofs.«419261_j25872882991625_3_alg».proof.Proof.Gen.KernelIdeal.Launch
import proofs.«419261_j25872882991625_3_alg».proof.Proof.KIRegFacts
import Idealize.ShloMosaic.Lib.Pipeline.FrameSuffix
import Idealize.ShloMosaic.Lib.Pipeline.RegionsLoop

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.ShloMosaic.Pipeline (Dat Cfg Window cellOf)

variable {F : FTy → Type} [FloatOps F]

theorem withArrays_of_not_mem {gr W : Nat} (win : Fin W → Pipeline.WinSpec sig gr) (c : Dev nD) (V : Valuation τ sig (Elt F))
    (A : (w : Fin W) → Buf (Elt F) ((win w).arr.view.loc (c : Thread nD τ))) (b : Ref sig .tc)
    (hb : b ∉ Finset.univ.image (Pipeline.arrRef win)) :
    Pipeline.withArrays win c V A (Proc.devRef .tc b) = V (Proc.devRef .tc b) :=
  Pipeline.withArrays_of_ne win c V A b fun w e => hb (Finset.mem_image.mpr ⟨w, Finset.mem_univ _, e⟩)

variable (m : (ℓ : Loc nD τ sig) → Buf (Elt F) ℓ)

abbrev W0 : Dev nD → Valuation τ sig (Elt F) := fun c b => m ((c : Thread nD τ).1, b)

abbrev W1 : Dev nD → Valuation τ sig (Elt F) := fun c => StableHlo.after main_part0_ops0 (W0 m c)

abbrev W2 : Dev nD → Valuation τ sig (Elt F) := fun c => StableHlo.after main_part1_ops0 (W1 m c)

abbrev W3 : Dev nD → Valuation τ sig (Elt F) := fun c => StableHlo.after main_part1_ops1 (W2 m c)

abbrev W4 : Dev nD → Valuation τ sig (Elt F) := fun c => StableHlo.after main_part1_ops2 (W3 m c)

abbrev V4 : (c : Dev nD) → (b : Ref sig .tc) → Buf (Elt F) ((c : Thread nD τ).loc b) := fun c b => W4 m c b

def W5 (c : Dev nD) : Valuation τ sig (Elt F) :=
  Pipeline.withArrays spec0 c (W4 m c) fun w => (dat0 (V4 m) c).arrAt w cfg0.N

abbrev V5 : (c : Dev nD) → (b : Ref sig .tc) → Buf (Elt F) ((c : Thread nD τ).loc b) := fun c b => W5 m c b
theorem W5_arr (c : Dev nD) (w : Fin cfg0.W) :
    W5 m c (Proc.devRef .tc (Pipeline.arrRef spec0 w)) = (dat0 (V4 m) c).arrAt w cfg0.N :=
  Pipeline.withArrays_arr spec0 launch0.win.arr_inj c _ _ w
theorem W5_of_ne (c : Dev nD) (b : Ref sig .tc) (hb : ∀ w, Pipeline.arrRef spec0 w ≠ b) :
    W5 m c (Proc.devRef .tc b) = W4 m c (Proc.devRef .tc b) :=
  Pipeline.withArrays_of_ne spec0 c _ _ b hb
theorem hF0 (c : Dev nD) (w : Fin cfg0.W) : (dat0 (V4 m) c).arrAt w cfg0.N = V5 m c (Pipeline.arrRef spec0 w) :=
  (W5_arr m c w).symm
theorem hrest0 (c : Dev nD) : ∀ b, b ∉ Finset.univ.image (Pipeline.arrRef spec0) → V5 m c b = V4 m c b :=
  fun b hb => withArrays_of_not_mem spec0 c _ _ b hb

abbrev W6 : Dev nD → Valuation τ sig (Elt F) := fun c => StableHlo.after main_part1_ops3 (W5 m c)

abbrev V6 : (c : Dev nD) → (b : Ref sig .tc) → Buf (Elt F) ((c : Thread nD τ).loc b) := fun c b => W6 m c b

def W7 (c : Dev nD) : Valuation τ sig (Elt F) :=
  Pipeline.withArrays spec1 c (W6 m c) fun w => (dat1 (V6 m) c).arrAt w cfg1.N

abbrev V7 : (c : Dev nD) → (b : Ref sig .tc) → Buf (Elt F) ((c : Thread nD τ).loc b) := fun c b => W7 m c b
theorem W7_arr (c : Dev nD) (w : Fin cfg1.W) :
    W7 m c (Proc.devRef .tc (Pipeline.arrRef spec1 w)) = (dat1 (V6 m) c).arrAt w cfg1.N :=
  Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) :=
  Pipeline.withArrays_of_ne spec1 c _ _ b hb
theorem hF1 (c : Dev nD) (w : Fin cfg1.W) : (dat1 (V6 m) c).arrAt w cfg1.N = V7 m c (Pipeline.arrRef spec1 w) :=
  (W7_arr m c w).symm
theorem hrest1 (c : Dev nD) : ∀ b, b ∉ Finset.univ.image (Pipeline.arrRef spec1) → V7 m c b = V6 m c b :=
  fun b hb => withArrays_of_not_mem spec1 c _ _ b hb

abbrev W8 : Dev nD → Valuation τ sig (Elt F) := fun c => StableHlo.after main_part1_ops4 (W7 m c)

abbrev W9 : Dev nD → Valuation τ sig (Elt F) := fun c => StableHlo.after main_part1_ops5 (W8 m c)

abbrev W10 : Dev nD → Valuation τ sig (Elt F) := fun c => StableHlo.after main_part1_ops6 (W9 m c)

abbrev V10 : (c : Dev nD) → (b : Ref sig .tc) → Buf (Elt F) ((c : Thread nD τ).loc b) := fun c b => W10 m c b

def W11 (c : Dev nD) : Valuation τ sig (Elt F) :=
  Pipeline.withArrays spec2 c (W10 m c) fun w => (dat2 (V10 m) c).arrAt w cfg2.N

abbrev V11 : (c : Dev nD) → (b : Ref sig .tc) → Buf (Elt F) ((c : Thread nD τ).loc b) := fun c b => W11 m c b
theorem W11_arr (c : Dev nD) (w : Fin cfg2.W) :
    W11 m c (Proc.devRef .tc (Pipeline.arrRef spec2 w)) = (dat2 (V10 m) c).arrAt w cfg2.N :=
  Pipeline.withArrays_arr spec2 launch2.win.arr_inj c _ _ w
theorem W11_of_ne (c : Dev nD) (b : Ref sig .tc) (hb : ∀ w, Pipeline.arrRef spec2 w ≠ b) :
    W11 m c (Proc.devRef .tc b) = W10 m c (Proc.devRef .tc b) :=
  Pipeline.withArrays_of_ne spec2 c _ _ b hb
theorem hF2 (c : Dev nD) (w : Fin cfg2.W) : (dat2 (V10 m) c).arrAt w cfg2.N = V11 m c (Pipeline.arrRef spec2 w) :=
  (W11_arr m c w).symm
theorem hrest2 (c : Dev nD) : ∀ b, b ∉ Finset.univ.image (Pipeline.arrRef spec2) → V11 m c b = V10 m c b :=
  fun b hb => withArrays_of_not_mem spec2 c _ _ b hb

abbrev W12 : Dev nD → Valuation τ sig (Elt F) := fun c => StableHlo.after main_part1_ops7 (W11 m c)

abbrev V12 : (c : Dev nD) → (b : Ref sig .tc) → Buf (Elt F) ((c : Thread nD τ).loc b) := fun c b => W12 m c b

def W13 (c : Dev nD) : Valuation τ sig (Elt F) :=
  Pipeline.withArrays spec3 c (W12 m c) fun w => (dat3 (V12 m) c).arrAt w cfg3.N

abbrev V13 : (c : Dev nD) → (b : Ref sig .tc) → Buf (Elt F) ((c : Thread nD τ).loc b) := fun c b => W13 m c b
theorem W13_arr (c : Dev nD) (w : Fin cfg3.W) :
    W13 m c (Proc.devRef .tc (Pipeline.arrRef spec3 w)) = (dat3 (V12 m) c).arrAt w cfg3.N :=
  Pipeline.withArrays_arr spec3 launch3.win.arr_inj c _ _ w
theorem W13_of_ne (c : Dev nD) (b : Ref sig .tc) (hb : ∀ w, Pipeline.arrRef spec3 w ≠ b) :
    W13 m c (Proc.devRef .tc b) = W12 m c (Proc.devRef .tc b) :=
  Pipeline.withArrays_of_ne spec3 c _ _ b hb
theorem hF3 (c : Dev nD) (w : Fin cfg3.W) : (dat3 (V12 m) c).arrAt w cfg3.N = V13 m c (Pipeline.arrRef spec3 w) :=
  (W13_arr m c w).symm
theorem hrest3 (c : Dev nD) : ∀ b, b ∉ Finset.univ.image (Pipeline.arrRef spec3) → V13 m c b = V12 m c b :=
  fun b hb => withArrays_of_not_mem spec3 c _ _ b hb

abbrev W14 : Dev nD → Valuation τ sig (Elt F) := fun c => StableHlo.after main_part1_ops8 (W13 m c)

abbrev W15 : Dev nD → Valuation τ sig (Elt F) := fun c => StableHlo.after main_part2_ops0 (W14 m c)

abbrev W16 : Dev nD → Valuation τ sig (Elt F) := fun c => StableHlo.after main_part2_ops1 (W15 m c)

abbrev W17 : Dev nD → Valuation τ sig (Elt F) := fun c => StableHlo.after main_part2_ops2 (W16 m c)

abbrev V17 : (c : Dev nD) → (b : Ref sig .tc) → Buf (Elt F) ((c : Thread nD τ).loc b) := fun c b => W17 m c b

def W18 (c : Dev nD) : Valuation τ sig (Elt F) :=
  Pipeline.withArrays spec4 c (W17 m c) fun w => (dat4 (V17 m) c).arrAt w cfg4.N

abbrev V18 : (c : Dev nD) → (b : Ref sig .tc) → Buf (Elt F) ((c : Thread nD τ).loc b) := fun c b => W18 m c b
theorem W18_arr (c : Dev nD) (w : Fin cfg4.W) :
    W18 m c (Proc.devRef .tc (Pipeline.arrRef spec4 w)) = (dat4 (V17 m) c).arrAt w cfg4.N :=
  Pipeline.withArrays_arr spec4 launch4.win.arr_inj c _ _ w
theorem W18_of_ne (c : Dev nD) (b : Ref sig .tc) (hb : ∀ w, Pipeline.arrRef spec4 w ≠ b) :
    W18 m c (Proc.devRef .tc b) = W17 m c (Proc.devRef .tc b) :=
  Pipeline.withArrays_of_ne spec4 c _ _ b hb
theorem hF4 (c : Dev nD) (w : Fin cfg4.W) : (dat4 (V17 m) c).arrAt w cfg4.N = V18 m c (Pipeline.arrRef spec4 w) :=
  (W18_arr m c w).symm
theorem hrest4 (c : Dev nD) : ∀ b, b ∉ Finset.univ.image (Pipeline.arrRef spec4) → V18 m c b = V17 m c b :=
  fun b hb => withArrays_of_not_mem spec4 c _ _ b hb

abbrev W19 : Dev nD → Valuation τ sig (Elt F) := fun c => StableHlo.after main_part2_ops3 (W18 m c)

abbrev V19 : (c : Dev nD) → (b : Ref sig .tc) → Buf (Elt F) ((c : Thread nD τ).loc b) := fun c b => W19 m c b

def W20 (c : Dev nD) : Valuation τ sig (Elt F) :=
  Pipeline.withArrays spec5 c (W19 m c) fun w => (dat5 (V19 m) c).arrAt w cfg5.N

abbrev V20 : (c : Dev nD) → (b : Ref sig .tc) → Buf (Elt F) ((c : Thread nD τ).loc b) := fun c b => W20 m c b
theorem W20_arr (c : Dev nD) (w : Fin cfg5.W) :
    W20 m c (Proc.devRef .tc (Pipeline.arrRef spec5 w)) = (dat5 (V19 m) c).arrAt w cfg5.N :=
  Pipeline.withArrays_arr spec5 launch5.win.arr_inj c _ _ w
theorem W20_of_ne (c : Dev nD) (b : Ref sig .tc) (hb : ∀ w, Pipeline.arrRef spec5 w ≠ b) :
    W20 m c (Proc.devRef .tc b) = W19 m c (Proc.devRef .tc b) :=
  Pipeline.withArrays_of_ne spec5 c _ _ b hb
theorem hF5 (c : Dev nD) (w : Fin cfg5.W) : (dat5 (V19 m) c).arrAt w cfg5.N = V20 m c (Pipeline.arrRef spec5 w) :=
  (W20_arr m c w).symm
theorem hrest5 (c : Dev nD) : ∀ b, b ∉ Finset.univ.image (Pipeline.arrRef spec5) → V20 m c b = V19 m c b :=
  fun b hb => withArrays_of_not_mem spec5 c _ _ b hb

abbrev W21 : Dev nD → Valuation τ sig (Elt F) := fun c => StableHlo.after main_part2_ops4 (W20 m c)

abbrev W22 : Dev nD → Valuation τ sig (Elt F) := fun c => StableHlo.after main_part2_ops5 (W21 m c)

abbrev W23 : Dev nD → Valuation τ sig (Elt F) := fun c => StableHlo.after main_part2_ops6 (W22 m c)

abbrev W24 : Dev nD → Valuation τ sig (Elt F) := fun c => StableHlo.after main_part3_ops0 (W23 m c)

abbrev V24 : (c : Dev nD) → (b : Ref sig .tc) → Buf (Elt F) ((c : Thread nD τ).loc b) := fun c b => W24 m c b

def W25 (c : Dev nD) : Valuation τ sig (Elt F) :=
  Pipeline.withArrays spec6 c (W24 m c) fun w => (dat6 (V24 m) c).arrAt w cfg6.N

abbrev V25 : (c : Dev nD) → (b : Ref sig .tc) → Buf (Elt F) ((c : Thread nD τ).loc b) := fun c b => W25 m c b
theorem W25_arr (c : Dev nD) (w : Fin cfg6.W) :
    W25 m c (Proc.devRef .tc (Pipeline.arrRef spec6 w)) = (dat6 (V24 m) c).arrAt w cfg6.N :=
  Pipeline.withArrays_arr spec6 launch6.win.arr_inj c _ _ w
theorem W25_of_ne (c : Dev nD) (b : Ref sig .tc) (hb : ∀ w, Pipeline.arrRef spec6 w ≠ b) :
    W25 m c (Proc.devRef .tc b) = W24 m c (Proc.devRef .tc b) :=
  Pipeline.withArrays_of_ne spec6 c _ _ b hb
theorem hF6 (c : Dev nD) (w : Fin cfg6.W) : (dat6 (V24 m) c).arrAt w cfg6.N = V25 m c (Pipeline.arrRef spec6 w) :=
  (W25_arr m c w).symm
theorem hrest6 (c : Dev nD) : ∀ b, b ∉ Finset.univ.image (Pipeline.arrRef spec6) → V25 m c b = V24 m c b :=
  fun b hb => withArrays_of_not_mem spec6 c _ _ b hb

abbrev W26 : Dev nD → Valuation τ sig (Elt F) := fun c => StableHlo.after main_part3_ops1 (W25 m c)

abbrev V26 : (c : Dev nD) → (b : Ref sig .tc) → Buf (Elt F) ((c : Thread nD τ).loc b) := fun c b => W26 m c b

def W27 (c : Dev nD) : Valuation τ sig (Elt F) :=
  Pipeline.withArrays spec7 c (W26 m c) fun w => (dat7 (V26 m) c).arrAt w cfg7.N

abbrev V27 : (c : Dev nD) → (b : Ref sig .tc) → Buf (Elt F) ((c : Thread nD τ).loc b) := fun c b => W27 m c b
theorem W27_arr (c : Dev nD) (w : Fin cfg7.W) :
    W27 m c (Proc.devRef .tc (Pipeline.arrRef spec7 w)) = (dat7 (V26 m) c).arrAt w cfg7.N :=
  Pipeline.withArrays_arr spec7 launch7.win.arr_inj c _ _ w
theorem W27_of_ne (c : Dev nD) (b : Ref sig .tc) (hb : ∀ w, Pipeline.arrRef spec7 w ≠ b) :
    W27 m c (Proc.devRef .tc b) = W26 m c (Proc.devRef .tc b) :=
  Pipeline.withArrays_of_ne spec7 c _ _ b hb
theorem hF7 (c : Dev nD) (w : Fin cfg7.W) : (dat7 (V26 m) c).arrAt w cfg7.N = V27 m c (Pipeline.arrRef spec7 w) :=
  (W27_arr m c w).symm
theorem hrest7 (c : Dev nD) : ∀ b, b ∉ Finset.univ.image (Pipeline.arrRef spec7) → V27 m c b = V26 m c b :=
  fun b hb => withArrays_of_not_mem spec7 c _ _ b hb

abbrev W28 : Dev nD → Valuation τ sig (Elt F) := fun c => StableHlo.after main_part3_ops2 (W27 m c)
end Cert.KernelIdeal.Hand

end
-- ==== Proof.KIRun.lean ====
import proofs.«419261_j25872882991625_3_alg».proof.Proof.KIBound
import Idealize.ShloMosaic.Lib.Pipeline.Regions
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev adm : (p : Fin 8) → (pcfgs (F := F) p).Adm := fun p => (cfgs p).toPCfg_adm
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev stateAt (W : Valuation τ sig (Elt F)) (c : Dev nD) : sProp 𝕄 :=
  iprop(StableHlo.held (c : Thread nD τ) (Pipeline.ucRefs τ sig) W ∗ R c)

theorem state_end (W : Valuation τ sig (Elt F)) (c : Dev nD) :
    stateAt W c ⊢ iprop((StableHlo.held (c : Thread nD τ) (Pipeline.ucRefs τ sig) W ∗ ∃ r, prngReg c r)
      ∗ ∃ T, owes (c : Thread nD τ) (0 : CellTallies nD τ sig Unit) T) := by
  iintro ⟨Hbufs, Hprng, Howes⟩
  isplitr [Howes]
  · isplitl [Hbufs] <;> iassumption
  iexact Howes

abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (List.forall_iff_forall_mem.mp hfresh) W R

theorem main_part0_ops0_fresh : (main_part0_ops0 : List (HloOp τ sig (Elt F))).Forall fun op => op.fresh = ∅ := by
  simp only [List.Forall]; repeat' constructor
theorem main_part1_ops0_fresh : (main_part1_ops0 : List (HloOp τ sig (Elt F))).Forall fun op => op.fresh = ∅ := by
  simp only [List.Forall]; repeat' constructor
theorem main_part1_ops1_fresh : (main_part1_ops1 : List (HloOp τ sig (Elt F))).Forall fun op => op.fresh = ∅ := by
  simp only [List.Forall]; repeat' constructor
theorem main_part1_ops2_fresh : (main_part1_ops2 : List (HloOp τ sig (Elt F))).Forall fun op => op.fresh = ∅ := by
  simp only [List.Forall]; repeat' constructor
theorem main_part1_ops3_fresh : (main_part1_ops3 : List (HloOp τ sig (Elt F))).Forall fun op => op.fresh = ∅ := by
  simp only [List.Forall]; repeat' constructor
theorem main_part1_ops4_fresh : (main_part1_ops4 : List (HloOp τ sig (Elt F))).Forall fun op => op.fresh = ∅ := by
  simp only [List.Forall]; repeat' constructor
theorem main_part1_ops5_fresh : (main_part1_ops5 : List (HloOp τ sig (Elt F))).Forall fun op => op.fresh = ∅ := by
  simp only [List.Forall]; repeat' constructor
theorem main_part1_ops6_fresh : (main_part1_ops6 : List (HloOp τ sig (Elt F))).Forall fun op => op.fresh = ∅ := by
  simp only [List.Forall]; repeat' constructor
theorem main_part1_ops7_fresh : (main_part1_ops7 : List (HloOp τ sig (Elt F))).Forall fun op => op.fresh = ∅ := by
  simp only [List.Forall]; repeat' constructor
theorem main_part1_ops8_fresh : (main_part1_ops8 : List (HloOp τ sig (Elt F))).Forall fun op => op.fresh = ∅ := by
  simp only [List.Forall]; repeat' constructor
theorem main_part2_ops0_fresh : (main_part2_ops0 : List (HloOp τ sig (Elt F))).Forall fun op => op.fresh = ∅ := by
  simp only [List.Forall]; repeat' constructor
theorem main_part2_ops1_fresh : (main_part2_ops1 : List (HloOp τ sig (Elt F))).Forall fun op => op.fresh = ∅ := by
  simp only [List.Forall]; repeat' constructor
theorem main_part2_ops2_fresh : (main_part2_ops2 : List (HloOp τ sig (Elt F))).Forall fun op => op.fresh = ∅ := by
  simp only [List.Forall]; repeat' constructor
theorem main_part2_ops3_fresh : (main_part2_ops3 : List (HloOp τ sig (Elt F))).Forall fun op => op.fresh = ∅ := by
  simp only [List.Forall]; repeat' constructor
theorem main_part2_ops4_fresh : (main_part2_ops4 : List (HloOp τ sig (Elt F))).Forall fun op => op.fresh = ∅ := by
  simp only [List.Forall]; repeat' constructor
theorem main_part2_ops5_fresh : (main_part2_ops5 : List (HloOp τ sig (Elt F))).Forall fun op => op.fresh = ∅ := by
  simp only [List.Forall]; repeat' constructor
theorem main_part2_ops6_fresh : (main_part2_ops6 : List (HloOp τ sig (Elt F))).Forall fun op => op.fresh = ∅ := by
  simp only [List.Forall]; repeat' constructor
theorem main_part3_ops0_fresh : (main_part3_ops0 : List (HloOp τ sig (Elt F))).Forall fun op => op.fresh = ∅ := by
  simp only [List.Forall]; repeat' constructor
theorem main_part3_ops1_fresh : (main_part3_ops1 : List (HloOp τ sig (Elt F))).Forall fun op => op.fresh = ∅ := by
  simp only [List.Forall]; repeat' constructor
theorem main_part3_ops2_fresh : (main_part3_ops2 : List (HloOp τ sig (Elt F))).Forall fun op => op.fresh = ∅ := by
  simp only [List.Forall]; repeat' constructor

section Region

variable (pd : (p : Fin 8) → (c : Dev nD) → Dat τ (Elt F) Unit ℕ (UR sig nD τ) ℕ (Pipeline.pin (pcfgs (F := F)) adm p) c)

theorem prefHeld_none (p : Fin 8) (c : Dev nD) :
    (BI.emp : sProp 𝕄) ⊢ Pipeline.prefHeld (pcfgs (F := F) p).pre c (fun _ => fullShare) (adm (F := F) p).1 := by
  unfold Pipeline.prefHeld
  rw [show (Finset.univ : Finset (Fin 0)) = ∅ from rfl, BI.bigSep_empty]

theorem region_entry (p : Fin 8) (lf : Pipeline.LaunchFacts (nD := nD) (τ := τ) cfgs p) (c : Dev nD)
    (W : Valuation τ sig (Elt F)) (hq : ∀ w, (pd p c).q w = fullShare)
    (howed : (pd p c).owed 0 = 0) (hrec : (pd p c).recorded 0 = Set.univ)
    (hA : ∀ w, (pd p c).A w = W (Pipeline.arrRef (Pipeline.pin (pcfgs (F := F)) adm p).spec w)) :
    iprop(stateAt W c ∗ Pipeline.ownSems0 (fun k : PEmpty => k.elim) c ∗ levAts L lv)
      ⊢ |={Set.univ}=> iprop((pd p c).arrays ((pd p c).arrAt · 0) ∗ Pipeline.prefHeld (pcfgs (F := F) p).pre c (fun _ => fullShare) (adm (F := F) p).1
          ∗ (pd p c).owesAt () 0 ∗ (∃ r, prngReg c r)
          ∗ Pipeline.unscopedRest (Ix := Unit) (Name := ℕ) (U := UR sig nD τ) (Lvl := ℕ) (Pipeline.pin (pcfgs (F := F)) adm p).spec c (fun b => W b)) := by
  have hsplit := Pipeline.arrays_of_unscopedBufs (p := p) (pcfgs (F := F)) adm pd lf.win lf.arr_whole c
    ((pd p c).share_full hq) (fun b => W b) hA
  rw [Pipeline.unscopedBufs_held] at hsplit
  iintro ⟨⟨Hbufs, Hprng, Howes⟩, -, -⟩
  ihave Hsp := hsplit $$ Hbufs
  icases Hsp with ⟨Harr, Hrest⟩
  imodintro
  isplitl [Harr]; · iexact Harr
  isplitr; · iapply (prefHeld_none p c); iempintro
  isplitl [Howes]
  · unfold Pipeline.Dat.owesAt Pipeline.owesWithin
    rw [howed]
    icases Howes with ⟨%T, Howes⟩
    iexists T
    isplitr; · ipureintro; exact fun _ _ => Or.inl (hrec ▸ Set.mem_univ _)
    iexact Howes
  isplitl [Hprng] <;> iassumption

theorem region_exit (p : Fin 8) (lf : Pipeline.LaunchFacts (nD := nD) (τ := τ) cfgs p) (c : Dev nD)
    (W W' : Valuation τ sig (Elt F)) (hq : ∀ w, (pd p c).q w = fullShare)
    (howed : (pd p c).owed (Fin.last (Pipeline.pin (pcfgs (F := F)) adm p).N) = 0)
    (hF : ∀ w, (pd p c).arrAt w (Pipeline.pin (pcfgs (F := F)) adm p).N = W' (Pipeline.arrRef (Pipeline.pin (pcfgs (F := F)) adm p).spec w))
    (hrest : ∀ b : Ref sig .tc, b ∉ Finset.univ.image (Pipeline.arrRef (Pipeline.pin (pcfgs (F := F)) adm p).spec) → W' b = W b) :
    iprop((pd p c).arrays ((pd p c).arrAt · (Pipeline.pin (pcfgs (F := F)) adm p).N) ∗ (pd p c).owesAt () (Fin.last (Pipeline.pin (pcfgs (F := F)) adm p).N)
        ∗ (∃ r, prngReg c r)
        ∗ Pipeline.unscopedRest (Ix := Unit) (Name := ℕ) (U := UR sig nD τ) (Lvl := ℕ) (Pipeline.pin (pcfgs (F := F)) adm p).spec c (fun b => W b))
      ⊢ |={Set.univ}=> stateAt W' c := by
  have hjoin := Pipeline.unscopedBufs_of_arrays (p := p) (pcfgs (F := F)) adm (Ix := Unit) (Name := ℕ) (U := UR sig nD τ) (Lvl := ℕ)
    lf.win lf.arr_whole c pd ((pd p c).share_full hq) (fun b => W b) (fun b => W' b)
    ((pd p c).arrAt · (Pipeline.pin (pcfgs (F := F)) adm p).N) hF hrest
  rw [Pipeline.unscopedBufs_held] at hjoin
  iintro ⟨Harr, Howes, Hprng, Hrest⟩
  imodintro
  isplitl [Harr Hrest]
  · iapply hjoin; isplitl [Harr] <;> iassumption
  isplitl [Hprng]; · iexact Hprng
  unfold Pipeline.Dat.owesAt Pipeline.owesWithin
  rw [howed]
  icases Howes with ⟨%T, -, Howes⟩
  iexists T; iexact Howes

set_option backward.isDefEq.respectTransparency.types false in

def regionSeg (p : Fin 8) (lf : Pipeline.LaunchFacts (nD := nD) (τ := τ) cfgs p)
    (W W' : Dev nD → Valuation τ sig (Elt F))
    (hbody : ∀ c, BodyObligation (pd p c) (defs₀ (F := F)) 𝒱₀ () Set.univ)
    (hq : ∀ c w, (pd p c).q w = fullShare)
    (howed : ∀ c t, (pd p c).owed t = 0)
    (hrec : ∀ c t, (pd p c).recorded t = Set.univ)
    (hA : ∀ c w, (pd p c).A w = W c (Pipeline.arrRef (Pipeline.pin (pcfgs (F := F)) adm p).spec w))
    (hF : ∀ c w, (pd p c).arrAt w (Pipeline.pin (pcfgs (F := F)) adm p).N = W' c (Pipeline.arrRef (Pipeline.pin (pcfgs (F := F)) adm p).spec w))
    (hrest : ∀ c (b : Ref sig .tc), b ∉ Finset.univ.image (Pipeline.arrRef (Pipeline.pin (pcfgs (F := F)) adm p).spec) → W' c b = W c b)
    (hΦin : ∀ c, (Pipeline.ΦA (Pipeline.pin (pcfgs (F := F)) adm p).spec c : sProp 𝕄) ⊢ (pd p c).Φ 0)
    (hΦout : ∀ c, (pd p c).Φ (Fin.last (Pipeline.pin (pcfgs (F := F)) adm p).N) ⊢ (Pipeline.ΦA (Pipeline.pin (pcfgs (F := F)) adm p).spec c : sProp 𝕄)) :
    Pipeline.RegionSeg (pcfgs (F := F)) adm pd () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := stateAt (W c) c
  post c := stateAt (W' c) c
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (fun b => W c b)
  hentry c := region_entry pd p lf c (W c) (hq c) (howed c 0) (hrec c 0) (hA c)
  hin c := by
    refine BIBase.Entails.trans ?_ (hΦin c)
    unfold Pipeline.ΦA
    iintro ⟨Hprng, -, Hscoped⟩
    isplitl [Hscoped] <;> iassumption
  hout c := by
    rw [Pipeline.ownSems0_none]
    refine (hΦout c).trans ?_
    unfold Pipeline.ΦA
    iintro ⟨Hscoped, Hprng⟩
    isplitl [Hprng]; · iexact Hprng
    isplitr; · iempintro
    iexact Hscoped
  hexit c := region_exit pd p lf c (W c) (W' c) (hq c) (howed c _) (hF c) (hrest c)

end Region

variable (m : (ℓ : Loc nD τ sig) → Buf (Elt F) ℓ)

def pdats : (p : Fin 8) → (c : Dev nD) → Dat τ (Elt F) Unit ℕ (UR sig nD τ) ℕ (Pipeline.pin (pcfgs (F := F)) adm p) c
  | ⟨0, _⟩ => fun c => dat0 (V4 m) c
  | ⟨1, _⟩ => fun c => dat1 (V6 m) c
  | ⟨2, _⟩ => fun c => dat2 (V10 m) c
  | ⟨3, _⟩ => fun c => dat3 (V12 m) c
  | ⟨4, _⟩ => fun c => dat4 (V17 m) c
  | ⟨5, _⟩ => fun c => dat5 (V19 m) c
  | ⟨6, _⟩ => fun c => dat6 (V24 m) c
  | ⟨7, _⟩ => fun c => dat7 (V26 m) c

set_option backward.isDefEq.respectTransparency.types false in

def reg0 : Pipeline.RegionSeg (pcfgs (F := F)) adm (pdats m) () defs₀ 𝒱₀ L lv 0 :=
  regionSeg (pdats m) 0 launch0 (W4 m) (W5 m) (body_obligation0 (V4 m)) (q_eq0 (V4 m)) (owed_eq0 (V4 m)) (recorded_eq0 (V4 m))
    (A_eq0 (V4 m)) (hF0 m) (hrest0 m) (hin0 (V4 m)) (hout0 (V4 m))

set_option backward.isDefEq.respectTransparency.types false in

def reg1 : Pipeline.RegionSeg (pcfgs (F := F)) adm (pdats m) () defs₀ 𝒱₀ L lv 1 :=
  regionSeg (pdats m) 1 launch1 (W6 m) (W7 m) (body_obligation1 (V6 m)) (q_eq1 (V6 m)) (owed_eq1 (V6 m)) (recorded_eq1 (V6 m))
    (A_eq1 (V6 m)) (hF1 m) (hrest1 m) (hin1 (V6 m)) (hout1 (V6 m))

set_option backward.isDefEq.respectTransparency.types false in

def reg2 : Pipeline.RegionSeg (pcfgs (F := F)) adm (pdats m) () defs₀ 𝒱₀ L lv 2 :=
  regionSeg (pdats m) 2 launch2 (W10 m) (W11 m) (body_obligation2 (V10 m)) (q_eq2 (V10 m)) (owed_eq2 (V10 m)) (recorded_eq2 (V10 m))
    (A_eq2 (V10 m)) (hF2 m) (hrest2 m) (hin2 (V10 m)) (hout2 (V10 m))

set_option backward.isDefEq.respectTransparency.types false in

def reg3 : Pipeline.RegionSeg (pcfgs (F := F)) adm (pdats m) () defs₀ 𝒱₀ L lv 3 :=
  regionSeg (pdats m) 3 launch3 (W12 m) (W13 m) (body_obligation3 (V12 m)) (q_eq3 (V12 m)) (owed_eq3 (V12 m)) (recorded_eq3 (V12 m))
    (A_eq3 (V12 m)) (hF3 m) (hrest3 m) (hin3 (V12 m)) (hout3 (V12 m))

set_option backward.isDefEq.respectTransparency.types false in

def reg4 : Pipeline.RegionSeg (pcfgs (F := F)) adm (pdats m) () defs₀ 𝒱₀ L lv 4 :=
  regionSeg (pdats m) 4 launch4 (W17 m) (W18 m) (body_obligation4 (V17 m)) (q_eq4 (V17 m)) (owed_eq4 (V17 m)) (recorded_eq4 (V17 m))
    (A_eq4 (V17 m)) (hF4 m) (hrest4 m) (hin4 (V17 m)) (hout4 (V17 m))

set_option backward.isDefEq.respectTransparency.types false in

def reg5 : Pipeline.RegionSeg (pcfgs (F := F)) adm (pdats m) () defs₀ 𝒱₀ L lv 5 :=
  regionSeg (pdats m) 5 launch5 (W19 m) (W20 m) (body_obligation5 (V19 m)) (q_eq5 (V19 m)) (owed_eq5 (V19 m)) (recorded_eq5 (V19 m))
    (A_eq5 (V19 m)) (hF5 m) (hrest5 m) (hin5 (V19 m)) (hout5 (V19 m))

set_option backward.isDefEq.respectTransparency.types false in

def reg6 : Pipeline.RegionSeg (pcfgs (F := F)) adm (pdats m) () defs₀ 𝒱₀ L lv 6 :=
  regionSeg (pdats m) 6 launch6 (W24 m) (W25 m) (body_obligation6 (V24 m)) (q_eq6 (V24 m)) (owed_eq6 (V24 m)) (recorded_eq6 (V24 m))
    (A_eq6 (V24 m)) (hF6 m) (hrest6 m) (hin6 (V24 m)) (hout6 (V24 m))

set_option backward.isDefEq.respectTransparency.types false in

def reg7 : Pipeline.RegionSeg (pcfgs (F := F)) adm (pdats m) () defs₀ 𝒱₀ L lv 7 :=
  regionSeg (pdats m) 7 launch7 (W26 m) (W27 m) (body_obligation7 (V26 m)) (q_eq7 (V26 m)) (owed_eq7 (V26 m)) (recorded_eq7 (V26 m))
    (A_eq7 (V26 m)) (hF7 m) (hrest7 m) (hin7 (V26 m)) (hout7 (V26 m))

abbrev segs : List (Pipeline.Seg (pcfgs (F := F)) adm (pdats m) () defs₀ 𝒱₀ L lv) :=
  [ .host (hostSeg main_part0_ops0 main_part0_ops0_sub main_part0_ops0_fresh (W0 m)),
    .host (hostSeg main_part1_ops0 main_part1_ops0_sub main_part1_ops0_fresh (W1 m)),
    .host (hostSeg main_part1_ops1 main_part1_ops1_sub main_part1_ops1_fresh (W2 m)),
    .host (hostSeg main_part1_ops2 main_part1_ops2_sub main_part1_ops2_fresh (W3 m)),
    .region (reg0 m),
    .host (hostSeg main_part1_ops3 main_part1_ops3_sub main_part1_ops3_fresh (W5 m)),
    .region (reg1 m),
    .host (hostSeg main_part1_ops4 main_part1_ops4_sub main_part1_ops4_fresh (W7 m)),
    .host (hostSeg main_part1_ops5 main_part1_ops5_sub main_part1_ops5_fresh (W8 m)),
    .host (hostSeg main_part1_ops6 main_part1_ops6_sub main_part1_ops6_fresh (W9 m)),
    .region (reg2 m),
    .host (hostSeg main_part1_ops7 main_part1_ops7_sub main_part1_ops7_fresh (W11 m)),
    .region (reg3 m),
    .host (hostSeg main_part1_ops8 main_part1_ops8_sub main_part1_ops8_fresh (W13 m)),
    .host (hostSeg main_part2_ops0 main_part2_ops0_sub main_part2_ops0_fresh (W14 m)),
    .host (hostSeg main_part2_ops1 main_part2_ops1_sub main_part2_ops1_fresh (W15 m)),
    .host (hostSeg main_part2_ops2 main_part2_ops2_sub main_part2_ops2_fresh (W16 m)),
    .region (reg4 m),
    .host (hostSeg main_part2_ops3 main_part2_ops3_sub main_part2_ops3_fresh (W18 m)),
    .region (reg5 m),
    .host (hostSeg main_part2_ops4 main_part2_ops4_sub main_part2_ops4_fresh (W20 m)),
    .host (hostSeg main_part2_ops5 main_part2_ops5_sub main_part2_ops5_fresh (W21 m)),
    .host (hostSeg main_part2_ops6 main_part2_ops6_sub main_part2_ops6_fresh (W22 m)),
    .host (hostSeg main_part3_ops0 main_part3_ops0_sub main_part3_ops0_fresh (W23 m)),
    .region (reg6 m),
    .host (hostSeg main_part3_ops1 main_part3_ops1_sub main_part3_ops1_fresh (W25 m)),
    .region (reg7 m),
    .host (hostSeg main_part3_ops2 main_part3_ops2_sub main_part3_ops2_fresh (W27 m)) ]

theorem main_run (c : Dev nD) : main (F := F) c = Pipeline.Seg.run (segs m) :=
  (main_chain_windows c).trans (by chain_rfl)

abbrev Tend (c : Dev nD) : sProp 𝕄 := iprop(StableHlo.held (c : Thread nD τ) (Pipeline.ucRefs τ sig) (W28 m c) ∗ ∃ r, prngReg c r)

set_option backward.isDefEq.respectTransparency.types false in

theorem run_main (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = W28 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => (BI.emp : sProp 𝕄))
    (u₀ := initOf (Pipeline.cells cfgs cellOf_inj) (Pipeline.launchToks cfgs cellOf_inj))
    (hu₀ := by
      iintro Hown
      imodintro
      isplitl [Hown]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hown
      rw [BI.bigSep_emp_const]; iempintro)
    (T₀ := fun c => stateAt (W0 m c) c) (Tₙ := Tend m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => state_end (W28 m c) c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hbufs, -, Howes, -, Hprng, -⟩, -⟩
      imodintro
      isplitl [Hbufs]; · iexact Hbufs
      isplitl [Hprng]; · iexists _; iexact Hprng
      iexists ∅; iexact Howes)
    (QY := fun c s => ∀ b ∈ Pipeline.ucRefs τ sig, s.mem ((c : Thread nD τ).1, b) = W28 m c b)
    (hfin := fun c s' => by
      iintro ⟨⟨Hbufs, -⟩, HSI⟩
      unfold StableHlo.held
      imodintro
      iapply (pointsTo_read_all (Pipeline.ucRefs τ sig) (fun b => ((c : Thread nD τ).1, b)) (W28 m c) s')
      isplitl [Hbufs] <;> iassumption)
    (hQ := fun _ h => h)

end Cert.KernelIdeal.Hand

end
-- ==== Proof.KICarry.lean ====
import proofs.«419261_j25872882991625_3_alg».proof.Proof.KIBound

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]

/-- Every operation of `ops` writes a buffer of the list `W`. -/
abbrev WritesIn (ops : List (HloOp τ sig (Elt F))) (W : List (Ref sig .tc)) : Prop :=
  ops.Forall fun op => op.writes ⊆ (W.map (Proc.devRef (τ := τ) .tc)).toFinset

theorem sing_sub {W : List (Ref sig .tc)} {y : Ref sig .tc} (hy : y ∈ W) :
    ({Proc.devRef (τ := τ) .tc y} : Finset (DevRef τ sig)) ⊆ (W.map (Proc.devRef (τ := τ) .tc)).toFinset :=
  Finset.singleton_subset_iff.2 (List.mem_toFinset.2 (List.mem_map_of_mem hy))

abbrev writes0 : List (Ref sig .tc) :=
  [main_v0, main_v1, main_v2, main_v3, main_cst, main_v4, main_c, main_v5, main_v6, main_c_0, main_v7, main_v8, main_v9, main_v10, main_cst_1, main_v11, main_v12, main_cst_2, main_v13, main_v14, main_v15, main_c_3, main_v16, main_v17, main_c_4, main_v18, main_v19, main_v20, main_v21, main_v22, main_c_5, main_v23, main_v24, main_c_6, main_v25, main_v26, main_v27, main_v28, main_v29, main_v30, main_v31, main_v32, main_v33, main_v34, main_v35, main_cst_7, main_v36, main_c_8, main_v37, main_v38, main_c_9, main_v39, main_v40, main_v41, main_c_10, main_v42, main_v43, main_c_11, main_v44, main_v45]
theorem writes0_sub : WritesIn (F := F) main_part0_ops0 writes0 := by
  repeat' first | exact True.intro | refine (List.forall_cons _ _ _).2 ⟨?_, ?_⟩
  all_goals exact sing_sub (by decide)

abbrev writes1 : List (Ref sig .tc) :=
  [main_v46, main_v47, main_v48, main_v49, main_v50, main_c_12]
theorem writes1_sub : WritesIn (F := F) main_part1_ops0 writes1 := by
  repeat' first | exact True.intro | refine (List.forall_cons _ _ _).2 ⟨?_, ?_⟩
  all_goals exact sing_sub (by decide)

abbrev writes2 : List (Ref sig .tc) :=
  [main_call0_v0, main_v51]
theorem writes2_sub : WritesIn (F := F) main_part1_ops1 writes2 := by
  repeat' first | exact True.intro | refine (List.forall_cons _ _ _).2 ⟨?_, ?_⟩
  all_goals exact sing_sub (by decide)

abbrev writes3 : List (Ref sig .tc) :=
  [main_v52, main_v53, main_cst_13, main_v54]
theorem writes3_sub : WritesIn (F := F) main_part1_ops2 writes3 := by
  repeat' first | exact True.intro | refine (List.forall_cons _ _ _).2 ⟨?_, ?_⟩
  all_goals exact sing_sub (by decide)

abbrev writes5 : List (Ref sig .tc) :=
  [main_v56]
theorem writes5_sub : WritesIn (F := F) main_part1_ops3 writes5 := by
  repeat' first | exact True.intro | refine (List.forall_cons _ _ _).2 ⟨?_, ?_⟩
  all_goals exact sing_sub (by decide)

abbrev writes7 : List (Ref sig .tc) :=
  [main_c_14]
theorem writes7_sub : WritesIn (F := F) main_part1_ops4 writes7 := by
  repeat' first | exact True.intro | refine (List.forall_cons _ _ _).2 ⟨?_, ?_⟩
  all_goals exact sing_sub (by decide)

abbrev writes8 : List (Ref sig .tc) :=
  [main_call1_v0, main_v58]
theorem writes8_sub : WritesIn (F := F) main_part1_ops5 writes8 := by
  repeat' first | exact True.intro | refine (List.forall_cons _ _ _).2 ⟨?_, ?_⟩
  all_goals exact sing_sub (by decide)

abbrev writes9 : List (Ref sig .tc) :=
  [main_v59, main_v60, main_v61, main_v62, main_v63, main_v64, main_v65, main_cst_15, main_v66]
theorem writes9_sub : WritesIn (F := F) main_part1_ops6 writes9 := by
  repeat' first | exact True.intro | refine (List.forall_cons _ _ _).2 ⟨?_, ?_⟩
  all_goals exact sing_sub (by decide)

abbrev writes11 : List (Ref sig .tc) :=
  [main_v68, main_cst_16, main_v69, main_cst_17, main_v70, main_v71, main_v72, main_v73, main_v74, main_v75]
theorem writes11_sub : WritesIn (F := F) main_part1_ops7 writes11 := by
  repeat' first | exact True.intro | refine (List.forall_cons _ _ _).2 ⟨?_, ?_⟩
  all_goals exact sing_sub (by decide)

abbrev writes13 : List (Ref sig .tc) :=
  [main_v77, main_v78, main_v79, main_v80, main_cst_18, main_v81, main_c_19, main_v82, main_v83, main_c_20, main_v84, main_v85, main_v86, main_v87, main_cst_21, main_v88, main_v89, main_cst_22, main_v90, main_v91, main_v92, main_c_23, main_v93]
theorem writes13_sub : WritesIn (F := F) main_part1_ops8 writes13 := by
  repeat' first | exact True.intro | refine (List.forall_cons _ _ _).2 ⟨?_, ?_⟩
  all_goals exact sing_sub (by decide)

abbrev writes14 : List (Ref sig .tc) :=
  [main_v94, main_c_24, main_v95, main_v96, main_v97, main_v98, main_v99, main_c_25, main_v100, main_v101, main_c_26, main_v102, main_v103, main_v104, main_v105, main_v106, main_v107, main_v108, main_v109, main_v110, main_v111, main_v112, main_cst_27, main_v113, main_c_28, main_v114, main_v115, main_c_29, main_v116, main_v117, main_v118, main_c_30, main_v119, main_v120, main_c_31, main_v121, main_v122, main_v123, main_v124, main_v125, main_v126, main_v127, main_c_32]
theorem writes14_sub : WritesIn (F := F) main_part2_ops0 writes14 := by
  repeat' first | exact True.intro | refine (List.forall_cons _ _ _).2 ⟨?_, ?_⟩
  all_goals exact sing_sub (by decide)

abbrev writes15 : List (Ref sig .tc) :=
  [main_call2_v0, main_v128]
theorem writes15_sub : WritesIn (F := F) main_part2_ops1 writes15 := by
  repeat' first | exact True.intro | refine (List.forall_cons _ _ _).2 ⟨?_, ?_⟩
  all_goals exact sing_sub (by decide)

abbrev writes16 : List (Ref sig .tc) :=
  [main_v129, main_v130, main_cst_33, main_v131]
theorem writes16_sub : WritesIn (F := F) main_part2_ops2 writes16 := by
  repeat' first | exact True.intro | refine (List.forall_cons _ _ _).2 ⟨?_, ?_⟩
  all_goals exact sing_sub (by decide)

abbrev writes18 : List (Ref sig .tc) :=
  [main_v133]
theorem writes18_sub : WritesIn (F := F) main_part2_ops3 writes18 := by
  repeat' first | exact True.intro | refine (List.forall_cons _ _ _).2 ⟨?_, ?_⟩
  all_goals exact sing_sub (by decide)

abbrev writes20 : List (Ref sig .tc) :=
  [main_c_34]
theorem writes20_sub : WritesIn (F := F) main_part2_ops4 writes20 := by
  repeat' first | exact True.intro | refine (List.forall_cons _ _ _).2 ⟨?_, ?_⟩
  all_goals exact sing_sub (by decide)

abbrev writes21 : List (Ref sig .tc) :=
  [main_call3_v0, main_v135]
theorem writes21_sub : WritesIn (F := F) main_part2_ops5 writes21 := by
  repeat' first | exact True.intro | refine (List.forall_cons _ _ _).2 ⟨?_, ?_⟩
  all_goals exact sing_sub (by decide)

abbrev writes22 : List (Ref sig .tc) :=
  [main_v136, main_v137, main_v138, main_v139, main_v140, main_v141, main_v142]
theorem writes22_sub : WritesIn (F := F) main_part2_ops6 writes22 := by
  repeat' first | exact True.intro | refine (List.forall_cons _ _ _).2 ⟨?_, ?_⟩
  all_goals exact sing_sub (by decide)

abbrev writes23 : List (Ref sig .tc) :=
  [main_cst_35, main_v143]
theorem writes23_sub : WritesIn (F := F) main_part3_ops0 writes23 := by
  repeat' first | exact True.intro | refine (List.forall_cons _ _ _).2 ⟨?_, ?_⟩
  all_goals exact sing_sub (by decide)

abbrev writes25 : List (Ref sig .tc) :=
  [main_v145, main_cst_36, main_v146, main_cst_37, main_v147, main_v148, main_v149, main_v150, main_v151, main_v152]
theorem writes25_sub : WritesIn (F := F) main_part3_ops1 writes25 := by
  repeat' first | exact True.intro | refine (List.forall_cons _ _ _).2 ⟨?_, ?_⟩
  all_goals exact sing_sub (by decide)

abbrev writes27 : List (Ref sig .tc) :=
  [main_v154, main_v155, main_v156, main_v157, main_v158]
theorem writes27_sub : WritesIn (F := F) main_part3_ops2 writes27 := by
  repeat' first | exact True.intro | refine (List.forall_cons _ _ _).2 ⟨?_, ?_⟩
  all_goals exact sing_sub (by decide)

variable (m : (ℓ : Loc nD τ sig) → Buf (Elt F) ℓ)

abbrev argRefs : List (Ref sig .tc) :=
  [main_arg0, main_arg1, main_arg2, main_arg3, main_arg4, main_arg5, main_arg6, main_arg7, main_arg8, main_arg9, main_arg10, main_arg11, main_arg12, main_arg13, main_arg14, main_arg15]

/-- In `W` every argument array holds what the launch memory held. -/
def Held (c : Dev nD) (W : Valuation τ sig (Elt F)) : Prop :=
  ∀ a ∈ argRefs, W (Proc.devRef .tc a) = m ((c : Thread nD τ).loc a)

variable {m}

/-- Host operations that write no argument array keep `Held`. -/
theorem Held.host {c : Dev nD} {V : Valuation τ sig (Elt F)} (h : Held m c V) {ops : List (HloOp τ sig (Elt F))}
    {W : List (Ref sig .tc)} (hW : WritesIn ops W) (hd : ∀ a ∈ argRefs, a ∉ W) : Held m c (StableHlo.after ops V) :=
  fun a ha => (StableHlo.after_of_writes_sub ops V hW (hd a ha)).trans (h a ha)

/-- A region none of whose arrays is an argument array keeps `Held`. -/
theorem Held.region {c : Dev nD} {V : Valuation τ sig (Elt F)} (h : Held m c V) {gr n : Nat}
    (win : Fin n → Pipeline.WinSpec sig gr) (A : (w : Fin n) → Buf (Elt F) ((win w).arr.view.loc (c : Thread nD τ)))
    (hd : ∀ a ∈ argRefs, ∀ w, Pipeline.arrRef win w ≠ a) : Held m c (Pipeline.withArrays win c V A) :=
  fun a ha => (Pipeline.withArrays_of_ne win c V A a (hd a ha)).trans (h a ha)

/-- The same when one argument array `x` is among the region's arrays and is known to end as it began. -/
theorem Held.region_in {c : Dev nD} {V : Valuation τ sig (Elt F)} (h : Held m c V) {gr n : Nat}
    (win : Fin n → Pipeline.WinSpec sig gr) (A : (w : Fin n) → Buf (Elt F) ((win w).arr.view.loc (c : Thread nD τ)))
    (x : Ref sig .tc) (hx : Pipeline.withArrays win c V A (Proc.devRef .tc x) = V (Proc.devRef .tc x))
    (hd : ∀ a ∈ argRefs, a ≠ x → ∀ w, Pipeline.arrRef win w ≠ a) : Held m c (Pipeline.withArrays win c V A) :=
  fun a ha => (if e : a = x then e ▸ hx else Pipeline.withArrays_of_ne win c V A a (hd a ha e)).trans (h a ha)

variable (m)

theorem args0 (c : Dev nD) : Held m c (W0 m c) := fun _ _ => rfl
theorem args1 (c : Dev nD) : Held m c (W1 m c) := (args0 m c).host writes0_sub (by decide)
theorem args2 (c : Dev nD) : Held m c (W2 m c) := (args1 m c).host writes1_sub (by decide)
theorem args3 (c : Dev nD) : Held m c (W3 m c) := (args2 m c).host writes2_sub (by decide)
theorem args4 (c : Dev nD) : Held m c (W4 m c) := (args3 m c).host writes3_sub (by decide)
theorem args5 (c : Dev nD) : Held m c (W5 m c) := (args4 m c).region spec0 _ (by decide)
theorem args6 (c : Dev nD) : Held m c (W6 m c) := (args5 m c).host writes5_sub (by decide)
theorem args7 (c : Dev nD) : Held m c (W7 m c) := (args6 m c).region spec1 _ (by decide)
theorem args8 (c : Dev nD) : Held m c (W8 m c) := (args7 m c).host writes7_sub (by decide)
theorem args9 (c : Dev nD) : Held m c (W9 m c) := (args8 m c).host writes8_sub (by decide)
theorem args10 (c : Dev nD) : Held m c (W10 m c) := (args9 m c).host writes9_sub (by decide)
theorem args11 (c : Dev nD) : Held m c (W11 m c) := (args10 m c).region spec2 _ (by decide)
theorem args12 (c : Dev nD) : Held m c (W12 m c) := (args11 m c).host writes11_sub (by decide)
theorem args13 (c : Dev nD) : Held m c (W13 m c) :=
  (args12 m c).region_in spec3 _ main_arg8
    ((W13_arr m c 1).trans (((dat3 (V12 m) c).arrAt_in 1 rfl _).trans (A_eq3 (V12 m) c 1))) (by decide)
theorem args14 (c : Dev nD) : Held m c (W14 m c) := (args13 m c).host writes13_sub (by decide)
theorem args15 (c : Dev nD) : Held m c (W15 m c) := (args14 m c).host writes14_sub (by decide)
theorem args16 (c : Dev nD) : Held m c (W16 m c) := (args15 m c).host writes15_sub (by decide)
theorem args17 (c : Dev nD) : Held m c (W17 m c) := (args16 m c).host writes16_sub (by decide)
theorem args18 (c : Dev nD) : Held m c (W18 m c) := (args17 m c).region spec4 _ (by decide)
theorem args19 (c : Dev nD) : Held m c (W19 m c) := (args18 m c).host writes18_sub (by decide)
theorem args20 (c : Dev nD) : Held m c (W20 m c) := (args19 m c).region spec5 _ (by decide)
theorem args21 (c : Dev nD) : Held m c (W21 m c) := (args20 m c).host writes20_sub (by decide)
theorem args22 (c : Dev nD) : Held m c (W22 m c) := (args21 m c).host writes21_sub (by decide)
theorem args23 (c : Dev nD) : Held m c (W23 m c) := (args22 m c).host writes22_sub (by decide)
theorem args24 (c : Dev nD) : Held m c (W24 m c) := (args23 m c).host writes23_sub (by decide)
theorem args25 (c : Dev nD) : Held m c (W25 m c) := (args24 m c).region spec6 _ (by decide)
theorem args26 (c : Dev nD) : Held m c (W26 m c) := (args25 m c).host writes25_sub (by decide)
theorem args27 (c : Dev nD) : Held m c (W27 m c) :=
  (args26 m c).region_in spec7 _ main_arg12
    ((W27_arr m c 1).trans (((dat7 (V26 m) c).arrAt_in 1 rfl _).trans (A_eq7 (V26 m) c 1))) (by decide)
theorem args28 (c : Dev nD) : Held m c (W28 m c) := (args27 m c).host writes27_sub (by decide)

/-- A memory that agrees with the last boundary wherever the run's post speaks holds the launch memory's argument arrays. -/
theorem args_end (c : Dev nD) {mem : (ℓ : Loc nD τ sig) → Buf (Elt F) ℓ}
    (h : ∀ b ∈ Pipeline.ucRefs τ sig, mem ((c : Thread nD τ).1, b) = W28 m c b) (a : Ref sig .tc) (ha : a ∈ argRefs)
    (hs : ¬ (Proc.devRef .tc a : DevRef τ sig).isScoped) : mem ((c : Thread nD τ).loc a) = m ((c : Thread nD τ).loc a) :=
  (h _ (Finset.mem_filter.mpr ⟨StableHlo.devRef_mem_tcRefs a, hs⟩)).trans (args28 m c a ha)

end Cert.KernelIdeal.Hand

end
-- ==== Proof.SpecFns.lean ====
import Idealize.ShloMosaic.PureOps.Ideal
import Idealize.ShloMosaic.Lib.ValueIdx

noncomputable section

namespace Cert.Spec

open Idealize.ShloMosaic Idealize.ShloMosaic.ValueIdx

abbrev T10240x1024 : Shape := ⟨2, ![10240, 1024]⟩
abbrev T1024x1024 : Shape := ⟨2, ![1024, 1024]⟩
abbrev T10240x10240 : Shape := ⟨2, ![10240, 10240]⟩
abbrev T1x1024 : Shape := ⟨2, ![1, 1024]⟩
abbrev T64x10240 : Shape := ⟨2, ![64, 10240]⟩
abbrev T64x1024 : Shape := ⟨2, ![64, 1024]⟩
abbrev T1024x128 : Shape := ⟨2, ![1024, 128]⟩
abbrev T1x128 : Shape := ⟨2, ![1, 128]⟩
abbrev T64x128 : Shape := ⟨2, ![64, 128]⟩

def slope : EReal := Ideal.ofBits .f32 0x3C23D70A#32

def leakyE (y : EReal) : EReal := if (0 : EReal) ≤ y then y else slope * y

def G0 (xp : T10240x1024.Idx → EReal) (w : T1024x1024.Idx → EReal) : T10240x1024.Idx → EReal :=
  fun i => ∑ k : Fin 1024, xp (ix2 (i 0) k) * w (ix2 k (i 1))

def G1 (A : T10240x10240.Idx → EReal) (hp : T10240x1024.Idx → EReal) (b : T1x1024.Idx → EReal) :
    T10240x1024.Idx → EReal :=
  fun i => leakyE ((∑ s : Fin 10240, A (ix2 (i 0) s) * hp (ix2 s (i 1))) + b (ix2 0 (i 1)))

def G2 (P : T64x10240.Idx → EReal) (agg : T10240x1024.Idx → EReal) : T64x1024.Idx → EReal :=
  fun i => ∑ n : Fin 10240, P (ix2 (i 0) n) * agg (ix2 n (i 1))

def G3 (X : T64x1024.Idx → EReal) (Wf : T1024x128.Idx → EReal) (b : T1x128.Idx → EReal) : T64x128.Idx → EReal :=
  fun i => leakyE ((∑ k : Fin 1024, X (ix2 (i 0) k) * Wf (ix2 k (i 1))) + b (ix2 0 (i 1)))

end Cert.Spec

end
-- ==== Proof.KITerms.lean ====
import proofs.«419261_j25872882991625_3_alg».proof.KernelIdeal
import proofs.«419261_j25872882991625_3_alg».proof.Proof.SpecFns

noncomputable section

namespace Cert.KernelIdeal.Terms

open Idealize.ShloMosaic Cert.KernelIdeal
open Cert.KernelIdeal.Facts₀

variable {F : FTy → Type} [FloatOps F] [Facts₀]

def srcT (ei : IVec S2x160000 32) : IVec S160000 32 :=
  shapeCast S160000 (extractStridedSlice S1x160000 ![0, 0] ei slices_S2x160000_S1x160000_0_0) shapeCasts_S1x160000_S160000

def dstT (ei : IVec S2x160000 32) : IVec S160000 32 :=
  shapeCast S160000 (extractStridedSlice S1x160000 ![1, 0] ei slices_S2x160000_S1x160000_1_0) shapeCasts_S1x160000_S160000

def wrap160 (v : IVec S160000 32) : IVec S160000 32 :=
  select (cmpi .slt v (broadcastInDim S160000 ![] bcast_S_S160000 (constantI S_ 32 0#32)))
    (addi v (broadcastInDim S160000 ![] bcast_S_S160000 (constantI S_ 32 10000#32))) v

def wrap170 (v : IVec S170000 32) : IVec S170000 32 :=
  select (cmpi .slt v (broadcastInDim S170000 ![] bcast_S_S170000 (constantI S_ 32 0#32)))
    (addi v (broadcastInDim S170000 ![] bcast_S_S170000 (constantI S_ 32 10240#32))) v

def degT (ei : IVec S2x160000 32) : FVec F S10000 .f32 :=
  addf
    (Host.scatterAdd scatter_S10000_S160000x1_S160000_n_0_0_1
      (broadcastInDim S10000 ![] bcast_S_S10000 (constant (F := F) S_ .f32 0x00000000#32))
      (broadcastInDim S160000x1 ![0] bcast_S160000_S160000x1_0 (wrap160 (dstT ei)))
      (broadcastInDim S160000 ![] bcast_S_S160000 (constant (F := F) S_ .f32 0x3F800000#32)))
    (broadcastInDim S10000 ![] bcast_S_S10000 (constant (F := F) S_ .f32 0x3F800000#32))

def dinvT (ei : IVec S2x160000 32) : FVec F S10000 .f32 := Host.rsqrt (degT (F := F) ei)

def normT (ei : IVec S2x160000 32) : FVec F S160000 .f32 :=
  mulf
    (Host.gather gather_S10000_S160000x1_S160000_n_0_n_n_0_1_1 (dinvT (F := F) ei)
      (broadcastInDim S160000x1 ![0] bcast_S160000_S160000x1_0 (wrap160 (srcT ei))))
    (Host.gather gather_S10000_S160000x1_S160000_n_0_n_n_0_1_1 (dinvT (F := F) ei)
      (broadcastInDim S160000x1 ![0] bcast_S160000_S160000x1_0 (wrap160 (dstT ei))))

def adjIdxT (ei : IVec S2x160000 32) : IVec S170000x2 32 :=
  concatenate S170000x2 1
    [⟨S170000x1, broadcastInDim S170000x1 ![0] bcast_S170000_S170000x1_0
        (wrap170 (concatenate S170000 0 [⟨S160000, dstT ei⟩, ⟨S10000, iotaInDim S10000 32 0⟩] concatenates_S160000_S10000_S170000_d0))⟩,
     ⟨S170000x1, broadcastInDim S170000x1 ![0] bcast_S170000_S170000x1_0
        (wrap170 (concatenate S170000 0 [⟨S160000, srcT ei⟩, ⟨S10000, iotaInDim S10000 32 0⟩] concatenates_S160000_S10000_S170000_d0))⟩]
    concatenates_S170000x1_S170000x1_S170000x2_d1

def adjUpdT (ei : IVec S2x160000 32) : FVec F S170000 .f32 :=
  concatenate S170000 0 [⟨S160000, normT (F := F) ei⟩, ⟨S10000, mulf (dinvT (F := F) ei) (dinvT (F := F) ei)⟩]
    concatenates_S160000_S10000_S170000_d0

def adjT (ei : IVec S2x160000 32) : FVec F S10240x10240 .f32 :=
  Host.scatterAdd scatter_S10240x10240_S170000x2_S170000_n_01_01_1
    (broadcastInDim S10240x10240 ![] bcast_S_S10240x10240 (constant (F := F) S_ .f32 0x00000000#32))
    (adjIdxT ei) (adjUpdT (F := F) ei)

def xpadT (x : FVec F S10000x1024 .f32) : FVec F S10240x1024 .bf16 :=
  truncf .bf16
    (pad S10240x1024 ![0, 0] ![240, 0] ![0, 0] x (sitofp (F := F) .f32 (constantI S_ 32 0#32))
      pads_S10000x1024_S10240x1024_02400_000 h_S_)
    bitsLt_bf16_f32

def wT (W : FVec F S1024x1024 .f32) : FVec F S1024x1024 .bf16 := truncf .bf16 W bitsLt_bf16_f32

def brT (b : FVec F S1024 .f32) : FVec F S1x1024 .f32 := shapeCast S1x1024 b shapeCasts_S1024_S1x1024

def memT (batch : IVec S10000 32) : FVec F S64x10240 .bf16 :=
  uitofp .bf16
    (cmpi .eq
      (broadcastInDim S64x10240 ![0, 1] bcast_S1x10240_S64x10240_0_1
        (broadcastInDim S1x10240 ![1] bcast_S10240_S1x10240_1
          (pad S10240 ![0] ![240] ![0] batch (id (constantI S_ 32 4294967295#32)) pads_S10000_S10240_02400 h_S_)))
      (broadcastInDim S64x10240 ![0, 1] bcast_S64x1_S64x10240_0_1
        (broadcastInDim S64x1 ![0] bcast_S64_S64x1_0 (iotaInDim S64 32 0))))

def pooledT (sums : FVec F S64x1024 .f32) (mem : FVec F S64x10240 .bf16) : FVec F S64x1024 .f32 :=
  Host.divf sums
    (broadcastInDim S64x1024 ![0, 1] bcast_S64x1_S64x1024_0_1
      (broadcastInDim S64x1 ![0] bcast_S64_S64x1_0
        (maximumf
          (Host.reduceAdd (extf .f32 mem bitsLt_bf16_f32) (constant (F := F) S_ .f32 0x00000000#32)
            reducesTo_S64x10240_S64_d1 h_S_)
          (broadcastInDim S64 ![] bcast_S_S64 (constant (F := F) S_ .f32 0x3F800000#32)))))

def fbrT (fcb : FVec F S128 .f32) : FVec F S1x128 .f32 := shapeCast S1x128 fcb shapeCasts_S128_S1x128

def tailT (y1 y2 : FVec F S64x128 .f32) (fw : FVec F S256x1 .f32) (fb : FVec F S1 .f32) : FVec F S64x1 .f32 :=
  addf
    (Host.dotGeneral dot_S64x256_S256x1_S64x1_1_0_0_1_n_n none
      (concatenate S64x256 1 [⟨S64x128, y1⟩, ⟨S64x128, y2⟩] concatenates_S64x128_S64x128_S64x256_d1) fw)
    (broadcastInDim S64x1 ![0, 1] bcast_S1x1_S64x1_0_1 (broadcastInDim S1x1 ![1] bcast_S1_S1x1_1 fb))

def kerBranchT (x : FVec Ideal S10000x1024 .f32) (ei : IVec S2x160000 32) (batch : IVec S10000 32)
    (W : FVec Ideal S1024x1024 .f32) (b : FVec Ideal S1024 .f32) (fcW : FVec Ideal S1024x128 .f32)
    (fcb : FVec Ideal S128 .f32) : FVec Ideal S64x128 .f32 :=
  Cert.Spec.G3
    (pooledT (F := Ideal)
      (Cert.Spec.G2 (memT (F := Ideal) batch)
        (Cert.Spec.G1 (adjT (F := Ideal) ei) (Cert.Spec.G0 (xpadT (F := Ideal) x) (wT (F := Ideal) W)) (brT (F := Ideal) b)))
      (memT (F := Ideal) batch))
    fcW (fbrT (F := Ideal) fcb)

section Cat
variable {α : Type}

/-- The concatenation of two operands, with the operands as plain arguments, so that an equation about one rewrites inside it. -/
def cat2 (t : Shape) (a : Fin t.rank) (s₁ s₂ : Shape) (x₁ : s₁.Idx → α) (x₂ : s₂.Idx → α)
    (h : Shape.Concatenates [s₁, s₂] t a) : t.Idx → α :=
  concatenate t a [⟨s₁, x₁⟩, ⟨s₂, x₂⟩] h

theorem cat2_fold (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = cat2 t a s₁ s₂ x₁ x₂ h := rfl

end Cat

end Cert.KernelIdeal.Terms

end
-- ==== Proof.KIVal0.lean ====
import proofs.«419261_j25872882991625_3_alg».proof.Proof.KIReg0
import proofs.«419261_j25872882991625_3_alg».proof.Proof.SpecFns
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

theorem lhsRow_reg0 (j : S1280x1024.Idx) (q : dot_S1280x1024_S1024x1024_S1280x1024_1_0_0_1_n_n.contr.Idx) :
    (dot_S1280x1024_S1024x1024_S1280x1024_1_0_0_1_n_n.lhsIdx j q 0).val = (j 0).val := by
  unfold DotDims.lhsIdx
  rw [dif_neg (show ¬(0 : Fin S1280x1024.rank) ∈ dot_S1280x1024_S1024x1024_S1280x1024_1_0_0_1_n_n.lhsBatch by decide),
    dif_pos (show (0 : Fin S1280x1024.rank) ∈ dot_S1280x1024_S1024x1024_S1280x1024_1_0_0_1_n_n.lhsNonContracting by decide)]
  rfl
theorem lhsCol_reg0 (j : S1280x1024.Idx) (q : dot_S1280x1024_S1024x1024_S1280x1024_1_0_0_1_n_n.contr.Idx) :
    (dot_S1280x1024_S1024x1024_S1280x1024_1_0_0_1_n_n.lhsIdx j q 1).val = (q ⟨0, by decide⟩).val :=
  dot_S1280x1024_S1024x1024_S1280x1024_1_0_0_1_n_n.lhsIdx_val_of_single rfl j q
theorem rhsRow_reg0 (j : S1280x1024.Idx) (q : dot_S1280x1024_S1024x1024_S1280x1024_1_0_0_1_n_n.contr.Idx) :
    (dot_S1280x1024_S1024x1024_S1280x1024_1_0_0_1_n_n.rhsIdx j q 0).val = (q ⟨0, by decide⟩).val :=
  dot_S1280x1024_S1024x1024_S1280x1024_1_0_0_1_n_n.rhsIdx_val_of_single rfl j q
theorem rhsCol_reg0 (j : S1280x1024.Idx) (q : dot_S1280x1024_S1024x1024_S1280x1024_1_0_0_1_n_n.contr.Idx) :
    (dot_S1280x1024_S1024x1024_S1280x1024_1_0_0_1_n_n.rhsIdx j q 1).val = (j 1).val := by
  unfold DotDims.rhsIdx
  rw [dif_neg (show ¬(1 : Fin S1024x1024.rank) ∈ dot_S1280x1024_S1024x1024_S1280x1024_1_0_0_1_n_n.rhsBatch by decide),
    dif_pos (show (1 : Fin S1024x1024.rank) ∈ dot_S1280x1024_S1024x1024_S1280x1024_1_0_0_1_n_n.rhsNonContracting by decide)]
  rfl

theorem pay_apply_reg0 (x : Vec Ideal S1280x1024 .bf16) (w : Vec Ideal S1024x1024 .bf16) (j : S1280x1024.Idx) :
    k0_pay3 (F := Ideal) (k0_pay2 x w (k0_pay1 (F := Ideal))) j = ∑ k : Fin 1024, x (ix2 (j 0) k) * w (ix2 k (j 1)) := by
  unfold k0_pay3 k0_pay2 k0_pay1
  simp only [shapeCast_self]
  refine (show _ = Ideal.ofBits .f32 0x00000000#32
      + FloatOps.matmul dot_S1280x1024_S1024x1024_S1280x1024_1_0_0_1_n_n none x w (constant S1280x1024 .f32 0x00000000#32) j from rfl).trans ?_
  rw [Ideal.ofBits_zero_f32, zero_add, Ideal.matmul_constant_zero_apply,
    ← Equiv.sum_comp (contrEquiv1 dot_S1280x1024_S1024x1024_S1280x1024_1_0_0_1_n_n 1024 rfl rfl).symm]
  refine Finset.sum_congr rfl fun k _ => ?_
  have hk := contrEquiv1_symm_val dot_S1280x1024_S1024x1024_S1280x1024_1_0_0_1_n_n 1024 rfl rfl k
  have el : dot_S1280x1024_S1024x1024_S1280x1024_1_0_0_1_n_n.lhsIdx j ((contrEquiv1 dot_S1280x1024_S1024x1024_S1280x1024_1_0_0_1_n_n 1024 rfl rfl).symm k) = ix2 (j 0) k :=
    funext fun a => Fin.ext (by
      match a with
      | ⟨0, _⟩ => exact lhsRow_reg0 _ _
      | ⟨1, _⟩ => exact (lhsCol_reg0 _ _).trans hk)
  have er : dot_S1280x1024_S1024x1024_S1280x1024_1_0_0_1_n_n.rhsIdx j ((contrEquiv1 dot_S1280x1024_S1024x1024_S1280x1024_1_0_0_1_n_n 1024 rfl rfl).symm k) = ix2 k (j 1) :=
    funext fun a => Fin.ext (by
      match a with
      | ⟨0, _⟩ => exact (rhsRow_reg0 _ _).trans hk
      | ⟨1, _⟩ => exact rhsCol_reg0 _ _)
  rw [el, er]
  rfl

theorem block_sum_reg0 (A : S10240x1024.Idx → EReal) (B : S1024x1024.Idx → EReal)
    (x : Vec Ideal S1280x1024 .bf16) (w : Vec Ideal S1024x1024 .bf16) (j : S1280x1024.Idx) (i : S10240x1024.Idx)
    (hx : ∀ k : Fin 1024, x (ix2 (j 0) k) = A (ix2 (i 0) k)) (hw : ∀ k : Fin 1024, w (ix2 k (j 1)) = B (ix2 k (i 1))) :
    k0_pay3 (F := Ideal) (k0_pay2 x w (k0_pay1 (F := Ideal))) j = Cert.Spec.G0 A B i := by
  rw [pay_apply_reg0]
  unfold Cert.Spec.G0
  exact Finset.sum_congr rfl fun k _ => by rw [hx k, hw k]

theorem idx_reg0 : ∀ t : Fin cfg0.N, (cfg0.win 0).index t (0 : Fin 2) = (cfg0.win 3).index t (0 : Fin 2)
    ∧ (cfg0.win 0).index t (1 : Fin 2) = 0
    ∧ (cfg0.win 1).index t (0 : Fin 2) = 0 ∧ (cfg0.win 1).index t (1 : Fin 2) = 0
    ∧ (cfg0.win 3).index t (1 : Fin 2) = 0 ∧ (cfg0.win 3).index t (0 : Fin 2) ≤ 7 :=
  (by decide +kernel : ∀ t : Fin grid0.N, _)

theorem onto_reg0 : ∀ q : Fin 8, ∃ t : Fin cfg0.N, (cfg0.win 3).index t = ![q.val, 0] :=
  (by decide +kernel : ∀ q : Fin 8, ∃ t : Fin grid0.N, (cfg0.win 3).index t = ![q.val, 0])

variable (V : (c : Dev nD) → (b : Ref sig .tc) → Buf (Elt Ideal) ((c : Thread nD τ).loc b))

set_option maxHeartbeats 1000000 in

theorem flushed_eq_reg0 (c : Dev nD) (t : Fin cfg0.N) :
    (dat0 (F := Ideal) V c).flushed 3 t
      = ((cfg0.win 3).blk t).view.read (Elt Ideal) (Cert.Spec.G0 (V c (Pipeline.arrRef spec0 0)) (V c (Pipeline.arrRef spec0 1))) := by
  show (cfg0.win 3).cut (grid0.coords t) ((dat0 (F := Ideal) V c).after 3 t) = _
  rw [after0_3]
  funext j
  obtain ⟨e0, e1, e2, e3, e4, e5⟩ := idx_reg0 t
  refine block_sum_reg0 (V c (Pipeline.arrRef spec0 0)) (V c (Pipeline.arrRef spec0 1)) (iblk0 V c 0 t) (iblk0 V c 1 t) j
    (((cfg0.win 3).blk t).view.emb j) (fun k => ?_) (fun k => ?_)
  · show V c (Pipeline.arrRef spec0 0) (((cfg0.win 0).blk t).view.emb (ix2 (j 0) k)) = _
    refine congrArg (V c (Pipeline.arrRef spec0 0)) (funext fun a => Fin.ext ?_)
    match a with
    | ⟨0, _⟩ =>
      show (cfg0.win 0).index t (0 : Fin 2) * 1280 + 1 * (j 0).val = (cfg0.win 3).index t (0 : Fin 2) * 1280 + 1 * (j 0).val
      omega
    | ⟨1, _⟩ =>
      show (cfg0.win 0).index t (1 : Fin 2) * 1024 + 1 * k.val = k.val
      omega
  · show V c (Pipeline.arrRef spec0 1) (((cfg0.win 1).blk t).view.emb (ix2 k (j 1))) = _
    refine congrArg (V c (Pipeline.arrRef spec0 1)) (funext fun a => Fin.ext ?_)
    match a with
    | ⟨0, _⟩ =>
      show (cfg0.win 1).index t (0 : Fin 2) * 1024 + 1 * k.val = k.val
      omega
    | ⟨1, _⟩ =>
      show (cfg0.win 1).index t (1 : Fin 2) * 1024 + 1 * (j 1).val = (cfg0.win 3).index t (1 : Fin 2) * 1024 + 1 * (j 1).val
      omega

theorem mem_blk_reg0 (t : Fin cfg0.N) (i : S10240x1024.Idx) :
    i ∈ ((cfg0.win 3).blk t).view.set ↔ ∀ a : Fin 2, (cfg0.win 3).index t a * S1280x1024.size a ≤ (i a).val
      ∧ (i a).val < (cfg0.win 3).index t a * S1280x1024.size a + S1280x1024.size a := by
  show i ∈ ((View.whole (Pipeline.arrRef spec0 3)).slice ((cfg0.win 3).rect t)).set ↔ _
  rw [View.set_slice_whole, Rect.mem_set_unit]
  exact Iff.rfl

theorem cover_reg0 (i : S10240x1024.Idx) :
    ∃ t : Fin cfg0.N, (cfg0.win 3).flush t = true ∧ i ∈ ((cfg0.win 3).blk t).view.set := by
  have hi0 : (i 0).val < 10240 := (i 0).isLt
  have hi1 : (i 1).val < 1024 := (i 1).isLt
  obtain ⟨t, ht⟩ := onto_reg0 ⟨(i 0).val / 1280, by omega⟩
  have q0 : (cfg0.win 3).index t (0 : Fin 2) = (i 0).val / 1280 := congrFun ht 0
  have q1 : (cfg0.win 3).index t (1 : Fin 2) = 0 := congrFun ht 1
  refine ⟨t, flush0_3 t, ?_⟩
  rw [mem_blk_reg0]
  intro a
  match a with
  | ⟨0, _⟩ =>
    show (cfg0.win 3).index t (0 : Fin 2) * 1280 ≤ (i 0).val ∧ (i 0).val < (cfg0.win 3).index t (0 : Fin 2) * 1280 + 1280
    omega
  | ⟨1, _⟩ =>
    show (cfg0.win 3).index t (1 : Fin 2) * 1024 ≤ (i 1).val ∧ (i 1).val < (cfg0.win 3).index t (1 : Fin 2) * 1024 + 1024
    omega

theorem final0 (c : Dev nD) :
    (dat0 (F := Ideal) V c).arrAt 3 cfg0.N
      = Cert.Spec.G0 (V c (Pipeline.arrRef spec0 0)) (V c (Pipeline.arrRef spec0 1)) :=
  (dat0 (F := Ideal) V c).arrAt_eq_of_cover 3 _ (fun t _ => flushed_eq_reg0 V c t) (cover_reg0)

end Cert.KernelIdeal.Hand

end
-- ==== Proof.KIVal1.lean ====
import proofs.«419261_j25872882991625_3_alg».proof.Proof.KIReg1
import proofs.«419261_j25872882991625_3_alg».proof.Proof.SpecFns
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

private theorem lhs_0 (i : S128x1024.Idx) (k : dot_S128x10240_S10240x1024_S128x1024_1_0_0_1_n_n.contr.Idx) :
    (dot_S128x10240_S10240x1024_S128x1024_1_0_0_1_n_n.lhsIdx i k 0).val = (i 0).val := by
  unfold DotDims.lhsIdx
  rw [dif_neg (show ¬(0 : Fin S128x10240.rank) ∈ dot_S128x10240_S10240x1024_S128x1024_1_0_0_1_n_n.lhsBatch by decide), dif_pos (show (0 : Fin S128x10240.rank) ∈ dot_S128x10240_S10240x1024_S128x1024_1_0_0_1_n_n.lhsNonContracting by decide)]
  rfl
private theorem lhs_1 (i : S128x1024.Idx) (k : dot_S128x10240_S10240x1024_S128x1024_1_0_0_1_n_n.contr.Idx) :
    (dot_S128x10240_S10240x1024_S128x1024_1_0_0_1_n_n.lhsIdx i k 1).val = (k ⟨0, by decide⟩).val :=
  dot_S128x10240_S10240x1024_S128x1024_1_0_0_1_n_n.lhsIdx_val_of_single rfl i k
private theorem rhs_0 (i : S128x1024.Idx) (k : dot_S128x10240_S10240x1024_S128x1024_1_0_0_1_n_n.contr.Idx) :
    (dot_S128x10240_S10240x1024_S128x1024_1_0_0_1_n_n.rhsIdx i k 0).val = (k ⟨0, by decide⟩).val :=
  dot_S128x10240_S10240x1024_S128x1024_1_0_0_1_n_n.rhsIdx_val_of_single rfl i k
private theorem rhs_1 (i : S128x1024.Idx) (k : dot_S128x10240_S10240x1024_S128x1024_1_0_0_1_n_n.contr.Idx) :
    (dot_S128x10240_S10240x1024_S128x1024_1_0_0_1_n_n.rhsIdx i k 1).val = (i 1).val := by
  unfold DotDims.rhsIdx
  rw [dif_neg (show ¬(1 : Fin S10240x1024.rank) ∈ dot_S128x10240_S10240x1024_S128x1024_1_0_0_1_n_n.rhsBatch by decide), dif_pos (show (1 : Fin S10240x1024.rank) ∈ dot_S128x10240_S10240x1024_S128x1024_1_0_0_1_n_n.rhsNonContracting by decide)]
  rfl

private theorem matmul_at (a : FVec Ideal S128x10240 .bf16) (b : FVec Ideal S10240x1024 .bf16) (p : Fin 128) (q : Fin 1024) :
    matmul dot_S128x10240_S10240x1024_S128x1024_1_0_0_1_n_n none a b (constant S128x1024 .f32 0x00000000#32) (ix2 p q)
      = ∑ s : Fin 10240, a (ix2 p s) * b (ix2 s q) := by
  simp only [matmul]
  rw [Ideal.matmul_constant_zero_apply, ← Equiv.sum_comp (ValueIdx.contrEquiv1 dot_S128x10240_S10240x1024_S128x1024_1_0_0_1_n_n 10240 rfl rfl).symm]
  refine Finset.sum_congr rfl fun k _ => ?_
  have hk := ValueIdx.contrEquiv1_symm_val dot_S128x10240_S10240x1024_S128x1024_1_0_0_1_n_n 10240 rfl rfl k
  have el : dot_S128x10240_S10240x1024_S128x1024_1_0_0_1_n_n.lhsIdx (ix2 p q) ((ValueIdx.contrEquiv1 dot_S128x10240_S10240x1024_S128x1024_1_0_0_1_n_n 10240 rfl rfl).symm k) = ix2 p k := funext fun a => Fin.ext (by
    match a with
    | ⟨0, _⟩ => exact lhs_0 _ _
    | ⟨1, _⟩ => exact (lhs_1 _ _).trans hk)
  have er : dot_S128x10240_S10240x1024_S128x1024_1_0_0_1_n_n.rhsIdx (ix2 p q) ((ValueIdx.contrEquiv1 dot_S128x10240_S10240x1024_S128x1024_1_0_0_1_n_n 10240 rfl rfl).symm k) = ix2 k q := funext fun a => Fin.ext (by
    match a with
    | ⟨0, _⟩ => exact (rhs_0 _ _).trans hk
    | ⟨1, _⟩ => exact rhs_1 _ _)
  rw [el, er]

theorem k1_pay1_apply (j : S128x1024.Idx) : k1_pay1 (F := Ideal) j = 0 := by
  unfold k1_pay1
  simp only [shapeCast_self]
  exact Ideal.ofBits_zero_f32

theorem k1_pay2_apply (x0 : Vec Ideal S128x10240 .f32) (x1 : Vec Ideal S10240x1024 .bf16) (acc : Vec Ideal S128x1024 .f32)
    (p : Fin 128) (q : Fin 1024) :
    k1_pay2 (F := Ideal) x0 x1 acc (ix2 p q) = acc (ix2 p q) + ∑ s : Fin 10240, x0 (ix2 p s) * x1 (ix2 s q) := by
  unfold k1_pay2
  simp only [shapeCast_self]
  rw [addf_apply, matmul_at]
  rfl

theorem k1_pay3_apply (v : Vec Ideal S128x1024 .f32) (x2 : Vec Ideal S1x1024 .f32) (p : Fin 128) (q : Fin 1024) :
    k1_pay3 (F := Ideal) v x2 (ix2 p q) = Cert.Spec.leakyE (v (ix2 p q) + x2 (ix2 0 q)) := by
  have hb : broadcastTo S128x1024 x2 broadcasts_S1x1024_S128x1024 (ix2 p q) = x2 (ix2 0 q) :=
    broadcastTo_apply x2 broadcasts_S1x1024_S128x1024 (ix2 p q) (ix2 0 q) (fun a => match a with
      | ⟨0, _⟩ => by show (0 : Nat) = if (1 : Nat) = 1 then 0 else _; rw [if_pos rfl]
      | ⟨1, _⟩ => by show q.val = if (1024 : Nat) = 1 then 0 else q.val; rw [if_neg (by decide)])
  unfold k1_pay3
  simp only [shapeCast_self, truncf_apply, select_apply, cmpf_apply, mulf_apply, addf_apply, broadcast_apply, hb]
  generalize v (ix2 p q) + x2 (ix2 0 q) = y
  unfold Cert.Spec.leakyE Cert.Spec.slope
  rw [Ideal.cmpf_def, Ideal.ofBits_def, Ideal.ofBits_def, Ideal.ofBits_zero_f32]
  by_cases h : (0 : EReal) ≤ y
  · rw [if_pos h, show Ideal.cmp .oge y 0 = 1#1 from by simp only [Ideal.cmp, h, decide_true, BitVec.ofBool_true]; rfl]
    exact select_one _ _
  · rw [if_neg h, show Ideal.cmp .oge y 0 = 0#1 from by simp only [Ideal.cmp, h, decide_false, BitVec.ofBool_false]; rfl]
    exact select_zero _ _

theorem outBlk1_apply (x0 : Vec Ideal S128x10240 .f32) (x1 : Vec Ideal S10240x1024 .bf16) (x2 : Vec Ideal S1x1024 .f32)
    (p : Fin 128) (q : Fin 1024) :
    outBlk1 (F := Ideal) x0 x1 x2 (ix2 p q)
      = Cert.Spec.leakyE ((∑ s : Fin 10240, x0 (ix2 p s) * x1 (ix2 s q)) + x2 (ix2 0 q)) := by
  unfold outBlk1
  rw [k1_pay3_apply, k1_pay2_apply, k1_pay1_apply, zero_add]

private theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

private theorem blk_spec (A : Cert.Spec.T10240x10240.Idx → EReal) (hp : Cert.Spec.T10240x1024.Idx → EReal)
    (b : Cert.Spec.T1x1024.Idx → EReal)
    (x0 : Vec Ideal S128x10240 .f32) (x1 : Vec Ideal S10240x1024 .bf16) (x2 : Vec Ideal S1x1024 .f32)
    (j : S128x1024.Idx) (i : Cert.Spec.T10240x1024.Idx)
    (h0 : ∀ s : Fin 10240, x0 (ix2 (j 0) s) = A (ix2 (i 0) s))
    (h1 : ∀ s : Fin 10240, x1 (ix2 s (j 1)) = hp (ix2 s (i 1)))
    (h2 : x2 (ix2 0 (j 1)) = b (ix2 0 (i 1))) :
    outBlk1 (F := Ideal) x0 x1 x2 j = Cert.Spec.G1 A hp b i := by
  obtain ⟨p, q, rfl⟩ : ∃ (p : Fin 128) (q : Fin 1024), j = ix2 p q := ⟨j 0, j 1, eq_ix2 j⟩
  refine (outBlk1_apply x0 x1 x2 p q).trans ?_
  unfold Cert.Spec.G1
  exact congrArg₂ (fun z w => Cert.Spec.leakyE (z + w))
    (Finset.sum_congr rfl fun s _ => congrArg₂ (· * ·) (h0 s) (h1 s)) h2

theorem flushed1_eq (V : (c : Dev nD) → (b : Ref sig .tc) → Buf (Elt Ideal) ((c : Thread nD τ).loc b)) (c : Dev nD) (t : Fin cfg1.N) :
    (dat1 (F := Ideal) V c).flushed 3 t
      = ((cfg1.win 3).blk t).view.read (Elt Ideal)
          (Cert.Spec.G1 (V c (Pipeline.arrRef spec1 0)) (V c (Pipeline.arrRef spec1 1)) (V c (Pipeline.arrRef spec1 2))) := by
  show (cfg1.win 3).cut (grid1.coords t) ((dat1 (F := Ideal) V c).after 3 t) = _
  rw [after1_3]
  obtain ⟨e00, e01, e10, e11, e20, e21, e30, e31⟩ := idx_facts t
  funext j
  show outBlk1 (F := Ideal) (iblk1 V c 0 t) (iblk1 V c 1 t) (iblk1 V c 2 t) j
    = Cert.Spec.G1 (V c (Pipeline.arrRef spec1 0)) (V c (Pipeline.arrRef spec1 1)) (V c (Pipeline.arrRef spec1 2))
        (((cfg1.win 3).blk t).view.emb j)
  refine blk_spec (V c (Pipeline.arrRef spec1 0)) (V c (Pipeline.arrRef spec1 1)) (V c (Pipeline.arrRef spec1 2))
    (iblk1 V c 0 t) (iblk1 V c 1 t) (iblk1 V c 2 t) j (((cfg1.win 3).blk t).view.emb j) (fun s => ?_) (fun s => ?_) ?_
  · show V c (Pipeline.arrRef spec1 0) (((cfg1.win 0).blk t).view.emb (ix2 (j 0) s)) = _
    refine congrArg (V c (Pipeline.arrRef spec1 0)) (funext fun a => Fin.ext ?_)
    match a with
    | ⟨0, _⟩ => show win1_0.index t (0 : Fin 2) * 128 + 1 * (j 0).val = win1_3.index t (0 : Fin 2) * 128 + 1 * (j 0).val; omega
    | ⟨1, _⟩ => show win1_0.index t (1 : Fin 2) * 10240 + 1 * s.val = s.val; omega
  · show V c (Pipeline.arrRef spec1 1) (((cfg1.win 1).blk t).view.emb (ix2 s (j 1))) = _
    refine congrArg (V c (Pipeline.arrRef spec1 1)) (funext fun a => Fin.ext ?_)
    match a with
    | ⟨0, _⟩ => show win1_1.index t (0 : Fin 2) * 10240 + 1 * s.val = s.val; omega
    | ⟨1, _⟩ => show win1_1.index t (1 : Fin 2) * 1024 + 1 * (j 1).val = win1_3.index t (1 : Fin 2) * 1024 + 1 * (j 1).val; omega
  · show V c (Pipeline.arrRef spec1 2) (((cfg1.win 2).blk t).view.emb (ix2 0 (j 1))) = _
    refine congrArg (V c (Pipeline.arrRef spec1 2)) (funext fun a => Fin.ext ?_)
    match a with
    | ⟨0, _⟩ => show win1_2.index t (0 : Fin 2) * 1 + 1 * 0 = 0; omega
    | ⟨1, _⟩ => show win1_2.index t (1 : Fin 2) * 1024 + 1 * (j 1).val = win1_3.index t (1 : Fin 2) * 1024 + 1 * (j 1).val; omega

private theorem mem_blk (t : Fin cfg1.N) (i : Cert.Spec.T10240x1024.Idx) :
    i ∈ ((cfg1.win 3).blk t).view.set ↔ ∀ a : Fin 2, win1_3.index t a * S128x1024.size a ≤ (i a).val
      ∧ (i a).val < win1_3.index t a * S128x1024.size a + S128x1024.size a := by
  show i ∈ ((View.whole (Pipeline.arrRef spec1 3)).slice (win1_3.rect t)).set ↔ _
  rw [View.set_slice_whole, Rect.mem_set_unit]
  exact Iff.rfl

theorem final1 (V : (c : Dev nD) → (b : Ref sig .tc) → Buf (Elt Ideal) ((c : Thread nD τ).loc b)) (c : Dev nD) :
    (dat1 (F := Ideal) V c).arrAt 3 cfg1.N
      = Cert.Spec.G1 (V c (Pipeline.arrRef spec1 0)) (V c (Pipeline.arrRef spec1 1)) (V c (Pipeline.arrRef spec1 2)) :=
  (dat1 (F := Ideal) V c).arrAt_eq_of_cover 3 _ (fun t _ => flushed1_eq V c t) (fun (i : Cert.Spec.T10240x1024.Idx) => by
    have hi0 : (i 0).val < 10240 := (i 0).isLt
    have hi1 : (i 1).val < 1024 := (i 1).isLt
    obtain ⟨t, ht⟩ : ∃ t : Fin cfg1.N, t.val = (i 0).val / 128 :=
      ⟨⟨(i 0).val / 128, by rw [show cfg1.N = 80 from N_1]; omega⟩, rfl⟩
    obtain ⟨-, -, -, -, -, -, e30, e31⟩ := idx_facts t
    refine ⟨t, flush1_3 t, ?_⟩
    rw [mem_blk]
    intro a
    match a with
    | ⟨0, _⟩ => show win1_3.index t (0 : Fin 2) * 128 ≤ (i 0).val ∧ (i 0).val < win1_3.index t (0 : Fin 2) * 128 + 128; omega
    | ⟨1, _⟩ => show win1_3.index t (1 : Fin 2) * 1024 ≤ (i 1).val ∧ (i 1).val < win1_3.index t (1 : Fin 2) * 1024 + 1024; omega)

end Cert.KernelIdeal.Hand

end
-- ==== Proof.KIVal2.lean ====
import proofs.«419261_j25872882991625_3_alg».proof.Proof.KIReg2
import proofs.«419261_j25872882991625_3_alg».proof.Proof.SpecFns
import Idealize.ShloMosaic.PureOps.Ideal.Laws
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open scoped BigOperators

variable (V : (c : Dev nD) → (b : Ref sig .tc) → Buf (Elt Ideal) ((c : Thread nD τ).loc b))

theorem payZero2 (j : S64x1024.Idx) : k2_pay1 (F := Ideal) j = 0 := by
  unfold k2_pay1
  simp only [shapeCast_self]
  exact Ideal.ofBits_zero_f32

theorem dotLhsRow2 (j : S64x1024.Idx) (p : dot_S64x2560_S2560x1024_S64x1024_1_0_0_1_n_n.contr.Idx) :
    (dot_S64x2560_S2560x1024_S64x1024_1_0_0_1_n_n.lhsIdx j p 0).val = (j 0).val := by
  unfold DotDims.lhsIdx
  rw [dif_neg (show ¬(0 : Fin S64x2560.rank) ∈ dot_S64x2560_S2560x1024_S64x1024_1_0_0_1_n_n.lhsBatch by decide),
    dif_pos (show (0 : Fin S64x2560.rank) ∈ dot_S64x2560_S2560x1024_S64x1024_1_0_0_1_n_n.lhsNonContracting by decide)]
  rfl
theorem dotLhsCol2 (j : S64x1024.Idx) (p : dot_S64x2560_S2560x1024_S64x1024_1_0_0_1_n_n.contr.Idx) :
    (dot_S64x2560_S2560x1024_S64x1024_1_0_0_1_n_n.lhsIdx j p 1).val = (p ⟨0, by decide⟩).val :=
  dot_S64x2560_S2560x1024_S64x1024_1_0_0_1_n_n.lhsIdx_val_of_single rfl j p
theorem dotRhsRow2 (j : S64x1024.Idx) (p : dot_S64x2560_S2560x1024_S64x1024_1_0_0_1_n_n.contr.Idx) :
    (dot_S64x2560_S2560x1024_S64x1024_1_0_0_1_n_n.rhsIdx j p 0).val = (p ⟨0, by decide⟩).val :=
  dot_S64x2560_S2560x1024_S64x1024_1_0_0_1_n_n.rhsIdx_val_of_single rfl j p
theorem dotRhsCol2 (j : S64x1024.Idx) (p : dot_S64x2560_S2560x1024_S64x1024_1_0_0_1_n_n.contr.Idx) :
    (dot_S64x2560_S2560x1024_S64x1024_1_0_0_1_n_n.rhsIdx j p 1).val = (j 1).val := by
  unfold DotDims.rhsIdx
  rw [dif_neg (show ¬(1 : Fin S2560x1024.rank) ∈ dot_S64x2560_S2560x1024_S64x1024_1_0_0_1_n_n.rhsBatch by decide),
    dif_pos (show (1 : Fin S2560x1024.rank) ∈ dot_S64x2560_S2560x1024_S64x1024_1_0_0_1_n_n.rhsNonContracting by decide)]
  rfl

theorem dotLhs2 (j : S64x1024.Idx) (k : Fin 2560) :
    dot_S64x2560_S2560x1024_S64x1024_1_0_0_1_n_n.lhsIdx j
      ((contrEquiv1 dot_S64x2560_S2560x1024_S64x1024_1_0_0_1_n_n 2560 rfl rfl).symm k) = ix2 (j 0) k :=
  funext fun a => Fin.ext (by
    match a with
    | ⟨0, _⟩ => exact dotLhsRow2 _ _
    | ⟨1, _⟩ => exact (dotLhsCol2 _ _).trans (contrEquiv1_symm_val dot_S64x2560_S2560x1024_S64x1024_1_0_0_1_n_n 2560 rfl rfl k))
theorem dotRhs2 (j : S64x1024.Idx) (k : Fin 2560) :
    dot_S64x2560_S2560x1024_S64x1024_1_0_0_1_n_n.rhsIdx j
      ((contrEquiv1 dot_S64x2560_S2560x1024_S64x1024_1_0_0_1_n_n 2560 rfl rfl).symm k) = ix2 k (j 1) :=
  funext fun a => Fin.ext (by
    match a with
    | ⟨0, _⟩ => exact (dotRhsRow2 _ _).trans (contrEquiv1_symm_val dot_S64x2560_S2560x1024_S64x1024_1_0_0_1_n_n 2560 rfl rfl k)
    | ⟨1, _⟩ => exact dotRhsCol2 _ _)

theorem payStep2 (x : Vec Ideal S64x2560 .bf16) (y : Vec Ideal S2560x1024 .bf16) (s : Vec Ideal S64x1024 .f32)
    (j : S64x1024.Idx) :
    k2_pay2 (F := Ideal) x y s j = s j + ∑ k : Fin 2560, x (ix2 (j 0) k) * y (ix2 k (j 1)) := by
  unfold k2_pay2
  simp only [shapeCast_self]
  refine (addf_apply (φ := .f32) s _ j).trans (congrArg (s j + ·) ?_)
  refine (Ideal.matmul_constant_zero_apply (φ₁ := .bf16) (φ₂ := .bf16) dot_S64x2560_S2560x1024_S64x1024_1_0_0_1_n_n none x y j).trans ?_
  refine (Equiv.sum_comp (contrEquiv1 dot_S64x2560_S2560x1024_S64x1024_1_0_0_1_n_n 2560 rfl rfl).symm _).symm.trans ?_
  refine Finset.sum_congr rfl fun k _ => ?_
  rw [dotLhs2 j k, dotRhs2 j k]
  rfl

abbrev arrP2 (c : Dev nD) : S64x10240.Idx → EReal := V c (Pipeline.arrRef spec2 0)
abbrev arrA2 (c : Dev nD) : S10240x1024.Idx → EReal := V c (Pipeline.arrRef spec2 1)

abbrev blkP2 (c : Dev nD) (t : Fin cfg2.N) : Vec Ideal S64x2560 .bf16 := iblk2 V c 0 t
abbrev blkA2 (c : Dev nD) (t : Fin cfg2.N) : Vec Ideal S2560x1024 .bf16 := iblk2 V c 1 t

theorem idxFacts2 : ∀ t : Fin cfg2.N, win2_0.index t (0 : Fin 2) = 0 ∧ win2_0.index t (1 : Fin 2) = t.val
    ∧ win2_1.index t (0 : Fin 2) = t.val ∧ win2_1.index t (1 : Fin 2) = 0
    ∧ win2_3.index t (0 : Fin 2) = 0 ∧ win2_3.index t (1 : Fin 2) = 0 :=
  (by decide +kernel : ∀ t : Fin grid2.N, _)

theorem blkP2_apply (c : Dev nD) (t : Fin cfg2.N) (r : Fin 64) (k : Fin 2560) (n : Fin 10240)
    (hn : n.val = 2560 * t.val + k.val) : blkP2 V c t (ix2 r k) = arrP2 V c (ix2 r n) := by
  show V c (Pipeline.arrRef spec2 0) (((cfg2.win 0).blk t).view.emb (ix2 r k)) = V c (Pipeline.arrRef spec2 0) (ix2 r n)
  obtain ⟨e0, e1, -, -, -, -⟩ := idxFacts2 t
  refine congrArg (V c (Pipeline.arrRef spec2 0)) (funext fun a => Fin.ext ?_)
  match a with
  | ⟨0, _⟩ => show win2_0.index t (0 : Fin 2) * 64 + 1 * r.val = r.val; omega
  | ⟨1, _⟩ => show win2_0.index t (1 : Fin 2) * 2560 + 1 * k.val = n.val; omega

theorem blkA2_apply (c : Dev nD) (t : Fin cfg2.N) (k : Fin 2560) (q : Fin 1024) (n : Fin 10240)
    (hn : n.val = 2560 * t.val + k.val) : blkA2 V c t (ix2 k q) = arrA2 V c (ix2 n q) := by
  show V c (Pipeline.arrRef spec2 1) (((cfg2.win 1).blk t).view.emb (ix2 k q)) = V c (Pipeline.arrRef spec2 1) (ix2 n q)
  obtain ⟨-, -, e0, e1, -, -⟩ := idxFacts2 t
  refine congrArg (V c (Pipeline.arrRef spec2 1)) (funext fun a => Fin.ext ?_)
  match a with
  | ⟨0, _⟩ => show win2_1.index t (0 : Fin 2) * 2560 + 1 * k.val = n.val; omega
  | ⟨1, _⟩ => show win2_1.index t (1 : Fin 2) * 1024 + 1 * q.val = q.val; omega

def term2 (c : Dev nD) (r : Fin 64) (q : Fin 1024) (n : ℕ) : EReal :=
  if h : n < 10240 then arrP2 V c (ix2 r ⟨n, h⟩) * arrA2 V c (ix2 ⟨n, h⟩ q) else 0

theorem blockSum2 (c : Dev nD) (t : Fin cfg2.N) (r : Fin 64) (q : Fin 1024) :
    ∑ k : Fin 2560, blkP2 V c t (ix2 r k) * blkA2 V c t (ix2 k q)
      = ∑ k ∈ Finset.range 2560, term2 V c r q (2560 * t.val + k) := by
  have hN : t.val < 4 := lt_of_lt_of_eq t.isLt (show cfg2.N = 4 from N_2)
  rw [Finset.sum_range]
  refine Finset.sum_congr rfl fun k _ => ?_
  have hk : 2560 * t.val + k.val < 10240 := by have := k.isLt; omega
  unfold term2
  rw [dif_pos hk, blkP2_apply V c t r k ⟨_, hk⟩ rfl, blkA2_apply V c t k q ⟨_, hk⟩ rfl]

theorem acc2_apply (c : Dev nD) (r : Fin 64) (q : Fin 1024) :
    ∀ (n : ℕ) (hn : n < cfg2.N), acc2 V c n hn (ix2 r q) = ∑ k ∈ Finset.range (2560 * (n + 1)), term2 V c r q k
  | 0, hn => by
    show k2_pay2 (F := Ideal) (blkP2 V c ⟨0, hn⟩) (blkA2 V c ⟨0, hn⟩) (k2_pay1 (F := Ideal)) (ix2 r q) = _
    refine (payStep2 (blkP2 V c ⟨0, hn⟩) (blkA2 V c ⟨0, hn⟩) (k2_pay1 (F := Ideal)) (ix2 r q)).trans ?_
    rw [payZero2, zero_add]
    refine (blockSum2 V c ⟨0, hn⟩ r q).trans ?_
    refine Finset.sum_congr rfl fun k _ => ?_
    show term2 V c r q (2560 * 0 + k) = _
    rw [Nat.mul_zero, Nat.zero_add]
  | n + 1, hn => by
    show k2_pay2 (F := Ideal) (blkP2 V c ⟨n + 1, hn⟩) (blkA2 V c ⟨n + 1, hn⟩) (acc2 V c n (Nat.lt_of_succ_lt hn)) (ix2 r q) = _
    refine (payStep2 (blkP2 V c ⟨n + 1, hn⟩) (blkA2 V c ⟨n + 1, hn⟩) (acc2 V c n (Nat.lt_of_succ_lt hn)) (ix2 r q)).trans ?_
    rw [acc2_apply c r q n (Nat.lt_of_succ_lt hn)]
    refine (congrArg (_ + ·) (blockSum2 V c ⟨n + 1, hn⟩ r q)).trans ?_
    rw [show 2560 * (n + 1 + 1) = 2560 * (n + 1) + 2560 from by omega, Finset.sum_range_add]

theorem outEmb2 (t : Fin cfg2.N) (r : Fin 64) (q : Fin 1024) :
    ((cfg2.win 3).blk t).view.emb (ix2 r q) = ix2 r q := by
  obtain ⟨-, -, -, -, e0, e1⟩ := idxFacts2 t
  refine funext fun a => Fin.ext ?_
  match a with
  | ⟨0, _⟩ => show win2_3.index t (0 : Fin 2) * 64 + 1 * r.val = r.val; omega
  | ⟨1, _⟩ => show win2_3.index t (1 : Fin 2) * 1024 + 1 * q.val = q.val; omega

theorem flushed2_eq (c : Dev nD) (t : Fin cfg2.N) (hf : (cfg2.win 3).flush t = true) :
    (dat2 V c).flushed 3 t
      = ((cfg2.win 3).blk t).view.read (Elt Ideal)
          (Cert.Spec.G2 (V c (Pipeline.arrRef spec2 0)) (V c (Pipeline.arrRef spec2 1))) := by
  have hN : t.val < 4 := lt_of_lt_of_eq t.isLt (show cfg2.N = 4 from N_2)
  have ht : t.val = 3 := by have := (flush2_3 t).mp hf; omega
  show (cfg2.win 3).cut (grid2.coords t) ((dat2 V c).after 3 t) = _
  rw [after2_3]
  funext j
  obtain ⟨r, q, rfl⟩ : ∃ (r : Fin 64) (q : Fin 1024), j = ix2 r q := ⟨j 0, j 1, eq_ix2 j⟩
  show acc2 V c t.val t.isLt (ix2 r q)
    = Cert.Spec.G2 (arrP2 V c) (arrA2 V c) (((cfg2.win 3).blk t).view.emb (ix2 r q))
  rw [outEmb2 t r q, acc2_apply V c r q t.val t.isLt, ht]
  show ∑ k ∈ Finset.range 10240, term2 V c r q k = ∑ n : Fin 10240, arrP2 V c (ix2 r n) * arrA2 V c (ix2 n q)
  rw [Finset.sum_range]
  refine Finset.sum_congr rfl fun n _ => ?_
  unfold term2
  rw [dif_pos n.isLt]

theorem cover2 (c : Dev nD) (i : ((cfg2.win 3).arr.view.loc (c.tc : Thread nD τ)).2.ty.Idx) :
    ∃ t : Fin cfg2.N, (cfg2.win 3).flush t = true ∧ i ∈ ((cfg2.win 3).blk t).view.set := by
  refine ⟨t2_3, (flush2_3 t2_3).mpr rfl, ?_⟩
  obtain ⟨r, q, rfl⟩ : ∃ (r : Fin 64) (q : Fin 1024), i = ix2 r q := ⟨i 0, i 1, eq_ix2 i⟩
  rw [← outEmb2 t2_3 r q]
  exact ((cfg2.win 3).blk t2_3).view.emb_mem_set _

theorem final2 (V : (c : Dev nD) → (b : Ref sig .tc) → Buf (Elt Ideal) ((c : Thread nD τ).loc b)) (c : Dev nD) :
    (dat2 (F := Ideal) V c).arrAt 3 cfg2.N
      = Cert.Spec.G2 (V c (Pipeline.arrRef spec2 0)) (V c (Pipeline.arrRef spec2 1)) :=
  (dat2 (F := Ideal) V c).arrAt_eq_of_cover 3 _ (fun t hf => flushed2_eq V c t hf) (cover2 c)

end Cert.KernelIdeal.Hand

end
-- ==== Proof.KIVal3.lean ====
import proofs.«419261_j25872882991625_3_alg».proof.Proof.KIReg3
import proofs.«419261_j25872882991625_3_alg».proof.Proof.SpecFns
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

theorem lhs3_0 (i : S64x128.Idx) (q : dot_S64x1024_S1024x128_S64x128_1_0_0_1_n_n.contr.Idx) :
    (dot_S64x1024_S1024x128_S64x128_1_0_0_1_n_n.lhsIdx i q 0).val = (i 0).val := by
  unfold DotDims.lhsIdx
  rw [dif_neg (show ¬(0 : Fin S64x1024.rank) ∈ dot_S64x1024_S1024x128_S64x128_1_0_0_1_n_n.lhsBatch by decide), dif_pos (show (0 : Fin S64x1024.rank) ∈ dot_S64x1024_S1024x128_S64x128_1_0_0_1_n_n.lhsNonContracting by decide)]
  rfl
theorem lhs3_1 (i : S64x128.Idx) (q : dot_S64x1024_S1024x128_S64x128_1_0_0_1_n_n.contr.Idx) :
    (dot_S64x1024_S1024x128_S64x128_1_0_0_1_n_n.lhsIdx i q 1).val = (q ⟨0, by decide⟩).val :=
  dot_S64x1024_S1024x128_S64x128_1_0_0_1_n_n.lhsIdx_val_of_single rfl i q
theorem rhs3_0 (i : S64x128.Idx) (q : dot_S64x1024_S1024x128_S64x128_1_0_0_1_n_n.contr.Idx) :
    (dot_S64x1024_S1024x128_S64x128_1_0_0_1_n_n.rhsIdx i q 0).val = (q ⟨0, by decide⟩).val :=
  dot_S64x1024_S1024x128_S64x128_1_0_0_1_n_n.rhsIdx_val_of_single rfl i q
theorem rhs3_1 (i : S64x128.Idx) (q : dot_S64x1024_S1024x128_S64x128_1_0_0_1_n_n.contr.Idx) :
    (dot_S64x1024_S1024x128_S64x128_1_0_0_1_n_n.rhsIdx i q 1).val = (i 1).val := by
  unfold DotDims.rhsIdx
  rw [dif_neg (show ¬(1 : Fin S1024x128.rank) ∈ dot_S64x1024_S1024x128_S64x128_1_0_0_1_n_n.rhsBatch by decide), dif_pos (show (1 : Fin S1024x128.rank) ∈ dot_S64x1024_S1024x128_S64x128_1_0_0_1_n_n.rhsNonContracting by decide)]
  rfl

theorem mm3_apply (a : FVec Ideal S64x1024 .bf16) (b : FVec Ideal S1024x128 .bf16) (p : Fin 64) (q : Fin 128) :
    matmul dot_S64x1024_S1024x128_S64x128_1_0_0_1_n_n none a b (constant (F := Ideal) S64x128 .f32 0x00000000#32) (ix2 p q)
      = ∑ k : Fin 1024, a (ix2 p k) * b (ix2 k q) := by
  simp only [matmul]
  rw [Ideal.matmul_constant_zero_apply, ← Equiv.sum_comp (ValueIdx.contrEquiv1 dot_S64x1024_S1024x128_S64x128_1_0_0_1_n_n 1024 rfl rfl).symm]
  refine Finset.sum_congr rfl fun k _ => ?_
  have hk := ValueIdx.contrEquiv1_symm_val dot_S64x1024_S1024x128_S64x128_1_0_0_1_n_n 1024 rfl rfl k
  have el : dot_S64x1024_S1024x128_S64x128_1_0_0_1_n_n.lhsIdx (ix2 p q) ((ValueIdx.contrEquiv1 dot_S64x1024_S1024x128_S64x128_1_0_0_1_n_n 1024 rfl rfl).symm k) = ix2 p k := funext fun a => Fin.ext (by
    match a with
    | ⟨0, _⟩ => exact lhs3_0 _ _
    | ⟨1, _⟩ => exact (lhs3_1 _ _).trans hk)
  have er : dot_S64x1024_S1024x128_S64x128_1_0_0_1_n_n.rhsIdx (ix2 p q) ((ValueIdx.contrEquiv1 dot_S64x1024_S1024x128_S64x128_1_0_0_1_n_n 1024 rfl rfl).symm k) = ix2 k q := funext fun a => Fin.ext (by
    match a with
    | ⟨0, _⟩ => exact (rhs3_0 _ _).trans hk
    | ⟨1, _⟩ => exact rhs3_1 _ _)
  rw [el, er]

theorem pay3_1_apply (p : Fin 64) (q : Fin 128) : k3_pay1 (F := Ideal) (ix2 p q) = 0 := by
  unfold k3_pay1
  simp only [shapeCast_self]
  exact Ideal.ofBits_zero_f32

theorem pay3_2_apply (x0 : FVec Ideal S64x1024 .f32) (x1 : FVec Ideal S1024x128 .f32) (acc : FVec Ideal S64x128 .f32) (p : Fin 64) (q : Fin 128) :
    k3_pay2 (F := Ideal) x0 x1 acc (ix2 p q) = acc (ix2 p q) + ∑ k : Fin 1024, x0 (ix2 p k) * x1 (ix2 k q) := by
  unfold k3_pay2
  simp only [shapeCast_self]
  refine (addf_apply _ _ _).trans ?_
  exact congrArg (acc (ix2 p q) + ·) (mm3_apply _ _ p q)

theorem pay3_3_apply (y : FVec Ideal S64x128 .f32) (b : FVec Ideal S1x128 .f32) (p : Fin 64) (q : Fin 128) :
    k3_pay3 (F := Ideal) y b (ix2 p q) = Cert.Spec.leakyE (y (ix2 p q) + b (ix2 0 q)) := by
  unfold k3_pay3
  simp only [shapeCast_self]
  have hb : broadcastTo S64x128 b broadcasts_S1x128_S64x128 (ix2 p q) = b (ix2 (0 : Fin 1) q) :=
    broadcastTo_1b_ab_apply b broadcasts_S1x128_S64x128 p q
  show Scalar.select (Ideal.cmp .oge (y (ix2 p q) + broadcastTo S64x128 b broadcasts_S1x128_S64x128 (ix2 p q)) (Ideal.ofBits .f32 0x00000000#32))
      (y (ix2 p q) + broadcastTo S64x128 b broadcasts_S1x128_S64x128 (ix2 p q))
      (Cert.Spec.slope * (y (ix2 p q) + broadcastTo S64x128 b broadcasts_S1x128_S64x128 (ix2 p q))) = _
  rw [hb, Ideal.ofBits_zero_f32]
  unfold Cert.Spec.leakyE Scalar.select Ideal.cmp
  by_cases h : (0 : EReal) ≤ y (ix2 p q) + b (ix2 0 q)
  · simp [h]
  · simp [h]

theorem pay3_apply (x0 : FVec Ideal S64x1024 .f32) (x1 : FVec Ideal S1024x128 .f32) (x2 : FVec Ideal S1x128 .f32) (p : Fin 64) (q : Fin 128) :
    k3_pay3 (F := Ideal) (k3_pay2 (F := Ideal) x0 x1 (k3_pay1 (F := Ideal))) x2 (ix2 p q)
      = Cert.Spec.leakyE ((∑ k : Fin 1024, x0 (ix2 p k) * x1 (ix2 k q)) + x2 (ix2 0 q)) := by
  rw [pay3_3_apply, pay3_2_apply, pay3_1_apply, zero_add]

variable (V : (c : Dev nD) → (b : Ref sig .tc) → Buf (Elt Ideal) ((c : Thread nD τ).loc b))

theorem idx_facts3 : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

theorem emb3_0 (t : Fin cfg3.N) (j : S64x1024.Idx) : ((cfg3.win 0).blk t).view.emb j = j := by
  obtain ⟨e0, e1, -⟩ := idx_facts3 t
  funext a; apply Fin.ext
  match a with
  | ⟨0, _⟩ => show win3_0.index t (0 : Fin 2) * 64 + 1 * (j 0).val = (j 0).val; omega
  | ⟨1, _⟩ => show win3_0.index t (1 : Fin 2) * 1024 + 1 * (j 1).val = (j 1).val; omega
theorem emb3_1 (t : Fin cfg3.N) (j : S1024x128.Idx) : ((cfg3.win 1).blk t).view.emb j = j := by
  obtain ⟨-, -, e0, e1, -⟩ := idx_facts3 t
  funext a; apply Fin.ext
  match a with
  | ⟨0, _⟩ => show win3_1.index t (0 : Fin 2) * 1024 + 1 * (j 0).val = (j 0).val; omega
  | ⟨1, _⟩ => show win3_1.index t (1 : Fin 2) * 128 + 1 * (j 1).val = (j 1).val; omega
theorem emb3_2 (t : Fin cfg3.N) (j : S1x128.Idx) : ((cfg3.win 2).blk t).view.emb j = j := by
  obtain ⟨-, -, -, -, e0, e1, -⟩ := idx_facts3 t
  funext a; apply Fin.ext
  match a with
  | ⟨0, _⟩ => show win3_2.index t (0 : Fin 2) * 1 + 1 * (j 0).val = (j 0).val; omega
  | ⟨1, _⟩ => show win3_2.index t (1 : Fin 2) * 128 + 1 * (j 1).val = (j 1).val; omega
theorem emb3_3 (t : Fin cfg3.N) (j : S64x128.Idx) : ((cfg3.win 3).blk t).view.emb j = j := by
  obtain ⟨-, -, -, -, -, -, e0, e1⟩ := idx_facts3 t
  funext a; apply Fin.ext
  match a with
  | ⟨0, _⟩ => show win3_3.index t (0 : Fin 2) * 64 + 1 * (j 0).val = (j 0).val; omega
  | ⟨1, _⟩ => show win3_3.index t (1 : Fin 2) * 128 + 1 * (j 1).val = (j 1).val; omega

theorem iblk3_0_eq (c : Dev nD) (t : Fin cfg3.N) : (iblk3 V c 0 t : S64x1024.Idx → EReal) = V c (Pipeline.arrRef spec3 0) := by
  funext j
  show V c (Pipeline.arrRef spec3 0) (((cfg3.win 0).blk t).view.emb j) = V c (Pipeline.arrRef spec3 0) j
  rw [emb3_0]
theorem iblk3_1_eq (c : Dev nD) (t : Fin cfg3.N) : (iblk3 V c 1 t : S1024x128.Idx → EReal) = V c (Pipeline.arrRef spec3 1) := by
  funext j
  show V c (Pipeline.arrRef spec3 1) (((cfg3.win 1).blk t).view.emb j) = V c (Pipeline.arrRef spec3 1) j
  rw [emb3_1]
theorem iblk3_2_eq (c : Dev nD) (t : Fin cfg3.N) : (iblk3 V c 2 t : S1x128.Idx → EReal) = V c (Pipeline.arrRef spec3 2) := by
  funext j
  show V c (Pipeline.arrRef spec3 2) (((cfg3.win 2).blk t).view.emb j) = V c (Pipeline.arrRef spec3 2) j
  rw [emb3_2]

theorem flushed3_eq (c : Dev nD) (t : Fin cfg3.N) :
    (dat3 (F := Ideal) V c).flushed 3 t
      = ((cfg3.win 3).blk t).view.read (Elt Ideal)
          (Cert.Spec.G3 (V c (Pipeline.arrRef spec3 0)) (V c (Pipeline.arrRef spec3 1)) (V c (Pipeline.arrRef spec3 2))) := by
  show (cfg3.win 3).cut (grid3.coords t) ((dat3 (F := Ideal) V c).after 3 t) = _
  rw [after3_3]
  funext j
  obtain ⟨p, q, rfl⟩ : ∃ (p : Fin 64) (q : Fin 128), j = ix2 p q := ⟨j 0, j 1, eq_ix2 j⟩
  show k3_pay3 (F := Ideal) (k3_pay2 (F := Ideal) (iblk3 V c 0 t) (iblk3 V c 1 t) (k3_pay1 (F := Ideal))) (iblk3 V c 2 t) (ix2 p q)
    = Cert.Spec.G3 (V c (Pipeline.arrRef spec3 0)) (V c (Pipeline.arrRef spec3 1)) (V c (Pipeline.arrRef spec3 2))
        (((cfg3.win 3).blk t).view.emb (ix2 p q))
  rw [emb3_3, iblk3_0_eq, iblk3_1_eq, iblk3_2_eq]
  exact pay3_apply _ _ _ p q

theorem cover3 (i : S64x128.Idx) :
    ∃ t : Fin cfg3.N, (cfg3.win 3).flush t = true ∧ i ∈ ((cfg3.win 3).blk t).view.set := by
  refine ⟨⟨0, lt_of_lt_of_eq Nat.zero_lt_one N_3.symm⟩, flush3_3 _, ?_⟩
  have h := ((cfg3.win 3).blk ⟨0, lt_of_lt_of_eq Nat.zero_lt_one N_3.symm⟩).view.emb_mem_set i
  rwa [emb3_3] at h

theorem final3 (c : Dev nD) :
    (dat3 (F := Ideal) V c).arrAt 3 cfg3.N
      = Cert.Spec.G3 (V c (Pipeline.arrRef spec3 0)) (V c (Pipeline.arrRef spec3 1)) (V c (Pipeline.arrRef spec3 2)) :=
  (dat3 (F := Ideal) V c).arrAt_eq_of_cover 3 _ (fun t _ => flushed3_eq V c t) (cover3)

end Cert.KernelIdeal.Hand

end
-- ==== Proof.KIEntry1.lean ====
import proofs.«419261_j25872882991625_3_alg».proof.Proof.KICarry
import proofs.«419261_j25872882991625_3_alg».proof.Proof.KITerms
import proofs.«419261_j25872882991625_3_alg».proof.Proof.KIVal0
import proofs.«419261_j25872882991625_3_alg».proof.Proof.KIVal1
import proofs.«419261_j25872882991625_3_alg».proof.Proof.KIVal2
import proofs.«419261_j25872882991625_3_alg».proof.Proof.KIVal3
import Idealize.ShloMosaic.Lib.StableHlo.Run

noncomputable section

namespace Cert.KernelIdeal.Hand

open Cert.KernelIdeal Cert.KernelIdeal.Gen
open Idealize.ShloMosaic Idealize.ShloMosaic.TcCoe
open Idealize.ShloMosaic.Pipeline (Dat Cfg Window cellOf)

section Host
variable {F : FTy → Type} [FloatOps F]
variable (V : Valuation τ sig (Elt F))

abbrev host03 : Valuation τ sig (Elt F) :=
  StableHlo.after main_part1_ops2 (StableHlo.after main_part1_ops1 (StableHlo.after main_part1_ops0
    (StableHlo.after main_part0_ops0 V)))

theorem host03_v52 :
    host03 V (Proc.devRef .tc main_v52) = Terms.xpadT (V (Proc.devRef .tc main_arg0)) := by
  after_results
  rfl

theorem host03_v53 :
    host03 V (Proc.devRef .tc main_v53) = Terms.wT (V (Proc.devRef .tc main_arg6)) := by
  after_results
  rfl

theorem host03_v50 :
    host03 V (Proc.devRef .tc main_v50) = Terms.adjT (V (Proc.devRef .tc main_arg1)) := by
  simp (disch := decide) only [StableHlo.after_cons, StableHlo.after_nil,
    StableHlo.nullary_result', StableHlo.unary_result', StableHlo.binary_result', StableHlo.ternary_result',
    StableHlo.reshape_result',
    StableHlo.nullary_result_ne', StableHlo.unary_result_ne', StableHlo.binary_result_ne', StableHlo.ternary_result_ne',
    StableHlo.reshape_result_ne', Terms.cat2_fold]
  simp only [Terms.adjT, Terms.adjIdxT, Terms.adjUpdT, Terms.normT, Terms.dinvT, Terms.degT, Terms.wrap170,
    Terms.wrap160, Terms.srcT, Terms.dstT, Terms.cat2_fold]
  rfl

theorem host5_v56 :
    StableHlo.after main_part1_ops3 V (Proc.devRef .tc main_v56) = Terms.brT (V (Proc.devRef .tc main_arg7)) := by
  after_results
  rfl
abbrev host79 : Valuation τ sig (Elt F) :=
  StableHlo.after main_part1_ops6 (StableHlo.after main_part1_ops5 (StableHlo.after main_part1_ops4 V))

theorem host79_v65 :
    host79 V (Proc.devRef .tc main_v65) = Terms.memT (V (Proc.devRef .tc main_arg2)) := by
  after_results
  rfl
theorem host79_v57 : host79 V (Proc.devRef .tc main_v57) = V (Proc.devRef .tc main_v57) := by after_results
theorem host11_v74 :
    StableHlo.after main_part1_ops7 V (Proc.devRef .tc main_v74)
      = Terms.pooledT (V (Proc.devRef .tc main_v67)) (V (Proc.devRef .tc main_v65)) := by
  after_results
  rfl
theorem host11_v75 :
    StableHlo.after main_part1_ops7 V (Proc.devRef .tc main_v75) = Terms.fbrT (V (Proc.devRef .tc main_arg9)) := by
  after_results
  rfl
end Host

variable (m : (ℓ : Loc nD τ sig) → Buf (Elt Ideal) ℓ)

abbrev h1T (c : Dev nD) : FVec Ideal S10240x1024 .f32 :=
  Cert.Spec.G0 (Terms.xpadT (F := Ideal) (m ((c : Thread nD τ).loc main_arg0))) (Terms.wT (F := Ideal) (m ((c : Thread nD τ).loc main_arg6)))

abbrev agg1T (c : Dev nD) : FVec Ideal S10240x1024 .f32 :=
  Cert.Spec.G1 (Terms.adjT (F := Ideal) (m ((c : Thread nD τ).loc main_arg1))) (h1T m c) (Terms.brT (F := Ideal) (m ((c : Thread nD τ).loc main_arg7)))

abbrev sums1T (c : Dev nD) : FVec Ideal S64x1024 .f32 :=
  Cert.Spec.G2 (Terms.memT (F := Ideal) (m ((c : Thread nD τ).loc main_arg2))) (agg1T m c)

theorem W5_v55 (c : Dev nD) : W5 m c (Proc.devRef .tc main_v55) = h1T m c := by
  refine ((W5_arr m c 3).trans (final0 (V4 m) c)).trans ?_
  show Cert.Spec.G0 (W4 m c (Proc.devRef .tc main_v52)) (W4 m c (Proc.devRef .tc main_v53)) = _
  rw [show W4 m c (Proc.devRef .tc main_v52) = _ from host03_v52 (W0 m c),
    show W4 m c (Proc.devRef .tc main_v53) = _ from host03_v53 (W0 m c)]

theorem W5_v50 (c : Dev nD) :
    W5 m c (Proc.devRef .tc main_v50) = Terms.adjT (F := Ideal) (m ((c : Thread nD τ).loc main_arg1)) :=
  (W5_of_ne m c main_v50 (by decide)).trans (host03_v50 (W0 m c))

theorem W6_v50 (c : Dev nD) :
    W6 m c (Proc.devRef .tc main_v50) = Terms.adjT (F := Ideal) (m ((c : Thread nD τ).loc main_arg1)) :=
  (StableHlo.after_of_writes_sub _ (W5 m c) writes5_sub (r := main_v50) (by decide)).trans (W5_v50 m c)

theorem W6_v55 (c : Dev nD) : W6 m c (Proc.devRef .tc main_v55) = h1T m c :=
  (StableHlo.after_of_writes_sub _ (W5 m c) writes5_sub (r := main_v55) (by decide)).trans (W5_v55 m c)

theorem W6_v56 (c : Dev nD) :
    W6 m c (Proc.devRef .tc main_v56) = Terms.brT (F := Ideal) (m ((c : Thread nD τ).loc main_arg7)) :=
  (host5_v56 (W5 m c)).trans (congrArg (Terms.brT (F := Ideal)) (args5 m c main_arg7 (by decide)))

theorem W7_v57 (c : Dev nD) : W7 m c (Proc.devRef .tc main_v57) = agg1T m c := by
  refine ((W7_arr m c 3).trans (final1 (V6 m) c)).trans ?_
  show Cert.Spec.G1 (W6 m c (Proc.devRef .tc main_v50)) (W6 m c (Proc.devRef .tc main_v55))
    (W6 m c (Proc.devRef .tc main_v56)) = _
  rw [W6_v50, W6_v55, W6_v56]

theorem W10_v65 (c : Dev nD) :
    W10 m c (Proc.devRef .tc main_v65) = Terms.memT (F := Ideal) (m ((c : Thread nD τ).loc main_arg2)) :=
  (host79_v65 (W7 m c)).trans (congrArg (Terms.memT (F := Ideal)) (args7 m c main_arg2 (by decide)))

theorem W10_v57 (c : Dev nD) : W10 m c (Proc.devRef .tc main_v57) = agg1T m c :=
  (host79_v57 (W7 m c)).trans (W7_v57 m c)

theorem W11_v67 (c : Dev nD) : W11 m c (Proc.devRef .tc main_v67) = sums1T m c := by
  refine ((W11_arr m c 3).trans (final2 (V10 m) c)).trans ?_
  show Cert.Spec.G2 (W10 m c (Proc.devRef .tc main_v65)) (W10 m c (Proc.devRef .tc main_v57)) = _
  rw [W10_v65, W10_v57]

theorem W11_v65 (c : Dev nD) :
    W11 m c (Proc.devRef .tc main_v65) = Terms.memT (F := Ideal) (m ((c : Thread nD τ).loc main_arg2)) :=
  ((W11_arr m c 0).trans (((dat2 (V10 m) c).arrAt_in 0 rfl _).trans (A_eq2 (V10 m) c 0))).trans (W10_v65 m c)

theorem W12_v74 (c : Dev nD) :
    W12 m c (Proc.devRef .tc main_v74)
      = Terms.pooledT (F := Ideal) (sums1T m c) (Terms.memT (F := Ideal) (m ((c : Thread nD τ).loc main_arg2))) := by
  refine (host11_v74 (W11 m c)).trans ?_
  rw [W11_v67, W11_v65]

theorem W12_v75 (c : Dev nD) :
    W12 m c (Proc.devRef .tc main_v75) = Terms.fbrT (F := Ideal) (m ((c : Thread nD τ).loc main_arg9)) :=
  (host11_v75 (W11 m c)).trans (congrArg (Terms.fbrT (F := Ideal)) (args11 m c main_arg9 (by decide)))

theorem W13_branch1 (c : Dev nD) :
    W13 m c (Proc.devRef .tc main_v76)
      = Terms.kerBranchT (m ((c : Thread nD τ).loc main_arg0)) (m ((c : Thread nD τ).loc main_arg1))
          (m ((c : Thread nD τ).loc main_arg2)) (m ((c : Thread nD τ).loc main_arg6))
          (m ((c : Thread nD τ).loc main_arg7)) (m ((c : Thread nD τ).loc main_arg8))
          (m ((c : Thread nD τ).loc main_arg9)) := by
  refine ((W13_arr m c 3).trans (final3 (V12 m) c)).trans ?_
  show Cert.Spec.G3 (W12 m c (Proc.devRef .tc main_v74)) (W12 m c (Proc.devRef .tc main_arg8))
    (W12 m c (Proc.devRef .tc main_v75)) = _
  rw [W12_v74, args12 m c main_arg8 (by decide), W12_v75]
  rfl

end Cert.KernelIdeal.Hand
end
-- ==== Proof.KIVal4.lean ====
import proofs.«419261_j25872882991625_3_alg».proof.Proof.KIReg4
import proofs.«419261_j25872882991625_3_alg».proof.Proof.SpecFns
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

theorem lhsRow_reg4 (j : S1280x1024.Idx) (q : dot_S1280x1024_S1024x1024_S1280x1024_1_0_0_1_n_n.contr.Idx) :
    (dot_S1280x1024_S1024x1024_S1280x1024_1_0_0_1_n_n.lhsIdx j q 0).val = (j 0).val := by
  unfold DotDims.lhsIdx
  rw [dif_neg (show ¬(0 : Fin S1280x1024.rank) ∈ dot_S1280x1024_S1024x1024_S1280x1024_1_0_0_1_n_n.lhsBatch by decide),
    dif_pos (show (0 : Fin S1280x1024.rank) ∈ dot_S1280x1024_S1024x1024_S1280x1024_1_0_0_1_n_n.lhsNonContracting by decide)]
  rfl
theorem lhsCol_reg4 (j : S1280x1024.Idx) (q : dot_S1280x1024_S1024x1024_S1280x1024_1_0_0_1_n_n.contr.Idx) :
    (dot_S1280x1024_S1024x1024_S1280x1024_1_0_0_1_n_n.lhsIdx j q 1).val = (q ⟨0, by decide⟩).val :=
  dot_S1280x1024_S1024x1024_S1280x1024_1_0_0_1_n_n.lhsIdx_val_of_single rfl j q
theorem rhsRow_reg4 (j : S1280x1024.Idx) (q : dot_S1280x1024_S1024x1024_S1280x1024_1_0_0_1_n_n.contr.Idx) :
    (dot_S1280x1024_S1024x1024_S1280x1024_1_0_0_1_n_n.rhsIdx j q 0).val = (q ⟨0, by decide⟩).val :=
  dot_S1280x1024_S1024x1024_S1280x1024_1_0_0_1_n_n.rhsIdx_val_of_single rfl j q
theorem rhsCol_reg4 (j : S1280x1024.Idx) (q : dot_S1280x1024_S1024x1024_S1280x1024_1_0_0_1_n_n.contr.Idx) :
    (dot_S1280x1024_S1024x1024_S1280x1024_1_0_0_1_n_n.rhsIdx j q 1).val = (j 1).val := by
  unfold DotDims.rhsIdx
  rw [dif_neg (show ¬(1 : Fin S1024x1024.rank) ∈ dot_S1280x1024_S1024x1024_S1280x1024_1_0_0_1_n_n.rhsBatch by decide),
    dif_pos (show (1 : Fin S1024x1024.rank) ∈ dot_S1280x1024_S1024x1024_S1280x1024_1_0_0_1_n_n.rhsNonContracting by decide)]
  rfl

theorem pay_apply_reg4 (x : Vec Ideal S1280x1024 .bf16) (w : Vec Ideal S1024x1024 .bf16) (j : S1280x1024.Idx) :
    k4_pay3 (F := Ideal) (k4_pay2 x w (k4_pay1 (F := Ideal))) j = ∑ k : Fin 1024, x (ix2 (j 0) k) * w (ix2 k (j 1)) := by
  unfold k4_pay3 k4_pay2 k4_pay1
  simp only [shapeCast_self]
  refine (show _ = Ideal.ofBits .f32 0x00000000#32
      + FloatOps.matmul dot_S1280x1024_S1024x1024_S1280x1024_1_0_0_1_n_n none x w (constant S1280x1024 .f32 0x00000000#32) j from rfl).trans ?_
  rw [Ideal.ofBits_zero_f32, zero_add, Ideal.matmul_constant_zero_apply,
    ← Equiv.sum_comp (contrEquiv1 dot_S1280x1024_S1024x1024_S1280x1024_1_0_0_1_n_n 1024 rfl rfl).symm]
  refine Finset.sum_congr rfl fun k _ => ?_
  have hk := contrEquiv1_symm_val dot_S1280x1024_S1024x1024_S1280x1024_1_0_0_1_n_n 1024 rfl rfl k
  have el : dot_S1280x1024_S1024x1024_S1280x1024_1_0_0_1_n_n.lhsIdx j ((contrEquiv1 dot_S1280x1024_S1024x1024_S1280x1024_1_0_0_1_n_n 1024 rfl rfl).symm k) = ix2 (j 0) k :=
    funext fun a => Fin.ext (by
      match a with
      | ⟨0, _⟩ => exact lhsRow_reg4 _ _
      | ⟨1, _⟩ => exact (lhsCol_reg4 _ _).trans hk)
  have er : dot_S1280x1024_S1024x1024_S1280x1024_1_0_0_1_n_n.rhsIdx j ((contrEquiv1 dot_S1280x1024_S1024x1024_S1280x1024_1_0_0_1_n_n 1024 rfl rfl).symm k) = ix2 k (j 1) :=
    funext fun a => Fin.ext (by
      match a with
      | ⟨0, _⟩ => exact (rhsRow_reg4 _ _).trans hk
      | ⟨1, _⟩ => exact rhsCol_reg4 _ _)
  rw [el, er]
  rfl

theorem block_sum_reg4 (A : S10240x1024.Idx → EReal) (B : S1024x1024.Idx → EReal)
    (x : Vec Ideal S1280x1024 .bf16) (w : Vec Ideal S1024x1024 .bf16) (j : S1280x1024.Idx) (i : S10240x1024.Idx)
    (hx : ∀ k : Fin 1024, x (ix2 (j 0) k) = A (ix2 (i 0) k)) (hw : ∀ k : Fin 1024, w (ix2 k (j 1)) = B (ix2 k (i 1))) :
    k4_pay3 (F := Ideal) (k4_pay2 x w (k4_pay1 (F := Ideal))) j = Cert.Spec.G0 A B i := by
  rw [pay_apply_reg4]
  unfold Cert.Spec.G0
  exact Finset.sum_congr rfl fun k _ => by rw [hx k, hw k]

theorem idx_reg4 : ∀ t : Fin cfg4.N, (cfg4.win 0).index t (0 : Fin 2) = (cfg4.win 3).index t (0 : Fin 2)
    ∧ (cfg4.win 0).index t (1 : Fin 2) = 0
    ∧ (cfg4.win 1).index t (0 : Fin 2) = 0 ∧ (cfg4.win 1).index t (1 : Fin 2) = 0
    ∧ (cfg4.win 3).index t (1 : Fin 2) = 0 ∧ (cfg4.win 3).index t (0 : Fin 2) ≤ 7 :=
  (by decide +kernel : ∀ t : Fin grid4.N, _)

theorem onto_reg4 : ∀ q : Fin 8, ∃ t : Fin cfg4.N, (cfg4.win 3).index t = ![q.val, 0] :=
  (by decide +kernel : ∀ q : Fin 8, ∃ t : Fin grid4.N, (cfg4.win 3).index t = ![q.val, 0])

variable (V : (c : Dev nD) → (b : Ref sig .tc) → Buf (Elt Ideal) ((c : Thread nD τ).loc b))

set_option maxHeartbeats 1000000 in

theorem flushed_eq_reg4 (c : Dev nD) (t : Fin cfg4.N) :
    (dat4 (F := Ideal) V c).flushed 3 t
      = ((cfg4.win 3).blk t).view.read (Elt Ideal) (Cert.Spec.G0 (V c (Pipeline.arrRef spec4 0)) (V c (Pipeline.arrRef spec4 1))) := by
  show (cfg4.win 3).cut (grid4.coords t) ((dat4 (F := Ideal) V c).after 3 t) = _
  rw [after4_3]
  funext j
  obtain ⟨e0, e1, e2, e3, e4, e5⟩ := idx_reg4 t
  refine block_sum_reg4 (V c (Pipeline.arrRef spec4 0)) (V c (Pipeline.arrRef spec4 1)) (iblk4 V c 0 t) (iblk4 V c 1 t) j
    (((cfg4.win 3).blk t).view.emb j) (fun k => ?_) (fun k => ?_)
  · show V c (Pipeline.arrRef spec4 0) (((cfg4.win 0).blk t).view.emb (ix2 (j 0) k)) = _
    refine congrArg (V c (Pipeline.arrRef spec4 0)) (funext fun a => Fin.ext ?_)
    match a with
    | ⟨0, _⟩ =>
      show (cfg4.win 0).index t (0 : Fin 2) * 1280 + 1 * (j 0).val = (cfg4.win 3).index t (0 : Fin 2) * 1280 + 1 * (j 0).val
      omega
    | ⟨1, _⟩ =>
      show (cfg4.win 0).index t (1 : Fin 2) * 1024 + 1 * k.val = k.val
      omega
  · show V c (Pipeline.arrRef spec4 1) (((cfg4.win 1).blk t).view.emb (ix2 k (j 1))) = _
    refine congrArg (V c (Pipeline.arrRef spec4 1)) (funext fun a => Fin.ext ?_)
    match a with
    | ⟨0, _⟩ =>
      show (cfg4.win 1).index t (0 : Fin 2) * 1024 + 1 * k.val = k.val
      omega
    | ⟨1, _⟩ =>
      show (cfg4.win 1).index t (1 : Fin 2) * 1024 + 1 * (j 1).val = (cfg4.win 3).index t (1 : Fin 2) * 1024 + 1 * (j 1).val
      omega

theorem mem_blk_reg4 (t : Fin cfg4.N) (i : S10240x1024.Idx) :
    i ∈ ((cfg4.win 3).blk t).view.set ↔ ∀ a : Fin 2, (cfg4.win 3).index t a * S1280x1024.size a ≤ (i a).val
      ∧ (i a).val < (cfg4.win 3).index t a * S1280x1024.size a + S1280x1024.size a := by
  show i ∈ ((View.whole (Pipeline.arrRef spec4 3)).slice ((cfg4.win 3).rect t)).set ↔ _
  rw [View.set_slice_whole, Rect.mem_set_unit]
  exact Iff.rfl

theorem cover_reg4 (i : S10240x1024.Idx) :
    ∃ t : Fin cfg4.N, (cfg4.win 3).flush t = true ∧ i ∈ ((cfg4.win 3).blk t).view.set := by
  have hi0 : (i 0).val < 10240 := (i 0).isLt
  have hi1 : (i 1).val < 1024 := (i 1).isLt
  obtain ⟨t, ht⟩ := onto_reg4 ⟨(i 0).val / 1280, by omega⟩
  have q0 : (cfg4.win 3).index t (0 : Fin 2) = (i 0).val / 1280 := congrFun ht 0
  have q1 : (cfg4.win 3).index t (1 : Fin 2) = 0 := congrFun ht 1
  refine ⟨t, flush4_3 t, ?_⟩
  rw [mem_blk_reg4]
  intro a
  match a with
  | ⟨0, _⟩ =>
    show (cfg4.win 3).index t (0 : Fin 2) * 1280 ≤ (i 0).val ∧ (i 0).val < (cfg4.win 3).index t (0 : Fin 2) * 1280 + 1280
    omega
  | ⟨1, _⟩ =>
    show (cfg4.win 3).index t (1 : Fin 2) * 1024 ≤ (i 1).val ∧ (i 1).val < (cfg4.win 3).index t (1 : Fin 2) * 1024 + 1024
    omega

theorem final4 (c : Dev nD) :
    (dat4 (F := Ideal) V c).arrAt 3 cfg4.N
      = Cert.Spec.G0 (V c (Pipeline.arrRef spec4 0)) (V c (Pipeline.arrRef spec4 1)) :=
  (dat4 (F := Ideal) V c).arrAt_eq_of_cover 3 _ (fun t _ => flushed_eq_reg4 V c t) (cover_reg4)

end Cert.KernelIdeal.Hand

end
-- ==== Proof.KIVal5.lean ====
import proofs.«419261_j25872882991625_3_alg».proof.Proof.KIReg5
import proofs.«419261_j25872882991625_3_alg».proof.Proof.SpecFns
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

private theorem lhs_0 (i : S128x1024.Idx) (k : dot_S128x10240_S10240x1024_S128x1024_1_0_0_1_n_n.contr.Idx) :
    (dot_S128x10240_S10240x1024_S128x1024_1_0_0_1_n_n.lhsIdx i k 0).val = (i 0).val := by
  unfold DotDims.lhsIdx
  rw [dif_neg (show ¬(0 : Fin S128x10240.rank) ∈ dot_S128x10240_S10240x1024_S128x1024_1_0_0_1_n_n.lhsBatch by decide), dif_pos (show (0 : Fin S128x10240.rank) ∈ dot_S128x10240_S10240x1024_S128x1024_1_0_0_1_n_n.lhsNonContracting by decide)]
  rfl
private theorem lhs_1 (i : S128x1024.Idx) (k : dot_S128x10240_S10240x1024_S128x1024_1_0_0_1_n_n.contr.Idx) :
    (dot_S128x10240_S10240x1024_S128x1024_1_0_0_1_n_n.lhsIdx i k 1).val = (k ⟨0, by decide⟩).val :=
  dot_S128x10240_S10240x1024_S128x1024_1_0_0_1_n_n.lhsIdx_val_of_single rfl i k
private theorem rhs_0 (i : S128x1024.Idx) (k : dot_S128x10240_S10240x1024_S128x1024_1_0_0_1_n_n.contr.Idx) :
    (dot_S128x10240_S10240x1024_S128x1024_1_0_0_1_n_n.rhsIdx i k 0).val = (k ⟨0, by decide⟩).val :=
  dot_S128x10240_S10240x1024_S128x1024_1_0_0_1_n_n.rhsIdx_val_of_single rfl i k
private theorem rhs_1 (i : S128x1024.Idx) (k : dot_S128x10240_S10240x1024_S128x1024_1_0_0_1_n_n.contr.Idx) :
    (dot_S128x10240_S10240x1024_S128x1024_1_0_0_1_n_n.rhsIdx i k 1).val = (i 1).val := by
  unfold DotDims.rhsIdx
  rw [dif_neg (show ¬(1 : Fin S10240x1024.rank) ∈ dot_S128x10240_S10240x1024_S128x1024_1_0_0_1_n_n.rhsBatch by decide), dif_pos (show (1 : Fin S10240x1024.rank) ∈ dot_S128x10240_S10240x1024_S128x1024_1_0_0_1_n_n.rhsNonContracting by decide)]
  rfl

private theorem matmul_at (a : FVec Ideal S128x10240 .bf16) (b : FVec Ideal S10240x1024 .bf16) (p : Fin 128) (q : Fin 1024) :
    matmul dot_S128x10240_S10240x1024_S128x1024_1_0_0_1_n_n none a b (constant S128x1024 .f32 0x00000000#32) (ix2 p q)
      = ∑ s : Fin 10240, a (ix2 p s) * b (ix2 s q) := by
  simp only [matmul]
  rw [Ideal.matmul_constant_zero_apply, ← Equiv.sum_comp (ValueIdx.contrEquiv1 dot_S128x10240_S10240x1024_S128x1024_1_0_0_1_n_n 10240 rfl rfl).symm]
  refine Finset.sum_congr rfl fun k _ => ?_
  have hk := ValueIdx.contrEquiv1_symm_val dot_S128x10240_S10240x1024_S128x1024_1_0_0_1_n_n 10240 rfl rfl k
  have el : dot_S128x10240_S10240x1024_S128x1024_1_0_0_1_n_n.lhsIdx (ix2 p q) ((ValueIdx.contrEquiv1 dot_S128x10240_S10240x1024_S128x1024_1_0_0_1_n_n 10240 rfl rfl).symm k) = ix2 p k := funext fun a => Fin.ext (by
    match a with
    | ⟨0, _⟩ => exact lhs_0 _ _
    | ⟨1, _⟩ => exact (lhs_1 _ _).trans hk)
  have er : dot_S128x10240_S10240x1024_S128x1024_1_0_0_1_n_n.rhsIdx (ix2 p q) ((ValueIdx.contrEquiv1 dot_S128x10240_S10240x1024_S128x1024_1_0_0_1_n_n 10240 rfl rfl).symm k) = ix2 k q := funext fun a => Fin.ext (by
    match a with
    | ⟨0, _⟩ => exact (rhs_0 _ _).trans hk
    | ⟨1, _⟩ => exact rhs_1 _ _)
  rw [el, er]

theorem k5_pay1_apply (j : S128x1024.Idx) : k5_pay1 (F := Ideal) j = 0 := by
  unfold k5_pay1
  simp only [shapeCast_self]
  exact Ideal.ofBits_zero_f32

theorem k5_pay2_apply (x0 : Vec Ideal S128x10240 .f32) (x1 : Vec Ideal S10240x1024 .bf16) (acc : Vec Ideal S128x1024 .f32)
    (p : Fin 128) (q : Fin 1024) :
    k5_pay2 (F := Ideal) x0 x1 acc (ix2 p q) = acc (ix2 p q) + ∑ s : Fin 10240, x0 (ix2 p s) * x1 (ix2 s q) := by
  unfold k5_pay2
  simp only [shapeCast_self]
  rw [addf_apply, matmul_at]
  rfl

theorem k5_pay3_apply (v : Vec Ideal S128x1024 .f32) (x2 : Vec Ideal S1x1024 .f32) (p : Fin 128) (q : Fin 1024) :
    k5_pay3 (F := Ideal) v x2 (ix2 p q) = Cert.Spec.leakyE (v (ix2 p q) + x2 (ix2 0 q)) := by
  have hb : broadcastTo S128x1024 x2 broadcasts_S1x1024_S128x1024 (ix2 p q) = x2 (ix2 0 q) :=
    broadcastTo_apply x2 broadcasts_S1x1024_S128x1024 (ix2 p q) (ix2 0 q) (fun a => match a with
      | ⟨0, _⟩ => by show (0 : Nat) = if (1 : Nat) = 1 then 0 else _; rw [if_pos rfl]
      | ⟨1, _⟩ => by show q.val = if (1024 : Nat) = 1 then 0 else q.val; rw [if_neg (by decide)])
  unfold k5_pay3
  simp only [shapeCast_self, truncf_apply, select_apply, cmpf_apply, mulf_apply, addf_apply, broadcast_apply, hb]
  generalize v (ix2 p q) + x2 (ix2 0 q) = y
  unfold Cert.Spec.leakyE Cert.Spec.slope
  rw [Ideal.cmpf_def, Ideal.ofBits_def, Ideal.ofBits_def, Ideal.ofBits_zero_f32]
  by_cases h : (0 : EReal) ≤ y
  · rw [if_pos h, show Ideal.cmp .oge y 0 = 1#1 from by simp only [Ideal.cmp, h, decide_true, BitVec.ofBool_true]; rfl]
    exact select_one _ _
  · rw [if_neg h, show Ideal.cmp .oge y 0 = 0#1 from by simp only [Ideal.cmp, h, decide_false, BitVec.ofBool_false]; rfl]
    exact select_zero _ _

theorem outBlk5_apply (x0 : Vec Ideal S128x10240 .f32) (x1 : Vec Ideal S10240x1024 .bf16) (x2 : Vec Ideal S1x1024 .f32)
    (p : Fin 128) (q : Fin 1024) :
    outBlk5 (F := Ideal) x0 x1 x2 (ix2 p q)
      = Cert.Spec.leakyE ((∑ s : Fin 10240, x0 (ix2 p s) * x1 (ix2 s q)) + x2 (ix2 0 q)) := by
  unfold outBlk5
  rw [k5_pay3_apply, k5_pay2_apply, k5_pay1_apply, zero_add]

private theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

private theorem blk_spec (A : Cert.Spec.T10240x10240.Idx → EReal) (hp : Cert.Spec.T10240x1024.Idx → EReal)
    (b : Cert.Spec.T1x1024.Idx → EReal)
    (x0 : Vec Ideal S128x10240 .f32) (x1 : Vec Ideal S10240x1024 .bf16) (x2 : Vec Ideal S1x1024 .f32)
    (j : S128x1024.Idx) (i : Cert.Spec.T10240x1024.Idx)
    (h0 : ∀ s : Fin 10240, x0 (ix2 (j 0) s) = A (ix2 (i 0) s))
    (h1 : ∀ s : Fin 10240, x1 (ix2 s (j 1)) = hp (ix2 s (i 1)))
    (h2 : x2 (ix2 0 (j 1)) = b (ix2 0 (i 1))) :
    outBlk5 (F := Ideal) x0 x1 x2 j = Cert.Spec.G1 A hp b i := by
  obtain ⟨p, q, rfl⟩ : ∃ (p : Fin 128) (q : Fin 1024), j = ix2 p q := ⟨j 0, j 1, eq_ix2 j⟩
  refine (outBlk5_apply x0 x1 x2 p q).trans ?_
  unfold Cert.Spec.G1
  exact congrArg₂ (fun z w => Cert.Spec.leakyE (z + w))
    (Finset.sum_congr rfl fun s _ => congrArg₂ (· * ·) (h0 s) (h1 s)) h2

theorem flushed5_eq (V : (c : Dev nD) → (b : Ref sig .tc) → Buf (Elt Ideal) ((c : Thread nD τ).loc b)) (c : Dev nD) (t : Fin cfg5.N) :
    (dat5 (F := Ideal) V c).flushed 3 t
      = ((cfg5.win 3).blk t).view.read (Elt Ideal)
          (Cert.Spec.G1 (V c (Pipeline.arrRef spec5 0)) (V c (Pipeline.arrRef spec5 1)) (V c (Pipeline.arrRef spec5 2))) := by
  show (cfg5.win 3).cut (grid5.coords t) ((dat5 (F := Ideal) V c).after 3 t) = _
  rw [after5_3]
  obtain ⟨e00, e01, e10, e11, e20, e21, e30, e31⟩ := idx_facts t
  funext j
  show outBlk5 (F := Ideal) (iblk5 V c 0 t) (iblk5 V c 1 t) (iblk5 V c 2 t) j
    = Cert.Spec.G1 (V c (Pipeline.arrRef spec5 0)) (V c (Pipeline.arrRef spec5 1)) (V c (Pipeline.arrRef spec5 2))
        (((cfg5.win 3).blk t).view.emb j)
  refine blk_spec (V c (Pipeline.arrRef spec5 0)) (V c (Pipeline.arrRef spec5 1)) (V c (Pipeline.arrRef spec5 2))
    (iblk5 V c 0 t) (iblk5 V c 1 t) (iblk5 V c 2 t) j (((cfg5.win 3).blk t).view.emb j) (fun s => ?_) (fun s => ?_) ?_
  · show V c (Pipeline.arrRef spec5 0) (((cfg5.win 0).blk t).view.emb (ix2 (j 0) s)) = _
    refine congrArg (V c (Pipeline.arrRef spec5 0)) (funext fun a => Fin.ext ?_)
    match a with
    | ⟨0, _⟩ => show win5_0.index t (0 : Fin 2) * 128 + 1 * (j 0).val = win5_3.index t (0 : Fin 2) * 128 + 1 * (j 0).val; omega
    | ⟨1, _⟩ => show win5_0.index t (1 : Fin 2) * 10240 + 1 * s.val = s.val; omega
  · show V c (Pipeline.arrRef spec5 1) (((cfg5.win 1).blk t).view.emb (ix2 s (j 1))) = _
    refine congrArg (V c (Pipeline.arrRef spec5 1)) (funext fun a => Fin.ext ?_)
    match a with
    | ⟨0, _⟩ => show win5_1.index t (0 : Fin 2) * 10240 + 1 * s.val = s.val; omega
    | ⟨1, _⟩ => show win5_1.index t (1 : Fin 2) * 1024 + 1 * (j 1).val = win5_3.index t (1 : Fin 2) * 1024 + 1 * (j 1).val; omega
  · show V c (Pipeline.arrRef spec5 2) (((cfg5.win 2).blk t).view.emb (ix2 0 (j 1))) = _
    refine congrArg (V c (Pipeline.arrRef spec5 2)) (funext fun a => Fin.ext ?_)
    match a with
    | ⟨0, _⟩ => show win5_2.index t (0 : Fin 2) * 1 + 1 * 0 = 0; omega
    | ⟨1, _⟩ => show win5_2.index t (1 : Fin 2) * 1024 + 1 * (j 1).val = win5_3.index t (1 : Fin 2) * 1024 + 1 * (j 1).val; omega

private theorem mem_blk (t : Fin cfg5.N) (i : Cert.Spec.T10240x1024.Idx) :
    i ∈ ((cfg5.win 3).blk t).view.set ↔ ∀ a : Fin 2, win5_3.index t a * S128x1024.size a ≤ (i a).val
      ∧ (i a).val < win5_3.index t a * S128x1024.size a + S128x1024.size a := by
  show i ∈ ((View.whole (Pipeline.arrRef spec5 3)).slice (win5_3.rect t)).set ↔ _
  rw [View.set_slice_whole, Rect.mem_set_unit]
  exact Iff.rfl

theorem final5 (V : (c : Dev nD) → (b : Ref sig .tc) → Buf (Elt Ideal) ((c : Thread nD τ).loc b)) (c : Dev nD) :
    (dat5 (F := Ideal) V c).arrAt 3 cfg5.N
      = Cert.Spec.G1 (V c (Pipeline.arrRef spec5 0)) (V c (Pipeline.arrRef spec5 1)) (V c (Pipeline.arrRef spec5 2)) :=
  (dat5 (F := Ideal) V c).arrAt_eq_of_cover 3 _ (fun t _ => flushed5_eq V c t) (fun (i : Cert.Spec.T10240x1024.Idx) => by
    have hi0 : (i 0).val < 10240 := (i 0).isLt
    have hi1 : (i 1).val < 1024 := (i 1).isLt
    obtain ⟨t, ht⟩ : ∃ t : Fin cfg5.N, t.val = (i 0).val / 128 :=
      ⟨⟨(i 0).val / 128, by rw [show cfg5.N = 80 from N_5]; omega⟩, rfl⟩
    obtain ⟨-, -, -, -, -, -, e30, e31⟩ := idx_facts t
    refine ⟨t, flush5_3 t, ?_⟩
    rw [mem_blk]
    intro a
    match a with
    | ⟨0, _⟩ => show win5_3.index t (0 : Fin 2) * 128 ≤ (i 0).val ∧ (i 0).val < win5_3.index t (0 : Fin 2) * 128 + 128; omega
    | ⟨1, _⟩ => show win5_3.index t (1 : Fin 2) * 1024 ≤ (i 1).val ∧ (i 1).val < win5_3.index t (1 : Fin 2) * 1024 + 1024; omega)

end Cert.KernelIdeal.Hand

end
-- ==== Proof.KIVal6.lean ====
import proofs.«419261_j25872882991625_3_alg».proof.Proof.KIReg6
import proofs.«419261_j25872882991625_3_alg».proof.Proof.SpecFns
import Idealize.ShloMosaic.PureOps.Ideal.Laws
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open scoped BigOperators

variable (V : (c : Dev nD) → (b : Ref sig .tc) → Buf (Elt Ideal) ((c : Thread nD τ).loc b))

theorem payZero6 (j : S64x1024.Idx) : k6_pay1 (F := Ideal) j = 0 := by
  unfold k6_pay1
  simp only [shapeCast_self]
  exact Ideal.ofBits_zero_f32

theorem dotLhsRow6 (j : S64x1024.Idx) (p : dot_S64x2560_S2560x1024_S64x1024_1_0_0_1_n_n.contr.Idx) :
    (dot_S64x2560_S2560x1024_S64x1024_1_0_0_1_n_n.lhsIdx j p 0).val = (j 0).val := by
  unfold DotDims.lhsIdx
  rw [dif_neg (show ¬(0 : Fin S64x2560.rank) ∈ dot_S64x2560_S2560x1024_S64x1024_1_0_0_1_n_n.lhsBatch by decide),
    dif_pos (show (0 : Fin S64x2560.rank) ∈ dot_S64x2560_S2560x1024_S64x1024_1_0_0_1_n_n.lhsNonContracting by decide)]
  rfl
theorem dotLhsCol6 (j : S64x1024.Idx) (p : dot_S64x2560_S2560x1024_S64x1024_1_0_0_1_n_n.contr.Idx) :
    (dot_S64x2560_S2560x1024_S64x1024_1_0_0_1_n_n.lhsIdx j p 1).val = (p ⟨0, by decide⟩).val :=
  dot_S64x2560_S2560x1024_S64x1024_1_0_0_1_n_n.lhsIdx_val_of_single rfl j p
theorem dotRhsRow6 (j : S64x1024.Idx) (p : dot_S64x2560_S2560x1024_S64x1024_1_0_0_1_n_n.contr.Idx) :
    (dot_S64x2560_S2560x1024_S64x1024_1_0_0_1_n_n.rhsIdx j p 0).val = (p ⟨0, by decide⟩).val :=
  dot_S64x2560_S2560x1024_S64x1024_1_0_0_1_n_n.rhsIdx_val_of_single rfl j p
theorem dotRhsCol6 (j : S64x1024.Idx) (p : dot_S64x2560_S2560x1024_S64x1024_1_0_0_1_n_n.contr.Idx) :
    (dot_S64x2560_S2560x1024_S64x1024_1_0_0_1_n_n.rhsIdx j p 1).val = (j 1).val := by
  unfold DotDims.rhsIdx
  rw [dif_neg (show ¬(1 : Fin S2560x1024.rank) ∈ dot_S64x2560_S2560x1024_S64x1024_1_0_0_1_n_n.rhsBatch by decide),
    dif_pos (show (1 : Fin S2560x1024.rank) ∈ dot_S64x2560_S2560x1024_S64x1024_1_0_0_1_n_n.rhsNonContracting by decide)]
  rfl

theorem dotLhs6 (j : S64x1024.Idx) (k : Fin 2560) :
    dot_S64x2560_S2560x1024_S64x1024_1_0_0_1_n_n.lhsIdx j
      ((contrEquiv1 dot_S64x2560_S2560x1024_S64x1024_1_0_0_1_n_n 2560 rfl rfl).symm k) = ix2 (j 0) k :=
  funext fun a => Fin.ext (by
    match a with
    | ⟨0, _⟩ => exact dotLhsRow6 _ _
    | ⟨1, _⟩ => exact (dotLhsCol6 _ _).trans (contrEquiv1_symm_val dot_S64x2560_S2560x1024_S64x1024_1_0_0_1_n_n 2560 rfl rfl k))
theorem dotRhs6 (j : S64x1024.Idx) (k : Fin 2560) :
    dot_S64x2560_S2560x1024_S64x1024_1_0_0_1_n_n.rhsIdx j
      ((contrEquiv1 dot_S64x2560_S2560x1024_S64x1024_1_0_0_1_n_n 2560 rfl rfl).symm k) = ix2 k (j 1) :=
  funext fun a => Fin.ext (by
    match a with
    | ⟨0, _⟩ => exact (dotRhsRow6 _ _).trans (contrEquiv1_symm_val dot_S64x2560_S2560x1024_S64x1024_1_0_0_1_n_n 2560 rfl rfl k)
    | ⟨1, _⟩ => exact dotRhsCol6 _ _)

theorem payStep6 (x : Vec Ideal S64x2560 .bf16) (y : Vec Ideal S2560x1024 .bf16) (s : Vec Ideal S64x1024 .f32)
    (j : S64x1024.Idx) :
    k6_pay2 (F := Ideal) x y s j = s j + ∑ k : Fin 2560, x (ix2 (j 0) k) * y (ix2 k (j 1)) := by
  unfold k6_pay2
  simp only [shapeCast_self]
  refine (addf_apply (φ := .f32) s _ j).trans (congrArg (s j + ·) ?_)
  refine (Ideal.matmul_constant_zero_apply (φ₁ := .bf16) (φ₂ := .bf16) dot_S64x2560_S2560x1024_S64x1024_1_0_0_1_n_n none x y j).trans ?_
  refine (Equiv.sum_comp (contrEquiv1 dot_S64x2560_S2560x1024_S64x1024_1_0_0_1_n_n 2560 rfl rfl).symm _).symm.trans ?_
  refine Finset.sum_congr rfl fun k _ => ?_
  rw [dotLhs6 j k, dotRhs6 j k]
  rfl

abbrev arrP6 (c : Dev nD) : S64x10240.Idx → EReal := V c (Pipeline.arrRef spec6 0)
abbrev arrA6 (c : Dev nD) : S10240x1024.Idx → EReal := V c (Pipeline.arrRef spec6 1)

abbrev blkP6 (c : Dev nD) (t : Fin cfg6.N) : Vec Ideal S64x2560 .bf16 := iblk6 V c 0 t
abbrev blkA6 (c : Dev nD) (t : Fin cfg6.N) : Vec Ideal S2560x1024 .bf16 := iblk6 V c 1 t

theorem idxFacts6 : ∀ t : Fin cfg6.N, win6_0.index t (0 : Fin 2) = 0 ∧ win6_0.index t (1 : Fin 2) = t.val
    ∧ win6_1.index t (0 : Fin 2) = t.val ∧ win6_1.index t (1 : Fin 2) = 0
    ∧ win6_3.index t (0 : Fin 2) = 0 ∧ win6_3.index t (1 : Fin 2) = 0 :=
  (by decide +kernel : ∀ t : Fin grid6.N, _)

theorem blkP6_apply (c : Dev nD) (t : Fin cfg6.N) (r : Fin 64) (k : Fin 2560) (n : Fin 10240)
    (hn : n.val = 2560 * t.val + k.val) : blkP6 V c t (ix2 r k) = arrP6 V c (ix2 r n) := by
  show V c (Pipeline.arrRef spec6 0) (((cfg6.win 0).blk t).view.emb (ix2 r k)) = V c (Pipeline.arrRef spec6 0) (ix2 r n)
  obtain ⟨e0, e1, -, -, -, -⟩ := idxFacts6 t
  refine congrArg (V c (Pipeline.arrRef spec6 0)) (funext fun a => Fin.ext ?_)
  match a with
  | ⟨0, _⟩ => show win6_0.index t (0 : Fin 2) * 64 + 1 * r.val = r.val; omega
  | ⟨1, _⟩ => show win6_0.index t (1 : Fin 2) * 2560 + 1 * k.val = n.val; omega

theorem blkA6_apply (c : Dev nD) (t : Fin cfg6.N) (k : Fin 2560) (q : Fin 1024) (n : Fin 10240)
    (hn : n.val = 2560 * t.val + k.val) : blkA6 V c t (ix2 k q) = arrA6 V c (ix2 n q) := by
  show V c (Pipeline.arrRef spec6 1) (((cfg6.win 1).blk t).view.emb (ix2 k q)) = V c (Pipeline.arrRef spec6 1) (ix2 n q)
  obtain ⟨-, -, e0, e1, -, -⟩ := idxFacts6 t
  refine congrArg (V c (Pipeline.arrRef spec6 1)) (funext fun a => Fin.ext ?_)
  match a with
  | ⟨0, _⟩ => show win6_1.index t (0 : Fin 2) * 2560 + 1 * k.val = n.val; omega
  | ⟨1, _⟩ => show win6_1.index t (1 : Fin 2) * 1024 + 1 * q.val = q.val; omega

def term6 (c : Dev nD) (r : Fin 64) (q : Fin 1024) (n : ℕ) : EReal :=
  if h : n < 10240 then arrP6 V c (ix2 r ⟨n, h⟩) * arrA6 V c (ix2 ⟨n, h⟩ q) else 0

theorem blockSum6 (c : Dev nD) (t : Fin cfg6.N) (r : Fin 64) (q : Fin 1024) :
    ∑ k : Fin 2560, blkP6 V c t (ix2 r k) * blkA6 V c t (ix2 k q)
      = ∑ k ∈ Finset.range 2560, term6 V c r q (2560 * t.val + k) := by
  have hN : t.val < 4 := lt_of_lt_of_eq t.isLt (show cfg6.N = 4 from N_6)
  rw [Finset.sum_range]
  refine Finset.sum_congr rfl fun k _ => ?_
  have hk : 2560 * t.val + k.val < 10240 := by have := k.isLt; omega
  unfold term6
  rw [dif_pos hk, blkP6_apply V c t r k ⟨_, hk⟩ rfl, blkA6_apply V c t k q ⟨_, hk⟩ rfl]

theorem acc6_apply (c : Dev nD) (r : Fin 64) (q : Fin 1024) :
    ∀ (n : ℕ) (hn : n < cfg6.N), acc6 V c n hn (ix2 r q) = ∑ k ∈ Finset.range (2560 * (n + 1)), term6 V c r q k
  | 0, hn => by
    show k6_pay2 (F := Ideal) (blkP6 V c ⟨0, hn⟩) (blkA6 V c ⟨0, hn⟩) (k6_pay1 (F := Ideal)) (ix2 r q) = _
    refine (payStep6 (blkP6 V c ⟨0, hn⟩) (blkA6 V c ⟨0, hn⟩) (k6_pay1 (F := Ideal)) (ix2 r q)).trans ?_
    rw [payZero6, zero_add]
    refine (blockSum6 V c ⟨0, hn⟩ r q).trans ?_
    refine Finset.sum_congr rfl fun k _ => ?_
    show term6 V c r q (2560 * 0 + k) = _
    rw [Nat.mul_zero, Nat.zero_add]
  | n + 1, hn => by
    show k6_pay2 (F := Ideal) (blkP6 V c ⟨n + 1, hn⟩) (blkA6 V c ⟨n + 1, hn⟩) (acc6 V c n (Nat.lt_of_succ_lt hn)) (ix2 r q) = _
    refine (payStep6 (blkP6 V c ⟨n + 1, hn⟩) (blkA6 V c ⟨n + 1, hn⟩) (acc6 V c n (Nat.lt_of_succ_lt hn)) (ix2 r q)).trans ?_
    rw [acc6_apply c r q n (Nat.lt_of_succ_lt hn)]
    refine (congrArg (_ + ·) (blockSum6 V c ⟨n + 1, hn⟩ r q)).trans ?_
    rw [show 2560 * (n + 1 + 1) = 2560 * (n + 1) + 2560 from by omega, Finset.sum_range_add]

theorem outEmb6 (t : Fin cfg6.N) (r : Fin 64) (q : Fin 1024) :
    ((cfg6.win 3).blk t).view.emb (ix2 r q) = ix2 r q := by
  obtain ⟨-, -, -, -, e0, e1⟩ := idxFacts6 t
  refine funext fun a => Fin.ext ?_
  match a with
  | ⟨0, _⟩ => show win6_3.index t (0 : Fin 2) * 64 + 1 * r.val = r.val; omega
  | ⟨1, _⟩ => show win6_3.index t (1 : Fin 2) * 1024 + 1 * q.val = q.val; omega

theorem flushed6_eq (c : Dev nD) (t : Fin cfg6.N) (hf : (cfg6.win 3).flush t = true) :
    (dat6 V c).flushed 3 t
      = ((cfg6.win 3).blk t).view.read (Elt Ideal)
          (Cert.Spec.G2 (V c (Pipeline.arrRef spec6 0)) (V c (Pipeline.arrRef spec6 1))) := by
  have hN : t.val < 4 := lt_of_lt_of_eq t.isLt (show cfg6.N = 4 from N_6)
  have ht : t.val = 3 := by have := (flush6_3 t).mp hf; omega
  show (cfg6.win 3).cut (grid6.coords t) ((dat6 V c).after 3 t) = _
  rw [after6_3]
  funext j
  obtain ⟨r, q, rfl⟩ : ∃ (r : Fin 64) (q : Fin 1024), j = ix2 r q := ⟨j 0, j 1, eq_ix2 j⟩
  show acc6 V c t.val t.isLt (ix2 r q)
    = Cert.Spec.G2 (arrP6 V c) (arrA6 V c) (((cfg6.win 3).blk t).view.emb (ix2 r q))
  rw [outEmb6 t r q, acc6_apply V c r q t.val t.isLt, ht]
  show ∑ k ∈ Finset.range 10240, term6 V c r q k = ∑ n : Fin 10240, arrP6 V c (ix2 r n) * arrA6 V c (ix2 n q)
  rw [Finset.sum_range]
  refine Finset.sum_congr rfl fun n _ => ?_
  unfold term6
  rw [dif_pos n.isLt]

theorem cover6 (c : Dev nD) (i : ((cfg6.win 3).arr.view.loc (c.tc : Thread nD τ)).2.ty.Idx) :
    ∃ t : Fin cfg6.N, (cfg6.win 3).flush t = true ∧ i ∈ ((cfg6.win 3).blk t).view.set := by
  refine ⟨t6_3, (flush6_3 t6_3).mpr rfl, ?_⟩
  obtain ⟨r, q, rfl⟩ : ∃ (r : Fin 64) (q : Fin 1024), i = ix2 r q := ⟨i 0, i 1, eq_ix2 i⟩
  rw [← outEmb6 t6_3 r q]
  exact ((cfg6.win 3).blk t6_3).view.emb_mem_set _

theorem final6 (V : (c : Dev nD) → (b : Ref sig .tc) → Buf (Elt Ideal) ((c : Thread nD τ).loc b)) (c : Dev nD) :
    (dat6 (F := Ideal) V c).arrAt 3 cfg6.N
      = Cert.Spec.G2 (V c (Pipeline.arrRef spec6 0)) (V c (Pipeline.arrRef spec6 1)) :=
  (dat6 (F := Ideal) V c).arrAt_eq_of_cover 3 _ (fun t hf => flushed6_eq V c t hf) (cover6 c)

end Cert.KernelIdeal.Hand

end
-- ==== Proof.KIVal7.lean ====
import proofs.«419261_j25872882991625_3_alg».proof.Proof.KIReg7
import proofs.«419261_j25872882991625_3_alg».proof.Proof.SpecFns
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

theorem lhs7_0 (i : S64x128.Idx) (q : dot_S64x1024_S1024x128_S64x128_1_0_0_1_n_n.contr.Idx) :
    (dot_S64x1024_S1024x128_S64x128_1_0_0_1_n_n.lhsIdx i q 0).val = (i 0).val := by
  unfold DotDims.lhsIdx
  rw [dif_neg (show ¬(0 : Fin S64x1024.rank) ∈ dot_S64x1024_S1024x128_S64x128_1_0_0_1_n_n.lhsBatch by decide), dif_pos (show (0 : Fin S64x1024.rank) ∈ dot_S64x1024_S1024x128_S64x128_1_0_0_1_n_n.lhsNonContracting by decide)]
  rfl
theorem lhs7_1 (i : S64x128.Idx) (q : dot_S64x1024_S1024x128_S64x128_1_0_0_1_n_n.contr.Idx) :
    (dot_S64x1024_S1024x128_S64x128_1_0_0_1_n_n.lhsIdx i q 1).val = (q ⟨0, by decide⟩).val :=
  dot_S64x1024_S1024x128_S64x128_1_0_0_1_n_n.lhsIdx_val_of_single rfl i q
theorem rhs7_0 (i : S64x128.Idx) (q : dot_S64x1024_S1024x128_S64x128_1_0_0_1_n_n.contr.Idx) :
    (dot_S64x1024_S1024x128_S64x128_1_0_0_1_n_n.rhsIdx i q 0).val = (q ⟨0, by decide⟩).val :=
  dot_S64x1024_S1024x128_S64x128_1_0_0_1_n_n.rhsIdx_val_of_single rfl i q
theorem rhs7_1 (i : S64x128.Idx) (q : dot_S64x1024_S1024x128_S64x128_1_0_0_1_n_n.contr.Idx) :
    (dot_S64x1024_S1024x128_S64x128_1_0_0_1_n_n.rhsIdx i q 1).val = (i 1).val := by
  unfold DotDims.rhsIdx
  rw [dif_neg (show ¬(1 : Fin S1024x128.rank) ∈ dot_S64x1024_S1024x128_S64x128_1_0_0_1_n_n.rhsBatch by decide), dif_pos (show (1 : Fin S1024x128.rank) ∈ dot_S64x1024_S1024x128_S64x128_1_0_0_1_n_n.rhsNonContracting by decide)]
  rfl

theorem mm7_apply (a : FVec Ideal S64x1024 .bf16) (b : FVec Ideal S1024x128 .bf16) (p : Fin 64) (q : Fin 128) :
    matmul dot_S64x1024_S1024x128_S64x128_1_0_0_1_n_n none a b (constant (F := Ideal) S64x128 .f32 0x00000000#32) (ix2 p q)
      = ∑ k : Fin 1024, a (ix2 p k) * b (ix2 k q) := by
  simp only [matmul]
  rw [Ideal.matmul_constant_zero_apply, ← Equiv.sum_comp (ValueIdx.contrEquiv1 dot_S64x1024_S1024x128_S64x128_1_0_0_1_n_n 1024 rfl rfl).symm]
  refine Finset.sum_congr rfl fun k _ => ?_
  have hk := ValueIdx.contrEquiv1_symm_val dot_S64x1024_S1024x128_S64x128_1_0_0_1_n_n 1024 rfl rfl k
  have el : dot_S64x1024_S1024x128_S64x128_1_0_0_1_n_n.lhsIdx (ix2 p q) ((ValueIdx.contrEquiv1 dot_S64x1024_S1024x128_S64x128_1_0_0_1_n_n 1024 rfl rfl).symm k) = ix2 p k := funext fun a => Fin.ext (by
    match a with
    | ⟨0, _⟩ => exact lhs7_0 _ _
    | ⟨1, _⟩ => exact (lhs7_1 _ _).trans hk)
  have er : dot_S64x1024_S1024x128_S64x128_1_0_0_1_n_n.rhsIdx (ix2 p q) ((ValueIdx.contrEquiv1 dot_S64x1024_S1024x128_S64x128_1_0_0_1_n_n 1024 rfl rfl).symm k) = ix2 k q := funext fun a => Fin.ext (by
    match a with
    | ⟨0, _⟩ => exact (rhs7_0 _ _).trans hk
    | ⟨1, _⟩ => exact rhs7_1 _ _)
  rw [el, er]

theorem pay7_1_apply (p : Fin 64) (q : Fin 128) : k7_pay1 (F := Ideal) (ix2 p q) = 0 := by
  unfold k7_pay1
  simp only [shapeCast_self]
  exact Ideal.ofBits_zero_f32

theorem pay7_2_apply (x0 : FVec Ideal S64x1024 .f32) (x1 : FVec Ideal S1024x128 .f32) (acc : FVec Ideal S64x128 .f32) (p : Fin 64) (q : Fin 128) :
    k7_pay2 (F := Ideal) x0 x1 acc (ix2 p q) = acc (ix2 p q) + ∑ k : Fin 1024, x0 (ix2 p k) * x1 (ix2 k q) := by
  unfold k7_pay2
  simp only [shapeCast_self]
  refine (addf_apply _ _ _).trans ?_
  exact congrArg (acc (ix2 p q) + ·) (mm7_apply _ _ p q)

theorem pay7_3_apply (y : FVec Ideal S64x128 .f32) (b : FVec Ideal S1x128 .f32) (p : Fin 64) (q : Fin 128) :
    k7_pay3 (F := Ideal) y b (ix2 p q) = Cert.Spec.leakyE (y (ix2 p q) + b (ix2 0 q)) := by
  unfold k7_pay3
  simp only [shapeCast_self]
  have hb : broadcastTo S64x128 b broadcasts_S1x128_S64x128 (ix2 p q) = b (ix2 (0 : Fin 1) q) :=
    broadcastTo_1b_ab_apply b broadcasts_S1x128_S64x128 p q
  show Scalar.select (Ideal.cmp .oge (y (ix2 p q) + broadcastTo S64x128 b broadcasts_S1x128_S64x128 (ix2 p q)) (Ideal.ofBits .f32 0x00000000#32))
      (y (ix2 p q) + broadcastTo S64x128 b broadcasts_S1x128_S64x128 (ix2 p q))
      (Cert.Spec.slope * (y (ix2 p q) + broadcastTo S64x128 b broadcasts_S1x128_S64x128 (ix2 p q))) = _
  rw [hb, Ideal.ofBits_zero_f32]
  unfold Cert.Spec.leakyE Scalar.select Ideal.cmp
  by_cases h : (0 : EReal) ≤ y (ix2 p q) + b (ix2 0 q)
  · simp [h]
  · simp [h]

theorem pay7_apply (x0 : FVec Ideal S64x1024 .f32) (x1 : FVec Ideal S1024x128 .f32) (x2 : FVec Ideal S1x128 .f32) (p : Fin 64) (q : Fin 128) :
    k7_pay3 (F := Ideal) (k7_pay2 (F := Ideal) x0 x1 (k7_pay1 (F := Ideal))) x2 (ix2 p q)
      = Cert.Spec.leakyE ((∑ k : Fin 1024, x0 (ix2 p k) * x1 (ix2 k q)) + x2 (ix2 0 q)) := by
  rw [pay7_3_apply, pay7_2_apply, pay7_1_apply, zero_add]

variable (V : (c : Dev nD) → (b : Ref sig .tc) → Buf (Elt Ideal) ((c : Thread nD τ).loc b))

theorem idx_facts7 : ∀ t : Fin cfg7.N,
    win7_0.index t (0 : Fin 2) = 0 ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0 :=
  (by decide +kernel : ∀ t : Fin grid7.N, _)

theorem emb7_0 (t : Fin cfg7.N) (j : S64x1024.Idx) : ((cfg7.win 0).blk t).view.emb j = j := by
  obtain ⟨e0, e1, -⟩ := idx_facts7 t
  funext a; apply Fin.ext
  match a with
  | ⟨0, _⟩ => show win7_0.index t (0 : Fin 2) * 64 + 1 * (j 0).val = (j 0).val; omega
  | ⟨1, _⟩ => show win7_0.index t (1 : Fin 2) * 1024 + 1 * (j 1).val = (j 1).val; omega
theorem emb7_1 (t : Fin cfg7.N) (j : S1024x128.Idx) : ((cfg7.win 1).blk t).view.emb j = j := by
  obtain ⟨-, -, e0, e1, -⟩ := idx_facts7 t
  funext a; apply Fin.ext
  match a with
  | ⟨0, _⟩ => show win7_1.index t (0 : Fin 2) * 1024 + 1 * (j 0).val = (j 0).val; omega
  | ⟨1, _⟩ => show win7_1.index t (1 : Fin 2) * 128 + 1 * (j 1).val = (j 1).val; omega
theorem emb7_2 (t : Fin cfg7.N) (j : S1x128.Idx) : ((cfg7.win 2).blk t).view.emb j = j := by
  obtain ⟨-, -, -, -, e0, e1, -⟩ := idx_facts7 t
  funext a; apply Fin.ext
  match a with
  | ⟨0, _⟩ => show win7_2.index t (0 : Fin 2) * 1 + 1 * (j 0).val = (j 0).val; omega
  | ⟨1, _⟩ => show win7_2.index t (1 : Fin 2) * 128 + 1 * (j 1).val = (j 1).val; omega
theorem emb7_3 (t : Fin cfg7.N) (j : S64x128.Idx) : ((cfg7.win 3).blk t).view.emb j = j := by
  obtain ⟨-, -, -, -, -, -, e0, e1⟩ := idx_facts7 t
  funext a; apply Fin.ext
  match a with
  | ⟨0, _⟩ => show win7_3.index t (0 : Fin 2) * 64 + 1 * (j 0).val = (j 0).val; omega
  | ⟨1, _⟩ => show win7_3.index t (1 : Fin 2) * 128 + 1 * (j 1).val = (j 1).val; omega

theorem iblk7_0_eq (c : Dev nD) (t : Fin cfg7.N) : (iblk7 V c 0 t : S64x1024.Idx → EReal) = V c (Pipeline.arrRef spec7 0) := by
  funext j
  show V c (Pipeline.arrRef spec7 0) (((cfg7.win 0).blk t).view.emb j) = V c (Pipeline.arrRef spec7 0) j
  rw [emb7_0]
theorem iblk7_1_eq (c : Dev nD) (t : Fin cfg7.N) : (iblk7 V c 1 t : S1024x128.Idx → EReal) = V c (Pipeline.arrRef spec7 1) := by
  funext j
  show V c (Pipeline.arrRef spec7 1) (((cfg7.win 1).blk t).view.emb j) = V c (Pipeline.arrRef spec7 1) j
  rw [emb7_1]
theorem iblk7_2_eq (c : Dev nD) (t : Fin cfg7.N) : (iblk7 V c 2 t : S1x128.Idx → EReal) = V c (Pipeline.arrRef spec7 2) := by
  funext j
  show V c (Pipeline.arrRef spec7 2) (((cfg7.win 2).blk t).view.emb j) = V c (Pipeline.arrRef spec7 2) j
  rw [emb7_2]

theorem flushed7_eq (c : Dev nD) (t : Fin cfg7.N) :
    (dat7 (F := Ideal) V c).flushed 3 t
      = ((cfg7.win 3).blk t).view.read (Elt Ideal)
          (Cert.Spec.G3 (V c (Pipeline.arrRef spec7 0)) (V c (Pipeline.arrRef spec7 1)) (V c (Pipeline.arrRef spec7 2))) := by
  show (cfg7.win 3).cut (grid7.coords t) ((dat7 (F := Ideal) V c).after 3 t) = _
  rw [after7_3]
  funext j
  obtain ⟨p, q, rfl⟩ : ∃ (p : Fin 64) (q : Fin 128), j = ix2 p q := ⟨j 0, j 1, eq_ix2 j⟩
  show k7_pay3 (F := Ideal) (k7_pay2 (F := Ideal) (iblk7 V c 0 t) (iblk7 V c 1 t) (k7_pay1 (F := Ideal))) (iblk7 V c 2 t) (ix2 p q)
    = Cert.Spec.G3 (V c (Pipeline.arrRef spec7 0)) (V c (Pipeline.arrRef spec7 1)) (V c (Pipeline.arrRef spec7 2))
        (((cfg7.win 3).blk t).view.emb (ix2 p q))
  rw [emb7_3, iblk7_0_eq, iblk7_1_eq, iblk7_2_eq]
  exact pay7_apply _ _ _ p q

theorem cover7 (i : S64x128.Idx) :
    ∃ t : Fin cfg7.N, (cfg7.win 3).flush t = true ∧ i ∈ ((cfg7.win 3).blk t).view.set := by
  refine ⟨⟨0, lt_of_lt_of_eq Nat.zero_lt_one N_7.symm⟩, flush7_3 _, ?_⟩
  have h := ((cfg7.win 3).blk ⟨0, lt_of_lt_of_eq Nat.zero_lt_one N_7.symm⟩).view.emb_mem_set i
  rwa [emb7_3] at h

theorem final7 (c : Dev nD) :
    (dat7 (F := Ideal) V c).arrAt 3 cfg7.N
      = Cert.Spec.G3 (V c (Pipeline.arrRef spec7 0)) (V c (Pipeline.arrRef spec7 1)) (V c (Pipeline.arrRef spec7 2)) :=
  (dat7 (F := Ideal) V c).arrAt_eq_of_cover 3 _ (fun t _ => flushed7_eq V c t) (cover7)

end Cert.KernelIdeal.Hand

end
-- ==== Proof.KIEntry2.lean ====
import proofs.«419261_j25872882991625_3_alg».proof.Proof.KICarry
import proofs.«419261_j25872882991625_3_alg».proof.Proof.KITerms
import proofs.«419261_j25872882991625_3_alg».proof.Proof.KIVal4
import proofs.«419261_j25872882991625_3_alg».proof.Proof.KIVal5
import proofs.«419261_j25872882991625_3_alg».proof.Proof.KIVal6
import proofs.«419261_j25872882991625_3_alg».proof.Proof.KIVal7
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.StableHlo

section Host
variable {F : FTy → Type} [FloatOps F] (V : Valuation τ sig (Elt F))

theorem h13_v78 : StableHlo.after main_part1_ops8 V (Proc.devRef .tc main_v78) = Terms.srcT (V (Proc.devRef .tc main_arg4)) := by
  after_results; rfl

theorem h13_v80 : StableHlo.after main_part1_ops8 V (Proc.devRef .tc main_v80) = Terms.dstT (V (Proc.devRef .tc main_arg4)) := by
  after_results; rfl

theorem h13_v92 : StableHlo.after main_part1_ops8 V (Proc.devRef .tc main_v92) = Terms.dinvT (F := F) (V (Proc.devRef .tc main_arg4)) := by
  after_results_simp
  rfl

theorem h13_v93 : StableHlo.after main_part1_ops8 V (Proc.devRef .tc main_v93)
    = broadcastInDim S160000 ![] Facts₀.bcast_S_S160000 (constantI S_ 32 0#32) := by
  after_results

theorem h14_v127 (ei : IVec S2x160000 32)
    (h78 : V (Proc.devRef .tc main_v78) = Terms.srcT ei) (h80 : V (Proc.devRef .tc main_v80) = Terms.dstT ei)
    (h92 : V (Proc.devRef .tc main_v92) = Terms.dinvT (F := F) ei)
    (h93 : V (Proc.devRef .tc main_v93) = broadcastInDim S160000 ![] Facts₀.bcast_S_S160000 (constantI S_ 32 0#32)) :
    StableHlo.after main_part2_ops0 V (Proc.devRef .tc main_v127) = Terms.adjT (F := F) ei := by
  simp (disch := decide) only [StableHlo.after_cons, StableHlo.after_nil,
    StableHlo.nullary_result', StableHlo.unary_result', StableHlo.binary_result', StableHlo.ternary_result',
    StableHlo.nullary_result_ne', StableHlo.unary_result_ne', StableHlo.binary_result_ne', StableHlo.ternary_result_ne',
    Terms.cat2_fold, h78, h80, h92, h93]
  simp only [Terms.adjT, Terms.adjIdxT, Terms.adjUpdT, Terms.normT, Terms.wrap170, Terms.wrap160, Terms.cat2_fold]

theorem h14_c32 : StableHlo.after main_part2_ops0 V (Proc.devRef .tc main_c_32) = constantI S_ 32 0#32 := by
  after_results_simp

theorem h15_v128 : StableHlo.after main_part2_ops1 V (Proc.devRef .tc main_v128)
    = pad S10240x1024 ![0, 0] ![240, 0] ![0, 0] (V (Proc.devRef .tc main_arg3))
        (sitofp (F := F) .f32 (V (Proc.devRef .tc main_c_32))) Facts₀.pads_S10000x1024_S10240x1024_02400_000 Facts₀.h_S_ := by
  after_results <;> rfl

theorem h16_v129 : StableHlo.after main_part2_ops2 V (Proc.devRef .tc main_v129)
    = truncf .bf16 (V (Proc.devRef .tc main_v128)) bitsLt_bf16_f32 := by
  after_results <;> rfl

theorem h16_v130 : StableHlo.after main_part2_ops2 V (Proc.devRef .tc main_v130)
    = Terms.wT (F := F) (V (Proc.devRef .tc main_arg10)) := by
  after_results <;> rfl

theorem h18_v133 : StableHlo.after main_part2_ops3 V (Proc.devRef .tc main_v133)
    = Terms.brT (F := F) (V (Proc.devRef .tc main_arg11)) := by
  after_results <;> rfl

theorem h20_c34 : StableHlo.after main_part2_ops4 V (Proc.devRef .tc main_c_34) = constantI S_ 32 4294967295#32 := by
  after_results <;> rfl

theorem h21_v135 : StableHlo.after main_part2_ops5 V (Proc.devRef .tc main_v135)
    = pad S10240 ![0] ![240] ![0] (V (Proc.devRef .tc main_arg5)) (id (V (Proc.devRef .tc main_c_34)))
        Facts₀.pads_S10000_S10240_02400 Facts₀.h_S_ := by
  after_results <;> rfl

theorem h22_v142 : StableHlo.after main_part2_ops6 V (Proc.devRef .tc main_v142)
    = uitofp (F := F) .bf16
        (cmpi .eq
          (broadcastInDim S64x10240 ![0, 1] Facts₀.bcast_S1x10240_S64x10240_0_1
            (broadcastInDim S1x10240 ![1] Facts₀.bcast_S10240_S1x10240_1 (V (Proc.devRef .tc main_v135))))
          (broadcastInDim S64x10240 ![0, 1] Facts₀.bcast_S64x1_S64x10240_0_1
            (broadcastInDim S64x1 ![0] Facts₀.bcast_S64_S64x1_0 (iotaInDim S64 32 0)))) := by
  after_results <;> rfl

theorem h25_v151 : StableHlo.after main_part3_ops1 V (Proc.devRef .tc main_v151)
    = Terms.pooledT (F := F) (V (Proc.devRef .tc main_v144)) (V (Proc.devRef .tc main_v142)) := by
  after_results <;> rfl

theorem h25_v152 : StableHlo.after main_part3_ops1 V (Proc.devRef .tc main_v152)
    = Terms.fbrT (F := F) (V (Proc.devRef .tc main_arg13)) := by
  after_results <;> rfl

theorem h27_v158 : StableHlo.after main_part3_ops2 V (Proc.devRef .tc main_v158)
    = Terms.tailT (F := F) (V (Proc.devRef .tc main_v76)) (V (Proc.devRef .tc main_v153))
        (V (Proc.devRef .tc main_arg14)) (V (Proc.devRef .tc main_arg15)) := by
  after_results <;> rfl

end Host

section Branch
variable (m : (ℓ : Loc nD τ sig) → Buf (Elt Ideal) ℓ) (c : Dev nD)

theorem W14_v78 : W14 m c (Proc.devRef .tc main_v78) = Terms.srcT (m ((c : Thread nD τ).loc main_arg4)) :=
  (h13_v78 (W13 m c)).trans (congrArg (fun e => Terms.srcT e) (args13 m c main_arg4 (by decide)))

theorem W14_v80 : W14 m c (Proc.devRef .tc main_v80) = Terms.dstT (m ((c : Thread nD τ).loc main_arg4)) :=
  (h13_v80 (W13 m c)).trans (congrArg (fun e => Terms.dstT e) (args13 m c main_arg4 (by decide)))

theorem W14_v92 : W14 m c (Proc.devRef .tc main_v92) = Terms.dinvT (F := Ideal) (m ((c : Thread nD τ).loc main_arg4)) :=
  (h13_v92 (W13 m c)).trans (congrArg (fun e => Terms.dinvT (F := Ideal) e) (args13 m c main_arg4 (by decide)))

theorem W14_v93 : W14 m c (Proc.devRef .tc main_v93)
    = broadcastInDim S160000 ![] Facts₀.bcast_S_S160000 (constantI S_ 32 0#32) :=
  h13_v93 (W13 m c)

theorem W15_v127 : W15 m c (Proc.devRef .tc main_v127) = Terms.adjT (F := Ideal) (m ((c : Thread nD τ).loc main_arg4)) :=
  h14_v127 (W14 m c) _ (W14_v78 m c) (W14_v80 m c) (W14_v92 m c) (W14_v93 m c)

theorem W15_c32 : W15 m c (Proc.devRef .tc main_c_32) = constantI S_ 32 0#32 :=
  h14_c32 (W14 m c)

theorem W17_v129 : W17 m c (Proc.devRef .tc main_v129) = Terms.xpadT (F := Ideal) (m ((c : Thread nD τ).loc main_arg3)) := by
  refine (h16_v129 (W16 m c)).trans ?_
  rw [show W16 m c (Proc.devRef .tc main_v128) = _ from h15_v128 (W15 m c), (args15 m c main_arg3 (by decide)), W15_c32 m c]
  rfl

theorem W17_v130 : W17 m c (Proc.devRef .tc main_v130) = Terms.wT (F := Ideal) (m ((c : Thread nD τ).loc main_arg10)) :=
  (h16_v130 (W16 m c)).trans (congrArg (fun w => Terms.wT (F := Ideal) w) (args16 m c main_arg10 (by decide)))

theorem W18_v132 : W18 m c (Proc.devRef .tc main_v132)
    = Cert.Spec.G0 (Terms.xpadT (F := Ideal) (m ((c : Thread nD τ).loc main_arg3))) (Terms.wT (F := Ideal) (m ((c : Thread nD τ).loc main_arg10))) := by
  refine (W18_arr m c 3).trans ((final4 (V17 m) c).trans ?_)
  show Cert.Spec.G0 (W17 m c (Proc.devRef .tc main_v129)) (W17 m c (Proc.devRef .tc main_v130)) = _
  rw [W17_v129 m c, W17_v130 m c]

theorem W19_v133 : W19 m c (Proc.devRef .tc main_v133) = Terms.brT (F := Ideal) (m ((c : Thread nD τ).loc main_arg11)) :=
  (h18_v133 (W18 m c)).trans (congrArg (fun b => Terms.brT (F := Ideal) b) (args18 m c main_arg11 (by decide)))

theorem W19_v127 : W19 m c (Proc.devRef .tc main_v127) = Terms.adjT (F := Ideal) (m ((c : Thread nD τ).loc main_arg4)) :=
  (StableHlo.after_of_writes_sub _ (W18 m c) writes18_sub (r := main_v127) (by decide)).trans ((W18_of_ne m c main_v127 (by decide)).trans ((StableHlo.after_of_writes_sub _ (W16 m c) writes16_sub (r := main_v127) (by decide)).trans ((StableHlo.after_of_writes_sub _ (W15 m c) writes15_sub (r := main_v127) (by decide)).trans (W15_v127 m c))))

theorem W19_v132 : W19 m c (Proc.devRef .tc main_v132)
    = Cert.Spec.G0 (Terms.xpadT (F := Ideal) (m ((c : Thread nD τ).loc main_arg3))) (Terms.wT (F := Ideal) (m ((c : Thread nD τ).loc main_arg10))) :=
  (StableHlo.after_of_writes_sub _ (W18 m c) writes18_sub (r := main_v132) (by decide)).trans (W18_v132 m c)

theorem W20_v134 : W20 m c (Proc.devRef .tc main_v134)
    = Cert.Spec.G1 (Terms.adjT (F := Ideal) (m ((c : Thread nD τ).loc main_arg4)))
        (Cert.Spec.G0 (Terms.xpadT (F := Ideal) (m ((c : Thread nD τ).loc main_arg3))) (Terms.wT (F := Ideal) (m ((c : Thread nD τ).loc main_arg10))))
        (Terms.brT (F := Ideal) (m ((c : Thread nD τ).loc main_arg11))) := by
  refine (W20_arr m c 3).trans ((final5 (V19 m) c).trans ?_)
  show Cert.Spec.G1 (W19 m c (Proc.devRef .tc main_v127)) (W19 m c (Proc.devRef .tc main_v132)) (W19 m c (Proc.devRef .tc main_v133)) = _
  rw [W19_v127 m c, W19_v132 m c, W19_v133 m c]

theorem W21_c34 : W21 m c (Proc.devRef .tc main_c_34) = constantI S_ 32 4294967295#32 :=
  h20_c34 (W20 m c)

theorem W23_v142 : W23 m c (Proc.devRef .tc main_v142) = Terms.memT (F := Ideal) (m ((c : Thread nD τ).loc main_arg5)) := by
  refine (h22_v142 (W22 m c)).trans ?_
  rw [show W22 m c (Proc.devRef .tc main_v135) = _ from h21_v135 (W21 m c), (args21 m c main_arg5 (by decide)), W21_c34 m c]
  rfl

theorem W24_v142 : W24 m c (Proc.devRef .tc main_v142) = Terms.memT (F := Ideal) (m ((c : Thread nD τ).loc main_arg5)) :=
  (StableHlo.after_of_writes_sub _ (W23 m c) writes23_sub (r := main_v142) (by decide)).trans (W23_v142 m c)

theorem W24_v134 : W24 m c (Proc.devRef .tc main_v134) = W20 m c (Proc.devRef .tc main_v134) :=
  (StableHlo.after_of_writes_sub _ (W23 m c) writes23_sub (r := main_v134) (by decide)).trans ((StableHlo.after_of_writes_sub _ (W22 m c) writes22_sub (r := main_v134) (by decide)).trans ((StableHlo.after_of_writes_sub _ (W21 m c) writes21_sub (r := main_v134) (by decide)).trans ((StableHlo.after_of_writes_sub _ (W20 m c) writes20_sub (r := main_v134) (by decide)).trans (rfl))))

theorem W25_v144 : W25 m c (Proc.devRef .tc main_v144)
    = Cert.Spec.G2 (Terms.memT (F := Ideal) (m ((c : Thread nD τ).loc main_arg5)))
        (Cert.Spec.G1 (Terms.adjT (F := Ideal) (m ((c : Thread nD τ).loc main_arg4)))
          (Cert.Spec.G0 (Terms.xpadT (F := Ideal) (m ((c : Thread nD τ).loc main_arg3))) (Terms.wT (F := Ideal) (m ((c : Thread nD τ).loc main_arg10))))
          (Terms.brT (F := Ideal) (m ((c : Thread nD τ).loc main_arg11)))) := by
  refine (W25_arr m c 3).trans ((final6 (V24 m) c).trans ?_)
  show Cert.Spec.G2 (W24 m c (Proc.devRef .tc main_v142)) (W24 m c (Proc.devRef .tc main_v134)) = _
  rw [W24_v142 m c, W24_v134 m c, W20_v134 m c]

theorem W25_v142 : W25 m c (Proc.devRef .tc main_v142) = Terms.memT (F := Ideal) (m ((c : Thread nD τ).loc main_arg5)) :=
  (W25_arr m c 0).trans (((dat6 (V24 m) c).arrAt_in 0 rfl _).trans ((A_eq6 (V24 m) c 0).trans (W24_v142 m c)))

theorem W26_v151 : W26 m c (Proc.devRef .tc main_v151)
    = Terms.pooledT (F := Ideal)
        (Cert.Spec.G2 (Terms.memT (F := Ideal) (m ((c : Thread nD τ).loc main_arg5)))
          (Cert.Spec.G1 (Terms.adjT (F := Ideal) (m ((c : Thread nD τ).loc main_arg4)))
            (Cert.Spec.G0 (Terms.xpadT (F := Ideal) (m ((c : Thread nD τ).loc main_arg3))) (Terms.wT (F := Ideal) (m ((c : Thread nD τ).loc main_arg10))))
            (Terms.brT (F := Ideal) (m ((c : Thread nD τ).loc main_arg11)))))
        (Terms.memT (F := Ideal) (m ((c : Thread nD τ).loc main_arg5))) := by
  refine (h25_v151 (W25 m c)).trans ?_
  rw [W25_v144 m c, W25_v142 m c]

theorem W26_v152 : W26 m c (Proc.devRef .tc main_v152) = Terms.fbrT (F := Ideal) (m ((c : Thread nD τ).loc main_arg13)) :=
  (h25_v152 (W25 m c)).trans (congrArg (fun b => Terms.fbrT (F := Ideal) b) (args25 m c main_arg13 (by decide)))

theorem W27_branch2 : W27 m c (Proc.devRef .tc main_v153)
    = Terms.kerBranchT (m ((c : Thread nD τ).loc main_arg3)) (m ((c : Thread nD τ).loc main_arg4)) (m ((c : Thread nD τ).loc main_arg5)) (m ((c : Thread nD τ).loc main_arg10)) (m ((c : Thread nD τ).loc main_arg11)) (m ((c : Thread nD τ).loc main_arg12)) (m ((c : Thread nD τ).loc main_arg13)) := by
  refine (W27_arr m c 3).trans ((final7 (V26 m) c).trans ?_)
  show Cert.Spec.G3 (W26 m c (Proc.devRef .tc main_v151)) (W26 m c (Proc.devRef .tc main_arg12)) (W26 m c (Proc.devRef .tc main_v152)) = _
  rw [W26_v151 m c, (args26 m c main_arg12 (by decide)), W26_v152 m c]
  rfl

theorem W27_v76 : W27 m c (Proc.devRef .tc main_v76) = W13 m c (Proc.devRef .tc main_v76) :=
  (W27_of_ne m c main_v76 (by decide)).trans ((StableHlo.after_of_writes_sub _ (W25 m c) writes25_sub (r := main_v76) (by decide)).trans ((W25_of_ne m c main_v76 (by decide)).trans ((StableHlo.after_of_writes_sub _ (W23 m c) writes23_sub (r := main_v76) (by decide)).trans ((StableHlo.after_of_writes_sub _ (W22 m c) writes22_sub (r := main_v76) (by decide)).trans ((StableHlo.after_of_writes_sub _ (W21 m c) writes21_sub (r := main_v76) (by decide)).trans ((StableHlo.after_of_writes_sub _ (W20 m c) writes20_sub (r := main_v76) (by decide)).trans ((W20_of_ne m c main_v76 (by decide)).trans ((StableHlo.after_of_writes_sub _ (W18 m c) writes18_sub (r := main_v76) (by decide)).trans ((W18_of_ne m c main_v76 (by decide)).trans ((StableHlo.after_of_writes_sub _ (W16 m c) writes16_sub (r := main_v76) (by decide)).trans ((StableHlo.after_of_writes_sub _ (W15 m c) writes15_sub (r := main_v76) (by decide)).trans ((StableHlo.after_of_writes_sub _ (W14 m c) writes14_sub (r := main_v76) (by decide)).trans ((StableHlo.after_of_writes_sub _ (W13 m c) writes13_sub (r := main_v76) (by decide)).trans (rfl))))))))))))))

theorem W28_result : W28 m c (Proc.devRef .tc main_v158)
    = Terms.tailT (F := Ideal) (W13 m c (Proc.devRef .tc main_v76)) (W27 m c (Proc.devRef .tc main_v153)) (m ((c : Thread nD τ).loc main_arg14)) (m ((c : Thread nD τ).loc main_arg15)) := by
  refine (h27_v158 (W27 m c)).trans ?_
  rw [W27_v76 m c, (args27 m c main_arg14 (by decide)), (args27 m c main_arg15 (by decide))]

end Branch

end Cert.KernelIdeal.Hand
-- ==== Proof.SpecBranch.lean ====
import proofs.«419261_j25872882991625_3_alg».proof.Proof.SpecFns

noncomputable section

namespace Cert.Spec

open Idealize.ShloMosaic

def nodeOf (z : ℤ) : Fin 10000 := ⟨z.toNat % 10000, Nat.mod_lt _ (by decide)⟩

structure BranchIn where
  x : Fin 10000 → Fin 1024 → EReal
  src : Fin 160000 → ℤ
  dst : Fin 160000 → ℤ
  batch : Fin 10000 → ℤ
  W : Fin 1024 → Fin 1024 → EReal
  b : Fin 1024 → EReal
  fcW : Fin 1024 → Fin 128 → EReal
  fcb : Fin 128 → EReal

namespace BranchIn

variable (I : BranchIn)

def deg (n : Fin 10000) : EReal := (∑ e ∈ Finset.univ.filter (fun e : Fin 160000 => nodeOf (I.dst e) = n), (1 : EReal)) + 1
def dinv (n : Fin 10000) : EReal := Ideal.rsqrt (I.deg n)

def norm (e : Fin 160000) : EReal := I.dinv (nodeOf (I.src e)) * I.dinv (nodeOf (I.dst e))

def h (n : Fin 10000) (j : Fin 1024) : EReal := ∑ k : Fin 1024, I.x n k * I.W k j

def refConv (n : Fin 10000) (j : Fin 1024) : EReal :=
  leakyE (((∑ e ∈ Finset.univ.filter (fun e : Fin 160000 => nodeOf (I.dst e) = n), I.h (nodeOf (I.src e)) j * I.norm e)
    + I.h n j * Ideal.div 1 (I.deg n)) + I.b j)
def refSum (g : Fin 64) (j : Fin 1024) : EReal :=
  ∑ n ∈ Finset.univ.filter (fun n : Fin 10000 => I.batch n = (g.val : ℤ)), I.refConv n j
def refCnt (g : Fin 64) : EReal :=
  ∑ _n ∈ Finset.univ.filter (fun n : Fin 10000 => I.batch n = (g.val : ℤ)), (1 : EReal)
def refPool (g : Fin 64) (j : Fin 1024) : EReal := Ideal.div (I.refSum g j) (max (I.refCnt g) 1)
def refOut (g : Fin 64) (o : Fin 128) : EReal := leakyE ((∑ k : Fin 1024, I.refPool g k * I.fcW k o) + I.fcb o)

def kerA (d s : Fin 10240) : EReal :=
  (∑ e ∈ Finset.univ.filter (fun e : Fin 160000 => (nodeOf (I.dst e)).val = d.val ∧ (nodeOf (I.src e)).val = s.val), I.norm e)
    + (∑ i ∈ Finset.univ.filter (fun i : Fin 10000 => i.val = d.val ∧ i.val = s.val), I.dinv i * I.dinv i)

def xp (r : Fin 10240) (k : Fin 1024) : EReal := if hr : r.val < 10000 then I.x ⟨r.val, hr⟩ k else 0
def kerH (r : Fin 10240) (j : Fin 1024) : EReal := ∑ k : Fin 1024, I.xp r k * I.W k j
def kerAgg (r : Fin 10240) (j : Fin 1024) : EReal := leakyE ((∑ s : Fin 10240, I.kerA r s * I.kerH s j) + I.b j)

def kerP (g : Fin 64) (n : Fin 10240) : EReal := if hn : n.val < 10000 then (if I.batch ⟨n.val, hn⟩ = (g.val : ℤ) then 1 else 0) else 0
def kerSum (g : Fin 64) (j : Fin 1024) : EReal := ∑ n : Fin 10240, I.kerP g n * I.kerAgg n j
def kerCnt (g : Fin 64) : EReal := ∑ n : Fin 10240, I.kerP g n
def kerPool (g : Fin 64) (j : Fin 1024) : EReal := Ideal.div (I.kerSum g j) (max (I.kerCnt g) 1)
def kerOut (g : Fin 64) (o : Fin 128) : EReal := leakyE ((∑ k : Fin 1024, I.kerPool g k * I.fcW k o) + I.fcb o)

structure Ok : Prop where
  x_fin : ∀ n k, ∃ r : ℝ, I.x n k = (r : EReal)
  W_fin : ∀ k j, ∃ r : ℝ, I.W k j = (r : EReal)
  b_fin : ∀ j, ∃ r : ℝ, I.b j = (r : EReal)
  src_rng : ∀ e, 0 ≤ I.src e ∧ I.src e < 10000
  dst_rng : ∀ e, 0 ≤ I.dst e ∧ I.dst e < 10000

end BranchIn

end Cert.Spec

end
-- ==== Proof.SpecMk.lean ====
import proofs.«419261_j25872882991625_3_alg».proof.Proof.SpecBranch

noncomputable section

namespace Cert.Spec

open Idealize.ShloMosaic Idealize.ShloMosaic.ValueIdx

abbrev T10000x1024 : Shape := ⟨2, ![10000, 1024]⟩
abbrev T2x160000 : Shape := ⟨2, ![2, 160000]⟩
abbrev T10000 : Shape := ⟨1, ![10000]⟩
abbrev T1024 : Shape := ⟨1, ![1024]⟩
abbrev T128 : Shape := ⟨1, ![128]⟩

def mkBranch (x : T10000x1024.Idx → EReal) (ei : T2x160000.Idx → BitVec 32) (batch : T10000.Idx → BitVec 32)
    (W : T1024x1024.Idx → EReal) (b : T1024.Idx → EReal) (fcW : T1024x128.Idx → EReal) (fcb : T128.Idx → EReal) : BranchIn where
  x n k := x (ix2 n k)
  src e := (ei (ix2 (0 : Fin 2) e)).toInt
  dst e := (ei (ix2 (1 : Fin 2) e)).toInt
  batch n := (batch (ix1 n)).toInt
  W k j := W (ix2 k j)
  b j := b (ix1 j)
  fcW k o := fcW (ix2 k o)
  fcb o := fcb (ix1 o)

end Cert.Spec

end
-- ==== Proof.KISG.lean ====
import proofs.«419261_j25872882991625_3_alg».proof.KernelIdeal
import Idealize.ShloMosaic.PureOps.Ideal
import Idealize.ShloMosaic.Lib.ValueIdx

noncomputable section

namespace Cert.KernelIdeal.HostRead

open Idealize.ShloMosaic Idealize.ShloMosaic.ValueIdx
open Cert.KernelIdeal
open scoped BigOperators

theorem resultIdx?_eq_some_iff {s si u : Shape} (d : ScatterDims s si u) {w : Nat} (j : u.Idx) (idx : IVec si w)
    (i : s.Idx) :
    d.resultIdx? j idx = some i ↔ ∀ a, d.start j idx a + d.window j a = ((i a).val : ℤ) := by
  unfold ScatterDims.resultIdx?
  by_cases h : ∀ a, 0 ≤ d.start j idx a + d.window j a ∧ d.start j idx a + d.window j a < s.size a
  · rw [dif_pos h]
    constructor
    · intro he a
      have hf := congrFun (Option.some.inj he) a
      have hv := congrArg Fin.val hf
      simp only at hv
      have := (h a).1
      omega
    · intro he
      congr 1
      funext a
      refine Fin.ext ?_
      have := he a
      simp only
      omega
  · rw [dif_neg h]
    constructor
    · intro he; exact absurd he (by simp)
    · intro he
      exact absurd (fun a => by have := he a; have := (i a).isLt; constructor <;> omega) h

def idxEquiv1 {n : Nat} : (⟨1, ![n]⟩ : Shape).Idx ≃ Fin n where
  toFun j := j 0
  invFun := ix1
  left_inv j := (eq_ix1 j).symm
  right_inv _ := rfl

theorem sum_filter_idx1 {M : Type*} [AddCommMonoid M] {n : Nat} (P : (⟨1, ![n]⟩ : Shape).Idx → Prop) {dP : DecidablePred P}
    (Q : Fin n → Prop) {dQ : DecidablePred Q} (hPQ : ∀ j, P j ↔ Q (j 0)) (f : (⟨1, ![n]⟩ : Shape).Idx → M) :
    ∑ j ∈ @Finset.filter _ P dP Finset.univ, f j = ∑ e ∈ @Finset.filter _ Q dQ Finset.univ, f (ix1 e) := by
  refine Finset.sum_equiv idxEquiv1 ?_ ?_
  · intro j
    simp only [Finset.mem_filter, Finset.mem_univ, true_and]
    exact hPQ j
  · intro j _
    exact congrArg f (eq_ix1 j)

theorem window_eq_zero {s si u : Shape} (d : ScatterDims s si u) (j : u.Idx) (a : Fin s.rank)
    (ha : a ∈ d.insertedWindowDims) : d.window j a = 0 := by
  unfold ScatterDims.window
  rw [dif_neg]
  intro h
  have := (List.mem_filter.1 h).2
  simp [ha] at this

variable [Facts₀]

theorem s1_start (j : S160000.Idx) (idx : IVec S160000x1 32) (a : Fin 1) :
    scatter_S10000_S160000x1_S160000_n_0_0_1.start j idx a = (idx (ix2 (j 0) (0 : Fin 1))).toInt := by
  obtain rfl : a = 0 := Subsingleton.elim _ _
  unfold ScatterDims.start
  rw [dif_pos (show (0 : Fin 1) ∈ scatter_S10000_S160000x1_S160000_n_0_0_1.scatterDimsToOperandDims from
    List.mem_singleton.mpr rfl)]
  congr 2
  funext b
  refine Fin.ext ?_
  match b with
  | ⟨0, _⟩ => rfl
  | ⟨1, _⟩ => rfl

theorem s1_window (j : S160000.Idx) (a : Fin 1) :
    scatter_S10000_S160000x1_S160000_n_0_0_1.window j a = 0 := by
  obtain rfl : a = 0 := Subsingleton.elim _ _
  exact window_eq_zero _ j _ (List.mem_singleton.mpr rfl)

theorem scatter1_apply (x : FVec Ideal S10000 .f32) (idx : IVec S160000x1 32) (u : FVec Ideal S160000 .f32) (n : Fin 10000) :
    Host.scatterAdd scatter_S10000_S160000x1_S160000_n_0_0_1 x idx u (ix1 n)
      = x (ix1 n) + ∑ e ∈ Finset.univ.filter (fun e : Fin 160000 => (idx (ix2 e (0 : Fin 1))).toInt = (n.val : ℤ)), u (ix1 e) := by
  simp only [Host.scatterAdd, Ideal.hostScatterAdd_def, Ideal.hostScatterAdd]
  refine congrArg (HAdd.hAdd (x (ix1 n))) ?_
  refine sum_filter_idx1 _ _ (fun j => ?_) u
  rw [resultIdx?_eq_some_iff]
  constructor
  · intro h
    have h0 : _ + _ = ((n.val : ℕ) : ℤ) := h (0 : Fin 1)
    rw [s1_start, s1_window] at h0
    simpa using h0
  · intro h a
    have ha : a = (0 : Fin 1) := Subsingleton.elim (α := Fin 1) _ _
    subst ha
    rw [s1_start, s1_window]
    show _ + _ = ((n.val : ℕ) : ℤ)
    simpa using h

theorem g1_start (e : Fin 160000) (idx : IVec S160000x1 32) (a : Fin 1) :
    gather_S10000_S160000x1_S160000_n_0_n_n_0_1_1.start (ix1 e) idx a
      = min (idx (ix2 e (0 : Fin 1))).toInt.toNat (10000 - 1) := by
  obtain rfl : a = 0 := Subsingleton.elim _ _
  unfold GatherDims.start
  rw [dif_pos (show (0 : Fin 1) ∈ gather_S10000_S160000x1_S160000_n_0_n_n_0_1_1.startIndexMap from
    List.mem_singleton.mpr rfl)]
  have hsi : gather_S10000_S160000x1_S160000_n_0_n_n_0_1_1.siIdx (ix1 e)
      ⟨List.idxOf (0 : Fin 1) gather_S10000_S160000x1_S160000_n_0_n_n_0_1_1.startIndexMap,
        List.idxOf_lt_length_iff.2 (List.mem_singleton.mpr rfl)⟩ = ix2 e (0 : Fin 1) := by
    funext b
    refine Fin.ext ?_
    match b with
    | ⟨0, _⟩ => rfl
    | ⟨1, _⟩ => rfl
  rw [hsi]
  rfl

theorem gather1_apply (x : FVec Ideal S10000 .f32) (idx : IVec S160000x1 32) (e : Fin 160000)
    (h : 0 ≤ (idx (ix2 e (0 : Fin 1))).toInt ∧ (idx (ix2 e (0 : Fin 1))).toInt < 10000) :
    Host.gather gather_S10000_S160000x1_S160000_n_0_n_n_0_1_1 x idx (ix1 e)
      = x (ix1 ⟨(idx (ix2 e (0 : Fin 1))).toInt.toNat, by omega⟩) := by
  unfold Host.gather
  congr 1
  funext a
  have ha : a = (0 : Fin 1) := Subsingleton.elim (α := Fin 1) _ _
  subst ha
  refine Fin.ext ?_
  show gather_S10000_S160000x1_S160000_n_0_n_n_0_1_1.start (ix1 e) idx (0 : Fin 1)
      + gather_S10000_S160000x1_S160000_n_0_n_n_0_1_1.batchCoord (ix1 e) (0 : Fin 1)
      + gather_S10000_S160000x1_S160000_n_0_n_n_0_1_1.offCoord (ix1 e) (0 : Fin 1)
    = (idx (ix2 e (0 : Fin 1))).toInt.toNat
  rw [g1_start, GatherDims.batchCoord_eq_zero _ _ _ List.not_mem_nil,
    GatherDims.offCoord_eq_zero _ _ _ (fun hk => ((GatherDims.mem_sKept _ _).mp hk).1 (List.mem_singleton.mpr rfl))]
  omega

theorem s2_start0 (j : S170000.Idx) (idx : IVec S170000x2 32) :
    scatter_S10240x10240_S170000x2_S170000_n_01_01_1.start j idx (0 : Fin 2) = (idx (ix2 (j 0) (0 : Fin 2))).toInt := by
  unfold ScatterDims.start
  rw [dif_pos (show (0 : Fin 2) ∈ scatter_S10240x10240_S170000x2_S170000_n_01_01_1.scatterDimsToOperandDims from
    List.mem_cons_self)]
  congr 2
  funext b
  refine Fin.ext ?_
  match b with
  | ⟨0, _⟩ => rfl
  | ⟨1, _⟩ => rfl

theorem s2_start1 (j : S170000.Idx) (idx : IVec S170000x2 32) :
    scatter_S10240x10240_S170000x2_S170000_n_01_01_1.start j idx (1 : Fin 2) = (idx (ix2 (j 0) (1 : Fin 2))).toInt := by
  unfold ScatterDims.start
  rw [dif_pos (show (1 : Fin 2) ∈ scatter_S10240x10240_S170000x2_S170000_n_01_01_1.scatterDimsToOperandDims from
    List.mem_cons_of_mem _ (List.mem_singleton.mpr rfl))]
  congr 2
  funext b
  refine Fin.ext ?_
  match b with
  | ⟨0, _⟩ => rfl
  | ⟨1, _⟩ => rfl

theorem s2_window (j : S170000.Idx) (a : Fin 2) :
    scatter_S10240x10240_S170000x2_S170000_n_01_01_1.window j a = 0 := by
  refine window_eq_zero _ j _ ?_
  match a with
  | ⟨0, _⟩ => exact List.mem_cons_self
  | ⟨1, _⟩ => exact List.mem_cons_of_mem _ (List.mem_singleton.mpr rfl)

theorem scatter2_apply (x : FVec Ideal S10240x10240 .f32) (idx : IVec S170000x2 32) (u : FVec Ideal S170000 .f32) (d s : Fin 10240) :
    Host.scatterAdd scatter_S10240x10240_S170000x2_S170000_n_01_01_1 x idx u (ix2 d s)
      = x (ix2 d s) + ∑ k ∈ Finset.univ.filter (fun k : Fin 170000 =>
          (idx (ix2 k (0 : Fin 2))).toInt = (d.val : ℤ) ∧ (idx (ix2 k (1 : Fin 2))).toInt = (s.val : ℤ)), u (ix1 k) := by
  simp only [Host.scatterAdd, Ideal.hostScatterAdd_def, Ideal.hostScatterAdd]
  refine congrArg (HAdd.hAdd (x (ix2 d s))) ?_
  refine sum_filter_idx1 _ _ (fun j => ?_) u
  rw [resultIdx?_eq_some_iff]
  constructor
  · intro h
    have h0 : _ + _ = ((d.val : ℕ) : ℤ) := h (0 : Fin 2)
    have h1 : _ + _ = ((s.val : ℕ) : ℤ) := h (1 : Fin 2)
    rw [s2_start0, s2_window] at h0
    rw [s2_start1, s2_window] at h1
    exact ⟨by simpa using h0, by simpa using h1⟩
  · intro h a
    match a with
    | ⟨0, _⟩ =>
      show scatter_S10240x10240_S170000x2_S170000_n_01_01_1.start j idx (0 : Fin 2)
        + ((scatter_S10240x10240_S170000x2_S170000_n_01_01_1.window j (0 : Fin 2) : ℕ) : ℤ) = ((d.val : ℕ) : ℤ)
      rw [s2_start0, s2_window]
      simpa using h.1
    | ⟨1, _⟩ =>
      show scatter_S10240x10240_S170000x2_S170000_n_01_01_1.start j idx (1 : Fin 2)
        + ((scatter_S10240x10240_S170000x2_S170000_n_01_01_1.window j (1 : Fin 2) : ℕ) : ℤ) = ((s.val : ℕ) : ℤ)
      rw [s2_start1, s2_window]
      simpa using h.2

end Cert.KernelIdeal.HostRead
-- ==== Proof.KIAdj.lean ====
import proofs.«419261_j25872882991625_3_alg».proof.Proof.KITerms
import proofs.«419261_j25872882991625_3_alg».proof.Proof.KISG
import proofs.«419261_j25872882991625_3_alg».proof.Proof.SpecMk
import Idealize.ShloMosaic.Lib.ValueLayout
import Idealize.ShloMosaic.Lib.IdealHost
import Idealize.ShloMosaic.Lib.StableHlo.Predicate

open scoped BigOperators

noncomputable section

namespace Cert.KernelIdeal.Terms

open Idealize.ShloMosaic Idealize.ShloMosaic.ValueIdx Cert.KernelIdeal Cert.KernelIdeal.HostRead
open Cert.KernelIdeal.Facts₀

variable [Facts₀]

theorem slt_zero_of_nonneg (a : BitVec 32) (h : 0 ≤ a.toInt) : IntOp.cmpi .slt a 0#32 = 0#1 := by
  have hs : a.slt 0#32 = false := by
    unfold BitVec.slt
    rw [decide_eq_false_iff_not, BitVec.toInt_zero]
    omega
  show BitVec.ofBool (a.slt 0#32) = 0#1
  rw [hs]
  rfl

theorem wrap_word (a c : BitVec 32) (h : 0 ≤ a.toInt) :
    Scalar.select (IntOp.cmpi .slt a 0#32) (IntOp.addi a c) a = a := by
  rw [slt_zero_of_nonneg a h, select_zero]

theorem nodeOf_val {z : ℤ} (h0 : 0 ≤ z) (h1 : z < 10000) : (Cert.Spec.nodeOf z).val = z.toNat := by
  show z.toNat % 10000 = z.toNat
  omega

theorem nodeOf_eq_iff {z : ℤ} (h0 : 0 ≤ z) (h1 : z < 10000) (n : Fin 10000) :
    Cert.Spec.nodeOf z = n ↔ z = (n.val : ℤ) := by
  rw [Fin.ext_iff, nodeOf_val h0 h1]
  omega

theorem nodeOf_val_eq_iff {z : ℤ} (h0 : 0 ≤ z) (h1 : z < 10000) (m : ℕ) :
    (Cert.Spec.nodeOf z).val = m ↔ z = (m : ℤ) := by
  rw [nodeOf_val h0 h1]
  omega

theorem srcT_apply (ei : IVec S2x160000 32) (e : Fin 160000) : srcT ei (ix1 e) = ei (ix2 (0 : Fin 2) e) :=
  (shapeCast_1a_a_apply _ shapeCasts_S1x160000_S160000 e).trans
    (slice2_axis0_apply 0 ei slices_S2x160000_S1x160000_0_0 (0 : Fin 1) e (0 : Fin 2) rfl)

theorem dstT_apply (ei : IVec S2x160000 32) (e : Fin 160000) : dstT ei (ix1 e) = ei (ix2 (1 : Fin 2) e) :=
  (shapeCast_1a_a_apply _ shapeCasts_S1x160000_S160000 e).trans
    (slice2_axis0_apply 1 ei slices_S2x160000_S1x160000_1_0 (0 : Fin 1) e (1 : Fin 2) rfl)

theorem wrap160_apply (v : IVec S160000 32) (i : S160000.Idx) (h : 0 ≤ (v i).toInt) : wrap160 v i = v i :=
  wrap_word (v i) 10000#32 h

theorem wrap170_apply (v : IVec S170000 32) (i : S170000.Idx) (h : 0 ≤ (v i).toInt) : wrap170 v i = v i :=
  wrap_word (v i) 10240#32 h

theorem col160_apply (v : IVec S160000 32) (e : Fin 160000) :
    broadcastInDim S160000x1 ![0] bcast_S160000_S160000x1_0 v (ix2 e (0 : Fin 1)) = v (ix1 e) :=
  broadcastInDim_apply _ bcast_S160000_S160000x1_0 v _ (ix1 e) (fun a => match a with
    | ⟨0, _⟩ => by show e.val = if (160000 : Nat) = 1 then 0 else e.val; rw [if_neg (by decide)])

theorem col170_apply (v : IVec S170000 32) (k : Fin 170000) :
    broadcastInDim S170000x1 ![0] bcast_S170000_S170000x1_0 v (ix2 k (0 : Fin 1)) = v (ix1 k) :=
  broadcastInDim_apply _ bcast_S170000_S170000x1_0 v _ (ix1 k) (fun a => match a with
    | ⟨0, _⟩ => by show k.val = if (170000 : Nat) = 1 then 0 else k.val; rw [if_neg (by decide)])

theorem zeros_apply {T : Shape} (h : (⟨0, ![]⟩ : Shape).BroadcastsInDim T ![]) (j : T.Idx) :
    broadcastInDim T ![] h (constant (F := Ideal) S_ .f32 0x00000000#32) j = 0 :=
  (broadcastInDim_scalar_apply h _ j).trans Ideal.ofBits_zero_f32

theorem ones_apply {T : Shape} (h : (⟨0, ![]⟩ : Shape).BroadcastsInDim T ![]) (j : T.Idx) :
    broadcastInDim T ![] h (constant (F := Ideal) S_ .f32 0x3F800000#32) j = 1 :=
  (broadcastInDim_scalar_apply h _ j).trans Ideal.ofBits_one_f32

abbrev edgePos (e : Fin 160000) : Fin 170000 := ⟨e.val, by omega⟩

abbrev diagPos (i : Fin 10000) : Fin 170000 := ⟨160000 + i.val, by omega⟩

theorem sum_filter_fin_add {M : Type*} [AddCommMonoid M] (m n : ℕ) (P : Fin (m + n) → Prop) [DecidablePred P]
    (f : Fin (m + n) → M) :
    ∑ k ∈ Finset.univ.filter P, f k
      = ∑ e ∈ Finset.univ.filter (fun e : Fin m => P (Fin.castAdd n e)), f (Fin.castAdd n e)
        + ∑ i ∈ Finset.univ.filter (fun i : Fin n => P (Fin.natAdd m i)), f (Fin.natAdd m i) := by
  simp only [Finset.sum_filter]
  exact Fin.sum_univ_add _

theorem sum_filter_split {M : Type*} [AddCommMonoid M] (P : Fin 170000 → Prop) [DecidablePred P]
    (f : Fin 170000 → M) :
    ∑ k ∈ Finset.univ.filter P, f k
      = ∑ e ∈ Finset.univ.filter (fun e : Fin 160000 => P (edgePos e)), f (edgePos e)
        + ∑ i ∈ Finset.univ.filter (fun i : Fin 10000 => P (diagPos i)), f (diagPos i) :=
  sum_filter_fin_add 160000 10000 P f

section Cat
variable {α : Type}

theorem cat_edge (a : S160000.Idx → α) (c : S10000.Idx → α) (e : Fin 160000) :
    concatenate S170000 0 [⟨S160000, a⟩, ⟨S10000, c⟩] concatenates_S160000_S10000_S170000_d0 (ix1 (edgePos e))
      = a (ix1 e) :=
  concatenate_pair_apply_left (0 : Fin 1) a c concatenates_S160000_S10000_S170000_d0 (ix1 (edgePos e)) rfl (ix1 e)
    (fun b => match b with | ⟨0, _⟩ => rfl)

theorem cat_diag (a : S160000.Idx → α) (c : S10000.Idx → α) (i : Fin 10000) :
    concatenate S170000 0 [⟨S160000, a⟩, ⟨S10000, c⟩] concatenates_S160000_S10000_S170000_d0 (ix1 (diagPos i))
      = c (ix1 i) :=
  concatenate_pair_apply_right (0 : Fin 1) a c concatenates_S160000_S10000_S170000_d0 (ix1 (diagPos i)) rfl rfl
    (ix1 i) (fun b hb => match b, hb with | ⟨0, _⟩, hb => absurd rfl hb)
    (by show i.val + 160000 = 160000 + i.val; omega)
end Cat

theorem adjIdxT_col0 (ei : IVec S2x160000 32) (k : Fin 170000) :
    adjIdxT ei (ix2 k (0 : Fin 2))
      = wrap170 (concatenate S170000 0 [⟨S160000, dstT ei⟩, ⟨S10000, iotaInDim S10000 32 0⟩]
          concatenates_S160000_S10000_S170000_d0) (ix1 k) := by
  unfold adjIdxT
  refine (concatenate_pair_apply_left (t := S170000x2) (s₁ := S170000x1) (s₂ := S170000x1) (1 : Fin 2) _ _
    concatenates_S170000x1_S170000x1_S170000x2_d1 (ix2 k (0 : Fin 2)) (rfl : S170000x1.rank = S170000x2.rank)
    (ix2 k (0 : Fin 1)) (fun b => match b with | ⟨0, _⟩ => rfl | ⟨1, _⟩ => rfl)).trans ?_
  exact col170_apply _ k

theorem adjIdxT_col1 (ei : IVec S2x160000 32) (k : Fin 170000) :
    adjIdxT ei (ix2 k (1 : Fin 2))
      = wrap170 (concatenate S170000 0 [⟨S160000, srcT ei⟩, ⟨S10000, iotaInDim S10000 32 0⟩]
          concatenates_S160000_S10000_S170000_d0) (ix1 k) := by
  unfold adjIdxT
  refine (concatenate_pair_apply_right (t := S170000x2) (s₁ := S170000x1) (s₂ := S170000x1) (1 : Fin 2) _ _
    concatenates_S170000x1_S170000x1_S170000x2_d1 (ix2 k (1 : Fin 2)) (rfl : S170000x1.rank = S170000x2.rank)
    (rfl : S170000x1.rank = S170000x2.rank) (ix2 k (0 : Fin 1))
    (fun b hb => match b, hb with | ⟨0, _⟩, _ => rfl | ⟨1, _⟩, hb => absurd rfl hb) rfl).trans ?_
  exact col170_apply _ k

theorem toInt_node (i : Fin 10000) : (BitVec.ofNat 32 i.val).toInt = (i.val : ℤ) :=
  Idealize.ShloMosaic.StableHlo.Predicate.toInt_ofNat_small i.val (by have := i.isLt; omega)

theorem adjIdx_diag0 (ei : IVec S2x160000 32) (i : Fin 10000) :
    adjIdxT ei (ix2 (diagPos i) (0 : Fin 2)) = BitVec.ofNat 32 i.val := by
  rw [adjIdxT_col0, wrap170_apply, cat_diag]
  · rfl
  · rw [cat_diag]
    show 0 ≤ (BitVec.ofNat 32 i.val).toInt
    rw [toInt_node]
    omega

theorem adjIdx_diag1 (ei : IVec S2x160000 32) (i : Fin 10000) :
    adjIdxT ei (ix2 (diagPos i) (1 : Fin 2)) = BitVec.ofNat 32 i.val := by
  rw [adjIdxT_col1, wrap170_apply, cat_diag]
  · rfl
  · rw [cat_diag]
    show 0 ≤ (BitVec.ofNat 32 i.val).toInt
    rw [toInt_node]
    omega

section Apply
variable (x : FVec Ideal S10000x1024 .f32) (ei : IVec S2x160000 32) (batch : IVec S10000 32)
  (W : FVec Ideal S1024x1024 .f32) (b : FVec Ideal S1024 .f32) (fcW : FVec Ideal S1024x128 .f32)
  (fcb : FVec Ideal S128 .f32)

theorem dstCol_apply (hI : (Cert.Spec.mkBranch x ei batch W b fcW fcb).Ok) (e : Fin 160000) :
    broadcastInDim S160000x1 ![0] bcast_S160000_S160000x1_0 (wrap160 (dstT ei)) (ix2 e (0 : Fin 1))
      = ei (ix2 (1 : Fin 2) e) := by
  rw [col160_apply, wrap160_apply, dstT_apply]
  rw [dstT_apply]
  exact (hI.dst_rng e).1

theorem srcCol_apply (hI : (Cert.Spec.mkBranch x ei batch W b fcW fcb).Ok) (e : Fin 160000) :
    broadcastInDim S160000x1 ![0] bcast_S160000_S160000x1_0 (wrap160 (srcT ei)) (ix2 e (0 : Fin 1))
      = ei (ix2 (0 : Fin 2) e) := by
  rw [col160_apply, wrap160_apply, srcT_apply]
  rw [srcT_apply]
  exact (hI.src_rng e).1

theorem degT_apply (hI : (Cert.Spec.mkBranch x ei batch W b fcW fcb).Ok) (n : Fin 10000) :
    degT (F := Ideal) ei (ix1 n) = (Cert.Spec.mkBranch x ei batch W b fcW fcb).deg n := by
  unfold degT
  rw [addf_apply, scatter1_apply, zeros_apply, ones_apply, zero_add]
  unfold Cert.Spec.BranchIn.deg
  refine congrArg (· + (1 : EReal)) ?_
  apply Finset.sum_congr
  · apply Finset.filter_congr
    intro e _
    beta_reduce
    rw [dstCol_apply x ei batch W b fcW fcb hI e]
    exact (nodeOf_eq_iff (hI.dst_rng e).1 (hI.dst_rng e).2 n).symm
  · intro e _
    exact ones_apply _ _

theorem dinvT_apply (hI : (Cert.Spec.mkBranch x ei batch W b fcW fcb).Ok) (n : Fin 10000) :
    dinvT (F := Ideal) ei (ix1 n) = (Cert.Spec.mkBranch x ei batch W b fcW fcb).dinv n := by
  show FloatOps.hostUnary .rsqrt (degT (F := Ideal) ei (ix1 n)) = _
  rw [Ideal.hostUnary_rsqrt_def, degT_apply x ei batch W b fcW fcb hI n]
  rfl

theorem dinv_gather (hI : (Cert.Spec.mkBranch x ei batch W b fcW fcb).Ok) (idx : IVec S160000x1 32)
    (e : Fin 160000) (z : ℤ) (hz : (idx (ix2 e (0 : Fin 1))).toInt = z) (h0 : 0 ≤ z) (h1 : z < 10000) :
    Host.gather gather_S10000_S160000x1_S160000_n_0_n_n_0_1_1 (dinvT (F := Ideal) ei) idx (ix1 e)
      = (Cert.Spec.mkBranch x ei batch W b fcW fcb).dinv (Cert.Spec.nodeOf z) := by
  rw [gather1_apply _ idx e (by rw [hz]; exact ⟨h0, h1⟩), dinvT_apply x ei batch W b fcW fcb hI]
  congr 1
  refine Fin.ext ?_
  show (idx (ix2 e (0 : Fin 1))).toInt.toNat = (Cert.Spec.nodeOf z).val
  rw [nodeOf_val h0 h1, hz]

theorem normT_apply (hI : (Cert.Spec.mkBranch x ei batch W b fcW fcb).Ok) (e : Fin 160000) :
    normT (F := Ideal) ei (ix1 e) = (Cert.Spec.mkBranch x ei batch W b fcW fcb).norm e := by
  unfold normT
  rw [mulf_apply,
    dinv_gather x ei batch W b fcW fcb hI _ e _ (congrArg BitVec.toInt (srcCol_apply x ei batch W b fcW fcb hI e))
      (hI.src_rng e).1 (hI.src_rng e).2,
    dinv_gather x ei batch W b fcW fcb hI _ e _ (congrArg BitVec.toInt (dstCol_apply x ei batch W b fcW fcb hI e))
      (hI.dst_rng e).1 (hI.dst_rng e).2]
  rfl

theorem adjIdx_edge0 (hI : (Cert.Spec.mkBranch x ei batch W b fcW fcb).Ok) (e : Fin 160000) :
    adjIdxT ei (ix2 (edgePos e) (0 : Fin 2)) = ei (ix2 (1 : Fin 2) e) := by
  rw [adjIdxT_col0, wrap170_apply, cat_edge, dstT_apply]
  rw [cat_edge, dstT_apply]
  exact (hI.dst_rng e).1

theorem adjIdx_edge1 (hI : (Cert.Spec.mkBranch x ei batch W b fcW fcb).Ok) (e : Fin 160000) :
    adjIdxT ei (ix2 (edgePos e) (1 : Fin 2)) = ei (ix2 (0 : Fin 2) e) := by
  rw [adjIdxT_col1, wrap170_apply, cat_edge, srcT_apply]
  rw [cat_edge, srcT_apply]
  exact (hI.src_rng e).1

theorem adjUpd_edge (hI : (Cert.Spec.mkBranch x ei batch W b fcW fcb).Ok) (e : Fin 160000) :
    adjUpdT (F := Ideal) ei (ix1 (edgePos e)) = (Cert.Spec.mkBranch x ei batch W b fcW fcb).norm e := by
  unfold adjUpdT
  rw [cat_edge, normT_apply x ei batch W b fcW fcb hI e]

theorem adjUpd_diag (hI : (Cert.Spec.mkBranch x ei batch W b fcW fcb).Ok) (i : Fin 10000) :
    adjUpdT (F := Ideal) ei (ix1 (diagPos i))
      = (Cert.Spec.mkBranch x ei batch W b fcW fcb).dinv i * (Cert.Spec.mkBranch x ei batch W b fcW fcb).dinv i := by
  unfold adjUpdT
  rw [cat_diag, mulf_apply, dinvT_apply x ei batch W b fcW fcb hI i]

theorem adjT_apply (hI : (Cert.Spec.mkBranch x ei batch W b fcW fcb).Ok) (d s : Fin 10240) :
    adjT (F := Ideal) ei (ix2 d s) = (Cert.Spec.mkBranch x ei batch W b fcW fcb).kerA d s := by
  unfold adjT
  rw [scatter2_apply, sum_filter_split, zeros_apply, zero_add]
  unfold Cert.Spec.BranchIn.kerA
  refine congrArg₂ (· + ·) ?_ ?_
  · apply Finset.sum_congr
    · apply Finset.filter_congr
      intro e _
      beta_reduce
      rw [adjIdx_edge0 x ei batch W b fcW fcb hI e, adjIdx_edge1 x ei batch W b fcW fcb hI e]
      exact and_congr (nodeOf_val_eq_iff (hI.dst_rng e).1 (hI.dst_rng e).2 d.val).symm
        (nodeOf_val_eq_iff (hI.src_rng e).1 (hI.src_rng e).2 s.val).symm
    · intro e _
      exact adjUpd_edge x ei batch W b fcW fcb hI e
  · apply Finset.sum_congr
    · apply Finset.filter_congr
      intro i _
      beta_reduce
      rw [adjIdx_diag0, adjIdx_diag1, toInt_node]
      omega
    · intro i _
      exact adjUpd_diag x ei batch W b fcW fcb hI i

end Apply

end Cert.KernelIdeal.Terms

end
-- ==== Proof.KIRead.lean ====
import proofs.«419261_j25872882991625_3_alg».proof.Proof.KITerms
import proofs.«419261_j25872882991625_3_alg».proof.Proof.SpecMk
import proofs.«419261_j25872882991625_3_alg».proof.Proof.KIAdj
import Idealize.ShloMosaic.Lib.Pipeline.Value
import Idealize.ShloMosaic.Lib.ValueIdx
import Idealize.ShloMosaic.Lib.ValueLayout
import Idealize.ShloMosaic.Lib.IdealHost
import Idealize.ShloMosaic.Lib.KernelVsHost
import Idealize.ShloMosaic.Lib.Affine
import Idealize.ShloMosaic.PureOps.Ideal.Laws

noncomputable section

namespace Cert.KernelIdeal.Terms

open Idealize.ShloMosaic Idealize.ShloMosaic.ValueIdx Cert.KernelIdeal Cert.Spec
open Cert.KernelIdeal.Facts₀
open scoped BigOperators

variable [Facts₀]

theorem G0_ix2 (xp : T10240x1024.Idx → EReal) (w : T1024x1024.Idx → EReal) (r : Fin 10240) (j : Fin 1024) :
    G0 xp w (ix2 r j) = ∑ k : Fin 1024, xp (ix2 r k) * w (ix2 k j) := rfl

theorem G1_ix2 (A : T10240x10240.Idx → EReal) (hp : T10240x1024.Idx → EReal) (b : T1x1024.Idx → EReal)
    (r : Fin 10240) (j : Fin 1024) :
    G1 A hp b (ix2 r j) = leakyE ((∑ s : Fin 10240, A (ix2 r s) * hp (ix2 s j)) + b (ix2 (0 : Fin 1) j)) := rfl

theorem G2_ix2 (P : T64x10240.Idx → EReal) (agg : T10240x1024.Idx → EReal) (g : Fin 64) (j : Fin 1024) :
    G2 P agg (ix2 g j) = ∑ n : Fin 10240, P (ix2 g n) * agg (ix2 n j) := rfl

theorem G3_ix2 (X : T64x1024.Idx → EReal) (Wf : T1024x128.Idx → EReal) (b : T1x128.Idx → EReal) (g : Fin 64) (o : Fin 128) :
    G3 X Wf b (ix2 g o) = leakyE ((∑ k : Fin 1024, X (ix2 g k) * Wf (ix2 k o)) + b (ix2 (0 : Fin 1) o)) := rfl

private theorem toInt_ofNat_small (g : Nat) (hg : g < 2147483648) : (BitVec.ofNat 32 g).toInt = (g : ℤ) := by
  rw [BitVec.toInt_eq_toNat_cond, BitVec.toNat_ofNat]
  have h1 : g % 2 ^ 32 = g := Nat.mod_eq_of_lt (by omega)
  rw [h1, if_pos (by omega)]

private theorem uitofp_bit (φ : FTy) (c : BitVec 1) : (FloatOps.uitofp (F := Ideal) φ c : EReal) = if c = 1#1 then 1 else 0 := by
  show (((c.toNat : ℕ) : ℝ) : EReal) = _
  by_cases h : c = 1#1
  · rw [if_pos h, h]; norm_num
  · rw [if_neg h, eq_zero_of_ne_one h]; norm_num

variable (x : FVec Ideal S10000x1024 .f32) (ei : IVec S2x160000 32) (batch : IVec S10000 32)
  (W : FVec Ideal S1024x1024 .f32) (b : FVec Ideal S1024 .f32) (fcW : FVec Ideal S1024x128 .f32) (fcb : FVec Ideal S128 .f32)

theorem xpadT_apply (r : Fin 10240) (k : Fin 1024) :
    xpadT (F := Ideal) x (ix2 r k) = (mkBranch x ei batch W b fcW fcb).xp r k := by
  unfold xpadT BranchIn.xp
  rw [truncf_apply]
  by_cases hr : r.val < 10000
  · rw [dif_pos hr]
    exact pad_apply_of_inside ![0, 0] ![240, 0] ![0, 0] x _ pads_S10000x1024_S10240x1024_02400_000 h_S_ (ix2 r k)
      (ix2 (⟨r.val, hr⟩ : Fin 10000) k) (fun a => match a with
        | ⟨0, _⟩ => by show r.val = 0 + r.val * (0 + 1); omega
        | ⟨1, _⟩ => by show k.val = 0 + k.val * (0 + 1); omega)
  · rw [dif_neg hr]
    refine (pad_apply_of_not_inside ![0, 0] ![240, 0] ![0, 0] x _ pads_S10000x1024_S10240x1024_02400_000 h_S_ (ix2 r k)
      (0 : Fin 2) ?_).trans ?_
    · rintro ⟨_, _, h3⟩
      have h3' : (r.val - 0) / (0 + 1) < 10000 := h3
      omega
    · show ((((0#32 : BitVec 32).toInt : ℤ) : ℝ) : EReal) = 0
      simp

theorem wT_apply (k j : Fin 1024) : wT (F := Ideal) W (ix2 k j) = (mkBranch x ei batch W b fcW fcb).W k j := rfl

theorem brT_apply (j : Fin 1024) : brT (F := Ideal) b (ix2 (0 : Fin 1) j) = (mkBranch x ei batch W b fcW fcb).b j := by
  unfold brT
  exact shapeCast_a_1a_apply b shapeCasts_S1024_S1x1024 0 j

theorem fbrT_apply (o : Fin 128) : fbrT (F := Ideal) fcb (ix2 (0 : Fin 1) o) = (mkBranch x ei batch W b fcW fcb).fcb o := by
  unfold fbrT
  exact shapeCast_a_1a_apply fcb shapeCasts_S128_S1x128 0 o

theorem padBatch_apply (n : Fin 10240) :
    pad S10240 ![0] ![240] ![0] batch (id (constantI S_ 32 4294967295#32)) pads_S10000_S10240_02400 h_S_ (ix1 n)
      = if hn : n.val < 10000 then batch (ix1 (⟨n.val, hn⟩ : Fin 10000)) else 4294967295#32 := by
  by_cases hn : n.val < 10000
  · rw [dif_pos hn]
    exact pad_apply_of_inside ![0] ![240] ![0] batch _ pads_S10000_S10240_02400 h_S_ (ix1 n) (ix1 (⟨n.val, hn⟩ : Fin 10000))
      (fun a => match a with
        | ⟨0, _⟩ => by show n.val = 0 + n.val * (0 + 1); omega)
  · rw [dif_neg hn]
    refine (pad_apply_of_not_inside ![0] ![240] ![0] batch _ pads_S10000_S10240_02400 h_S_ (ix1 n) (0 : Fin 1) ?_).trans rfl
    rintro ⟨_, _, h3⟩
    have h3' : (n.val - 0) / (0 + 1) < 10000 := h3
    omega

theorem memT_apply (g : Fin 64) (n : Fin 10240) :
    memT (F := Ideal) batch (ix2 g n) = (mkBranch x ei batch W b fcW fcb).kerP g n := by
  unfold memT
  show FloatOps.uitofp (F := Ideal) .bf16 (IntOp.cmpi .eq _ _) = _
  rw [uitofp_bit]
  refine (if_congr IntOp.cmpi_eq rfl rfl).trans ?_

  rw [broadcastInDim_apply ![0, 1] bcast_S1x10240_S64x10240_0_1 _ (ix2 g n) (ix2 (0 : Fin 1) n) (fun a => match a with
      | ⟨0, _⟩ => by show 0 = if (1 : Nat) = 1 then 0 else g.val; rw [if_pos rfl]
      | ⟨1, _⟩ => by show n.val = if (10240 : Nat) = 1 then 0 else n.val; rw [if_neg (by decide)]),
    broadcastInDim_apply ![1] bcast_S10240_S1x10240_1 _ (ix2 (0 : Fin 1) n) (ix1 n) (fun a => match a with
      | ⟨0, _⟩ => by show n.val = if (10240 : Nat) = 1 then 0 else n.val; rw [if_neg (by decide)]),
    padBatch_apply]

  rw [broadcastInDim_apply ![0, 1] bcast_S64x1_S64x10240_0_1 _ (ix2 g n) (ix2 g (0 : Fin 1)) (fun a => match a with
      | ⟨0, _⟩ => by show g.val = if (64 : Nat) = 1 then 0 else g.val; rw [if_neg (by decide)]
      | ⟨1, _⟩ => by show 0 = if (1 : Nat) = 1 then 0 else n.val; rw [if_pos rfl]),
    broadcastInDim_apply ![0] bcast_S64_S64x1_0 _ (ix2 g (0 : Fin 1)) (ix1 g) (fun a => match a with
      | ⟨0, _⟩ => by show g.val = if (64 : Nat) = 1 then 0 else g.val; rw [if_neg (by decide)]),
    iotaInDim_apply]
  show _ = (if hn : n.val < 10000 then (if (batch (ix1 (⟨n.val, hn⟩ : Fin 10000))).toInt = (g.val : ℤ) then 1 else 0) else 0)
  have hg : (BitVec.ofNat 32 g.val).toInt = (g.val : ℤ) := toInt_ofNat_small g.val (by have := g.isLt; omega)
  by_cases hn : n.val < 10000
  · rw [dif_pos hn, dif_pos hn]
    refine if_congr ?_ rfl rfl
    show batch (ix1 (⟨n.val, hn⟩ : Fin 10000)) = BitVec.ofNat 32 g.val ↔ _
    rw [← hg, BitVec.toInt_inj]
  · rw [dif_neg hn, dif_neg hn]
    refine if_neg fun h => ?_
    have h2 : (4294967295#32 : BitVec 32).toInt = (g.val : ℤ) := by rw [h]; exact hg
    have h3 : (4294967295#32 : BitVec 32).toInt = -1 := by decide
    omega

theorem pooledT_apply (sums : FVec Ideal S64x1024 .f32) (mem : FVec Ideal S64x10240 .bf16) (g : Fin 64) (j : Fin 1024) :
    pooledT (F := Ideal) sums mem (ix2 g j)
      = Ideal.div (sums (ix2 g j)) (max (∑ n : Fin 10240, mem (ix2 g n)) 1) := by
  unfold pooledT
  rw [hostDivf_apply]
  refine congrArg (Ideal.div (sums (ix2 g j))) ?_
  rw [broadcastInDim_apply ![0, 1] bcast_S64x1_S64x1024_0_1 _ (ix2 g j) (ix2 g (0 : Fin 1)) (fun a => match a with
      | ⟨0, _⟩ => by show g.val = if (64 : Nat) = 1 then 0 else g.val; rw [if_neg (by decide)]
      | ⟨1, _⟩ => by show 0 = if (1 : Nat) = 1 then 0 else j.val; rw [if_pos rfl]),
    broadcastInDim_apply ![0] bcast_S64_S64x1_0 _ (ix2 g (0 : Fin 1)) (ix1 g) (fun a => match a with
      | ⟨0, _⟩ => by show g.val = if (64 : Nat) = 1 then 0 else g.val; rw [if_neg (by decide)]),
    maximumf_apply, broadcastInDim_scalar_apply, constant_apply, Ideal.ofBits_one_f32, hostReduceAdd_apply,
    Ideal.hostReduceAdd_single reducesTo_S64x10240_S64_d1 (by decide : S64x10240.Reduces [1] S64), constant_apply,
    Ideal.ofBits_zero_f32, zero_add]
  refine congrArg (fun t => max t (1 : EReal)) ?_
  refine Finset.sum_congr rfl fun n _ => ?_
  rw [extf_apply]
  refine congrArg mem (funext fun a => ?_)
  match a with
  | ⟨0, _⟩ => exact Fin.ext rfl
  | ⟨1, _⟩ => exact Fin.ext rfl

variable (hI : (mkBranch x ei batch W b fcW fcb).Ok)
include hI

theorem G0T_apply (r : Fin 10240) (j : Fin 1024) :
    G0 (xpadT (F := Ideal) x) (wT (F := Ideal) W) (ix2 r j) = (mkBranch x ei batch W b fcW fcb).kerH r j := by
  rw [G0_ix2]
  unfold BranchIn.kerH
  refine Finset.sum_congr rfl fun k _ => ?_
  rw [xpadT_apply x ei batch W b fcW fcb, wT_apply x ei batch W b fcW fcb]

theorem G1T_apply (r : Fin 10240) (j : Fin 1024) :
    G1 (adjT (F := Ideal) ei) (G0 (xpadT (F := Ideal) x) (wT (F := Ideal) W)) (brT (F := Ideal) b) (ix2 r j)
      = (mkBranch x ei batch W b fcW fcb).kerAgg r j := by
  rw [G1_ix2]
  unfold BranchIn.kerAgg
  rw [brT_apply x ei batch W b fcW fcb]
  refine congrArg (fun t => leakyE (t + (mkBranch x ei batch W b fcW fcb).b j)) ?_
  refine Finset.sum_congr rfl fun s _ => ?_
  rw [adjT_apply x ei batch W b fcW fcb hI, G0T_apply x ei batch W b fcW fcb hI]

theorem G2T_apply (g : Fin 64) (j : Fin 1024) :
    G2 (memT (F := Ideal) batch)
        (G1 (adjT (F := Ideal) ei) (G0 (xpadT (F := Ideal) x) (wT (F := Ideal) W)) (brT (F := Ideal) b)) (ix2 g j)
      = (mkBranch x ei batch W b fcW fcb).kerSum g j := by
  rw [G2_ix2]
  unfold BranchIn.kerSum
  refine Finset.sum_congr rfl fun n _ => ?_
  rw [memT_apply x ei batch W b fcW fcb, G1T_apply x ei batch W b fcW fcb hI]

theorem kerBranchT_apply (g : Fin 64) (o : Fin 128) :
    kerBranchT x ei batch W b fcW fcb (ix2 g o) = (mkBranch x ei batch W b fcW fcb).kerOut g o := by
  unfold kerBranchT
  rw [G3_ix2]
  unfold BranchIn.kerOut
  rw [fbrT_apply x ei batch W b fcW fcb]
  refine congrArg (fun t => leakyE (t + (mkBranch x ei batch W b fcW fcb).fcb o)) ?_
  refine Finset.sum_congr rfl fun k _ => ?_
  refine congrArg (fun t => t * fcW (ix2 k o)) ?_
  rw [pooledT_apply]
  unfold BranchIn.kerPool BranchIn.kerCnt
  rw [G2T_apply x ei batch W b fcW fcb hI]
  refine congrArg (fun t => Ideal.div ((mkBranch x ei batch W b fcW fcb).kerSum g k) (max t 1)) ?_
  exact Finset.sum_congr rfl fun n _ => memT_apply x ei batch W b fcW fcb g n

end Cert.KernelIdeal.Terms

end
-- ==== Proof.KReg0.lean ====
import proofs.«419261_j25872882991625_3_alg».proof.Proof.Gen.Kernel.Launch
import proofs.«419261_j25872882991625_3_alg».proof.Proof.Gen.Kernel.Skeleton
import proofs.«419261_j25872882991625_3_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (k0_pay2 (iblk0 V c 0 t) (iblk0 V c 1 t) k0_pay1)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay3 (k0_pay2 (iblk0 V c 0 t) (iblk0 V c 1 t) k0_pay1) := by dsimp only [dat0]

theorem coordOne_reg0 (i : grid0.Coords) : (i 1).val = 0 := Nat.lt_one_iff.mp (i 1).isLt

theorem condTwo_reg0 (i : grid0.Coords) : k0_cond2 i = 1#1 := by
  unfold k0_cond2
  rw [coordOne_reg0 i]
  decide

theorem offZero_reg0 : (![0, 0] : Fin 2 → Nat) = fun _ => 0 := by
  funext a; match a with | ⟨0, _⟩ => rfl | ⟨1, _⟩ => rfl

set_option maxHeartbeats 1000000 in

theorem sound_kernel_reg0 (c : Dev nD) (E : Set ℕ) (i : grid0.Coords)
    (arg2 : Memref sig .tc .vmem S1280x1024 .bf16) (harg2 : arg2.IsWhole)
    (arg3 : Memref sig .tc .vmem S1024x1024 .bf16) (harg3 : arg3.IsWhole)
    (arg4 : Memref sig .tc .vmem S1x1024 .f32) (harg4 : arg4.IsWhole)
    (arg5 : Memref sig .tc .vmem S1280x1024 .bf16) (harg5 : arg5.IsWhole)
    (arg6 : Memref sig .tc .vmem S1280x1024 .f32) (harg6 : arg6.IsWhole)
    (x0 : Vec F S1280x1024 .bf16) (x1 : Vec F S1024x1024 .bf16) (x2 : Vec F S1x1024 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2
            ∗ owns (c : Thread nD τ) arg5 fullShare (k0_pay3 (k0_pay2 x0 x1 k0_pay1))
            ∗ (∃ d, owns (c : Thread nD τ) arg6 fullShare d)) -∗ K ⟨⟩))
      ⊢ wp frame (wpE (defs₀ (F := F)) Variants.none c none) E
          (cc0_kernel i arg2 harg2 arg3 harg3 arg4 harg4 arg5 harg5 arg6 harg6) K := by
  simp only [cc0_kernel_eq_skeleton]; unfold cc0_kernel_skel
  simp only [condTwo_reg0 i, coordOne_reg0 i]
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (fun y => ⟨_, List.mem_singleton_self _, View.mem_set_unit_zero offZero_reg0 inb_S1280x1024_S1280x1024_0_0 y⟩),
      View.canon_unit_zero offZero_reg0]
    sl_unfold_run_names
    simp only [View.readCov_cons_toLoadRect, View.readAt_eq_ld, View.ld_unit_zero (S := S1280x1024) offZero_reg0,
      View.ld_unit_zero (S := S1024x1024) offZero_reg0]
  iexists _, _; isplitr
  swap; · iexact H4
  ipureintro; rfl

theorem inv_reg0 (c : Dev nD) (k : Fin (cfg0.N + 1)) : (dat0 V c).Φ k = Pipeline.ΦA spec0 c := by dsimp only [dat0]

theorem owes_reg0 (c : Dev nD) (k k' : Fin (cfg0.N + 1)) : (dat0 V c).owesAt () k = (dat0 V c).owesAt () k' := by
  unfold Dat.owesAt Dat.bound; dsimp only [dat0]

theorem beforeX_reg0 (c : Dev nD) (t : Fin cfg0.N) (d) : (dat0 V c).before 0 t d = iblk0 V c 0 t := by
  rw [(dat0 V c).before_in_eq_fetched 0 rfl (fun _ => rfl) (fun _ _ _ => rfl)
    (fun s => by rw [after0_0]; unfold Dat.blockOf iblk0; rw [A_eq0] <;> rfl) t d]
  unfold Dat.fetched Dat.blockOf iblk0; rw [A_eq0] <;> rfl

theorem beforeW_reg0 (c : Dev nD) (t : Fin cfg0.N) (d) : (dat0 V c).before 1 t d = iblk0 V c 1 t := by
  rw [(dat0 V c).before_in_eq_fetched 1 rfl (fun _ => rfl) (fun _ _ _ => rfl)
    (fun s => by rw [after0_1]; unfold Dat.blockOf iblk0; rw [A_eq0] <;> rfl) t d]
  unfold Dat.fetched Dat.blockOf iblk0; rw [A_eq0] <;> rfl

theorem beforeB_reg0 (c : Dev nD) (t : Fin cfg0.N) (d) : (dat0 V c).before 2 t d = iblk0 V c 2 t := by
  rw [(dat0 V c).before_in_eq_fetched 2 rfl (fun _ => rfl) (fun _ _ _ => rfl)
    (fun s => by rw [after0_2]; unfold Dat.blockOf iblk0; rw [A_eq0] <;> rfl) t d]
  unfold Dat.fetched Dat.blockOf iblk0; rw [A_eq0] <;> rfl

theorem live_reg0 (t : Fin cfg0.N) : cfg0.idle 3 (cfg0.grid.coords t) = false := by
  show (!(k0_cond2 (grid0.coords t) == 1#1)) = false
  rw [condTwo_reg0]; rfl

theorem acc_reg0 (c : Dev nD) :
    (iprop(∃ d, owns (c : Thread nD τ) (Memref.whole cc0_scratch0) fullShare d) : sProp 𝕄)
      = iprop(∃ f : Buf (Elt F) ((c : Thread nD τ).loc cc0_scratch0), ((c : Thread nD τ).loc cc0_scratch0) ↦{fullShare} f) := by
  simp only [owns_whole]

def bodyPre_reg0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost_reg0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 1000000 in

theorem sound_body_reg0 (c : Dev nD) (t : Fin cfg0.N) :
    bodyPre_reg0 V c t ⊢ wp frame (wpE (defs₀ (F := F)) Variants.none c none) Set.univ (bodyAt0 t) (fun _ => bodyPost_reg0 V c t) := by
  unfold bodyPre_reg0 bodyPost_reg0 bodyAt0
  simp only [beforeX_reg0, beforeW_reg0, beforeB_reg0]
  rw [inv_reg0, inv_reg0, owes_reg0 V c t.succ t.castSucc, after0_0, after0_1, after0_2, after0_3]
  unfold Pipeline.ΦA
  rw [scopedRest0_split, ← acc_reg0]
  iintro ⟨⟨⟨Hs, Hr⟩, Hg⟩, Ho, ⟨%d0, H0⟩, ⟨%d1, H1⟩, ⟨%d2, H2⟩, ⟨%d3, H3⟩⟩
  iapply (sound_kernel_reg0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [Hs]; · iexact Hs
  iintro ⟨H0, H1, H2, H3, Hs⟩
  isplitl [Hs Hr Hg]
  · isplitr [Hg]
    · isplitl [Hs]; · iexact Hs
      iexact Hr
    iexact Hg
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0, live_reg0 t]
  exact sound_body_reg0 V c t

theorem hin0 (c : Dev nD) : (Pipeline.ΦA spec0 c : sProp 𝕄) ⊢ (dat0 V c).Φ 0 := by
  rw [inv_reg0]

theorem hout0 (c : Dev nD) : (dat0 V c).Φ (Fin.last cfg0.N) ⊢ (Pipeline.ΦA spec0 c : sProp 𝕄) := by
  rw [inv_reg0]

end Cert.Kernel.Hand

end
-- ==== Proof.KReg1.lean ====
import proofs.«419261_j25872882991625_3_alg».proof.Proof.Gen.Kernel.Launch
import proofs.«419261_j25872882991625_3_alg».proof.Proof.Gen.Kernel.Skeleton
import proofs.«419261_j25872882991625_3_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem k1_cond2_eq (i : grid1.Coords) : k1_cond2 i = 1#1 := by
  have h : (i 1).val = 0 := Nat.lt_one_iff.mp (i 1).isLt
  unfold k1_cond2; rw [h]; rfl

private theorem zeroOff : (![0, 0] : Fin 2 → Nat) = fun _ => 0 := funext fun a => by fin_cases a <;> rfl

def outBlk1 (x0 : Vec F S128x10240 .f32) (x1 : Vec F S10240x1024 .bf16) (x2 : Vec F S1x1024 .f32) : Vec F S128x1024 .bf16 :=
  k1_pay3 (k1_pay2 x0 x1 (k1_pay1 (F := F))) x2

set_option maxHeartbeats 1000000 in

theorem sound_kernel1 (c : Dev nD) (E : Set ℕ) (i : grid1.Coords)
    (arg2 : Memref sig .tc .vmem S128x10240 .f32) (harg2 : arg2.IsWhole) (arg3 : Memref sig .tc .vmem S10240x1024 .bf16) (harg3 : arg3.IsWhole)
    (arg4 : Memref sig .tc .vmem S1x1024 .f32) (harg4 : arg4.IsWhole) (arg5 : Memref sig .tc .vmem S128x1024 .bf16) (harg5 : arg5.IsWhole)
    (x0 : Vec F S128x10240 .f32) (x1 : Vec F S10240x1024 .bf16) (x2 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (∃ a, owns (c : Thread nD τ) (Memref.whole cc1_scratch0) fullShare a)
        ∗ (iprop(owns (c : Thread nD τ) arg2 fullShare x0 ∗ owns (c : Thread nD τ) arg3 fullShare x1 ∗ owns (c : Thread nD τ) arg4 fullShare x2
            ∗ owns (c : Thread nD τ) arg5 fullShare (outBlk1 x0 x1 x2)
            ∗ (∃ a, owns (c : Thread nD τ) (Memref.whole cc1_scratch0) fullShare a)) -∗ K ⟨⟩))
      ⊢ wp frame (wpE (defs₀ (F := F)) Variants.none c none) E
          (cc1_kernel i arg2 harg2 arg3 harg3 arg4 harg4 arg5 harg5 (Memref.whole cc1_scratch0) (Memref.isWhole_whole _)) K := by
  simp only [cc1_kernel_eq_skeleton]; unfold cc1_kernel_skel
  have hc2 : k1_cond2 i = 1#1 := k1_cond2_eq i
  have hc1 : Scalar.cmpi .ne (Scalar.extui (Scalar.cmpi .eq (BitVec.ofNat 32 (i 1).val) 0#32)) 0#32 = 1#1 := hc2
  unfold owns
  iintro ⟨⟨%f0, %hf0, H0⟩, ⟨%f1, %hf1, H1⟩, ⟨%f2, %hf2, H2⟩, ⟨%d3, %f3, -, H3⟩, ⟨%a, %fa, -, Ha⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (fun y => ⟨_, List.mem_singleton_self _,
      View.mem_set_unit_zero zeroOff inb_S128x1024_S128x1024_0_0 y⟩)]
    sl_unfold_words
    rw [View.canon_unit_zero zeroOff]
    unfold outBlk1
    simp only [View.readAt_eq_ld, View.ld_unit_zero (S := S128x10240) zeroOff, View.ld_unit_zero (S := S10240x1024) zeroOff,
      View.ld_unit_zero (S := S1x1024) zeroOff, View.readCov_cons_toLoadRect]
  iexists _; iexists _; isplitr
  swap; · iexact Ha
  ipureintro; rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outBlk1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = outBlk1 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

theorem hin1 (c : Dev nD) : Pipeline.ΦA spec1 c ⊢ (dat1 V c).Φ 0 := by
  dsimp only [dat1]; iintro H; iexact H

theorem hout1 (c : Dev nD) : (dat1 V c).Φ (Fin.last cfg1.N) ⊢ Pipeline.ΦA spec1 c := by
  dsimp only [dat1]; iintro H; iexact H

theorem live1_3 (t : Fin cfg1.N) : idle1 3 (grid1.coords t) = false := by
  show (!(k1_cond2 (grid1.coords t) == 1#1)) = false
  rw [k1_cond2_eq]; rfl

private theorem scratch_eq (c : Dev nD) :
    (iprop(∃ a, owns (c : Thread nD τ) (Memref.whole cc1_scratch0) fullShare a) : sProp 𝕄)
      = iprop(∃ f : Buf (Elt F) ((c : Thread nD τ).loc cc1_scratch0), ((c : Thread nD τ).loc cc1_scratch0) ↦{fullShare} f) := by
  simp only [owns_whole]

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = Pipeline.ΦA spec1 c from rfl, show (dat1 V c).Φ t.castSucc = Pipeline.ΦA spec1 c from rfl,
    show (dat1 V c).owesAt () t.succ = (dat1 V c).owesAt () t.castSucc from rfl,
    after1_0, after1_1, after1_2, after1_3]
  unfold Pipeline.ΦA
  rw [scopedRest1_split, ← scratch_eq]
  iintro ⟨⟨⟨Ha, Hrest⟩, Hp⟩, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [Ha]; · iexact Ha
  iintro ⟨H0, H1, H2, H3, Ha⟩
  isplitl [Ha Hrest Hp]
  · isplitr [Hp]
    · isplitl [Ha]; · iexact Ha
      iexact Hrest
    iexact Hp
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  simp only [live1_3]
  split
  · rename_i h; rw [live1_3] at h; exact absurd h Bool.false_ne_true
  · exact sound_body1 V c t

end Cert.Kernel.Hand

end
-- ==== Proof.KReg2.lean ====
import proofs.«419261_j25872882991625_3_alg».proof.Proof.Gen.Kernel.Launch
import proofs.«419261_j25872882991625_3_alg».proof.Proof.Gen.Kernel.Skeleton
import proofs.«419261_j25872882991625_3_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def acc2 (c : Dev nD) : (n : ℕ) → n < cfg2.N → Vec F S64x1024 .f32
  | 0, hn => k2_pay2 (iblk2 V c 0 ⟨0, hn⟩) (iblk2 V c 1 ⟨0, hn⟩) (k2_pay1 (F := F))
  | n + 1, hn => k2_pay2 (iblk2 V c 0 ⟨n + 1, hn⟩) (iblk2 V c 1 ⟨n + 1, hn⟩) (acc2 c n (Nat.lt_of_succ_lt hn))

def Phi2 (c : Dev nD) : (n : ℕ) → n ≤ cfg2.N → sProp 𝕄
  | 0, _ => Pipeline.ΦA spec2 c
  | n + 1, hn => iprop(Pipeline.scopedRestBut (Ix := Unit) (Name := ℕ) (U := UR sig nD τ) (Lvl := ℕ) (Val := Elt F) spec2 c [cc2_scratch0]
      ∗ (∃ r, prngReg c r)
      ∗ owns (c : Thread nD τ) (Memref.whole cc2_scratch0 : Memref sig .tc .vmem S64x1024 .f32) fullShare (acc2 V c n hn))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => acc2 V c t.val t.isLt
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = acc2 V c t.val t.isLt := by dsimp only [dat2]

theorem zeroOff2 : (![0, 0] : Fin 2 → ℕ) = fun _ => 0 := by
  funext a; fin_cases a <;> rfl

theorem readAt_all2 {S : Shape} {e : EltTy} {m : Memref sig .tc .vmem S e} (h : m.IsWhole) (X : S.Idx → Elt F e)
    {off : Fin S.rank → ℕ} (hz : off = fun _ => 0) (inb : ∀ a, off a + S.size a ≤ S.size a) :
    View.readAt (Elt F) m.view (Rect.unit off S.size inb).toLoadRect (h.unread X) = X := by
  rw [View.readAt_eq_ld, h.read_unread, View.ld_unit_zero hz]

theorem read_stored_all2 {S : Shape} {e : EltTy} {m : Memref sig .tc .vmem S e} (f : m.view.ty.Contents (Elt F))
    {off : Fin S.rank → ℕ} (hz : off = fun _ => 0) (inb : ∀ a, off a + S.size a ≤ S.size a) (w : S.Idx → Elt F e)
    (L : List (View.Piece (Elt F) S e)) :
    m.view.read (Elt F) (m.view.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz]

abbrev isFirst2 (i : grid2.Coords) : Prop :=
  Scalar.cmpi .ne (Scalar.extui (Scalar.cmpi .eq (BitVec.ofNat 32 (i 1).val) 0#32)) 0#32 = 1#1

theorem isFirst2_iff : ∀ t : Fin cfg2.N, isFirst2 (grid2.coords t) ↔ t.val = 0 :=
  (by decide +kernel : ∀ t : Fin grid2.N, isFirst2 (grid2.coords t) ↔ t.val = 0)

abbrev isLast2 (i : grid2.Coords) : Prop := k2_cond2 i = 1#1

theorem isLast2_iff : ∀ t : Fin cfg2.N, isLast2 (grid2.coords t) ↔ t.val = 3 :=
  (by decide +kernel : ∀ t : Fin grid2.N, isLast2 (grid2.coords t) ↔ t.val = 3)

theorem runFirst2 (c : Dev nD) (i : grid2.Coords) (hf : isFirst2 i) (hl : ¬isLast2 i)
    (mP : Memref sig .tc .vmem S64x2560 .bf16) (wP : mP.IsWhole) (mA : Memref sig .tc .vmem S2560x1024 .bf16) (wA : mA.IsWhole)
    (mB : Memref sig .tc .vmem S1x1024 .f32) (wB : mB.IsWhole) (mO : Memref sig .tc .vmem S64x1024 .f32) (wO : mO.IsWhole)
    (mS : Memref sig .tc .vmem S64x1024 .f32) (wS : mS.IsWhole)
    (x0 : Vec F S64x2560 .bf16) (x1 : Vec F S2560x1024 .bf16) (s : Vec F S64x1024 .f32) (K : PUnit → sProp 𝕄) :
    iprop(owns (c : Thread nD τ) mP fullShare x0 ∗ owns (c : Thread nD τ) mA fullShare x1 ∗ owns (c : Thread nD τ) mS fullShare s
        ∗ (iprop(owns (c : Thread nD τ) mP fullShare x0 ∗ owns (c : Thread nD τ) mA fullShare x1
            ∗ owns (c : Thread nD τ) mS fullShare (k2_pay2 x0 x1 (k2_pay1 (F := F)))) -∗ K ⟨⟩))
      ⊢ wp frame (wpE (defs₀ (F := F)) Variants.none c none) Set.univ (cc2_kernel i mP wP mA wA mB wB mO wO mS wS) K := by
  simp only [cc2_kernel_eq_skeleton]; unfold cc2_kernel_skel
  unfold owns
  iintro ⟨⟨%fP, %eP, HP⟩, ⟨%fA, %eA, HA⟩, ⟨%fS, %eS, HS⟩, Hk⟩
  obtain rfl := wP.eq_unread eP; obtain rfl := wA.eq_unread eA; obtain rfl := wS.eq_unread eS
  sl_exec (disch := first | exact hf | exact hl)
  sl_step
  iapply Hk
  isplitl [HP]
  · iexists _; isplitr; · ipureintro; exact wP.read_unread _
    iexact HP
  isplitl [HA]
  · iexists _; isplitr; · ipureintro; exact wA.read_unread _
    iexact HA
  iexists _; isplitr
  swap; · iexact HS
  ipureintro
  sl_unfold_run_names
  rw [read_stored_all2 _ zeroOff2, readAt_all2 wP x0 zeroOff2, readAt_all2 wA x1 zeroOff2, View.readCov_unit_zero _ zeroOff2]

theorem runMid2 (c : Dev nD) (i : grid2.Coords) (hf : ¬isFirst2 i) (hl : ¬isLast2 i)
    (mP : Memref sig .tc .vmem S64x2560 .bf16) (wP : mP.IsWhole) (mA : Memref sig .tc .vmem S2560x1024 .bf16) (wA : mA.IsWhole)
    (mB : Memref sig .tc .vmem S1x1024 .f32) (wB : mB.IsWhole) (mO : Memref sig .tc .vmem S64x1024 .f32) (wO : mO.IsWhole)
    (mS : Memref sig .tc .vmem S64x1024 .f32) (wS : mS.IsWhole)
    (x0 : Vec F S64x2560 .bf16) (x1 : Vec F S2560x1024 .bf16) (s : Vec F S64x1024 .f32) (K : PUnit → sProp 𝕄) :
    iprop(owns (c : Thread nD τ) mP fullShare x0 ∗ owns (c : Thread nD τ) mA fullShare x1 ∗ owns (c : Thread nD τ) mS fullShare s
        ∗ (iprop(owns (c : Thread nD τ) mP fullShare x0 ∗ owns (c : Thread nD τ) mA fullShare x1
            ∗ owns (c : Thread nD τ) mS fullShare (k2_pay2 x0 x1 s)) -∗ K ⟨⟩))
      ⊢ wp frame (wpE (defs₀ (F := F)) Variants.none c none) Set.univ (cc2_kernel i mP wP mA wA mB wB mO wO mS wS) K := by
  simp only [cc2_kernel_eq_skeleton]; unfold cc2_kernel_skel
  unfold owns
  iintro ⟨⟨%fP, %eP, HP⟩, ⟨%fA, %eA, HA⟩, ⟨%fS, %eS, HS⟩, Hk⟩
  obtain rfl := wP.eq_unread eP; obtain rfl := wA.eq_unread eA; obtain rfl := wS.eq_unread eS
  sl_exec (disch := first | exact hf | exact hl)
  sl_step
  iapply Hk
  isplitl [HP]
  · iexists _; isplitr; · ipureintro; exact wP.read_unread _
    iexact HP
  isplitl [HA]
  · iexists _; isplitr; · ipureintro; exact wA.read_unread _
    iexact HA
  iexists _; isplitr
  swap; · iexact HS
  ipureintro
  rw [read_stored_all2 _ zeroOff2, readAt_all2 wP x0 zeroOff2, readAt_all2 wA x1 zeroOff2, readAt_all2 wS s zeroOff2]

theorem runLast2 (c : Dev nD) (i : grid2.Coords) (hf : ¬isFirst2 i) (hl : isLast2 i)
    (mP : Memref sig .tc .vmem S64x2560 .bf16) (wP : mP.IsWhole) (mA : Memref sig .tc .vmem S2560x1024 .bf16) (wA : mA.IsWhole)
    (mB : Memref sig .tc .vmem S1x1024 .f32) (wB : mB.IsWhole) (mO : Memref sig .tc .vmem S64x1024 .f32) (wO : mO.IsWhole)
    (mS : Memref sig .tc .vmem S64x1024 .f32) (wS : mS.IsWhole)
    (x0 : Vec F S64x2560 .bf16) (x1 : Vec F S2560x1024 .bf16) (s o : Vec F S64x1024 .f32) (K : PUnit → sProp 𝕄) :
    iprop(owns (c : Thread nD τ) mP fullShare x0 ∗ owns (c : Thread nD τ) mA fullShare x1 ∗ owns (c : Thread nD τ) mS fullShare s
        ∗ owns (c : Thread nD τ) mO fullShare o
        ∗ (iprop(owns (c : Thread nD τ) mP fullShare x0 ∗ owns (c : Thread nD τ) mA fullShare x1
            ∗ owns (c : Thread nD τ) mS fullShare (k2_pay2 x0 x1 s) ∗ owns (c : Thread nD τ) mO fullShare (k2_pay2 x0 x1 s)) -∗ K ⟨⟩))
      ⊢ wp frame (wpE (defs₀ (F := F)) Variants.none c none) Set.univ (cc2_kernel i mP wP mA wA mB wB mO wO mS wS) K := by
  simp only [cc2_kernel_eq_skeleton]; unfold cc2_kernel_skel
  unfold owns
  iintro ⟨⟨%fP, %eP, HP⟩, ⟨%fA, %eA, HA⟩, ⟨%fS, %eS, HS⟩, ⟨%fO, %eO, HO⟩, Hk⟩
  obtain rfl := wP.eq_unread eP; obtain rfl := wA.eq_unread eA; obtain rfl := wS.eq_unread eS; obtain rfl := wO.eq_unread eO
  sl_exec (disch := first | exact hf | exact hl)
  sl_step
  iapply Hk
  isplitl [HP]
  · iexists _; isplitr; · ipureintro; exact wP.read_unread _
    iexact HP
  isplitl [HA]
  · iexists _; isplitr; · ipureintro; exact wA.read_unread _
    iexact HA
  isplitl [HS]
  · iexists _; isplitr
    swap; · iexact HS
    ipureintro
    sl_unfold_run_names
    rw [read_stored_all2 _ zeroOff2, readAt_all2 wP x0 zeroOff2, readAt_all2 wA x1 zeroOff2, readAt_all2 wS s zeroOff2]
  iexists _; isplitr
  swap; · iexact HO
  ipureintro
  sl_unfold_run_names
  rw [read_stored_all2 _ zeroOff2, View.readCov_unit_zero _ zeroOff2, readAt_all2 wP x0 zeroOff2, readAt_all2 wA x1 zeroOff2,
    readAt_all2 wS s zeroOff2]

theorem acc2_first (c : Dev nD) (t : Fin cfg2.N) (h : t.val = 0) :
    acc2 V c t.val t.isLt = k2_pay2 (iblk2 V c 0 t) (iblk2 V c 1 t) (k2_pay1 (F := F)) := by
  obtain ⟨n, hn⟩ := t
  cases n with
  | zero => rfl
  | succ n => exact absurd h (Nat.succ_ne_zero n)

theorem acc2_next (c : Dev nD) (t : Fin cfg2.N) (h : t.val ≠ 0) :
    acc2 V c t.val t.isLt = k2_pay2 (iblk2 V c 0 t) (iblk2 V c 1 t)
      (acc2 V c (t.val - 1) (Nat.lt_of_le_of_lt (Nat.sub_le _ _) t.isLt)) := by
  obtain ⟨n, hn⟩ := t
  cases n with
  | zero => exact absurd rfl h
  | succ n => rfl

theorem Phi2_zero (c : Dev nD) (n : ℕ) (h : n ≤ cfg2.N) (hz : n = 0) : Phi2 V c n h = Pipeline.ΦA spec2 c := by
  subst hz; rfl

theorem Phi2_succ (c : Dev nD) (n : ℕ) (hn : n < cfg2.N) :
    Phi2 V c (n + 1) hn = iprop(Pipeline.scopedRestBut (Ix := Unit) (Name := ℕ) (U := UR sig nD τ) (Lvl := ℕ) (Val := Elt F) spec2 c [cc2_scratch0]
      ∗ (∃ r, prngReg c r)
      ∗ owns (c : Thread nD τ) (Memref.whole cc2_scratch0 : Memref sig .tc .vmem S64x1024 .f32) fullShare (acc2 V c n hn)) := rfl

theorem Phi2_pos (c : Dev nD) (n : ℕ) (h : n ≤ cfg2.N) (hz : n ≠ 0) :
    Phi2 V c n h = iprop(Pipeline.scopedRestBut (Ix := Unit) (Name := ℕ) (U := UR sig nD τ) (Lvl := ℕ) (Val := Elt F) spec2 c [cc2_scratch0]
      ∗ (∃ r, prngReg c r)
      ∗ owns (c : Thread nD τ) (Memref.whole cc2_scratch0 : Memref sig .tc .vmem S64x1024 .f32) fullShare
          (acc2 V c (n - 1) (by omega))) := by
  cases n with
  | zero => exact absurd rfl hz
  | succ n => rfl

theorem PhiA2_eq (c : Dev nD) :
    (Pipeline.ΦA spec2 c : sProp 𝕄)
      = iprop(iprop(iprop(∃ d, owns (c : Thread nD τ) (Memref.whole cc2_scratch0 : Memref sig .tc .vmem S64x1024 .f32) fullShare d)
          ∗ Pipeline.scopedRestBut (Ix := Unit) (Name := ℕ) (U := UR sig nD τ) (Lvl := ℕ) (Val := Elt F) spec2 c [cc2_scratch0])
        ∗ (∃ r, prngReg c r)) := by
  unfold Pipeline.ΦA; rw [scopedRest2_split]; simp only [owns_whole]; try rfl

theorem hin2 (c : Dev nD) : Pipeline.ΦA spec2 c ⊢ (dat2 V c).Φ 0 := by
  rw [show (dat2 V c).Φ 0 = Phi2 V c 0 (Nat.zero_le _) from rfl, Phi2_zero V c 0 _ rfl]

theorem hout2 (c : Dev nD) : (dat2 V c).Φ (Fin.last cfg2.N) ⊢ Pipeline.ΦA spec2 c := by
  rw [show (dat2 V c).Φ (Fin.last cfg2.N) = Phi2 V c cfg2.N (Nat.le_refl _) from rfl,
    Phi2_pos V c _ _ (by rw [show cfg2.N = 4 from N_2]; decide), PhiA2_eq]
  iintro ⟨HR, Hg, HS⟩
  isplitr [Hg]
  · isplitl [HS]
    · iexists _; iexact HS
    iexact HR
  iexact Hg

theorem before2_0 (c : Dev nD) (t : Fin cfg2.N) (d) : (dat2 V c).before 0 t d = iblk2 V c 0 t := by
  rw [(dat2 V c).before_in_eq_fetched 0 rfl (fun _ => rfl) (fun _ _ _ => rfl)
    (fun u => by rw [after2_0]; unfold Dat.blockOf iblk2; rw [A_eq2]) t d]
  unfold Dat.fetched Dat.blockOf iblk2; rw [A_eq2]; rfl
theorem before2_1 (c : Dev nD) (t : Fin cfg2.N) (d) : (dat2 V c).before 1 t d = iblk2 V c 1 t := by
  rw [(dat2 V c).before_in_eq_fetched 1 rfl (fun _ => rfl) (fun _ _ _ => rfl)
    (fun u => by rw [after2_1]; unfold Dat.blockOf iblk2; rw [A_eq2]) t d]
  unfold Dat.fetched Dat.blockOf iblk2; rw [A_eq2]; rfl
theorem before2_2 (c : Dev nD) (t : Fin cfg2.N) (d) : (dat2 V c).before 2 t d = iblk2 V c 2 t := by
  rw [(dat2 V c).before_in_eq_fetched 2 rfl (fun _ => rfl) (fun _ _ _ => rfl)
    (fun u => by rw [after2_2]; unfold Dat.blockOf iblk2; rw [A_eq2]) t d]
  unfold Dat.fetched Dat.blockOf iblk2; rw [A_eq2]; rfl

theorem leaves2_0 (c : Dev nD) (t : Fin cfg2.N) :
    (dat2 V c).leavesExact 0 t = owns (c : Thread nD τ) (st2_0 t) fullShare (iblk2 V c 0 t) := by
  unfold Dat.leavesExact; rw [show cfg2.idle 0 (cfg2.grid.coords t) = false from rfl, after2_0]
theorem leaves2_1 (c : Dev nD) (t : Fin cfg2.N) :
    (dat2 V c).leavesExact 1 t = owns (c : Thread nD τ) (st2_1 t) fullShare (iblk2 V c 1 t) := by
  unfold Dat.leavesExact; rw [show cfg2.idle 1 (cfg2.grid.coords t) = false from rfl, after2_1]
theorem leaves2_2 (c : Dev nD) (t : Fin cfg2.N) :
    (dat2 V c).leavesExact 2 t = owns (c : Thread nD τ) (st2_2 t) fullShare (iblk2 V c 2 t) := by
  unfold Dat.leavesExact; rw [show cfg2.idle 2 (cfg2.grid.coords t) = false from rfl, after2_2]

theorem leaves2_3_idle (c : Dev nD) (t : Fin cfg2.N) (hl : ¬isLast2 (grid2.coords t)) :
    (dat2 V c).leavesExact 3 t
      = iprop(∃ d, owns (c : Thread nD τ) (st2_3 t) fullShare ((dat2 V c).before 3 t d)) := by
  refine Dat.leavesExact_idle (dat2 V c) 3 t ?_ ?_
  · show (!(k2_cond2 (grid2.coords t) == 1#1)) = true
    rw [Bool.not_eq_true', beq_eq_false_iff_ne]; exact hl
  · have hN : t.val < 4 := lt_of_lt_of_eq t.isLt (show cfg2.N = 4 from N_2)
    have hlast : ¬t.val = 3 := fun h => hl ((isLast2_iff t).mpr h)
    exact Bool.eq_false_iff.mpr fun h => hlast (by have := (flush2_3 t).mp h; omega)

theorem leaves2_3_live (c : Dev nD) (t : Fin cfg2.N) (hl : isLast2 (grid2.coords t)) :
    (dat2 V c).leavesExact 3 t = owns (c : Thread nD τ) (st2_3 t) fullShare (acc2 V c t.val t.isLt) := by
  unfold Dat.leavesExact
  rw [show cfg2.idle 3 (cfg2.grid.coords t) = false from by
    show (!(k2_cond2 (grid2.coords t) == 1#1)) = false
    rw [show k2_cond2 (grid2.coords t) = 1#1 from hl]; rfl, after2_3]

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t ∗ (dat2 V c).leavesExact 3 t)

set_option maxHeartbeats 1600000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl,
    show (dat2 V c).Φ t.succ = Phi2 V c (t.val + 1) t.isLt from rfl,
    show (dat2 V c).Φ t.castSucc = Phi2 V c t.val (Nat.le_of_lt t.isLt) from rfl,
    leaves2_0, leaves2_1, leaves2_2]
  have hN : t.val < 4 := lt_of_lt_of_eq t.isLt (show cfg2.N = 4 from N_2)
  by_cases hz : t.val = 0
  · have hf : isFirst2 (grid2.coords t) := (isFirst2_iff t).mpr hz
    have hl : ¬isLast2 (grid2.coords t) := fun h => by have := (isLast2_iff t).mp h; omega
    rw [Phi2_zero V c _ _ hz, PhiA2_eq, leaves2_3_idle V c t hl,
      Phi2_succ, acc2_first V c t hz]
    iintro ⟨⟨⟨⟨%sv, HS⟩, HR⟩, Hg⟩, Ho, ⟨%dP, HP⟩, ⟨%dA, HA⟩, ⟨%dB, HB⟩, ⟨%dO, HO⟩⟩
    iapply (runFirst2 c (grid2.coords t) hf hl _ _ _ _ _ _ _ _ _ _ (iblk2 V c 0 t) (iblk2 V c 1 t) sv _)
    isplitl [HP]; · iexact HP
    isplitl [HA]; · iexact HA
    isplitl [HS]; · iexact HS
    iintro ⟨HP, HA, HS⟩
    isplitl [HR Hg HS]
    · isplitl [HR]; · iexact HR
      isplitl [Hg]; · iexact Hg
      iexact HS
    isplitl [Ho]; · iexact Ho
    isplitl [HP]; · iexact HP
    isplitl [HA]; · iexact HA
    isplitl [HB]; · iexact HB
    iexists _; iexact HO
  · have hf : ¬isFirst2 (grid2.coords t) := fun h => hz ((isFirst2_iff t).mp h)
    by_cases hlast : t.val = 3
    · have hl : isLast2 (grid2.coords t) := (isLast2_iff t).mpr hlast
      rw [Phi2_pos V c _ _ hz, leaves2_3_live V c t hl,
        Phi2_succ, acc2_next V c t hz]
      iintro ⟨⟨HR, Hg, HS⟩, Ho, ⟨%dP, HP⟩, ⟨%dA, HA⟩, ⟨%dB, HB⟩, ⟨%dO, HO⟩⟩
      iapply (runLast2 c (grid2.coords t) hf hl _ _ _ _ _ _ _ _ _ _ (iblk2 V c 0 t) (iblk2 V c 1 t) _ _ _)
      isplitl [HP]; · iexact HP
      isplitl [HA]; · iexact HA
      isplitl [HS]; · iexact HS
      isplitl [HO]; · iexact HO
      iintro ⟨HP, HA, HS, HO⟩
      isplitl [HR Hg HS]
      · isplitl [HR]; · iexact HR
        isplitl [Hg]; · iexact Hg
        iexact HS
      isplitl [Ho]; · iexact Ho
      isplitl [HP]; · iexact HP
      isplitl [HA]; · iexact HA
      isplitl [HB]; · iexact HB
      iexact HO
    · have hl : ¬isLast2 (grid2.coords t) := fun h => hlast ((isLast2_iff t).mp h)
      rw [Phi2_pos V c _ _ hz, leaves2_3_idle V c t hl,
        Phi2_succ, acc2_next V c t hz]
      iintro ⟨⟨HR, Hg, HS⟩, Ho, ⟨%dP, HP⟩, ⟨%dA, HA⟩, ⟨%dB, HB⟩, ⟨%dO, HO⟩⟩
      iapply (runMid2 c (grid2.coords t) hf hl _ _ _ _ _ _ _ _ _ _ (iblk2 V c 0 t) (iblk2 V c 1 t) _ _)
      isplitl [HP]; · iexact HP
      isplitl [HA]; · iexact HA
      isplitl [HS]; · iexact HS
      iintro ⟨HP, HA, HS⟩
      isplitl [HR Hg HS]
      · isplitl [HR]; · iexact HR
        isplitl [Hg]; · iexact Hg
        iexact HS
      isplitl [Ho]; · iexact Ho
      isplitl [HP]; · iexact HP
      isplitl [HA]; · iexact HA
      isplitl [HB]; · iexact HB
      iexists _; iexact HO

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KReg3.lean ====
import proofs.«419261_j25872882991625_3_alg».proof.Proof.Gen.Kernel.Launch
import proofs.«419261_j25872882991625_3_alg».proof.Proof.Gen.Kernel.Skeleton
import proofs.«419261_j25872882991625_3_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => k3_pay3 (k3_pay2 (iblk3 V c 0 t) (iblk3 V c 1 t) (k3_pay1 (F := F))) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = k3_pay3 (k3_pay2 (iblk3 V c 0 t) (iblk3 V c 1 t) (k3_pay1 (F := F))) (iblk3 V c 2 t) := by
  dsimp only [dat3]

theorem zoff3 : (![0, 0] : Fin 2 → Nat) = fun _ => 0 := by funext a; fin_cases a <;> rfl

set_option maxHeartbeats 2000000 in

theorem sound_kernel3 (c : Dev nD) (E : Set ℕ) (i : grid3.Coords) (hi : (i 1).val = 0)
    (arg2 : Memref sig .tc .vmem S64x1024 .f32) (harg2 : arg2.IsWhole) (arg3 : Memref sig .tc .vmem S1024x128 .f32) (harg3 : arg3.IsWhole)
    (arg4 : Memref sig .tc .vmem S1x128 .f32) (harg4 : arg4.IsWhole) (arg5 : Memref sig .tc .vmem S64x128 .f32) (harg5 : arg5.IsWhole)
    (arg6 : Memref sig .tc .vmem S64x128 .f32) (harg6 : arg6.IsWhole)
    (x0 : Vec F S64x1024 .f32) (x1 : Vec F S1024x128 .f32) (x2 : Vec F S1x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k3_pay3 (k3_pay2 x0 x1 (k3_pay1 (F := F))) x2)
            ∗ (∃ d, owns (c : Thread nD τ) arg6 fullShare d)) -∗ K ⟨⟩))
      ⊢ wp frame (wpE (defs₀ (F := F)) Variants.none c none) E (cc3_kernel i arg2 harg2 arg3 harg3 arg4 harg4 arg5 harg5 arg6 harg6) K := by
  simp only [cc3_kernel_eq_skeleton]; unfold cc3_kernel_skel
  have hw : BitVec.ofNat 32 (i 1).val = 0#32 := by rw [hi]
  have hc2 : k3_cond2 i = 1#1 := by unfold k3_cond2; rw [hw]; decide
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec (disch := first | sl_exact hc2 | (rw [hw]; decide))
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (fun y => ⟨_, List.mem_singleton_self _, View.mem_set_unit_zero zoff3 inb_S64x128_S64x128_0_0 y⟩),
      View.canon_unit_zero zoff3]
    sl_unfold_words
    rw [View.readCov_cons_toLoadRect, View.readCov_unit_zero _ zoff3]
    simp only [View.readAt_eq_ld, View.ld_unit_zero (S := S64x1024) zoff3, View.ld_unit_zero (S := S1024x128) zoff3,
      View.ld_unit_zero (S := S1x128) zoff3]
  iexists _, _; isplitr
  swap; · iexact H4
  ipureintro; rfl

theorem PhiA3_eq (c : Dev nD) :
    (Pipeline.ΦA spec3 c : sProp 𝕄)
      = iprop(iprop((∃ d, owns (c : Thread nD τ) (Memref.whole cc3_scratch0) fullShare d) ∗ Pipeline.scopedRestBut spec3 c [cc3_scratch0])
          ∗ (∃ r, prngReg c r)) := by
  unfold Pipeline.ΦA; rw [scopedRest3_split]; simp only [owns_whole]

theorem before3_0 (c : Dev nD) (t : Fin cfg3.N) (d) : (dat3 V c).before 0 t d = iblk3 V c 0 t :=
  ((dat3 V c).before_fetched 0 t (fetch3_0 t) d).trans (by unfold Dat.fetched Dat.blockOf iblk3; rw [A_eq3]; try rfl)
theorem before3_1 (c : Dev nD) (t : Fin cfg3.N) (d) : (dat3 V c).before 1 t d = iblk3 V c 1 t :=
  ((dat3 V c).before_fetched 1 t (fetch3_1 t) d).trans (by unfold Dat.fetched Dat.blockOf iblk3; rw [A_eq3]; try rfl)
theorem before3_2 (c : Dev nD) (t : Fin cfg3.N) (d) : (dat3 V c).before 2 t d = iblk3 V c 2 t :=
  ((dat3 V c).before_fetched 2 t (fetch3_2 t) d).trans (by unfold Dat.fetched Dat.blockOf iblk3; rw [A_eq3]; try rfl)

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t ∗ (dat3 V c).leavesExact 1 t ∗ (dat3 V c).leavesExact 2 t ∗ (dat3 V c).leavesExact 3 t)

set_option maxHeartbeats 2000000 in

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  have hi : ((grid3.coords t) 1).val = 0 := Nat.lt_one_iff.mp ((grid3.coords t) 1).isLt
  have hc2 : k3_cond2 (grid3.coords t) = 1#1 := by
    unfold k3_cond2; rw [show BitVec.ofNat 32 ((grid3.coords t) 1).val = 0#32 from by rw [hi]]; decide
  have hlive : cfg3.idle 3 (cfg3.grid.coords t) = false := by
    show (!(k3_cond2 (grid3.coords t) == 1#1)) = false
    rw [hc2]; rfl
  rw [show (dat3 V c).Φ t.succ = Pipeline.ΦA spec3 c from rfl, show (dat3 V c).Φ t.castSucc = Pipeline.ΦA spec3 c from rfl,
    show (dat3 V c).owesAt () t.succ = (dat3 V c).owesAt () t.castSucc from rfl,
    show (dat3 V c).leavesExact 0 t = owns (c : Thread nD τ) (st3_0 t) fullShare ((dat3 V c).after 0 t) from rfl,
    show (dat3 V c).leavesExact 1 t = owns (c : Thread nD τ) (st3_1 t) fullShare ((dat3 V c).after 1 t) from rfl,
    show (dat3 V c).leavesExact 2 t = owns (c : Thread nD τ) (st3_2 t) fullShare ((dat3 V c).after 2 t) from rfl,
    show (dat3 V c).leavesExact 3 t = owns (c : Thread nD τ) (st3_3 t) fullShare ((dat3 V c).after 3 t) from by
      unfold Dat.leavesExact; rw [hlive],
    after3_0, after3_1, after3_2, after3_3, PhiA3_eq]
  iintro ⟨⟨⟨HS, HR⟩, Hg⟩, Ho, ⟨%d0, H0⟩, ⟨%d1, H1⟩, ⟨%d2, H2⟩, ⟨%d3, H3⟩⟩
  iapply (sound_kernel3 c Set.univ _ hi _ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  iexact H3

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  dsimp only [dat3]; exact .rfl

theorem hout3 (c : Dev nD) : (dat3 V c).Φ (Fin.last cfg3.N) ⊢ Pipeline.ΦA spec3 c := by
  dsimp only [dat3]; exact .rfl

end Cert.Kernel.Hand

end
-- ==== Proof.KReg4.lean ====
import proofs.«419261_j25872882991625_3_alg».proof.Proof.Gen.Kernel.Launch
import proofs.«419261_j25872882991625_3_alg».proof.Proof.Gen.Kernel.Skeleton
import proofs.«419261_j25872882991625_3_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => k4_pay3 (k4_pay2 (iblk4 V c 0 t) (iblk4 V c 1 t) k4_pay1)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = k4_pay3 (k4_pay2 (iblk4 V c 0 t) (iblk4 V c 1 t) k4_pay1) := by dsimp only [dat4]

theorem coordOne_reg4 (i : grid4.Coords) : (i 1).val = 0 := Nat.lt_one_iff.mp (i 1).isLt

theorem condTwo_reg4 (i : grid4.Coords) : k4_cond2 i = 1#1 := by
  unfold k4_cond2
  rw [coordOne_reg4 i]
  decide

theorem offZero_reg4 : (![0, 0] : Fin 2 → Nat) = fun _ => 0 := by
  funext a; match a with | ⟨0, _⟩ => rfl | ⟨1, _⟩ => rfl

set_option maxHeartbeats 1000000 in

theorem sound_kernel_reg4 (c : Dev nD) (E : Set ℕ) (i : grid4.Coords)
    (arg2 : Memref sig .tc .vmem S1280x1024 .bf16) (harg2 : arg2.IsWhole)
    (arg3 : Memref sig .tc .vmem S1024x1024 .bf16) (harg3 : arg3.IsWhole)
    (arg4 : Memref sig .tc .vmem S1x1024 .f32) (harg4 : arg4.IsWhole)
    (arg5 : Memref sig .tc .vmem S1280x1024 .bf16) (harg5 : arg5.IsWhole)
    (arg6 : Memref sig .tc .vmem S1280x1024 .f32) (harg6 : arg6.IsWhole)
    (x0 : Vec F S1280x1024 .bf16) (x1 : Vec F S1024x1024 .bf16) (x2 : Vec F S1x1024 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2
            ∗ owns (c : Thread nD τ) arg5 fullShare (k4_pay3 (k4_pay2 x0 x1 k4_pay1))
            ∗ (∃ d, owns (c : Thread nD τ) arg6 fullShare d)) -∗ K ⟨⟩))
      ⊢ wp frame (wpE (defs₀ (F := F)) Variants.none c none) E
          (cc4_kernel i arg2 harg2 arg3 harg3 arg4 harg4 arg5 harg5 arg6 harg6) K := by
  simp only [cc4_kernel_eq_skeleton]; unfold cc4_kernel_skel
  simp only [condTwo_reg4 i, coordOne_reg4 i]
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (fun y => ⟨_, List.mem_singleton_self _, View.mem_set_unit_zero offZero_reg4 inb_S1280x1024_S1280x1024_0_0 y⟩),
      View.canon_unit_zero offZero_reg4]
    sl_unfold_run_names
    simp only [View.readCov_cons_toLoadRect, View.readAt_eq_ld, View.ld_unit_zero (S := S1280x1024) offZero_reg4,
      View.ld_unit_zero (S := S1024x1024) offZero_reg4]
  iexists _, _; isplitr
  swap; · iexact H4
  ipureintro; rfl

theorem inv_reg4 (c : Dev nD) (k : Fin (cfg4.N + 1)) : (dat4 V c).Φ k = Pipeline.ΦA spec4 c := by dsimp only [dat4]

theorem owes_reg4 (c : Dev nD) (k k' : Fin (cfg4.N + 1)) : (dat4 V c).owesAt () k = (dat4 V c).owesAt () k' := by
  unfold Dat.owesAt Dat.bound; dsimp only [dat4]

theorem beforeX_reg4 (c : Dev nD) (t : Fin cfg4.N) (d) : (dat4 V c).before 0 t d = iblk4 V c 0 t := by
  rw [(dat4 V c).before_in_eq_fetched 0 rfl (fun _ => rfl) (fun _ _ _ => rfl)
    (fun s => by rw [after4_0]; unfold Dat.blockOf iblk4; rw [A_eq4] <;> rfl) t d]
  unfold Dat.fetched Dat.blockOf iblk4; rw [A_eq4] <;> rfl

theorem beforeW_reg4 (c : Dev nD) (t : Fin cfg4.N) (d) : (dat4 V c).before 1 t d = iblk4 V c 1 t := by
  rw [(dat4 V c).before_in_eq_fetched 1 rfl (fun _ => rfl) (fun _ _ _ => rfl)
    (fun s => by rw [after4_1]; unfold Dat.blockOf iblk4; rw [A_eq4] <;> rfl) t d]
  unfold Dat.fetched Dat.blockOf iblk4; rw [A_eq4] <;> rfl

theorem beforeB_reg4 (c : Dev nD) (t : Fin cfg4.N) (d) : (dat4 V c).before 2 t d = iblk4 V c 2 t := by
  rw [(dat4 V c).before_in_eq_fetched 2 rfl (fun _ => rfl) (fun _ _ _ => rfl)
    (fun s => by rw [after4_2]; unfold Dat.blockOf iblk4; rw [A_eq4] <;> rfl) t d]
  unfold Dat.fetched Dat.blockOf iblk4; rw [A_eq4] <;> rfl

theorem live_reg4 (t : Fin cfg4.N) : cfg4.idle 3 (cfg4.grid.coords t) = false := by
  show (!(k4_cond2 (grid4.coords t) == 1#1)) = false
  rw [condTwo_reg4]; rfl

theorem acc_reg4 (c : Dev nD) :
    (iprop(∃ d, owns (c : Thread nD τ) (Memref.whole cc4_scratch0) fullShare d) : sProp 𝕄)
      = iprop(∃ f : Buf (Elt F) ((c : Thread nD τ).loc cc4_scratch0), ((c : Thread nD τ).loc cc4_scratch0) ↦{fullShare} f) := by
  simp only [owns_whole]

def bodyPre_reg4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

def bodyPost_reg4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

set_option maxHeartbeats 1000000 in

theorem sound_body_reg4 (c : Dev nD) (t : Fin cfg4.N) :
    bodyPre_reg4 V c t ⊢ wp frame (wpE (defs₀ (F := F)) Variants.none c none) Set.univ (bodyAt4 t) (fun _ => bodyPost_reg4 V c t) := by
  unfold bodyPre_reg4 bodyPost_reg4 bodyAt4
  simp only [beforeX_reg4, beforeW_reg4, beforeB_reg4]
  rw [inv_reg4, inv_reg4, owes_reg4 V c t.succ t.castSucc, after4_0, after4_1, after4_2, after4_3]
  unfold Pipeline.ΦA
  rw [scopedRest4_split, ← acc_reg4]
  iintro ⟨⟨⟨Hs, Hr⟩, Hg⟩, Ho, ⟨%d0, H0⟩, ⟨%d1, H1⟩, ⟨%d2, H2⟩, ⟨%d3, H3⟩⟩
  iapply (sound_kernel_reg4 c Set.univ _ _ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  isplitl [Hs]; · iexact Hs
  iintro ⟨H0, H1, H2, H3, Hs⟩
  isplitl [Hs Hr Hg]
  · isplitr [Hg]
    · isplitl [Hs]; · iexact Hs
      iexact Hr
    iexact Hg
  isplitl [Ho]; · iexact Ho
  isplitl [H0]; · iexact H0
  isplitl [H1]; · iexact H1
  isplitl [H2]; · iexact H2
  iexact H3

theorem body_obligation4 (c : Dev nD) : BodyObligation (dat4 (F := F) V c) (defs₀ (F := F)) Variants.none () Set.univ := fun t => by
  rw [bigSep_W4, bigSep_W4, live_reg4 t]
  exact sound_body_reg4 V c t

theorem hin4 (c : Dev nD) : (Pipeline.ΦA spec4 c : sProp 𝕄) ⊢ (dat4 V c).Φ 0 := by
  rw [inv_reg4]

theorem hout4 (c : Dev nD) : (dat4 V c).Φ (Fin.last cfg4.N) ⊢ (Pipeline.ΦA spec4 c : sProp 𝕄) := by
  rw [inv_reg4]

end Cert.Kernel.Hand

end
-- ==== Proof.KReg5.lean ====
import proofs.«419261_j25872882991625_3_alg».proof.Proof.Gen.Kernel.Launch
import proofs.«419261_j25872882991625_3_alg».proof.Proof.Gen.Kernel.Skeleton
import proofs.«419261_j25872882991625_3_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem k5_cond2_eq (i : grid5.Coords) : k5_cond2 i = 1#1 := by
  have h : (i 1).val = 0 := Nat.lt_one_iff.mp (i 1).isLt
  unfold k5_cond2; rw [h]; rfl

private theorem zeroOff : (![0, 0] : Fin 2 → Nat) = fun _ => 0 := funext fun a => by fin_cases a <;> rfl

def outBlk5 (x0 : Vec F S128x10240 .f32) (x1 : Vec F S10240x1024 .bf16) (x2 : Vec F S1x1024 .f32) : Vec F S128x1024 .bf16 :=
  k5_pay3 (k5_pay2 x0 x1 (k5_pay1 (F := F))) x2

set_option maxHeartbeats 1000000 in

theorem sound_kernel5 (c : Dev nD) (E : Set ℕ) (i : grid5.Coords)
    (arg2 : Memref sig .tc .vmem S128x10240 .f32) (harg2 : arg2.IsWhole) (arg3 : Memref sig .tc .vmem S10240x1024 .bf16) (harg3 : arg3.IsWhole)
    (arg4 : Memref sig .tc .vmem S1x1024 .f32) (harg4 : arg4.IsWhole) (arg5 : Memref sig .tc .vmem S128x1024 .bf16) (harg5 : arg5.IsWhole)
    (x0 : Vec F S128x10240 .f32) (x1 : Vec F S10240x1024 .bf16) (x2 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (∃ a, owns (c : Thread nD τ) (Memref.whole cc5_scratch0) fullShare a)
        ∗ (iprop(owns (c : Thread nD τ) arg2 fullShare x0 ∗ owns (c : Thread nD τ) arg3 fullShare x1 ∗ owns (c : Thread nD τ) arg4 fullShare x2
            ∗ owns (c : Thread nD τ) arg5 fullShare (outBlk5 x0 x1 x2)
            ∗ (∃ a, owns (c : Thread nD τ) (Memref.whole cc5_scratch0) fullShare a)) -∗ K ⟨⟩))
      ⊢ wp frame (wpE (defs₀ (F := F)) Variants.none c none) E
          (cc5_kernel i arg2 harg2 arg3 harg3 arg4 harg4 arg5 harg5 (Memref.whole cc5_scratch0) (Memref.isWhole_whole _)) K := by
  simp only [cc5_kernel_eq_skeleton]; unfold cc5_kernel_skel
  have hc2 : k5_cond2 i = 1#1 := k5_cond2_eq i
  have hc1 : Scalar.cmpi .ne (Scalar.extui (Scalar.cmpi .eq (BitVec.ofNat 32 (i 1).val) 0#32)) 0#32 = 1#1 := hc2
  unfold owns
  iintro ⟨⟨%f0, %hf0, H0⟩, ⟨%f1, %hf1, H1⟩, ⟨%f2, %hf2, H2⟩, ⟨%d3, %f3, -, H3⟩, ⟨%a, %fa, -, Ha⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (fun y => ⟨_, List.mem_singleton_self _,
      View.mem_set_unit_zero zeroOff inb_S128x1024_S128x1024_0_0 y⟩)]
    sl_unfold_words
    rw [View.canon_unit_zero zeroOff]
    unfold outBlk5
    simp only [View.readAt_eq_ld, View.ld_unit_zero (S := S128x10240) zeroOff, View.ld_unit_zero (S := S10240x1024) zeroOff,
      View.ld_unit_zero (S := S1x1024) zeroOff, View.readCov_cons_toLoadRect]
  iexists _; iexists _; isplitr
  swap; · iexact Ha
  ipureintro; rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => outBlk5 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = outBlk5 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

theorem hin5 (c : Dev nD) : Pipeline.ΦA spec5 c ⊢ (dat5 V c).Φ 0 := by
  dsimp only [dat5]; iintro H; iexact H

theorem hout5 (c : Dev nD) : (dat5 V c).Φ (Fin.last cfg5.N) ⊢ Pipeline.ΦA spec5 c := by
  dsimp only [dat5]; iintro H; iexact H

theorem live5_3 (t : Fin cfg5.N) : idle5 3 (grid5.coords t) = false := by
  show (!(k5_cond2 (grid5.coords t) == 1#1)) = false
  rw [k5_cond2_eq]; rfl

private theorem scratch_eq (c : Dev nD) :
    (iprop(∃ a, owns (c : Thread nD τ) (Memref.whole cc5_scratch0) fullShare a) : sProp 𝕄)
      = iprop(∃ f : Buf (Elt F) ((c : Thread nD τ).loc cc5_scratch0), ((c : Thread nD τ).loc cc5_scratch0) ↦{fullShare} f) := by
  simp only [owns_whole]

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = Pipeline.ΦA spec5 c from rfl, show (dat5 V c).Φ t.castSucc = Pipeline.ΦA spec5 c from rfl,
    show (dat5 V c).owesAt () t.succ = (dat5 V c).owesAt () t.castSucc from rfl,
    after5_0, after5_1, after5_2, after5_3]
  unfold Pipeline.ΦA
  rw [scopedRest5_split, ← scratch_eq]
  iintro ⟨⟨⟨Ha, Hrest⟩, Hp⟩, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  isplitl [Ha]; · iexact Ha
  iintro ⟨H0, H1, H2, H3, Ha⟩
  isplitl [Ha Hrest Hp]
  · isplitr [Hp]
    · isplitl [Ha]; · iexact Ha
      iexact Hrest
    iexact Hp
  isplitl [Ho]; · iexact Ho
  isplitl [H0]; · iexact H0
  isplitl [H1]; · iexact H1
  isplitl [H2]; · iexact H2
  iexact H3

theorem body_obligation5 (c : Dev nD) : BodyObligation (dat5 (F := F) V c) (defs₀ (F := F)) Variants.none () Set.univ := fun t => by
  rw [bigSep_W5, bigSep_W5]
  simp only [live5_3]
  split
  · rename_i h; rw [live5_3] at h; exact absurd h Bool.false_ne_true
  · exact sound_body5 V c t

end Cert.Kernel.Hand

end
-- ==== Proof.KReg6.lean ====
import proofs.«419261_j25872882991625_3_alg».proof.Proof.Gen.Kernel.Launch
import proofs.«419261_j25872882991625_3_alg».proof.Proof.Gen.Kernel.Skeleton
import proofs.«419261_j25872882991625_3_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def acc6 (c : Dev nD) : (n : ℕ) → n < cfg6.N → Vec F S64x1024 .f32
  | 0, hn => k6_pay2 (iblk6 V c 0 ⟨0, hn⟩) (iblk6 V c 1 ⟨0, hn⟩) (k6_pay1 (F := F))
  | n + 1, hn => k6_pay2 (iblk6 V c 0 ⟨n + 1, hn⟩) (iblk6 V c 1 ⟨n + 1, hn⟩) (acc6 c n (Nat.lt_of_succ_lt hn))

def Phi6 (c : Dev nD) : (n : ℕ) → n ≤ cfg6.N → sProp 𝕄
  | 0, _ => Pipeline.ΦA spec6 c
  | n + 1, hn => iprop(Pipeline.scopedRestBut (Ix := Unit) (Name := ℕ) (U := UR sig nD τ) (Lvl := ℕ) (Val := Elt F) spec6 c [cc6_scratch0]
      ∗ (∃ r, prngReg c r)
      ∗ owns (c : Thread nD τ) (Memref.whole cc6_scratch0 : Memref sig .tc .vmem S64x1024 .f32) fullShare (acc6 V c n hn))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => acc6 V c t.val t.isLt
  Φ t := Phi6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = acc6 V c t.val t.isLt := by dsimp only [dat6]

theorem zeroOff6 : (![0, 0] : Fin 2 → ℕ) = fun _ => 0 := by
  funext a; fin_cases a <;> rfl

theorem readAt_all6 {S : Shape} {e : EltTy} {m : Memref sig .tc .vmem S e} (h : m.IsWhole) (X : S.Idx → Elt F e)
    {off : Fin S.rank → ℕ} (hz : off = fun _ => 0) (inb : ∀ a, off a + S.size a ≤ S.size a) :
    View.readAt (Elt F) m.view (Rect.unit off S.size inb).toLoadRect (h.unread X) = X := by
  rw [View.readAt_eq_ld, h.read_unread, View.ld_unit_zero hz]

theorem read_stored_all6 {S : Shape} {e : EltTy} {m : Memref sig .tc .vmem S e} (f : m.view.ty.Contents (Elt F))
    {off : Fin S.rank → ℕ} (hz : off = fun _ => 0) (inb : ∀ a, off a + S.size a ≤ S.size a) (w : S.Idx → Elt F e)
    (L : List (View.Piece (Elt F) S e)) :
    m.view.read (Elt F) (m.view.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz]

abbrev isFirst6 (i : grid6.Coords) : Prop :=
  Scalar.cmpi .ne (Scalar.extui (Scalar.cmpi .eq (BitVec.ofNat 32 (i 1).val) 0#32)) 0#32 = 1#1

theorem isFirst6_iff : ∀ t : Fin cfg6.N, isFirst6 (grid6.coords t) ↔ t.val = 0 :=
  (by decide +kernel : ∀ t : Fin grid6.N, isFirst6 (grid6.coords t) ↔ t.val = 0)

abbrev isLast6 (i : grid6.Coords) : Prop := k6_cond2 i = 1#1

theorem isLast6_iff : ∀ t : Fin cfg6.N, isLast6 (grid6.coords t) ↔ t.val = 3 :=
  (by decide +kernel : ∀ t : Fin grid6.N, isLast6 (grid6.coords t) ↔ t.val = 3)

theorem runFirst6 (c : Dev nD) (i : grid6.Coords) (hf : isFirst6 i) (hl : ¬isLast6 i)
    (mP : Memref sig .tc .vmem S64x2560 .bf16) (wP : mP.IsWhole) (mA : Memref sig .tc .vmem S2560x1024 .bf16) (wA : mA.IsWhole)
    (mB : Memref sig .tc .vmem S1x1024 .f32) (wB : mB.IsWhole) (mO : Memref sig .tc .vmem S64x1024 .f32) (wO : mO.IsWhole)
    (mS : Memref sig .tc .vmem S64x1024 .f32) (wS : mS.IsWhole)
    (x0 : Vec F S64x2560 .bf16) (x1 : Vec F S2560x1024 .bf16) (s : Vec F S64x1024 .f32) (K : PUnit → sProp 𝕄) :
    iprop(owns (c : Thread nD τ) mP fullShare x0 ∗ owns (c : Thread nD τ) mA fullShare x1 ∗ owns (c : Thread nD τ) mS fullShare s
        ∗ (iprop(owns (c : Thread nD τ) mP fullShare x0 ∗ owns (c : Thread nD τ) mA fullShare x1
            ∗ owns (c : Thread nD τ) mS fullShare (k6_pay2 x0 x1 (k6_pay1 (F := F)))) -∗ K ⟨⟩))
      ⊢ wp frame (wpE (defs₀ (F := F)) Variants.none c none) Set.univ (cc6_kernel i mP wP mA wA mB wB mO wO mS wS) K := by
  simp only [cc6_kernel_eq_skeleton]; unfold cc6_kernel_skel
  unfold owns
  iintro ⟨⟨%fP, %eP, HP⟩, ⟨%fA, %eA, HA⟩, ⟨%fS, %eS, HS⟩, Hk⟩
  obtain rfl := wP.eq_unread eP; obtain rfl := wA.eq_unread eA; obtain rfl := wS.eq_unread eS
  sl_exec (disch := first | exact hf | exact hl)
  sl_step
  iapply Hk
  isplitl [HP]
  · iexists _; isplitr; · ipureintro; exact wP.read_unread _
    iexact HP
  isplitl [HA]
  · iexists _; isplitr; · ipureintro; exact wA.read_unread _
    iexact HA
  iexists _; isplitr
  swap; · iexact HS
  ipureintro
  sl_unfold_run_names
  rw [read_stored_all6 _ zeroOff6, readAt_all6 wP x0 zeroOff6, readAt_all6 wA x1 zeroOff6, View.readCov_unit_zero _ zeroOff6]

theorem runMid6 (c : Dev nD) (i : grid6.Coords) (hf : ¬isFirst6 i) (hl : ¬isLast6 i)
    (mP : Memref sig .tc .vmem S64x2560 .bf16) (wP : mP.IsWhole) (mA : Memref sig .tc .vmem S2560x1024 .bf16) (wA : mA.IsWhole)
    (mB : Memref sig .tc .vmem S1x1024 .f32) (wB : mB.IsWhole) (mO : Memref sig .tc .vmem S64x1024 .f32) (wO : mO.IsWhole)
    (mS : Memref sig .tc .vmem S64x1024 .f32) (wS : mS.IsWhole)
    (x0 : Vec F S64x2560 .bf16) (x1 : Vec F S2560x1024 .bf16) (s : Vec F S64x1024 .f32) (K : PUnit → sProp 𝕄) :
    iprop(owns (c : Thread nD τ) mP fullShare x0 ∗ owns (c : Thread nD τ) mA fullShare x1 ∗ owns (c : Thread nD τ) mS fullShare s
        ∗ (iprop(owns (c : Thread nD τ) mP fullShare x0 ∗ owns (c : Thread nD τ) mA fullShare x1
            ∗ owns (c : Thread nD τ) mS fullShare (k6_pay2 x0 x1 s)) -∗ K ⟨⟩))
      ⊢ wp frame (wpE (defs₀ (F := F)) Variants.none c none) Set.univ (cc6_kernel i mP wP mA wA mB wB mO wO mS wS) K := by
  simp only [cc6_kernel_eq_skeleton]; unfold cc6_kernel_skel
  unfold owns
  iintro ⟨⟨%fP, %eP, HP⟩, ⟨%fA, %eA, HA⟩, ⟨%fS, %eS, HS⟩, Hk⟩
  obtain rfl := wP.eq_unread eP; obtain rfl := wA.eq_unread eA; obtain rfl := wS.eq_unread eS
  sl_exec (disch := first | exact hf | exact hl)
  sl_step
  iapply Hk
  isplitl [HP]
  · iexists _; isplitr; · ipureintro; exact wP.read_unread _
    iexact HP
  isplitl [HA]
  · iexists _; isplitr; · ipureintro; exact wA.read_unread _
    iexact HA
  iexists _; isplitr
  swap; · iexact HS
  ipureintro
  rw [read_stored_all6 _ zeroOff6, readAt_all6 wP x0 zeroOff6, readAt_all6 wA x1 zeroOff6, readAt_all6 wS s zeroOff6]

theorem runLast6 (c : Dev nD) (i : grid6.Coords) (hf : ¬isFirst6 i) (hl : isLast6 i)
    (mP : Memref sig .tc .vmem S64x2560 .bf16) (wP : mP.IsWhole) (mA : Memref sig .tc .vmem S2560x1024 .bf16) (wA : mA.IsWhole)
    (mB : Memref sig .tc .vmem S1x1024 .f32) (wB : mB.IsWhole) (mO : Memref sig .tc .vmem S64x1024 .f32) (wO : mO.IsWhole)
    (mS : Memref sig .tc .vmem S64x1024 .f32) (wS : mS.IsWhole)
    (x0 : Vec F S64x2560 .bf16) (x1 : Vec F S2560x1024 .bf16) (s o : Vec F S64x1024 .f32) (K : PUnit → sProp 𝕄) :
    iprop(owns (c : Thread nD τ) mP fullShare x0 ∗ owns (c : Thread nD τ) mA fullShare x1 ∗ owns (c : Thread nD τ) mS fullShare s
        ∗ owns (c : Thread nD τ) mO fullShare o
        ∗ (iprop(owns (c : Thread nD τ) mP fullShare x0 ∗ owns (c : Thread nD τ) mA fullShare x1
            ∗ owns (c : Thread nD τ) mS fullShare (k6_pay2 x0 x1 s) ∗ owns (c : Thread nD τ) mO fullShare (k6_pay2 x0 x1 s)) -∗ K ⟨⟩))
      ⊢ wp frame (wpE (defs₀ (F := F)) Variants.none c none) Set.univ (cc6_kernel i mP wP mA wA mB wB mO wO mS wS) K := by
  simp only [cc6_kernel_eq_skeleton]; unfold cc6_kernel_skel
  unfold owns
  iintro ⟨⟨%fP, %eP, HP⟩, ⟨%fA, %eA, HA⟩, ⟨%fS, %eS, HS⟩, ⟨%fO, %eO, HO⟩, Hk⟩
  obtain rfl := wP.eq_unread eP; obtain rfl := wA.eq_unread eA; obtain rfl := wS.eq_unread eS; obtain rfl := wO.eq_unread eO
  sl_exec (disch := first | exact hf | exact hl)
  sl_step
  iapply Hk
  isplitl [HP]
  · iexists _; isplitr; · ipureintro; exact wP.read_unread _
    iexact HP
  isplitl [HA]
  · iexists _; isplitr; · ipureintro; exact wA.read_unread _
    iexact HA
  isplitl [HS]
  · iexists _; isplitr
    swap; · iexact HS
    ipureintro
    sl_unfold_run_names
    rw [read_stored_all6 _ zeroOff6, readAt_all6 wP x0 zeroOff6, readAt_all6 wA x1 zeroOff6, readAt_all6 wS s zeroOff6]
  iexists _; isplitr
  swap; · iexact HO
  ipureintro
  sl_unfold_run_names
  rw [read_stored_all6 _ zeroOff6, View.readCov_unit_zero _ zeroOff6, readAt_all6 wP x0 zeroOff6, readAt_all6 wA x1 zeroOff6,
    readAt_all6 wS s zeroOff6]

theorem acc6_first (c : Dev nD) (t : Fin cfg6.N) (h : t.val = 0) :
    acc6 V c t.val t.isLt = k6_pay2 (iblk6 V c 0 t) (iblk6 V c 1 t) (k6_pay1 (F := F)) := by
  obtain ⟨n, hn⟩ := t
  cases n with
  | zero => rfl
  | succ n => exact absurd h (Nat.succ_ne_zero n)

theorem acc6_next (c : Dev nD) (t : Fin cfg6.N) (h : t.val ≠ 0) :
    acc6 V c t.val t.isLt = k6_pay2 (iblk6 V c 0 t) (iblk6 V c 1 t)
      (acc6 V c (t.val - 1) (Nat.lt_of_le_of_lt (Nat.sub_le _ _) t.isLt)) := by
  obtain ⟨n, hn⟩ := t
  cases n with
  | zero => exact absurd rfl h
  | succ n => rfl

theorem Phi6_zero (c : Dev nD) (n : ℕ) (h : n ≤ cfg6.N) (hz : n = 0) : Phi6 V c n h = Pipeline.ΦA spec6 c := by
  subst hz; rfl

theorem Phi6_succ (c : Dev nD) (n : ℕ) (hn : n < cfg6.N) :
    Phi6 V c (n + 1) hn = iprop(Pipeline.scopedRestBut (Ix := Unit) (Name := ℕ) (U := UR sig nD τ) (Lvl := ℕ) (Val := Elt F) spec6 c [cc6_scratch0]
      ∗ (∃ r, prngReg c r)
      ∗ owns (c : Thread nD τ) (Memref.whole cc6_scratch0 : Memref sig .tc .vmem S64x1024 .f32) fullShare (acc6 V c n hn)) := rfl

theorem Phi6_pos (c : Dev nD) (n : ℕ) (h : n ≤ cfg6.N) (hz : n ≠ 0) :
    Phi6 V c n h = iprop(Pipeline.scopedRestBut (Ix := Unit) (Name := ℕ) (U := UR sig nD τ) (Lvl := ℕ) (Val := Elt F) spec6 c [cc6_scratch0]
      ∗ (∃ r, prngReg c r)
      ∗ owns (c : Thread nD τ) (Memref.whole cc6_scratch0 : Memref sig .tc .vmem S64x1024 .f32) fullShare
          (acc6 V c (n - 1) (by omega))) := by
  cases n with
  | zero => exact absurd rfl hz
  | succ n => rfl

theorem PhiA6_eq (c : Dev nD) :
    (Pipeline.ΦA spec6 c : sProp 𝕄)
      = iprop(iprop(iprop(∃ d, owns (c : Thread nD τ) (Memref.whole cc6_scratch0 : Memref sig .tc .vmem S64x1024 .f32) fullShare d)
          ∗ Pipeline.scopedRestBut (Ix := Unit) (Name := ℕ) (U := UR sig nD τ) (Lvl := ℕ) (Val := Elt F) spec6 c [cc6_scratch0])
        ∗ (∃ r, prngReg c r)) := by
  unfold Pipeline.ΦA; rw [scopedRest6_split]; simp only [owns_whole]; try rfl

theorem hin6 (c : Dev nD) : Pipeline.ΦA spec6 c ⊢ (dat6 V c).Φ 0 := by
  rw [show (dat6 V c).Φ 0 = Phi6 V c 0 (Nat.zero_le _) from rfl, Phi6_zero V c 0 _ rfl]

theorem hout6 (c : Dev nD) : (dat6 V c).Φ (Fin.last cfg6.N) ⊢ Pipeline.ΦA spec6 c := by
  rw [show (dat6 V c).Φ (Fin.last cfg6.N) = Phi6 V c cfg6.N (Nat.le_refl _) from rfl,
    Phi6_pos V c _ _ (by rw [show cfg6.N = 4 from N_6]; decide), PhiA6_eq]
  iintro ⟨HR, Hg, HS⟩
  isplitr [Hg]
  · isplitl [HS]
    · iexists _; iexact HS
    iexact HR
  iexact Hg

theorem before6_0 (c : Dev nD) (t : Fin cfg6.N) (d) : (dat6 V c).before 0 t d = iblk6 V c 0 t := by
  rw [(dat6 V c).before_in_eq_fetched 0 rfl (fun _ => rfl) (fun _ _ _ => rfl)
    (fun u => by rw [after6_0]; unfold Dat.blockOf iblk6; rw [A_eq6]) t d]
  unfold Dat.fetched Dat.blockOf iblk6; rw [A_eq6]; rfl
theorem before6_1 (c : Dev nD) (t : Fin cfg6.N) (d) : (dat6 V c).before 1 t d = iblk6 V c 1 t := by
  rw [(dat6 V c).before_in_eq_fetched 1 rfl (fun _ => rfl) (fun _ _ _ => rfl)
    (fun u => by rw [after6_1]; unfold Dat.blockOf iblk6; rw [A_eq6]) t d]
  unfold Dat.fetched Dat.blockOf iblk6; rw [A_eq6]; rfl
theorem before6_2 (c : Dev nD) (t : Fin cfg6.N) (d) : (dat6 V c).before 2 t d = iblk6 V c 2 t := by
  rw [(dat6 V c).before_in_eq_fetched 2 rfl (fun _ => rfl) (fun _ _ _ => rfl)
    (fun u => by rw [after6_2]; unfold Dat.blockOf iblk6; rw [A_eq6]) t d]
  unfold Dat.fetched Dat.blockOf iblk6; rw [A_eq6]; rfl

theorem leaves6_0 (c : Dev nD) (t : Fin cfg6.N) :
    (dat6 V c).leavesExact 0 t = owns (c : Thread nD τ) (st6_0 t) fullShare (iblk6 V c 0 t) := by
  unfold Dat.leavesExact; rw [show cfg6.idle 0 (cfg6.grid.coords t) = false from rfl, after6_0]
theorem leaves6_1 (c : Dev nD) (t : Fin cfg6.N) :
    (dat6 V c).leavesExact 1 t = owns (c : Thread nD τ) (st6_1 t) fullShare (iblk6 V c 1 t) := by
  unfold Dat.leavesExact; rw [show cfg6.idle 1 (cfg6.grid.coords t) = false from rfl, after6_1]
theorem leaves6_2 (c : Dev nD) (t : Fin cfg6.N) :
    (dat6 V c).leavesExact 2 t = owns (c : Thread nD τ) (st6_2 t) fullShare (iblk6 V c 2 t) := by
  unfold Dat.leavesExact; rw [show cfg6.idle 2 (cfg6.grid.coords t) = false from rfl, after6_2]

theorem leaves6_3_idle (c : Dev nD) (t : Fin cfg6.N) (hl : ¬isLast6 (grid6.coords t)) :
    (dat6 V c).leavesExact 3 t
      = iprop(∃ d, owns (c : Thread nD τ) (st6_3 t) fullShare ((dat6 V c).before 3 t d)) := by
  refine Dat.leavesExact_idle (dat6 V c) 3 t ?_ ?_
  · show (!(k6_cond2 (grid6.coords t) == 1#1)) = true
    rw [Bool.not_eq_true', beq_eq_false_iff_ne]; exact hl
  · have hN : t.val < 4 := lt_of_lt_of_eq t.isLt (show cfg6.N = 4 from N_6)
    have hlast : ¬t.val = 3 := fun h => hl ((isLast6_iff t).mpr h)
    exact Bool.eq_false_iff.mpr fun h => hlast (by have := (flush6_3 t).mp h; omega)

theorem leaves6_3_live (c : Dev nD) (t : Fin cfg6.N) (hl : isLast6 (grid6.coords t)) :
    (dat6 V c).leavesExact 3 t = owns (c : Thread nD τ) (st6_3 t) fullShare (acc6 V c t.val t.isLt) := by
  unfold Dat.leavesExact
  rw [show cfg6.idle 3 (cfg6.grid.coords t) = false from by
    show (!(k6_cond2 (grid6.coords t) == 1#1)) = false
    rw [show k6_cond2 (grid6.coords t) = 1#1 from hl]; rfl, after6_3]

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

def bodyPost6 (c : Dev nD) (t : Fin cfg6.N) : sProp 𝕄 :=
  iprop((dat6 V c).Φ t.succ ∗ (dat6 V c).owesAt () t.succ
    ∗ (dat6 V c).leavesExact 0 t ∗ (dat6 V c).leavesExact 1 t ∗ (dat6 V c).leavesExact 2 t ∗ (dat6 V c).leavesExact 3 t)

set_option maxHeartbeats 1600000 in

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).owesAt () t.succ = (dat6 V c).owesAt () t.castSucc from rfl,
    show (dat6 V c).Φ t.succ = Phi6 V c (t.val + 1) t.isLt from rfl,
    show (dat6 V c).Φ t.castSucc = Phi6 V c t.val (Nat.le_of_lt t.isLt) from rfl,
    leaves6_0, leaves6_1, leaves6_2]
  have hN : t.val < 4 := lt_of_lt_of_eq t.isLt (show cfg6.N = 4 from N_6)
  by_cases hz : t.val = 0
  · have hf : isFirst6 (grid6.coords t) := (isFirst6_iff t).mpr hz
    have hl : ¬isLast6 (grid6.coords t) := fun h => by have := (isLast6_iff t).mp h; omega
    rw [Phi6_zero V c _ _ hz, PhiA6_eq, leaves6_3_idle V c t hl,
      Phi6_succ, acc6_first V c t hz]
    iintro ⟨⟨⟨⟨%sv, HS⟩, HR⟩, Hg⟩, Ho, ⟨%dP, HP⟩, ⟨%dA, HA⟩, ⟨%dB, HB⟩, ⟨%dO, HO⟩⟩
    iapply (runFirst6 c (grid6.coords t) hf hl _ _ _ _ _ _ _ _ _ _ (iblk6 V c 0 t) (iblk6 V c 1 t) sv _)
    isplitl [HP]; · iexact HP
    isplitl [HA]; · iexact HA
    isplitl [HS]; · iexact HS
    iintro ⟨HP, HA, HS⟩
    isplitl [HR Hg HS]
    · isplitl [HR]; · iexact HR
      isplitl [Hg]; · iexact Hg
      iexact HS
    isplitl [Ho]; · iexact Ho
    isplitl [HP]; · iexact HP
    isplitl [HA]; · iexact HA
    isplitl [HB]; · iexact HB
    iexists _; iexact HO
  · have hf : ¬isFirst6 (grid6.coords t) := fun h => hz ((isFirst6_iff t).mp h)
    by_cases hlast : t.val = 3
    · have hl : isLast6 (grid6.coords t) := (isLast6_iff t).mpr hlast
      rw [Phi6_pos V c _ _ hz, leaves6_3_live V c t hl,
        Phi6_succ, acc6_next V c t hz]
      iintro ⟨⟨HR, Hg, HS⟩, Ho, ⟨%dP, HP⟩, ⟨%dA, HA⟩, ⟨%dB, HB⟩, ⟨%dO, HO⟩⟩
      iapply (runLast6 c (grid6.coords t) hf hl _ _ _ _ _ _ _ _ _ _ (iblk6 V c 0 t) (iblk6 V c 1 t) _ _ _)
      isplitl [HP]; · iexact HP
      isplitl [HA]; · iexact HA
      isplitl [HS]; · iexact HS
      isplitl [HO]; · iexact HO
      iintro ⟨HP, HA, HS, HO⟩
      isplitl [HR Hg HS]
      · isplitl [HR]; · iexact HR
        isplitl [Hg]; · iexact Hg
        iexact HS
      isplitl [Ho]; · iexact Ho
      isplitl [HP]; · iexact HP
      isplitl [HA]; · iexact HA
      isplitl [HB]; · iexact HB
      iexact HO
    · have hl : ¬isLast6 (grid6.coords t) := fun h => hlast ((isLast6_iff t).mp h)
      rw [Phi6_pos V c _ _ hz, leaves6_3_idle V c t hl,
        Phi6_succ, acc6_next V c t hz]
      iintro ⟨⟨HR, Hg, HS⟩, Ho, ⟨%dP, HP⟩, ⟨%dA, HA⟩, ⟨%dB, HB⟩, ⟨%dO, HO⟩⟩
      iapply (runMid6 c (grid6.coords t) hf hl _ _ _ _ _ _ _ _ _ _ (iblk6 V c 0 t) (iblk6 V c 1 t) _ _)
      isplitl [HP]; · iexact HP
      isplitl [HA]; · iexact HA
      isplitl [HS]; · iexact HS
      iintro ⟨HP, HA, HS⟩
      isplitl [HR Hg HS]
      · isplitl [HR]; · iexact HR
        isplitl [Hg]; · iexact Hg
        iexact HS
      isplitl [Ho]; · iexact Ho
      isplitl [HP]; · iexact HP
      isplitl [HA]; · iexact HA
      isplitl [HB]; · iexact HB
      iexists _; iexact HO

theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.KReg7.lean ====
import proofs.«419261_j25872882991625_3_alg».proof.Proof.Gen.Kernel.Launch
import proofs.«419261_j25872882991625_3_alg».proof.Proof.Gen.Kernel.Skeleton
import proofs.«419261_j25872882991625_3_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => k7_pay3 (k7_pay2 (iblk7 V c 0 t) (iblk7 V c 1 t) (k7_pay1 (F := F))) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) :
    (dat7 V c).after 3 t = k7_pay3 (k7_pay2 (iblk7 V c 0 t) (iblk7 V c 1 t) (k7_pay1 (F := F))) (iblk7 V c 2 t) := by
  dsimp only [dat7]

theorem zoff7 : (![0, 0] : Fin 2 → Nat) = fun _ => 0 := by funext a; fin_cases a <;> rfl

set_option maxHeartbeats 2000000 in

theorem sound_kernel7 (c : Dev nD) (E : Set ℕ) (i : grid7.Coords) (hi : (i 1).val = 0)
    (arg2 : Memref sig .tc .vmem S64x1024 .f32) (harg2 : arg2.IsWhole) (arg3 : Memref sig .tc .vmem S1024x128 .f32) (harg3 : arg3.IsWhole)
    (arg4 : Memref sig .tc .vmem S1x128 .f32) (harg4 : arg4.IsWhole) (arg5 : Memref sig .tc .vmem S64x128 .f32) (harg5 : arg5.IsWhole)
    (arg6 : Memref sig .tc .vmem S64x128 .f32) (harg6 : arg6.IsWhole)
    (x0 : Vec F S64x1024 .f32) (x1 : Vec F S1024x128 .f32) (x2 : Vec F S1x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k7_pay3 (k7_pay2 x0 x1 (k7_pay1 (F := F))) x2)
            ∗ (∃ d, owns (c : Thread nD τ) arg6 fullShare d)) -∗ K ⟨⟩))
      ⊢ wp frame (wpE (defs₀ (F := F)) Variants.none c none) E (cc7_kernel i arg2 harg2 arg3 harg3 arg4 harg4 arg5 harg5 arg6 harg6) K := by
  simp only [cc7_kernel_eq_skeleton]; unfold cc7_kernel_skel
  have hw : BitVec.ofNat 32 (i 1).val = 0#32 := by rw [hi]
  have hc2 : k7_cond2 i = 1#1 := by unfold k7_cond2; rw [hw]; decide
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec (disch := first | sl_exact hc2 | (rw [hw]; decide))
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (fun y => ⟨_, List.mem_singleton_self _, View.mem_set_unit_zero zoff7 inb_S64x128_S64x128_0_0 y⟩),
      View.canon_unit_zero zoff7]
    sl_unfold_words
    rw [View.readCov_cons_toLoadRect, View.readCov_unit_zero _ zoff7]
    simp only [View.readAt_eq_ld, View.ld_unit_zero (S := S64x1024) zoff7, View.ld_unit_zero (S := S1024x128) zoff7,
      View.ld_unit_zero (S := S1x128) zoff7]
  iexists _, _; isplitr
  swap; · iexact H4
  ipureintro; rfl

theorem PhiA7_eq (c : Dev nD) :
    (Pipeline.ΦA spec7 c : sProp 𝕄)
      = iprop(iprop((∃ d, owns (c : Thread nD τ) (Memref.whole cc7_scratch0) fullShare d) ∗ Pipeline.scopedRestBut spec7 c [cc7_scratch0])
          ∗ (∃ r, prngReg c r)) := by
  unfold Pipeline.ΦA; rw [scopedRest7_split]; simp only [owns_whole]

theorem before7_0 (c : Dev nD) (t : Fin cfg7.N) (d) : (dat7 V c).before 0 t d = iblk7 V c 0 t :=
  ((dat7 V c).before_fetched 0 t (fetch7_0 t) d).trans (by unfold Dat.fetched Dat.blockOf iblk7; rw [A_eq7]; try rfl)
theorem before7_1 (c : Dev nD) (t : Fin cfg7.N) (d) : (dat7 V c).before 1 t d = iblk7 V c 1 t :=
  ((dat7 V c).before_fetched 1 t (fetch7_1 t) d).trans (by unfold Dat.fetched Dat.blockOf iblk7; rw [A_eq7]; try rfl)
theorem before7_2 (c : Dev nD) (t : Fin cfg7.N) (d) : (dat7 V c).before 2 t d = iblk7 V c 2 t :=
  ((dat7 V c).before_fetched 2 t (fetch7_2 t) d).trans (by unfold Dat.fetched Dat.blockOf iblk7; rw [A_eq7]; try rfl)

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

def bodyPost7 (c : Dev nD) (t : Fin cfg7.N) : sProp 𝕄 :=
  iprop((dat7 V c).Φ t.succ ∗ (dat7 V c).owesAt () t.succ
    ∗ (dat7 V c).leavesExact 0 t ∗ (dat7 V c).leavesExact 1 t ∗ (dat7 V c).leavesExact 2 t ∗ (dat7 V c).leavesExact 3 t)

set_option maxHeartbeats 2000000 in

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  have hi : ((grid7.coords t) 1).val = 0 := Nat.lt_one_iff.mp ((grid7.coords t) 1).isLt
  have hc2 : k7_cond2 (grid7.coords t) = 1#1 := by
    unfold k7_cond2; rw [show BitVec.ofNat 32 ((grid7.coords t) 1).val = 0#32 from by rw [hi]]; decide
  have hlive : cfg7.idle 3 (cfg7.grid.coords t) = false := by
    show (!(k7_cond2 (grid7.coords t) == 1#1)) = false
    rw [hc2]; rfl
  rw [show (dat7 V c).Φ t.succ = Pipeline.ΦA spec7 c from rfl, show (dat7 V c).Φ t.castSucc = Pipeline.ΦA spec7 c from rfl,
    show (dat7 V c).owesAt () t.succ = (dat7 V c).owesAt () t.castSucc from rfl,
    show (dat7 V c).leavesExact 0 t = owns (c : Thread nD τ) (st7_0 t) fullShare ((dat7 V c).after 0 t) from rfl,
    show (dat7 V c).leavesExact 1 t = owns (c : Thread nD τ) (st7_1 t) fullShare ((dat7 V c).after 1 t) from rfl,
    show (dat7 V c).leavesExact 2 t = owns (c : Thread nD τ) (st7_2 t) fullShare ((dat7 V c).after 2 t) from rfl,
    show (dat7 V c).leavesExact 3 t = owns (c : Thread nD τ) (st7_3 t) fullShare ((dat7 V c).after 3 t) from by
      unfold Dat.leavesExact; rw [hlive],
    after7_0, after7_1, after7_2, after7_3, PhiA7_eq]
  iintro ⟨⟨⟨HS, HR⟩, Hg⟩, Ho, ⟨%d0, H0⟩, ⟨%d1, H1⟩, ⟨%d2, H2⟩, ⟨%d3, H3⟩⟩
  iapply (sound_kernel7 c Set.univ _ hi _ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  iexact H3

theorem body_obligation7 (c : Dev nD) : BodyObligation (dat7 (F := F) V c) (defs₀ (F := F)) Variants.none () Set.univ := fun t => by
  rw [bigSep_W7, bigSep_W7]
  exact sound_body7 V c t

theorem hin7 (c : Dev nD) : Pipeline.ΦA spec7 c ⊢ (dat7 V c).Φ 0 := by
  dsimp only [dat7]; exact .rfl

theorem hout7 (c : Dev nD) : (dat7 V c).Φ (Fin.last cfg7.N) ⊢ Pipeline.ΦA spec7 c := by
  dsimp only [dat7]; exact .rfl

end Cert.Kernel.Hand

end
-- ==== Proof.KRegFacts.lean ====
import proofs.«419261_j25872882991625_3_alg».proof.Proof.KReg0
import proofs.«419261_j25872882991625_3_alg».proof.Proof.KReg1
import proofs.«419261_j25872882991625_3_alg».proof.Proof.KReg2
import proofs.«419261_j25872882991625_3_alg».proof.Proof.KReg3
import proofs.«419261_j25872882991625_3_alg».proof.Proof.KReg4
import proofs.«419261_j25872882991625_3_alg».proof.Proof.KReg5
import proofs.«419261_j25872882991625_3_alg».proof.Proof.KReg6
import proofs.«419261_j25872882991625_3_alg».proof.Proof.KReg7

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.Sem
open Idealize.ShloMosaic.Rounds
open Idealize.ShloMosaic.Pipeline (Dat Cfg Window BodyObligation cellOf)

variable {F : FTy → Type} [FloatOps F]

theorem q_eq0 (V : (c : Dev nD) → (b : Ref sig .tc) → Buf (Elt F) ((c : Thread nD τ).loc b)) (c : Dev nD) (w : Fin cfg0.W) : (dat0 V c).q w = fullShare := rfl
theorem owed_eq0 (V : (c : Dev nD) → (b : Ref sig .tc) → Buf (Elt F) ((c : Thread nD τ).loc b)) (c : Dev nD) (t : Fin (cfg0.N + 1)) : (dat0 V c).owed t = 0 := rfl
theorem recorded_eq0 (V : (c : Dev nD) → (b : Ref sig .tc) → Buf (Elt F) ((c : Thread nD τ).loc b)) (c : Dev nD) (t : Fin (cfg0.N + 1)) : (dat0 V c).recorded t = Set.univ := rfl

theorem q_eq1 (V : (c : Dev nD) → (b : Ref sig .tc) → Buf (Elt F) ((c : Thread nD τ).loc b)) (c : Dev nD) (w : Fin cfg1.W) : (dat1 V c).q w = fullShare := rfl
theorem owed_eq1 (V : (c : Dev nD) → (b : Ref sig .tc) → Buf (Elt F) ((c : Thread nD τ).loc b)) (c : Dev nD) (t : Fin (cfg1.N + 1)) : (dat1 V c).owed t = 0 := rfl
theorem recorded_eq1 (V : (c : Dev nD) → (b : Ref sig .tc) → Buf (Elt F) ((c : Thread nD τ).loc b)) (c : Dev nD) (t : Fin (cfg1.N + 1)) : (dat1 V c).recorded t = Set.univ := rfl

theorem q_eq2 (V : (c : Dev nD) → (b : Ref sig .tc) → Buf (Elt F) ((c : Thread nD τ).loc b)) (c : Dev nD) (w : Fin cfg2.W) : (dat2 V c).q w = fullShare := rfl
theorem owed_eq2 (V : (c : Dev nD) → (b : Ref sig .tc) → Buf (Elt F) ((c : Thread nD τ).loc b)) (c : Dev nD) (t : Fin (cfg2.N + 1)) : (dat2 V c).owed t = 0 := rfl
theorem recorded_eq2 (V : (c : Dev nD) → (b : Ref sig .tc) → Buf (Elt F) ((c : Thread nD τ).loc b)) (c : Dev nD) (t : Fin (cfg2.N + 1)) : (dat2 V c).recorded t = Set.univ := rfl

theorem q_eq3 (V : (c : Dev nD) → (b : Ref sig .tc) → Buf (Elt F) ((c : Thread nD τ).loc b)) (c : Dev nD) (w : Fin cfg3.W) : (dat3 V c).q w = fullShare := rfl
theorem owed_eq3 (V : (c : Dev nD) → (b : Ref sig .tc) → Buf (Elt F) ((c : Thread nD τ).loc b)) (c : Dev nD) (t : Fin (cfg3.N + 1)) : (dat3 V c).owed t = 0 := rfl
theorem recorded_eq3 (V : (c : Dev nD) → (b : Ref sig .tc) → Buf (Elt F) ((c : Thread nD τ).loc b)) (c : Dev nD) (t : Fin (cfg3.N + 1)) : (dat3 V c).recorded t = Set.univ := rfl

theorem q_eq4 (V : (c : Dev nD) → (b : Ref sig .tc) → Buf (Elt F) ((c : Thread nD τ).loc b)) (c : Dev nD) (w : Fin cfg4.W) : (dat4 V c).q w = fullShare := rfl
theorem owed_eq4 (V : (c : Dev nD) → (b : Ref sig .tc) → Buf (Elt F) ((c : Thread nD τ).loc b)) (c : Dev nD) (t : Fin (cfg4.N + 1)) : (dat4 V c).owed t = 0 := rfl
theorem recorded_eq4 (V : (c : Dev nD) → (b : Ref sig .tc) → Buf (Elt F) ((c : Thread nD τ).loc b)) (c : Dev nD) (t : Fin (cfg4.N + 1)) : (dat4 V c).recorded t = Set.univ := rfl

theorem q_eq5 (V : (c : Dev nD) → (b : Ref sig .tc) → Buf (Elt F) ((c : Thread nD τ).loc b)) (c : Dev nD) (w : Fin cfg5.W) : (dat5 V c).q w = fullShare := rfl
theorem owed_eq5 (V : (c : Dev nD) → (b : Ref sig .tc) → Buf (Elt F) ((c : Thread nD τ).loc b)) (c : Dev nD) (t : Fin (cfg5.N + 1)) : (dat5 V c).owed t = 0 := rfl
theorem recorded_eq5 (V : (c : Dev nD) → (b : Ref sig .tc) → Buf (Elt F) ((c : Thread nD τ).loc b)) (c : Dev nD) (t : Fin (cfg5.N + 1)) : (dat5 V c).recorded t = Set.univ := rfl

theorem q_eq6 (V : (c : Dev nD) → (b : Ref sig .tc) → Buf (Elt F) ((c : Thread nD τ).loc b)) (c : Dev nD) (w : Fin cfg6.W) : (dat6 V c).q w = fullShare := rfl
theorem owed_eq6 (V : (c : Dev nD) → (b : Ref sig .tc) → Buf (Elt F) ((c : Thread nD τ).loc b)) (c : Dev nD) (t : Fin (cfg6.N + 1)) : (dat6 V c).owed t = 0 := rfl
theorem recorded_eq6 (V : (c : Dev nD) → (b : Ref sig .tc) → Buf (Elt F) ((c : Thread nD τ).loc b)) (c : Dev nD) (t : Fin (cfg6.N + 1)) : (dat6 V c).recorded t = Set.univ := rfl

theorem q_eq7 (V : (c : Dev nD) → (b : Ref sig .tc) → Buf (Elt F) ((c : Thread nD τ).loc b)) (c : Dev nD) (w : Fin cfg7.W) : (dat7 V c).q w = fullShare := rfl
theorem owed_eq7 (V : (c : Dev nD) → (b : Ref sig .tc) → Buf (Elt F) ((c : Thread nD τ).loc b)) (c : Dev nD) (t : Fin (cfg7.N + 1)) : (dat7 V c).owed t = 0 := rfl
theorem recorded_eq7 (V : (c : Dev nD) → (b : Ref sig .tc) → Buf (Elt F) ((c : Thread nD τ).loc b)) (c : Dev nD) (t : Fin (cfg7.N + 1)) : (dat7 V c).recorded t = Set.univ := rfl

end Cert.Kernel.Hand

end
-- ==== Proof.KBound.lean ====
import proofs.«419261_j25872882991625_3_alg».proof.Proof.Gen.Kernel.Launch
import proofs.«419261_j25872882991625_3_alg».proof.Proof.KRegFacts
import Idealize.ShloMosaic.Lib.Pipeline.FrameSuffix
import Idealize.ShloMosaic.Lib.Pipeline.RegionsLoop

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.ShloMosaic.Pipeline (Dat Cfg Window cellOf)

variable {F : FTy → Type} [FloatOps F]

theorem withArrays_of_not_mem {gr W : Nat} (win : Fin W → Pipeline.WinSpec sig gr) (c : Dev nD) (V : Valuation τ sig (Elt F))
    (A : (w : Fin W) → Buf (Elt F) ((win w).arr.view.loc (c : Thread nD τ))) (b : Ref sig .tc)
    (hb : b ∉ Finset.univ.image (Pipeline.arrRef win)) :
    Pipeline.withArrays win c V A (Proc.devRef .tc b) = V (Proc.devRef .tc b) :=
  Pipeline.withArrays_of_ne win c V A b fun w e => hb (Finset.mem_image.mpr ⟨w, Finset.mem_univ _, e⟩)

variable (m : (ℓ : Loc nD τ sig) → Buf (Elt F) ℓ)

abbrev W0 : Dev nD → Valuation τ sig (Elt F) := fun c b => m ((c : Thread nD τ).1, b)

abbrev W1 : Dev nD → Valuation τ sig (Elt F) := fun c => StableHlo.after main_part0_ops0 (W0 m c)

abbrev W2 : Dev nD → Valuation τ sig (Elt F) := fun c => StableHlo.after main_part1_ops0 (W1 m c)

abbrev W3 : Dev nD → Valuation τ sig (Elt F) := fun c => StableHlo.after main_part1_ops1 (W2 m c)

abbrev W4 : Dev nD → Valuation τ sig (Elt F) := fun c => StableHlo.after main_part1_ops2 (W3 m c)

abbrev V4 : (c : Dev nD) → (b : Ref sig .tc) → Buf (Elt F) ((c : Thread nD τ).loc b) := fun c b => W4 m c b

def W5 (c : Dev nD) : Valuation τ sig (Elt F) :=
  Pipeline.withArrays spec0 c (W4 m c) fun w => (dat0 (V4 m) c).arrAt w cfg0.N

abbrev V5 : (c : Dev nD) → (b : Ref sig .tc) → Buf (Elt F) ((c : Thread nD τ).loc b) := fun c b => W5 m c b
theorem W5_arr (c : Dev nD) (w : Fin cfg0.W) :
    W5 m c (Proc.devRef .tc (Pipeline.arrRef spec0 w)) = (dat0 (V4 m) c).arrAt w cfg0.N :=
  Pipeline.withArrays_arr spec0 launch0.win.arr_inj c _ _ w
theorem W5_of_ne (c : Dev nD) (b : Ref sig .tc) (hb : ∀ w, Pipeline.arrRef spec0 w ≠ b) :
    W5 m c (Proc.devRef .tc b) = W4 m c (Proc.devRef .tc b) :=
  Pipeline.withArrays_of_ne spec0 c _ _ b hb
theorem hF0 (c : Dev nD) (w : Fin cfg0.W) : (dat0 (V4 m) c).arrAt w cfg0.N = V5 m c (Pipeline.arrRef spec0 w) :=
  (W5_arr m c w).symm
theorem hrest0 (c : Dev nD) : ∀ b, b ∉ Finset.univ.image (Pipeline.arrRef spec0) → V5 m c b = V4 m c b :=
  fun b hb => withArrays_of_not_mem spec0 c _ _ b hb

abbrev W6 : Dev nD → Valuation τ sig (Elt F) := fun c => StableHlo.after main_part1_ops3 (W5 m c)

abbrev V6 : (c : Dev nD) → (b : Ref sig .tc) → Buf (Elt F) ((c : Thread nD τ).loc b) := fun c b => W6 m c b

def W7 (c : Dev nD) : Valuation τ sig (Elt F) :=
  Pipeline.withArrays spec1 c (W6 m c) fun w => (dat1 (V6 m) c).arrAt w cfg1.N

abbrev V7 : (c : Dev nD) → (b : Ref sig .tc) → Buf (Elt F) ((c : Thread nD τ).loc b) := fun c b => W7 m c b
theorem W7_arr (c : Dev nD) (w : Fin cfg1.W) :
    W7 m c (Proc.devRef .tc (Pipeline.arrRef spec1 w)) = (dat1 (V6 m) c).arrAt w cfg1.N :=
  Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) :=
  Pipeline.withArrays_of_ne spec1 c _ _ b hb
theorem hF1 (c : Dev nD) (w : Fin cfg1.W) : (dat1 (V6 m) c).arrAt w cfg1.N = V7 m c (Pipeline.arrRef spec1 w) :=
  (W7_arr m c w).symm
theorem hrest1 (c : Dev nD) : ∀ b, b ∉ Finset.univ.image (Pipeline.arrRef spec1) → V7 m c b = V6 m c b :=
  fun b hb => withArrays_of_not_mem spec1 c _ _ b hb

abbrev W8 : Dev nD → Valuation τ sig (Elt F) := fun c => StableHlo.after main_part1_ops4 (W7 m c)

abbrev W9 : Dev nD → Valuation τ sig (Elt F) := fun c => StableHlo.after main_part1_ops5 (W8 m c)

abbrev W10 : Dev nD → Valuation τ sig (Elt F) := fun c => StableHlo.after main_part1_ops6 (W9 m c)

abbrev V10 : (c : Dev nD) → (b : Ref sig .tc) → Buf (Elt F) ((c : Thread nD τ).loc b) := fun c b => W10 m c b

def W11 (c : Dev nD) : Valuation τ sig (Elt F) :=
  Pipeline.withArrays spec2 c (W10 m c) fun w => (dat2 (V10 m) c).arrAt w cfg2.N

abbrev V11 : (c : Dev nD) → (b : Ref sig .tc) → Buf (Elt F) ((c : Thread nD τ).loc b) := fun c b => W11 m c b
theorem W11_arr (c : Dev nD) (w : Fin cfg2.W) :
    W11 m c (Proc.devRef .tc (Pipeline.arrRef spec2 w)) = (dat2 (V10 m) c).arrAt w cfg2.N :=
  Pipeline.withArrays_arr spec2 launch2.win.arr_inj c _ _ w
theorem W11_of_ne (c : Dev nD) (b : Ref sig .tc) (hb : ∀ w, Pipeline.arrRef spec2 w ≠ b) :
    W11 m c (Proc.devRef .tc b) = W10 m c (Proc.devRef .tc b) :=
  Pipeline.withArrays_of_ne spec2 c _ _ b hb
theorem hF2 (c : Dev nD) (w : Fin cfg2.W) : (dat2 (V10 m) c).arrAt w cfg2.N = V11 m c (Pipeline.arrRef spec2 w) :=
  (W11_arr m c w).symm
theorem hrest2 (c : Dev nD) : ∀ b, b ∉ Finset.univ.image (Pipeline.arrRef spec2) → V11 m c b = V10 m c b :=
  fun b hb => withArrays_of_not_mem spec2 c _ _ b hb

abbrev W12 : Dev nD → Valuation τ sig (Elt F) := fun c => StableHlo.after main_part1_ops7 (W11 m c)

abbrev V12 : (c : Dev nD) → (b : Ref sig .tc) → Buf (Elt F) ((c : Thread nD τ).loc b) := fun c b => W12 m c b

def W13 (c : Dev nD) : Valuation τ sig (Elt F) :=
  Pipeline.withArrays spec3 c (W12 m c) fun w => (dat3 (V12 m) c).arrAt w cfg3.N

abbrev V13 : (c : Dev nD) → (b : Ref sig .tc) → Buf (Elt F) ((c : Thread nD τ).loc b) := fun c b => W13 m c b
theorem W13_arr (c : Dev nD) (w : Fin cfg3.W) :
    W13 m c (Proc.devRef .tc (Pipeline.arrRef spec3 w)) = (dat3 (V12 m) c).arrAt w cfg3.N :=
  Pipeline.withArrays_arr spec3 launch3.win.arr_inj c _ _ w
theorem W13_of_ne (c : Dev nD) (b : Ref sig .tc) (hb : ∀ w, Pipeline.arrRef spec3 w ≠ b) :
    W13 m c (Proc.devRef .tc b) = W12 m c (Proc.devRef .tc b) :=
  Pipeline.withArrays_of_ne spec3 c _ _ b hb
theorem hF3 (c : Dev nD) (w : Fin cfg3.W) : (dat3 (V12 m) c).arrAt w cfg3.N = V13 m c (Pipeline.arrRef spec3 w) :=
  (W13_arr m c w).symm
theorem hrest3 (c : Dev nD) : ∀ b, b ∉ Finset.univ.image (Pipeline.arrRef spec3) → V13 m c b = V12 m c b :=
  fun b hb => withArrays_of_not_mem spec3 c _ _ b hb

abbrev W14 : Dev nD → Valuation τ sig (Elt F) := fun c => StableHlo.after main_part1_ops8 (W13 m c)

abbrev W15 : Dev nD → Valuation τ sig (Elt F) := fun c => StableHlo.after main_part2_ops0 (W14 m c)

abbrev W16 : Dev nD → Valuation τ sig (Elt F) := fun c => StableHlo.after main_part2_ops1 (W15 m c)

abbrev W17 : Dev nD → Valuation τ sig (Elt F) := fun c => StableHlo.after main_part2_ops2 (W16 m c)

abbrev V17 : (c : Dev nD) → (b : Ref sig .tc) → Buf (Elt F) ((c : Thread nD τ).loc b) := fun c b => W17 m c b

def W18 (c : Dev nD) : Valuation τ sig (Elt F) :=
  Pipeline.withArrays spec4 c (W17 m c) fun w => (dat4 (V17 m) c).arrAt w cfg4.N

abbrev V18 : (c : Dev nD) → (b : Ref sig .tc) → Buf (Elt F) ((c : Thread nD τ).loc b) := fun c b => W18 m c b
theorem W18_arr (c : Dev nD) (w : Fin cfg4.W) :
    W18 m c (Proc.devRef .tc (Pipeline.arrRef spec4 w)) = (dat4 (V17 m) c).arrAt w cfg4.N :=
  Pipeline.withArrays_arr spec4 launch4.win.arr_inj c _ _ w
theorem W18_of_ne (c : Dev nD) (b : Ref sig .tc) (hb : ∀ w, Pipeline.arrRef spec4 w ≠ b) :
    W18 m c (Proc.devRef .tc b) = W17 m c (Proc.devRef .tc b) :=
  Pipeline.withArrays_of_ne spec4 c _ _ b hb
theorem hF4 (c : Dev nD) (w : Fin cfg4.W) : (dat4 (V17 m) c).arrAt w cfg4.N = V18 m c (Pipeline.arrRef spec4 w) :=
  (W18_arr m c w).symm
theorem hrest4 (c : Dev nD) : ∀ b, b ∉ Finset.univ.image (Pipeline.arrRef spec4) → V18 m c b = V17 m c b :=
  fun b hb => withArrays_of_not_mem spec4 c _ _ b hb

abbrev W19 : Dev nD → Valuation τ sig (Elt F) := fun c => StableHlo.after main_part2_ops3 (W18 m c)

abbrev V19 : (c : Dev nD) → (b : Ref sig .tc) → Buf (Elt F) ((c : Thread nD τ).loc b) := fun c b => W19 m c b

def W20 (c : Dev nD) : Valuation τ sig (Elt F) :=
  Pipeline.withArrays spec5 c (W19 m c) fun w => (dat5 (V19 m) c).arrAt w cfg5.N

abbrev V20 : (c : Dev nD) → (b : Ref sig .tc) → Buf (Elt F) ((c : Thread nD τ).loc b) := fun c b => W20 m c b
theorem W20_arr (c : Dev nD) (w : Fin cfg5.W) :
    W20 m c (Proc.devRef .tc (Pipeline.arrRef spec5 w)) = (dat5 (V19 m) c).arrAt w cfg5.N :=
  Pipeline.withArrays_arr spec5 launch5.win.arr_inj c _ _ w
theorem W20_of_ne (c : Dev nD) (b : Ref sig .tc) (hb : ∀ w, Pipeline.arrRef spec5 w ≠ b) :
    W20 m c (Proc.devRef .tc b) = W19 m c (Proc.devRef .tc b) :=
  Pipeline.withArrays_of_ne spec5 c _ _ b hb
theorem hF5 (c : Dev nD) (w : Fin cfg5.W) : (dat5 (V19 m) c).arrAt w cfg5.N = V20 m c (Pipeline.arrRef spec5 w) :=
  (W20_arr m c w).symm
theorem hrest5 (c : Dev nD) : ∀ b, b ∉ Finset.univ.image (Pipeline.arrRef spec5) → V20 m c b = V19 m c b :=
  fun b hb => withArrays_of_not_mem spec5 c _ _ b hb

abbrev W21 : Dev nD → Valuation τ sig (Elt F) := fun c => StableHlo.after main_part2_ops4 (W20 m c)

abbrev W22 : Dev nD → Valuation τ sig (Elt F) := fun c => StableHlo.after main_part2_ops5 (W21 m c)

abbrev W23 : Dev nD → Valuation τ sig (Elt F) := fun c => StableHlo.after main_part2_ops6 (W22 m c)

abbrev W24 : Dev nD → Valuation τ sig (Elt F) := fun c => StableHlo.after main_part3_ops0 (W23 m c)

abbrev V24 : (c : Dev nD) → (b : Ref sig .tc) → Buf (Elt F) ((c : Thread nD τ).loc b) := fun c b => W24 m c b

def W25 (c : Dev nD) : Valuation τ sig (Elt F) :=
  Pipeline.withArrays spec6 c (W24 m c) fun w => (dat6 (V24 m) c).arrAt w cfg6.N

abbrev V25 : (c : Dev nD) → (b : Ref sig .tc) → Buf (Elt F) ((c : Thread nD τ).loc b) := fun c b => W25 m c b
theorem W25_arr (c : Dev nD) (w : Fin cfg6.W) :
    W25 m c (Proc.devRef .tc (Pipeline.arrRef spec6 w)) = (dat6 (V24 m) c).arrAt w cfg6.N :=
  Pipeline.withArrays_arr spec6 launch6.win.arr_inj c _ _ w
theorem W25_of_ne (c : Dev nD) (b : Ref sig .tc) (hb : ∀ w, Pipeline.arrRef spec6 w ≠ b) :
    W25 m c (Proc.devRef .tc b) = W24 m c (Proc.devRef .tc b) :=
  Pipeline.withArrays_of_ne spec6 c _ _ b hb
theorem hF6 (c : Dev nD) (w : Fin cfg6.W) : (dat6 (V24 m) c).arrAt w cfg6.N = V25 m c (Pipeline.arrRef spec6 w) :=
  (W25_arr m c w).symm
theorem hrest6 (c : Dev nD) : ∀ b, b ∉ Finset.univ.image (Pipeline.arrRef spec6) → V25 m c b = V24 m c b :=
  fun b hb => withArrays_of_not_mem spec6 c _ _ b hb

abbrev W26 : Dev nD → Valuation τ sig (Elt F) := fun c => StableHlo.after main_part3_ops1 (W25 m c)

abbrev V26 : (c : Dev nD) → (b : Ref sig .tc) → Buf (Elt F) ((c : Thread nD τ).loc b) := fun c b => W26 m c b

def W27 (c : Dev nD) : Valuation τ sig (Elt F) :=
  Pipeline.withArrays spec7 c (W26 m c) fun w => (dat7 (V26 m) c).arrAt w cfg7.N

abbrev V27 : (c : Dev nD) → (b : Ref sig .tc) → Buf (Elt F) ((c : Thread nD τ).loc b) := fun c b => W27 m c b
theorem W27_arr (c : Dev nD) (w : Fin cfg7.W) :
    W27 m c (Proc.devRef .tc (Pipeline.arrRef spec7 w)) = (dat7 (V26 m) c).arrAt w cfg7.N :=
  Pipeline.withArrays_arr spec7 launch7.win.arr_inj c _ _ w
theorem W27_of_ne (c : Dev nD) (b : Ref sig .tc) (hb : ∀ w, Pipeline.arrRef spec7 w ≠ b) :
    W27 m c (Proc.devRef .tc b) = W26 m c (Proc.devRef .tc b) :=
  Pipeline.withArrays_of_ne spec7 c _ _ b hb
theorem hF7 (c : Dev nD) (w : Fin cfg7.W) : (dat7 (V26 m) c).arrAt w cfg7.N = V27 m c (Pipeline.arrRef spec7 w) :=
  (W27_arr m c w).symm
theorem hrest7 (c : Dev nD) : ∀ b, b ∉ Finset.univ.image (Pipeline.arrRef spec7) → V27 m c b = V26 m c b :=
  fun b hb => withArrays_of_not_mem spec7 c _ _ b hb

abbrev W28 : Dev nD → Valuation τ sig (Elt F) := fun c => StableHlo.after main_part3_ops2 (W27 m c)
end Cert.Kernel.Hand

end
-- ==== Proof.KRun.lean ====
import proofs.«419261_j25872882991625_3_alg».proof.Proof.KBound
import Idealize.ShloMosaic.Lib.Pipeline.Regions
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev adm : (p : Fin 8) → (pcfgs (F := F) p).Adm := fun p => (cfgs p).toPCfg_adm
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev stateAt (W : Valuation τ sig (Elt F)) (c : Dev nD) : sProp 𝕄 :=
  iprop(StableHlo.held (c : Thread nD τ) (Pipeline.ucRefs τ sig) W ∗ R c)

theorem state_end (W : Valuation τ sig (Elt F)) (c : Dev nD) :
    stateAt W c ⊢ iprop((StableHlo.held (c : Thread nD τ) (Pipeline.ucRefs τ sig) W ∗ ∃ r, prngReg c r)
      ∗ ∃ T, owes (c : Thread nD τ) (0 : CellTallies nD τ sig Unit) T) := by
  iintro ⟨Hbufs, Hprng, Howes⟩
  isplitr [Howes]
  · isplitl [Hbufs] <;> iassumption
  iexact Howes

abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (List.forall_iff_forall_mem.mp hfresh) W R

theorem main_part0_ops0_fresh : (main_part0_ops0 : List (HloOp τ sig (Elt F))).Forall fun op => op.fresh = ∅ := by
  simp only [List.Forall]; repeat' constructor
theorem main_part1_ops0_fresh : (main_part1_ops0 : List (HloOp τ sig (Elt F))).Forall fun op => op.fresh = ∅ := by
  simp only [List.Forall]; repeat' constructor
theorem main_part1_ops1_fresh : (main_part1_ops1 : List (HloOp τ sig (Elt F))).Forall fun op => op.fresh = ∅ := by
  simp only [List.Forall]; repeat' constructor
theorem main_part1_ops2_fresh : (main_part1_ops2 : List (HloOp τ sig (Elt F))).Forall fun op => op.fresh = ∅ := by
  simp only [List.Forall]; repeat' constructor
theorem main_part1_ops3_fresh : (main_part1_ops3 : List (HloOp τ sig (Elt F))).Forall fun op => op.fresh = ∅ := by
  simp only [List.Forall]; repeat' constructor
theorem main_part1_ops4_fresh : (main_part1_ops4 : List (HloOp τ sig (Elt F))).Forall fun op => op.fresh = ∅ := by
  simp only [List.Forall]; repeat' constructor
theorem main_part1_ops5_fresh : (main_part1_ops5 : List (HloOp τ sig (Elt F))).Forall fun op => op.fresh = ∅ := by
  simp only [List.Forall]; repeat' constructor
theorem main_part1_ops6_fresh : (main_part1_ops6 : List (HloOp τ sig (Elt F))).Forall fun op => op.fresh = ∅ := by
  simp only [List.Forall]; repeat' constructor
theorem main_part1_ops7_fresh : (main_part1_ops7 : List (HloOp τ sig (Elt F))).Forall fun op => op.fresh = ∅ := by
  simp only [List.Forall]; repeat' constructor
theorem main_part1_ops8_fresh : (main_part1_ops8 : List (HloOp τ sig (Elt F))).Forall fun op => op.fresh = ∅ := by
  simp only [List.Forall]; repeat' constructor
theorem main_part2_ops0_fresh : (main_part2_ops0 : List (HloOp τ sig (Elt F))).Forall fun op => op.fresh = ∅ := by
  simp only [List.Forall]; repeat' constructor
theorem main_part2_ops1_fresh : (main_part2_ops1 : List (HloOp τ sig (Elt F))).Forall fun op => op.fresh = ∅ := by
  simp only [List.Forall]; repeat' constructor
theorem main_part2_ops2_fresh : (main_part2_ops2 : List (HloOp τ sig (Elt F))).Forall fun op => op.fresh = ∅ := by
  simp only [List.Forall]; repeat' constructor
theorem main_part2_ops3_fresh : (main_part2_ops3 : List (HloOp τ sig (Elt F))).Forall fun op => op.fresh = ∅ := by
  simp only [List.Forall]; repeat' constructor
theorem main_part2_ops4_fresh : (main_part2_ops4 : List (HloOp τ sig (Elt F))).Forall fun op => op.fresh = ∅ := by
  simp only [List.Forall]; repeat' constructor
theorem main_part2_ops5_fresh : (main_part2_ops5 : List (HloOp τ sig (Elt F))).Forall fun op => op.fresh = ∅ := by
  simp only [List.Forall]; repeat' constructor
theorem main_part2_ops6_fresh : (main_part2_ops6 : List (HloOp τ sig (Elt F))).Forall fun op => op.fresh = ∅ := by
  simp only [List.Forall]; repeat' constructor
theorem main_part3_ops0_fresh : (main_part3_ops0 : List (HloOp τ sig (Elt F))).Forall fun op => op.fresh = ∅ := by
  simp only [List.Forall]; repeat' constructor
theorem main_part3_ops1_fresh : (main_part3_ops1 : List (HloOp τ sig (Elt F))).Forall fun op => op.fresh = ∅ := by
  simp only [List.Forall]; repeat' constructor
theorem main_part3_ops2_fresh : (main_part3_ops2 : List (HloOp τ sig (Elt F))).Forall fun op => op.fresh = ∅ := by
  simp only [List.Forall]; repeat' constructor

section Region

variable (pd : (p : Fin 8) → (c : Dev nD) → Dat τ (Elt F) Unit ℕ (UR sig nD τ) ℕ (Pipeline.pin (pcfgs (F := F)) adm p) c)

theorem prefHeld_none (p : Fin 8) (c : Dev nD) :
    (BI.emp : sProp 𝕄) ⊢ Pipeline.prefHeld (pcfgs (F := F) p).pre c (fun _ => fullShare) (adm (F := F) p).1 := by
  unfold Pipeline.prefHeld
  rw [show (Finset.univ : Finset (Fin 0)) = ∅ from rfl, BI.bigSep_empty]

theorem region_entry (p : Fin 8) (lf : Pipeline.LaunchFacts (nD := nD) (τ := τ) cfgs p) (c : Dev nD)
    (W : Valuation τ sig (Elt F)) (hq : ∀ w, (pd p c).q w = fullShare)
    (howed : (pd p c).owed 0 = 0) (hrec : (pd p c).recorded 0 = Set.univ)
    (hA : ∀ w, (pd p c).A w = W (Pipeline.arrRef (Pipeline.pin (pcfgs (F := F)) adm p).spec w)) :
    iprop(stateAt W c ∗ Pipeline.ownSems0 (fun k : PEmpty => k.elim) c ∗ levAts L lv)
      ⊢ |={Set.univ}=> iprop((pd p c).arrays ((pd p c).arrAt · 0) ∗ Pipeline.prefHeld (pcfgs (F := F) p).pre c (fun _ => fullShare) (adm (F := F) p).1
          ∗ (pd p c).owesAt () 0 ∗ (∃ r, prngReg c r)
          ∗ Pipeline.unscopedRest (Ix := Unit) (Name := ℕ) (U := UR sig nD τ) (Lvl := ℕ) (Pipeline.pin (pcfgs (F := F)) adm p).spec c (fun b => W b)) := by
  have hsplit := Pipeline.arrays_of_unscopedBufs (p := p) (pcfgs (F := F)) adm pd lf.win lf.arr_whole c
    ((pd p c).share_full hq) (fun b => W b) hA
  rw [Pipeline.unscopedBufs_held] at hsplit
  iintro ⟨⟨Hbufs, Hprng, Howes⟩, -, -⟩
  ihave Hsp := hsplit $$ Hbufs
  icases Hsp with ⟨Harr, Hrest⟩
  imodintro
  isplitl [Harr]; · iexact Harr
  isplitr; · iapply (prefHeld_none p c); iempintro
  isplitl [Howes]
  · unfold Pipeline.Dat.owesAt Pipeline.owesWithin
    rw [howed]
    icases Howes with ⟨%T, Howes⟩
    iexists T
    isplitr; · ipureintro; exact fun _ _ => Or.inl (hrec ▸ Set.mem_univ _)
    iexact Howes
  isplitl [Hprng] <;> iassumption

theorem region_exit (p : Fin 8) (lf : Pipeline.LaunchFacts (nD := nD) (τ := τ) cfgs p) (c : Dev nD)
    (W W' : Valuation τ sig (Elt F)) (hq : ∀ w, (pd p c).q w = fullShare)
    (howed : (pd p c).owed (Fin.last (Pipeline.pin (pcfgs (F := F)) adm p).N) = 0)
    (hF : ∀ w, (pd p c).arrAt w (Pipeline.pin (pcfgs (F := F)) adm p).N = W' (Pipeline.arrRef (Pipeline.pin (pcfgs (F := F)) adm p).spec w))
    (hrest : ∀ b : Ref sig .tc, b ∉ Finset.univ.image (Pipeline.arrRef (Pipeline.pin (pcfgs (F := F)) adm p).spec) → W' b = W b) :
    iprop((pd p c).arrays ((pd p c).arrAt · (Pipeline.pin (pcfgs (F := F)) adm p).N) ∗ (pd p c).owesAt () (Fin.last (Pipeline.pin (pcfgs (F := F)) adm p).N)
        ∗ (∃ r, prngReg c r)
        ∗ Pipeline.unscopedRest (Ix := Unit) (Name := ℕ) (U := UR sig nD τ) (Lvl := ℕ) (Pipeline.pin (pcfgs (F := F)) adm p).spec c (fun b => W b))
      ⊢ |={Set.univ}=> stateAt W' c := by
  have hjoin := Pipeline.unscopedBufs_of_arrays (p := p) (pcfgs (F := F)) adm (Ix := Unit) (Name := ℕ) (U := UR sig nD τ) (Lvl := ℕ)
    lf.win lf.arr_whole c pd ((pd p c).share_full hq) (fun b => W b) (fun b => W' b)
    ((pd p c).arrAt · (Pipeline.pin (pcfgs (F := F)) adm p).N) hF hrest
  rw [Pipeline.unscopedBufs_held] at hjoin
  iintro ⟨Harr, Howes, Hprng, Hrest⟩
  imodintro
  isplitl [Harr Hrest]
  · iapply hjoin; isplitl [Harr] <;> iassumption
  isplitl [Hprng]; · iexact Hprng
  unfold Pipeline.Dat.owesAt Pipeline.owesWithin
  rw [howed]
  icases Howes with ⟨%T, -, Howes⟩
  iexists T; iexact Howes

set_option backward.isDefEq.respectTransparency.types false in

def regionSeg (p : Fin 8) (lf : Pipeline.LaunchFacts (nD := nD) (τ := τ) cfgs p)
    (W W' : Dev nD → Valuation τ sig (Elt F))
    (hbody : ∀ c, BodyObligation (pd p c) (defs₀ (F := F)) 𝒱₀ () Set.univ)
    (hq : ∀ c w, (pd p c).q w = fullShare)
    (howed : ∀ c t, (pd p c).owed t = 0)
    (hrec : ∀ c t, (pd p c).recorded t = Set.univ)
    (hA : ∀ c w, (pd p c).A w = W c (Pipeline.arrRef (Pipeline.pin (pcfgs (F := F)) adm p).spec w))
    (hF : ∀ c w, (pd p c).arrAt w (Pipeline.pin (pcfgs (F := F)) adm p).N = W' c (Pipeline.arrRef (Pipeline.pin (pcfgs (F := F)) adm p).spec w))
    (hrest : ∀ c (b : Ref sig .tc), b ∉ Finset.univ.image (Pipeline.arrRef (Pipeline.pin (pcfgs (F := F)) adm p).spec) → W' c b = W c b)
    (hΦin : ∀ c, (Pipeline.ΦA (Pipeline.pin (pcfgs (F := F)) adm p).spec c : sProp 𝕄) ⊢ (pd p c).Φ 0)
    (hΦout : ∀ c, (pd p c).Φ (Fin.last (Pipeline.pin (pcfgs (F := F)) adm p).N) ⊢ (Pipeline.ΦA (Pipeline.pin (pcfgs (F := F)) adm p).spec c : sProp 𝕄)) :
    Pipeline.RegionSeg (pcfgs (F := F)) adm pd () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := stateAt (W c) c
  post c := stateAt (W' c) c
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (fun b => W c b)
  hentry c := region_entry pd p lf c (W c) (hq c) (howed c 0) (hrec c 0) (hA c)
  hin c := by
    refine BIBase.Entails.trans ?_ (hΦin c)
    unfold Pipeline.ΦA
    iintro ⟨Hprng, -, Hscoped⟩
    isplitl [Hscoped] <;> iassumption
  hout c := by
    rw [Pipeline.ownSems0_none]
    refine (hΦout c).trans ?_
    unfold Pipeline.ΦA
    iintro ⟨Hscoped, Hprng⟩
    isplitl [Hprng]; · iexact Hprng
    isplitr; · iempintro
    iexact Hscoped
  hexit c := region_exit pd p lf c (W c) (W' c) (hq c) (howed c _) (hF c) (hrest c)

end Region

variable (m : (ℓ : Loc nD τ sig) → Buf (Elt F) ℓ)

def pdats : (p : Fin 8) → (c : Dev nD) → Dat τ (Elt F) Unit ℕ (UR sig nD τ) ℕ (Pipeline.pin (pcfgs (F := F)) adm p) c
  | ⟨0, _⟩ => fun c => dat0 (V4 m) c
  | ⟨1, _⟩ => fun c => dat1 (V6 m) c
  | ⟨2, _⟩ => fun c => dat2 (V10 m) c
  | ⟨3, _⟩ => fun c => dat3 (V12 m) c
  | ⟨4, _⟩ => fun c => dat4 (V17 m) c
  | ⟨5, _⟩ => fun c => dat5 (V19 m) c
  | ⟨6, _⟩ => fun c => dat6 (V24 m) c
  | ⟨7, _⟩ => fun c => dat7 (V26 m) c

set_option backward.isDefEq.respectTransparency.types false in

def reg0 : Pipeline.RegionSeg (pcfgs (F := F)) adm (pdats m) () defs₀ 𝒱₀ L lv 0 :=
  regionSeg (pdats m) 0 launch0 (W4 m) (W5 m) (body_obligation0 (V4 m)) (q_eq0 (V4 m)) (owed_eq0 (V4 m)) (recorded_eq0 (V4 m))
    (A_eq0 (V4 m)) (hF0 m) (hrest0 m) (hin0 (V4 m)) (hout0 (V4 m))

set_option backward.isDefEq.respectTransparency.types false in

def reg1 : Pipeline.RegionSeg (pcfgs (F := F)) adm (pdats m) () defs₀ 𝒱₀ L lv 1 :=
  regionSeg (pdats m) 1 launch1 (W6 m) (W7 m) (body_obligation1 (V6 m)) (q_eq1 (V6 m)) (owed_eq1 (V6 m)) (recorded_eq1 (V6 m))
    (A_eq1 (V6 m)) (hF1 m) (hrest1 m) (hin1 (V6 m)) (hout1 (V6 m))

set_option backward.isDefEq.respectTransparency.types false in

def reg2 : Pipeline.RegionSeg (pcfgs (F := F)) adm (pdats m) () defs₀ 𝒱₀ L lv 2 :=
  regionSeg (pdats m) 2 launch2 (W10 m) (W11 m) (body_obligation2 (V10 m)) (q_eq2 (V10 m)) (owed_eq2 (V10 m)) (recorded_eq2 (V10 m))
    (A_eq2 (V10 m)) (hF2 m) (hrest2 m) (hin2 (V10 m)) (hout2 (V10 m))

set_option backward.isDefEq.respectTransparency.types false in

def reg3 : Pipeline.RegionSeg (pcfgs (F := F)) adm (pdats m) () defs₀ 𝒱₀ L lv 3 :=
  regionSeg (pdats m) 3 launch3 (W12 m) (W13 m) (body_obligation3 (V12 m)) (q_eq3 (V12 m)) (owed_eq3 (V12 m)) (recorded_eq3 (V12 m))
    (A_eq3 (V12 m)) (hF3 m) (hrest3 m) (hin3 (V12 m)) (hout3 (V12 m))

set_option backward.isDefEq.respectTransparency.types false in

def reg4 : Pipeline.RegionSeg (pcfgs (F := F)) adm (pdats m) () defs₀ 𝒱₀ L lv 4 :=
  regionSeg (pdats m) 4 launch4 (W17 m) (W18 m) (body_obligation4 (V17 m)) (q_eq4 (V17 m)) (owed_eq4 (V17 m)) (recorded_eq4 (V17 m))
    (A_eq4 (V17 m)) (hF4 m) (hrest4 m) (hin4 (V17 m)) (hout4 (V17 m))

set_option backward.isDefEq.respectTransparency.types false in

def reg5 : Pipeline.RegionSeg (pcfgs (F := F)) adm (pdats m) () defs₀ 𝒱₀ L lv 5 :=
  regionSeg (pdats m) 5 launch5 (W19 m) (W20 m) (body_obligation5 (V19 m)) (q_eq5 (V19 m)) (owed_eq5 (V19 m)) (recorded_eq5 (V19 m))
    (A_eq5 (V19 m)) (hF5 m) (hrest5 m) (hin5 (V19 m)) (hout5 (V19 m))

set_option backward.isDefEq.respectTransparency.types false in

def reg6 : Pipeline.RegionSeg (pcfgs (F := F)) adm (pdats m) () defs₀ 𝒱₀ L lv 6 :=
  regionSeg (pdats m) 6 launch6 (W24 m) (W25 m) (body_obligation6 (V24 m)) (q_eq6 (V24 m)) (owed_eq6 (V24 m)) (recorded_eq6 (V24 m))
    (A_eq6 (V24 m)) (hF6 m) (hrest6 m) (hin6 (V24 m)) (hout6 (V24 m))

set_option backward.isDefEq.respectTransparency.types false in

def reg7 : Pipeline.RegionSeg (pcfgs (F := F)) adm (pdats m) () defs₀ 𝒱₀ L lv 7 :=
  regionSeg (pdats m) 7 launch7 (W26 m) (W27 m) (body_obligation7 (V26 m)) (q_eq7 (V26 m)) (owed_eq7 (V26 m)) (recorded_eq7 (V26 m))
    (A_eq7 (V26 m)) (hF7 m) (hrest7 m) (hin7 (V26 m)) (hout7 (V26 m))

abbrev segs : List (Pipeline.Seg (pcfgs (F := F)) adm (pdats m) () defs₀ 𝒱₀ L lv) :=
  [ .host (hostSeg main_part0_ops0 main_part0_ops0_sub main_part0_ops0_fresh (W0 m)),
    .host (hostSeg main_part1_ops0 main_part1_ops0_sub main_part1_ops0_fresh (W1 m)),
    .host (hostSeg main_part1_ops1 main_part1_ops1_sub main_part1_ops1_fresh (W2 m)),
    .host (hostSeg main_part1_ops2 main_part1_ops2_sub main_part1_ops2_fresh (W3 m)),
    .region (reg0 m),
    .host (hostSeg main_part1_ops3 main_part1_ops3_sub main_part1_ops3_fresh (W5 m)),
    .region (reg1 m),
    .host (hostSeg main_part1_ops4 main_part1_ops4_sub main_part1_ops4_fresh (W7 m)),
    .host (hostSeg main_part1_ops5 main_part1_ops5_sub main_part1_ops5_fresh (W8 m)),
    .host (hostSeg main_part1_ops6 main_part1_ops6_sub main_part1_ops6_fresh (W9 m)),
    .region (reg2 m),
    .host (hostSeg main_part1_ops7 main_part1_ops7_sub main_part1_ops7_fresh (W11 m)),
    .region (reg3 m),
    .host (hostSeg main_part1_ops8 main_part1_ops8_sub main_part1_ops8_fresh (W13 m)),
    .host (hostSeg main_part2_ops0 main_part2_ops0_sub main_part2_ops0_fresh (W14 m)),
    .host (hostSeg main_part2_ops1 main_part2_ops1_sub main_part2_ops1_fresh (W15 m)),
    .host (hostSeg main_part2_ops2 main_part2_ops2_sub main_part2_ops2_fresh (W16 m)),
    .region (reg4 m),
    .host (hostSeg main_part2_ops3 main_part2_ops3_sub main_part2_ops3_fresh (W18 m)),
    .region (reg5 m),
    .host (hostSeg main_part2_ops4 main_part2_ops4_sub main_part2_ops4_fresh (W20 m)),
    .host (hostSeg main_part2_ops5 main_part2_ops5_sub main_part2_ops5_fresh (W21 m)),
    .host (hostSeg main_part2_ops6 main_part2_ops6_sub main_part2_ops6_fresh (W22 m)),
    .host (hostSeg main_part3_ops0 main_part3_ops0_sub main_part3_ops0_fresh (W23 m)),
    .region (reg6 m),
    .host (hostSeg main_part3_ops1 main_part3_ops1_sub main_part3_ops1_fresh (W25 m)),
    .region (reg7 m),
    .host (hostSeg main_part3_ops2 main_part3_ops2_sub main_part3_ops2_fresh (W27 m)) ]

theorem main_run (c : Dev nD) : main (F := F) c = Pipeline.Seg.run (segs m) :=
  (main_chain_windows c).trans (by chain_rfl)

abbrev Tend (c : Dev nD) : sProp 𝕄 := iprop(StableHlo.held (c : Thread nD τ) (Pipeline.ucRefs τ sig) (W28 m c) ∗ ∃ r, prngReg c r)

set_option backward.isDefEq.respectTransparency.types false in

theorem run_main (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = W28 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => (BI.emp : sProp 𝕄))
    (u₀ := initOf (Pipeline.cells cfgs cellOf_inj) (Pipeline.launchToks cfgs cellOf_inj))
    (hu₀ := by
      iintro Hown
      imodintro
      isplitl [Hown]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hown
      rw [BI.bigSep_emp_const]; iempintro)
    (T₀ := fun c => stateAt (W0 m c) c) (Tₙ := Tend m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => state_end (W28 m c) c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hbufs, -, Howes, -, Hprng, -⟩, -⟩
      imodintro
      isplitl [Hbufs]; · iexact Hbufs
      isplitl [Hprng]; · iexists _; iexact Hprng
      iexists ∅; iexact Howes)
    (QY := fun c s => ∀ b ∈ Pipeline.ucRefs τ sig, s.mem ((c : Thread nD τ).1, b) = W28 m c b)
    (hfin := fun c s' => by
      iintro ⟨⟨Hbufs, -⟩, HSI⟩
      unfold StableHlo.held
      imodintro
      iapply (pointsTo_read_all (Pipeline.ucRefs τ sig) (fun b => ((c : Thread nD τ).1, b)) (W28 m c) s')
      isplitl [Hbufs] <;> iassumption)
    (hQ := fun _ h => h)

end Cert.Kernel.Hand

end
-- ==== Proof.KCarry.lean ====
import proofs.«419261_j25872882991625_3_alg».proof.Proof.KBound

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]

/-- Every operation of `ops` writes a buffer of the list `W`. -/
abbrev WritesIn (ops : List (HloOp τ sig (Elt F))) (W : List (Ref sig .tc)) : Prop :=
  ops.Forall fun op => op.writes ⊆ (W.map (Proc.devRef (τ := τ) .tc)).toFinset

theorem sing_sub {W : List (Ref sig .tc)} {y : Ref sig .tc} (hy : y ∈ W) :
    ({Proc.devRef (τ := τ) .tc y} : Finset (DevRef τ sig)) ⊆ (W.map (Proc.devRef (τ := τ) .tc)).toFinset :=
  Finset.singleton_subset_iff.2 (List.mem_toFinset.2 (List.mem_map_of_mem hy))

abbrev writes0 : List (Ref sig .tc) :=
  [main_v0, main_v1, main_v2, main_v3, main_cst, main_v4, main_c, main_v5, main_v6, main_c_0, main_v7, main_v8, main_v9, main_v10, main_cst_1, main_v11, main_v12, main_cst_2, main_v13, main_v14, main_v15, main_c_3, main_v16, main_v17, main_c_4, main_v18, main_v19, main_v20, main_v21, main_v22, main_c_5, main_v23, main_v24, main_c_6, main_v25, main_v26, main_v27, main_v28, main_v29, main_v30, main_v31, main_v32, main_v33, main_v34, main_v35, main_cst_7, main_v36, main_c_8, main_v37, main_v38, main_c_9, main_v39, main_v40, main_v41, main_c_10, main_v42, main_v43, main_c_11, main_v44, main_v45]
theorem writes0_sub : WritesIn (F := F) main_part0_ops0 writes0 := by
  repeat' first | exact True.intro | refine (List.forall_cons _ _ _).2 ⟨?_, ?_⟩
  all_goals exact sing_sub (by decide)

abbrev writes1 : List (Ref sig .tc) :=
  [main_v46, main_v47, main_v48, main_v49, main_v50, main_c_12]
theorem writes1_sub : WritesIn (F := F) main_part1_ops0 writes1 := by
  repeat' first | exact True.intro | refine (List.forall_cons _ _ _).2 ⟨?_, ?_⟩
  all_goals exact sing_sub (by decide)

abbrev writes2 : List (Ref sig .tc) :=
  [main_call0_v0, main_v51]
theorem writes2_sub : WritesIn (F := F) main_part1_ops1 writes2 := by
  repeat' first | exact True.intro | refine (List.forall_cons _ _ _).2 ⟨?_, ?_⟩
  all_goals exact sing_sub (by decide)

abbrev writes3 : List (Ref sig .tc) :=
  [main_v52, main_v53, main_cst_13, main_v54]
theorem writes3_sub : WritesIn (F := F) main_part1_ops2 writes3 := by
  repeat' first | exact True.intro | refine (List.forall_cons _ _ _).2 ⟨?_, ?_⟩
  all_goals exact sing_sub (by decide)

abbrev writes5 : List (Ref sig .tc) :=
  [main_v56]
theorem writes5_sub : WritesIn (F := F) main_part1_ops3 writes5 := by
  repeat' first | exact True.intro | refine (List.forall_cons _ _ _).2 ⟨?_, ?_⟩
  all_goals exact sing_sub (by decide)

abbrev writes7 : List (Ref sig .tc) :=
  [main_c_14]
theorem writes7_sub : WritesIn (F := F) main_part1_ops4 writes7 := by
  repeat' first | exact True.intro | refine (List.forall_cons _ _ _).2 ⟨?_, ?_⟩
  all_goals exact sing_sub (by decide)

abbrev writes8 : List (Ref sig .tc) :=
  [main_call1_v0, main_v58]
theorem writes8_sub : WritesIn (F := F) main_part1_ops5 writes8 := by
  repeat' first | exact True.intro | refine (List.forall_cons _ _ _).2 ⟨?_, ?_⟩
  all_goals exact sing_sub (by decide)

abbrev writes9 : List (Ref sig .tc) :=
  [main_v59, main_v60, main_v61, main_v62, main_v63, main_v64, main_v65, main_cst_15, main_v66]
theorem writes9_sub : WritesIn (F := F) main_part1_ops6 writes9 := by
  repeat' first | exact True.intro | refine (List.forall_cons _ _ _).2 ⟨?_, ?_⟩
  all_goals exact sing_sub (by decide)

abbrev writes11 : List (Ref sig .tc) :=
  [main_v68, main_cst_16, main_v69, main_cst_17, main_v70, main_v71, main_v72, main_v73, main_v74, main_v75]
theorem writes11_sub : WritesIn (F := F) main_part1_ops7 writes11 := by
  repeat' first | exact True.intro | refine (List.forall_cons _ _ _).2 ⟨?_, ?_⟩
  all_goals exact sing_sub (by decide)

abbrev writes13 : List (Ref sig .tc) :=
  [main_v77, main_v78, main_v79, main_v80, main_cst_18, main_v81, main_c_19, main_v82, main_v83, main_c_20, main_v84, main_v85, main_v86, main_v87, main_cst_21, main_v88, main_v89, main_cst_22, main_v90, main_v91, main_v92, main_c_23, main_v93]
theorem writes13_sub : WritesIn (F := F) main_part1_ops8 writes13 := by
  repeat' first | exact True.intro | refine (List.forall_cons _ _ _).2 ⟨?_, ?_⟩
  all_goals exact sing_sub (by decide)

abbrev writes14 : List (Ref sig .tc) :=
  [main_v94, main_c_24, main_v95, main_v96, main_v97, main_v98, main_v99, main_c_25, main_v100, main_v101, main_c_26, main_v102, main_v103, main_v104, main_v105, main_v106, main_v107, main_v108, main_v109, main_v110, main_v111, main_v112, main_cst_27, main_v113, main_c_28, main_v114, main_v115, main_c_29, main_v116, main_v117, main_v118, main_c_30, main_v119, main_v120, main_c_31, main_v121, main_v122, main_v123, main_v124, main_v125, main_v126, main_v127, main_c_32]
theorem writes14_sub : WritesIn (F := F) main_part2_ops0 writes14 := by
  repeat' first | exact True.intro | refine (List.forall_cons _ _ _).2 ⟨?_, ?_⟩
  all_goals exact sing_sub (by decide)

abbrev writes15 : List (Ref sig .tc) :=
  [main_call2_v0, main_v128]
theorem writes15_sub : WritesIn (F := F) main_part2_ops1 writes15 := by
  repeat' first | exact True.intro | refine (List.forall_cons _ _ _).2 ⟨?_, ?_⟩
  all_goals exact sing_sub (by decide)

abbrev writes16 : List (Ref sig .tc) :=
  [main_v129, main_v130, main_cst_33, main_v131]
theorem writes16_sub : WritesIn (F := F) main_part2_ops2 writes16 := by
  repeat' first | exact True.intro | refine (List.forall_cons _ _ _).2 ⟨?_, ?_⟩
  all_goals exact sing_sub (by decide)

abbrev writes18 : List (Ref sig .tc) :=
  [main_v133]
theorem writes18_sub : WritesIn (F := F) main_part2_ops3 writes18 := by
  repeat' first | exact True.intro | refine (List.forall_cons _ _ _).2 ⟨?_, ?_⟩
  all_goals exact sing_sub (by decide)

abbrev writes20 : List (Ref sig .tc) :=
  [main_c_34]
theorem writes20_sub : WritesIn (F := F) main_part2_ops4 writes20 := by
  repeat' first | exact True.intro | refine (List.forall_cons _ _ _).2 ⟨?_, ?_⟩
  all_goals exact sing_sub (by decide)

abbrev writes21 : List (Ref sig .tc) :=
  [main_call3_v0, main_v135]
theorem writes21_sub : WritesIn (F := F) main_part2_ops5 writes21 := by
  repeat' first | exact True.intro | refine (List.forall_cons _ _ _).2 ⟨?_, ?_⟩
  all_goals exact sing_sub (by decide)

abbrev writes22 : List (Ref sig .tc) :=
  [main_v136, main_v137, main_v138, main_v139, main_v140, main_v141, main_v142]
theorem writes22_sub : WritesIn (F := F) main_part2_ops6 writes22 := by
  repeat' first | exact True.intro | refine (List.forall_cons _ _ _).2 ⟨?_, ?_⟩
  all_goals exact sing_sub (by decide)

abbrev writes23 : List (Ref sig .tc) :=
  [main_cst_35, main_v143]
theorem writes23_sub : WritesIn (F := F) main_part3_ops0 writes23 := by
  repeat' first | exact True.intro | refine (List.forall_cons _ _ _).2 ⟨?_, ?_⟩
  all_goals exact sing_sub (by decide)

abbrev writes25 : List (Ref sig .tc) :=
  [main_v145, main_cst_36, main_v146, main_cst_37, main_v147, main_v148, main_v149, main_v150, main_v151, main_v152]
theorem writes25_sub : WritesIn (F := F) main_part3_ops1 writes25 := by
  repeat' first | exact True.intro | refine (List.forall_cons _ _ _).2 ⟨?_, ?_⟩
  all_goals exact sing_sub (by decide)

abbrev writes27 : List (Ref sig .tc) :=
  [main_v154, main_v155, main_v156, main_v157, main_v158]
theorem writes27_sub : WritesIn (F := F) main_part3_ops2 writes27 := by
  repeat' first | exact True.intro | refine (List.forall_cons _ _ _).2 ⟨?_, ?_⟩
  all_goals exact sing_sub (by decide)

variable (m : (ℓ : Loc nD τ sig) → Buf (Elt F) ℓ)

abbrev argRefs : List (Ref sig .tc) :=
  [main_arg0, main_arg1, main_arg2, main_arg3, main_arg4, main_arg5, main_arg6, main_arg7, main_arg8, main_arg9, main_arg10, main_arg11, main_arg12, main_arg13, main_arg14, main_arg15]

/-- In `W` every argument array holds what the launch memory held. -/
def Held (c : Dev nD) (W : Valuation τ sig (Elt F)) : Prop :=
  ∀ a ∈ argRefs, W (Proc.devRef .tc a) = m ((c : Thread nD τ).loc a)

variable {m}

/-- Host operations that write no argument array keep `Held`. -/
theorem Held.host {c : Dev nD} {V : Valuation τ sig (Elt F)} (h : Held m c V) {ops : List (HloOp τ sig (Elt F))}
    {W : List (Ref sig .tc)} (hW : WritesIn ops W) (hd : ∀ a ∈ argRefs, a ∉ W) : Held m c (StableHlo.after ops V) :=
  fun a ha => (StableHlo.after_of_writes_sub ops V hW (hd a ha)).trans (h a ha)

/-- A region none of whose arrays is an argument array keeps `Held`. -/
theorem Held.region {c : Dev nD} {V : Valuation τ sig (Elt F)} (h : Held m c V) {gr n : Nat}
    (win : Fin n → Pipeline.WinSpec sig gr) (A : (w : Fin n) → Buf (Elt F) ((win w).arr.view.loc (c : Thread nD τ)))
    (hd : ∀ a ∈ argRefs, ∀ w, Pipeline.arrRef win w ≠ a) : Held m c (Pipeline.withArrays win c V A) :=
  fun a ha => (Pipeline.withArrays_of_ne win c V A a (hd a ha)).trans (h a ha)

/-- The same when one argument array `x` is among the region's arrays and is known to end as it began. -/
theorem Held.region_in {c : Dev nD} {V : Valuation τ sig (Elt F)} (h : Held m c V) {gr n : Nat}
    (win : Fin n → Pipeline.WinSpec sig gr) (A : (w : Fin n) → Buf (Elt F) ((win w).arr.view.loc (c : Thread nD τ)))
    (x : Ref sig .tc) (hx : Pipeline.withArrays win c V A (Proc.devRef .tc x) = V (Proc.devRef .tc x))
    (hd : ∀ a ∈ argRefs, a ≠ x → ∀ w, Pipeline.arrRef win w ≠ a) : Held m c (Pipeline.withArrays win c V A) :=
  fun a ha => (if e : a = x then e ▸ hx else Pipeline.withArrays_of_ne win c V A a (hd a ha e)).trans (h a ha)

variable (m)

theorem args0 (c : Dev nD) : Held m c (W0 m c) := fun _ _ => rfl
theorem args1 (c : Dev nD) : Held m c (W1 m c) := (args0 m c).host writes0_sub (by decide)
theorem args2 (c : Dev nD) : Held m c (W2 m c) := (args1 m c).host writes1_sub (by decide)
theorem args3 (c : Dev nD) : Held m c (W3 m c) := (args2 m c).host writes2_sub (by decide)
theorem args4 (c : Dev nD) : Held m c (W4 m c) := (args3 m c).host writes3_sub (by decide)
theorem args5 (c : Dev nD) : Held m c (W5 m c) := (args4 m c).region spec0 _ (by decide)
theorem args6 (c : Dev nD) : Held m c (W6 m c) := (args5 m c).host writes5_sub (by decide)
theorem args7 (c : Dev nD) : Held m c (W7 m c) := (args6 m c).region spec1 _ (by decide)
theorem args8 (c : Dev nD) : Held m c (W8 m c) := (args7 m c).host writes7_sub (by decide)
theorem args9 (c : Dev nD) : Held m c (W9 m c) := (args8 m c).host writes8_sub (by decide)
theorem args10 (c : Dev nD) : Held m c (W10 m c) := (args9 m c).host writes9_sub (by decide)
theorem args11 (c : Dev nD) : Held m c (W11 m c) := (args10 m c).region spec2 _ (by decide)
theorem args12 (c : Dev nD) : Held m c (W12 m c) := (args11 m c).host writes11_sub (by decide)
theorem args13 (c : Dev nD) : Held m c (W13 m c) :=
  (args12 m c).region_in spec3 _ main_arg8
    ((W13_arr m c 1).trans (((dat3 (V12 m) c).arrAt_in 1 rfl _).trans (A_eq3 (V12 m) c 1))) (by decide)
theorem args14 (c : Dev nD) : Held m c (W14 m c) := (args13 m c).host writes13_sub (by decide)
theorem args15 (c : Dev nD) : Held m c (W15 m c) := (args14 m c).host writes14_sub (by decide)
theorem args16 (c : Dev nD) : Held m c (W16 m c) := (args15 m c).host writes15_sub (by decide)
theorem args17 (c : Dev nD) : Held m c (W17 m c) := (args16 m c).host writes16_sub (by decide)
theorem args18 (c : Dev nD) : Held m c (W18 m c) := (args17 m c).region spec4 _ (by decide)
theorem args19 (c : Dev nD) : Held m c (W19 m c) := (args18 m c).host writes18_sub (by decide)
theorem args20 (c : Dev nD) : Held m c (W20 m c) := (args19 m c).region spec5 _ (by decide)
theorem args21 (c : Dev nD) : Held m c (W21 m c) := (args20 m c).host writes20_sub (by decide)
theorem args22 (c : Dev nD) : Held m c (W22 m c) := (args21 m c).host writes21_sub (by decide)
theorem args23 (c : Dev nD) : Held m c (W23 m c) := (args22 m c).host writes22_sub (by decide)
theorem args24 (c : Dev nD) : Held m c (W24 m c) := (args23 m c).host writes23_sub (by decide)
theorem args25 (c : Dev nD) : Held m c (W25 m c) := (args24 m c).region spec6 _ (by decide)
theorem args26 (c : Dev nD) : Held m c (W26 m c) := (args25 m c).host writes25_sub (by decide)
theorem args27 (c : Dev nD) : Held m c (W27 m c) :=
  (args26 m c).region_in spec7 _ main_arg12
    ((W27_arr m c 1).trans (((dat7 (V26 m) c).arrAt_in 1 rfl _).trans (A_eq7 (V26 m) c 1))) (by decide)
theorem args28 (c : Dev nD) : Held m c (W28 m c) := (args27 m c).host writes27_sub (by decide)

/-- A memory that agrees with the last boundary wherever the run's post speaks holds the launch memory's argument arrays. -/
theorem args_end (c : Dev nD) {mem : (ℓ : Loc nD τ sig) → Buf (Elt F) ℓ}
    (h : ∀ b ∈ Pipeline.ucRefs τ sig, mem ((c : Thread nD τ).1, b) = W28 m c b) (a : Ref sig .tc) (ha : a ∈ argRefs)
    (hs : ¬ (Proc.devRef .tc a : DevRef τ sig).isScoped) : mem ((c : Thread nD τ).loc a) = m ((c : Thread nD τ).loc a) :=
  (h _ (Finset.mem_filter.mpr ⟨StableHlo.devRef_mem_tcRefs a, hs⟩)).trans (args28 m c a ha)

end Cert.Kernel.Hand

end
-- ==== Proof.RefRunCut.lean ====
import proofs.«419261_j25872882991625_3_alg».proof.Proof.Gen.ReferenceIdeal
import Idealize.ShloMosaic.Lib.StableHlo.Run

noncomputable section

namespace Cert.ReferenceIdeal.RunHand

open Cert.ReferenceIdeal Cert.ReferenceIdeal.Gen Idealize.ShloMosaic Idealize.ShloMosaic.TcCoe Idealize.SL.Sem Idealize.ShloMosaic.StableHlo

variable {F : FTy → Type} [FloatOps F]

theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

theorem sing_sub {W : List (Ref sig .tc)} {y : Ref sig .tc} (hy : y ∈ W) :
    ({Proc.devRef (τ := τ) .tc y} : Finset (DevRef τ sig)) ⊆ (W.map (Proc.devRef (τ := τ) .tc)).toFinset :=
  Finset.singleton_subset_iff.2 (List.mem_toFinset.2 (List.mem_map_of_mem hy))

abbrev s0 : List (HloOp τ sig (Elt F)) :=
  [ unary main_arg1 main_v0 ((extractStridedSlice S1x160000 ![0, 0] · slices_S2x160000_S1x160000_0_0) : (⟨S2x160000, .i32⟩ : BufTy).Contents (Elt F) → (⟨S1x160000, .i32⟩ : BufTy).Contents (Elt F)),
    reshape main_v0 main_v1 rfl shapeCasts_S1x160000_S160000,
    unary main_arg1 main_v2 ((extractStridedSlice S1x160000 ![1, 0] · slices_S2x160000_S1x160000_1_0) : (⟨S2x160000, .i32⟩ : BufTy).Contents (Elt F) → (⟨S1x160000, .i32⟩ : BufTy).Contents (Elt F)),
    reshape main_v2 main_v3 rfl shapeCasts_S1x160000_S160000,
    binary main_arg0 main_arg6 main_v4 ((fun l r => Host.dotGeneral dot_S10000x1024_S1024x1024_S10000x1024_1_0_0_1_n_n none l r) : (⟨S10000x1024, .f32⟩ : BufTy).Contents (Elt F) → (⟨S1024x1024, .f32⟩ : BufTy).Contents (Elt F) → (⟨S10000x1024, .f32⟩ : BufTy).Contents (Elt F)),
    nullary main_cst (constant S_ .f32 0x00000000#32),
    unary main_cst main_v5 (broadcastInDim S10000 ![] bcast_S_S10000 : (⟨S_, .f32⟩ : BufTy).Contents (Elt F) → (⟨S10000, .f32⟩ : BufTy).Contents (Elt F)),
    nullary main_c (constantI S_ 32 0#32),
    unary main_c main_v6 (broadcastInDim S160000 ![] bcast_S_S160000 : (⟨S_, .i32⟩ : BufTy).Contents (Elt F) → (⟨S160000, .i32⟩ : BufTy).Contents (Elt F)),
    binary main_v3 main_v6 main_v7 (cmpi .slt : (⟨S160000, .i32⟩ : BufTy).Contents (Elt F) → (⟨S160000, .i32⟩ : BufTy).Contents (Elt F) → (⟨S160000, .i1⟩ : BufTy).Contents (Elt F)),
    nullary main_c_0 (constantI S_ 32 10000#32),
    unary main_c_0 main_v8 (broadcastInDim S160000 ![] bcast_S_S160000 : (⟨S_, .i32⟩ : BufTy).Contents (Elt F) → (⟨S160000, .i32⟩ : BufTy).Contents (Elt F)),
    binary main_v3 main_v8 main_v9 (addi : (⟨S160000, .i32⟩ : BufTy).Contents (Elt F) → (⟨S160000, .i32⟩ : BufTy).Contents (Elt F) → (⟨S160000, .i32⟩ : BufTy).Contents (Elt F)),
    ternary main_v7 main_v9 main_v3 main_v10 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v10 main_v11 (broadcastInDim S160000x1 ![0] bcast_S160000_S160000x1_0 : (⟨S160000, .i32⟩ : BufTy).Contents (Elt F) → (⟨S160000x1, .i32⟩ : BufTy).Contents (Elt F)),
    nullary main_cst_1 (constant S_ .f32 0x3F800000#32),
    unary main_cst_1 main_v12 (broadcastInDim S160000 ![] bcast_S_S160000 : (⟨S_, .f32⟩ : BufTy).Contents (Elt F) → (⟨S160000, .f32⟩ : BufTy).Contents (Elt F)),
    ternary main_v5 main_v11 main_v12 main_v13 ((fun x i u => Host.scatterAdd scatter_S10000_S160000x1_S160000_n_0_0_1 x i u) : (⟨S10000, .f32⟩ : BufTy).Contents (Elt F) → (⟨S160000x1, .i32⟩ : BufTy).Contents (Elt F) → (⟨S160000, .f32⟩ : BufTy).Contents (Elt F) → (⟨S10000, .f32⟩ : BufTy).Contents (Elt F)),
    nullary main_cst_2 (constant S_ .f32 0x3F800000#32),
    unary main_cst_2 main_v14 (broadcastInDim S10000 ![] bcast_S_S10000 : (⟨S_, .f32⟩ : BufTy).Contents (Elt F) → (⟨S10000, .f32⟩ : BufTy).Contents (Elt F)),
    binary main_v13 main_v14 main_v15 (addf : (⟨S10000, .f32⟩ : BufTy).Contents (Elt F) → (⟨S10000, .f32⟩ : BufTy).Contents (Elt F) → (⟨S10000, .f32⟩ : BufTy).Contents (Elt F)),
    unary main_v15 main_v16 (Host.rsqrt : (⟨S10000, .f32⟩ : BufTy).Contents (Elt F) → (⟨S10000, .f32⟩ : BufTy).Contents (Elt F)) ]

abbrev writes0 : List (Ref sig .tc) :=
  [main_v0, main_v1, main_v2, main_v3, main_v4, main_cst, main_v5, main_c, main_v6, main_v7, main_c_0, main_v8, main_v9, main_v10, main_v11, main_cst_1, main_v12, main_v13, main_cst_2, main_v14, main_v15, main_v16]
theorem writes0_sub : (s0 : List (HloOp τ sig (Elt F))).Forall fun op =>
    op.writes ⊆ (writes0.map (Proc.devRef (τ := τ) .tc)).toFinset := by
  repeat' first | exact True.intro | refine (List.forall_cons _ _ _).2 ⟨?_, ?_⟩
  all_goals exact sing_sub (by decide)

theorem carry0 (V : Valuation τ sig (Elt F)) (b : Ref sig .tc) (hb : b ∉ writes0) :
    after s0 V (Proc.devRef .tc b) = V (Proc.devRef .tc b) :=
  after_of_writes_sub _ V writes0_sub hb

abbrev s1 : List (HloOp τ sig (Elt F)) :=
  [ nullary main_c_3 (constantI S_ 32 0#32),
    unary main_c_3 main_v17 (broadcastInDim S160000 ![] bcast_S_S160000 : (⟨S_, .i32⟩ : BufTy).Contents (Elt F) → (⟨S160000, .i32⟩ : BufTy).Contents (Elt F)),
    binary main_v1 main_v17 main_v18 (cmpi .slt : (⟨S160000, .i32⟩ : BufTy).Contents (Elt F) → (⟨S160000, .i32⟩ : BufTy).Contents (Elt F) → (⟨S160000, .i1⟩ : BufTy).Contents (Elt F)),
    nullary main_c_4 (constantI S_ 32 10000#32),
    unary main_c_4 main_v19 (broadcastInDim S160000 ![] bcast_S_S160000 : (⟨S_, .i32⟩ : BufTy).Contents (Elt F) → (⟨S160000, .i32⟩ : BufTy).Contents (Elt F)),
    binary main_v1 main_v19 main_v20 (addi : (⟨S160000, .i32⟩ : BufTy).Contents (Elt F) → (⟨S160000, .i32⟩ : BufTy).Contents (Elt F) → (⟨S160000, .i32⟩ : BufTy).Contents (Elt F)),
    ternary main_v18 main_v20 main_v1 main_v21 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v21 main_v22 (broadcastInDim S160000x1 ![0] bcast_S160000_S160000x1_0 : (⟨S160000, .i32⟩ : BufTy).Contents (Elt F) → (⟨S160000x1, .i32⟩ : BufTy).Contents (Elt F)),
    binary main_v16 main_v22 main_v23 ((fun x i => Host.gather gather_S10000_S160000x1_S160000_n_0_n_n_0_1_1 x i) : (⟨S10000, .f32⟩ : BufTy).Contents (Elt F) → (⟨S160000x1, .i32⟩ : BufTy).Contents (Elt F) → (⟨S160000, .f32⟩ : BufTy).Contents (Elt F)),
    nullary main_c_5 (constantI S_ 32 0#32),
    unary main_c_5 main_v24 (broadcastInDim S160000 ![] bcast_S_S160000 : (⟨S_, .i32⟩ : BufTy).Contents (Elt F) → (⟨S160000, .i32⟩ : BufTy).Contents (Elt F)),
    binary main_v3 main_v24 main_v25 (cmpi .slt : (⟨S160000, .i32⟩ : BufTy).Contents (Elt F) → (⟨S160000, .i32⟩ : BufTy).Contents (Elt F) → (⟨S160000, .i1⟩ : BufTy).Contents (Elt F)),
    nullary main_c_6 (constantI S_ 32 10000#32),
    unary main_c_6 main_v26 (broadcastInDim S160000 ![] bcast_S_S160000 : (⟨S_, .i32⟩ : BufTy).Contents (Elt F) → (⟨S160000, .i32⟩ : BufTy).Contents (Elt F)),
    binary main_v3 main_v26 main_v27 (addi : (⟨S160000, .i32⟩ : BufTy).Contents (Elt F) → (⟨S160000, .i32⟩ : BufTy).Contents (Elt F) → (⟨S160000, .i32⟩ : BufTy).Contents (Elt F)),
    ternary main_v25 main_v27 main_v3 main_v28 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v28 main_v29 (broadcastInDim S160000x1 ![0] bcast_S160000_S160000x1_0 : (⟨S160000, .i32⟩ : BufTy).Contents (Elt F) → (⟨S160000x1, .i32⟩ : BufTy).Contents (Elt F)),
    binary main_v16 main_v29 main_v30 ((fun x i => Host.gather gather_S10000_S160000x1_S160000_n_0_n_n_0_1_1 x i) : (⟨S10000, .f32⟩ : BufTy).Contents (Elt F) → (⟨S160000x1, .i32⟩ : BufTy).Contents (Elt F) → (⟨S160000, .f32⟩ : BufTy).Contents (Elt F)),
    binary main_v23 main_v30 main_v31 (mulf : (⟨S160000, .f32⟩ : BufTy).Contents (Elt F) → (⟨S160000, .f32⟩ : BufTy).Contents (Elt F) → (⟨S160000, .f32⟩ : BufTy).Contents (Elt F)),
    nullary main_c_7 (constantI S_ 32 0#32),
    unary main_c_7 main_v32 (broadcastInDim S160000 ![] bcast_S_S160000 : (⟨S_, .i32⟩ : BufTy).Contents (Elt F) → (⟨S160000, .i32⟩ : BufTy).Contents (Elt F)),
    binary main_v1 main_v32 main_v33 (cmpi .slt : (⟨S160000, .i32⟩ : BufTy).Contents (Elt F) → (⟨S160000, .i32⟩ : BufTy).Contents (Elt F) → (⟨S160000, .i1⟩ : BufTy).Contents (Elt F)),
    nullary main_c_8 (constantI S_ 32 10000#32),
    unary main_c_8 main_v34 (broadcastInDim S160000 ![] bcast_S_S160000 : (⟨S_, .i32⟩ : BufTy).Contents (Elt F) → (⟨S160000, .i32⟩ : BufTy).Contents (Elt F)),
    binary main_v1 main_v34 main_v35 (addi : (⟨S160000, .i32⟩ : BufTy).Contents (Elt F) → (⟨S160000, .i32⟩ : BufTy).Contents (Elt F) → (⟨S160000, .i32⟩ : BufTy).Contents (Elt F)),
    ternary main_v33 main_v35 main_v1 main_v36 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v36 main_v37 (broadcastInDim S160000x1 ![0] bcast_S160000_S160000x1_0 : (⟨S160000, .i32⟩ : BufTy).Contents (Elt F) → (⟨S160000x1, .i32⟩ : BufTy).Contents (Elt F)),
    binary main_v4 main_v37 main_v38 ((fun x i => Host.gather gather_S10000x1024_S160000x1_S160000x1024_1_0_n_n_0_1_11024 x i) : (⟨S10000x1024, .f32⟩ : BufTy).Contents (Elt F) → (⟨S160000x1, .i32⟩ : BufTy).Contents (Elt F) → (⟨S160000x1024, .f32⟩ : BufTy).Contents (Elt F)),
    unary main_v31 main_v39 (broadcastInDim S160000x1 ![0] bcast_S160000_S160000x1_0 : (⟨S160000, .f32⟩ : BufTy).Contents (Elt F) → (⟨S160000x1, .f32⟩ : BufTy).Contents (Elt F)),
    unary main_v39 main_v40 (broadcastInDim S160000x1024 ![0, 1] bcast_S160000x1_S160000x1024_0_1 : (⟨S160000x1, .f32⟩ : BufTy).Contents (Elt F) → (⟨S160000x1024, .f32⟩ : BufTy).Contents (Elt F)),
    binary main_v38 main_v40 main_v41 (mulf : (⟨S160000x1024, .f32⟩ : BufTy).Contents (Elt F) → (⟨S160000x1024, .f32⟩ : BufTy).Contents (Elt F) → (⟨S160000x1024, .f32⟩ : BufTy).Contents (Elt F)),
    nullary main_cst_9 (constant S_ .f32 0x00000000#32),
    unary main_cst_9 main_v42 (broadcastInDim S10000x1024 ![] bcast_S_S10000x1024 : (⟨S_, .f32⟩ : BufTy).Contents (Elt F) → (⟨S10000x1024, .f32⟩ : BufTy).Contents (Elt F)),
    unary main_v3 main_v43 (broadcastInDim S160000x1 ![0] bcast_S160000_S160000x1_0 : (⟨S160000, .i32⟩ : BufTy).Contents (Elt F) → (⟨S160000x1, .i32⟩ : BufTy).Contents (Elt F)),
    ternary main_v42 main_v43 main_v41 main_v44 ((fun x i u => Host.scatterAdd scatter_S10000x1024_S160000x1_S160000x1024_1_0_0_1 x i u) : (⟨S10000x1024, .f32⟩ : BufTy).Contents (Elt F) → (⟨S160000x1, .i32⟩ : BufTy).Contents (Elt F) → (⟨S160000x1024, .f32⟩ : BufTy).Contents (Elt F) → (⟨S10000x1024, .f32⟩ : BufTy).Contents (Elt F)) ]

abbrev writes1 : List (Ref sig .tc) :=
  [main_c_3, main_v17, main_v18, main_c_4, main_v19, main_v20, main_v21, main_v22, main_v23, main_c_5, main_v24, main_v25, main_c_6, main_v26, main_v27, main_v28, main_v29, main_v30, main_v31, main_c_7, main_v32, main_v33, main_c_8, main_v34, main_v35, main_v36, main_v37, main_v38, main_v39, main_v40, main_v41, main_cst_9, main_v42, main_v43, main_v44]
theorem writes1_sub : (s1 : List (HloOp τ sig (Elt F))).Forall fun op =>
    op.writes ⊆ (writes1.map (Proc.devRef (τ := τ) .tc)).toFinset := by
  repeat' first | exact True.intro | refine (List.forall_cons _ _ _).2 ⟨?_, ?_⟩
  all_goals exact sing_sub (by decide)

theorem carry1 (V : Valuation τ sig (Elt F)) (b : Ref sig .tc) (hb : b ∉ writes1) :
    after s1 V (Proc.devRef .tc b) = V (Proc.devRef .tc b) :=
  after_of_writes_sub _ V writes1_sub hb

abbrev s2 : List (HloOp τ sig (Elt F)) :=
  [ nullary main_cst_10 (constant S_ .f32 0x3F800000#32),
    unary main_cst_10 main_v45 (broadcastInDim S10000 ![] bcast_S_S10000 : (⟨S_, .f32⟩ : BufTy).Contents (Elt F) → (⟨S10000, .f32⟩ : BufTy).Contents (Elt F)),
    binary main_v45 main_v15 main_v46 (Host.divf : (⟨S10000, .f32⟩ : BufTy).Contents (Elt F) → (⟨S10000, .f32⟩ : BufTy).Contents (Elt F) → (⟨S10000, .f32⟩ : BufTy).Contents (Elt F)),
    unary main_v46 main_v47 (broadcastInDim S10000x1 ![0] bcast_S10000_S10000x1_0 : (⟨S10000, .f32⟩ : BufTy).Contents (Elt F) → (⟨S10000x1, .f32⟩ : BufTy).Contents (Elt F)),
    unary main_v47 main_v48 (broadcastInDim S10000x1024 ![0, 1] bcast_S10000x1_S10000x1024_0_1 : (⟨S10000x1, .f32⟩ : BufTy).Contents (Elt F) → (⟨S10000x1024, .f32⟩ : BufTy).Contents (Elt F)),
    binary main_v4 main_v48 main_v49 (mulf : (⟨S10000x1024, .f32⟩ : BufTy).Contents (Elt F) → (⟨S10000x1024, .f32⟩ : BufTy).Contents (Elt F) → (⟨S10000x1024, .f32⟩ : BufTy).Contents (Elt F)),
    binary main_v44 main_v49 main_v50 (addf : (⟨S10000x1024, .f32⟩ : BufTy).Contents (Elt F) → (⟨S10000x1024, .f32⟩ : BufTy).Contents (Elt F) → (⟨S10000x1024, .f32⟩ : BufTy).Contents (Elt F)),
    unary main_arg7 main_v51 (broadcastInDim S1x1024 ![1] bcast_S1024_S1x1024_1 : (⟨S1024, .f32⟩ : BufTy).Contents (Elt F) → (⟨S1x1024, .f32⟩ : BufTy).Contents (Elt F)),
    unary main_v51 main_v52 (broadcastInDim S10000x1024 ![0, 1] bcast_S1x1024_S10000x1024_0_1 : (⟨S1x1024, .f32⟩ : BufTy).Contents (Elt F) → (⟨S10000x1024, .f32⟩ : BufTy).Contents (Elt F)),
    binary main_v50 main_v52 main_v53 (addf : (⟨S10000x1024, .f32⟩ : BufTy).Contents (Elt F) → (⟨S10000x1024, .f32⟩ : BufTy).Contents (Elt F) → (⟨S10000x1024, .f32⟩ : BufTy).Contents (Elt F)),
    nullary main_cst_11 (constant S_ .f32 0x00000000#32),
    unary main_cst_11 main_v54 (broadcastInDim S10000x1024 ![] bcast_S_S10000x1024 : (⟨S_, .f32⟩ : BufTy).Contents (Elt F) → (⟨S10000x1024, .f32⟩ : BufTy).Contents (Elt F)),
    binary main_v53 main_v54 main_v55 (cmpf .oge : (⟨S10000x1024, .f32⟩ : BufTy).Contents (Elt F) → (⟨S10000x1024, .f32⟩ : BufTy).Contents (Elt F) → (⟨S10000x1024, .i1⟩ : BufTy).Contents (Elt F)),
    nullary main_cst_12 (constant S_ .f32 0x3C23D70A#32),
    unary main_cst_12 main_v56 (broadcastInDim S10000x1024 ![] bcast_S_S10000x1024 : (⟨S_, .f32⟩ : BufTy).Contents (Elt F) → (⟨S10000x1024, .f32⟩ : BufTy).Contents (Elt F)),
    binary main_v56 main_v53 main_v57 (mulf : (⟨S10000x1024, .f32⟩ : BufTy).Contents (Elt F) → (⟨S10000x1024, .f32⟩ : BufTy).Contents (Elt F) → (⟨S10000x1024, .f32⟩ : BufTy).Contents (Elt F)),
    TRef.ternary (TRef.of (T := ⟨S10000x1024, .i1⟩) main_v55) (TRef.of (T := ⟨S10000x1024, .f32⟩) main_v53) (TRef.of (T := ⟨S10000x1024, .f32⟩) main_v57) (TRef.of (T := ⟨S10000x1024, .f32⟩) main_v58) select,
    nullary main_cst_13 (constant S_ .f32 0x00000000#32),
    unary main_cst_13 main_v59 (broadcastInDim S64x1024 ![] bcast_S_S64x1024 : (⟨S_, .f32⟩ : BufTy).Contents (Elt F) → (⟨S64x1024, .f32⟩ : BufTy).Contents (Elt F)),
    unary main_arg2 main_v60 (broadcastInDim S10000x1 ![0] bcast_S10000_S10000x1_0 : (⟨S10000, .i32⟩ : BufTy).Contents (Elt F) → (⟨S10000x1, .i32⟩ : BufTy).Contents (Elt F)),
    ternary main_v59 main_v60 main_v58 main_v61 ((fun x i u => Host.scatterAdd scatter_S64x1024_S10000x1_S10000x1024_1_0_0_1 x i u) : (⟨S64x1024, .f32⟩ : BufTy).Contents (Elt F) → (⟨S10000x1, .i32⟩ : BufTy).Contents (Elt F) → (⟨S10000x1024, .f32⟩ : BufTy).Contents (Elt F) → (⟨S64x1024, .f32⟩ : BufTy).Contents (Elt F)),
    nullary main_cst_14 (constant S_ .f32 0x3F800000#32),
    unary main_cst_14 main_v62 (broadcastInDim S10000 ![] bcast_S_S10000 : (⟨S_, .f32⟩ : BufTy).Contents (Elt F) → (⟨S10000, .f32⟩ : BufTy).Contents (Elt F)),
    nullary main_cst_15 (constant S_ .f32 0x00000000#32),
    unary main_cst_15 main_v63 (broadcastInDim S64 ![] bcast_S_S64 : (⟨S_, .f32⟩ : BufTy).Contents (Elt F) → (⟨S64, .f32⟩ : BufTy).Contents (Elt F)),
    unary main_arg2 main_v64 (broadcastInDim S10000x1 ![0] bcast_S10000_S10000x1_0 : (⟨S10000, .i32⟩ : BufTy).Contents (Elt F) → (⟨S10000x1, .i32⟩ : BufTy).Contents (Elt F)),
    ternary main_v63 main_v64 main_v62 main_v65 ((fun x i u => Host.scatterAdd scatter_S64_S10000x1_S10000_n_0_0_1 x i u) : (⟨S64, .f32⟩ : BufTy).Contents (Elt F) → (⟨S10000x1, .i32⟩ : BufTy).Contents (Elt F) → (⟨S10000, .f32⟩ : BufTy).Contents (Elt F) → (⟨S64, .f32⟩ : BufTy).Contents (Elt F)),
    nullary main_cst_16 (constant S_ .f32 0x3F800000#32),
    unary main_cst_16 main_v66 (broadcastInDim S64 ![] bcast_S_S64 : (⟨S_, .f32⟩ : BufTy).Contents (Elt F) → (⟨S64, .f32⟩ : BufTy).Contents (Elt F)),
    binary main_v65 main_v66 main_v67 (maximumf : (⟨S64, .f32⟩ : BufTy).Contents (Elt F) → (⟨S64, .f32⟩ : BufTy).Contents (Elt F) → (⟨S64, .f32⟩ : BufTy).Contents (Elt F)),
    unary main_v67 main_v68 (broadcastInDim S64x1 ![0] bcast_S64_S64x1_0 : (⟨S64, .f32⟩ : BufTy).Contents (Elt F) → (⟨S64x1, .f32⟩ : BufTy).Contents (Elt F)),
    unary main_v68 main_v69 (broadcastInDim S64x1024 ![0, 1] bcast_S64x1_S64x1024_0_1 : (⟨S64x1, .f32⟩ : BufTy).Contents (Elt F) → (⟨S64x1024, .f32⟩ : BufTy).Contents (Elt F)),
    binary main_v61 main_v69 main_v70 (Host.divf : (⟨S64x1024, .f32⟩ : BufTy).Contents (Elt F) → (⟨S64x1024, .f32⟩ : BufTy).Contents (Elt F) → (⟨S64x1024, .f32⟩ : BufTy).Contents (Elt F)),
    binary main_v70 main_arg8 main_v71 ((fun l r => Host.dotGeneral dot_S64x1024_S1024x128_S64x128_1_0_0_1_n_n none l r) : (⟨S64x1024, .f32⟩ : BufTy).Contents (Elt F) → (⟨S1024x128, .f32⟩ : BufTy).Contents (Elt F) → (⟨S64x128, .f32⟩ : BufTy).Contents (Elt F)),
    unary main_arg9 main_v72 (broadcastInDim S1x128 ![1] bcast_S128_S1x128_1 : (⟨S128, .f32⟩ : BufTy).Contents (Elt F) → (⟨S1x128, .f32⟩ : BufTy).Contents (Elt F)),
    unary main_v72 main_v73 (broadcastInDim S64x128 ![0, 1] bcast_S1x128_S64x128_0_1 : (⟨S1x128, .f32⟩ : BufTy).Contents (Elt F) → (⟨S64x128, .f32⟩ : BufTy).Contents (Elt F)),
    binary main_v71 main_v73 main_v74 (addf : (⟨S64x128, .f32⟩ : BufTy).Contents (Elt F) → (⟨S64x128, .f32⟩ : BufTy).Contents (Elt F) → (⟨S64x128, .f32⟩ : BufTy).Contents (Elt F)),
    nullary main_cst_17 (constant S_ .f32 0x00000000#32),
    unary main_cst_17 main_v75 (broadcastInDim S64x128 ![] bcast_S_S64x128 : (⟨S_, .f32⟩ : BufTy).Contents (Elt F) → (⟨S64x128, .f32⟩ : BufTy).Contents (Elt F)),
    binary main_v74 main_v75 main_v76 (cmpf .oge : (⟨S64x128, .f32⟩ : BufTy).Contents (Elt F) → (⟨S64x128, .f32⟩ : BufTy).Contents (Elt F) → (⟨S64x128, .i1⟩ : BufTy).Contents (Elt F)),
    nullary main_cst_18 (constant S_ .f32 0x3C23D70A#32),
    unary main_cst_18 main_v77 (broadcastInDim S64x128 ![] bcast_S_S64x128 : (⟨S_, .f32⟩ : BufTy).Contents (Elt F) → (⟨S64x128, .f32⟩ : BufTy).Contents (Elt F)),
    binary main_v77 main_v74 main_v78 (mulf : (⟨S64x128, .f32⟩ : BufTy).Contents (Elt F) → (⟨S64x128, .f32⟩ : BufTy).Contents (Elt F) → (⟨S64x128, .f32⟩ : BufTy).Contents (Elt F)),
    TRef.ternary (TRef.of (T := ⟨S64x128, .i1⟩) main_v76) (TRef.of (T := ⟨S64x128, .f32⟩) main_v74) (TRef.of (T := ⟨S64x128, .f32⟩) main_v78) (TRef.of (T := ⟨S64x128, .f32⟩) main_v79) select ]

abbrev writes2 : List (Ref sig .tc) :=
  [main_cst_10, main_v45, main_v46, main_v47, main_v48, main_v49, main_v50, main_v51, main_v52, main_v53, main_cst_11, main_v54, main_v55, main_cst_12, main_v56, main_v57, main_v58, main_cst_13, main_v59, main_v60, main_v61, main_cst_14, main_v62, main_cst_15, main_v63, main_v64, main_v65, main_cst_16, main_v66, main_v67, main_v68, main_v69, main_v70, main_v71, main_v72, main_v73, main_v74, main_cst_17, main_v75, main_v76, main_cst_18, main_v77, main_v78, main_v79]
theorem writes2_sub : (s2 : List (HloOp τ sig (Elt F))).Forall fun op =>
    op.writes ⊆ (writes2.map (Proc.devRef (τ := τ) .tc)).toFinset := by
  repeat' first | exact True.intro | refine (List.forall_cons _ _ _).2 ⟨?_, ?_⟩
  all_goals exact sing_sub (by decide)

theorem carry2 (V : Valuation τ sig (Elt F)) (b : Ref sig .tc) (hb : b ∉ writes2) :
    after s2 V (Proc.devRef .tc b) = V (Proc.devRef .tc b) :=
  after_of_writes_sub _ V writes2_sub hb

abbrev s3 : List (HloOp τ sig (Elt F)) :=
  [ unary main_arg4 main_v80 ((extractStridedSlice S1x160000 ![0, 0] · slices_S2x160000_S1x160000_0_0) : (⟨S2x160000, .i32⟩ : BufTy).Contents (Elt F) → (⟨S1x160000, .i32⟩ : BufTy).Contents (Elt F)),
    reshape main_v80 main_v81 rfl shapeCasts_S1x160000_S160000,
    unary main_arg4 main_v82 ((extractStridedSlice S1x160000 ![1, 0] · slices_S2x160000_S1x160000_1_0) : (⟨S2x160000, .i32⟩ : BufTy).Contents (Elt F) → (⟨S1x160000, .i32⟩ : BufTy).Contents (Elt F)),
    reshape main_v82 main_v83 rfl shapeCasts_S1x160000_S160000,
    binary main_arg3 main_arg10 main_v84 ((fun l r => Host.dotGeneral dot_S10000x1024_S1024x1024_S10000x1024_1_0_0_1_n_n none l r) : (⟨S10000x1024, .f32⟩ : BufTy).Contents (Elt F) → (⟨S1024x1024, .f32⟩ : BufTy).Contents (Elt F) → (⟨S10000x1024, .f32⟩ : BufTy).Contents (Elt F)),
    nullary main_cst_19 (constant S_ .f32 0x00000000#32),
    unary main_cst_19 main_v85 (broadcastInDim S10000 ![] bcast_S_S10000 : (⟨S_, .f32⟩ : BufTy).Contents (Elt F) → (⟨S10000, .f32⟩ : BufTy).Contents (Elt F)),
    nullary main_c_20 (constantI S_ 32 0#32),
    unary main_c_20 main_v86 (broadcastInDim S160000 ![] bcast_S_S160000 : (⟨S_, .i32⟩ : BufTy).Contents (Elt F) → (⟨S160000, .i32⟩ : BufTy).Contents (Elt F)),
    binary main_v83 main_v86 main_v87 (cmpi .slt : (⟨S160000, .i32⟩ : BufTy).Contents (Elt F) → (⟨S160000, .i32⟩ : BufTy).Contents (Elt F) → (⟨S160000, .i1⟩ : BufTy).Contents (Elt F)),
    nullary main_c_21 (constantI S_ 32 10000#32),
    unary main_c_21 main_v88 (broadcastInDim S160000 ![] bcast_S_S160000 : (⟨S_, .i32⟩ : BufTy).Contents (Elt F) → (⟨S160000, .i32⟩ : BufTy).Contents (Elt F)),
    binary main_v83 main_v88 main_v89 (addi : (⟨S160000, .i32⟩ : BufTy).Contents (Elt F) → (⟨S160000, .i32⟩ : BufTy).Contents (Elt F) → (⟨S160000, .i32⟩ : BufTy).Contents (Elt F)),
    ternary main_v87 main_v89 main_v83 main_v90 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v90 main_v91 (broadcastInDim S160000x1 ![0] bcast_S160000_S160000x1_0 : (⟨S160000, .i32⟩ : BufTy).Contents (Elt F) → (⟨S160000x1, .i32⟩ : BufTy).Contents (Elt F)),
    nullary main_cst_22 (constant S_ .f32 0x3F800000#32),
    unary main_cst_22 main_v92 (broadcastInDim S160000 ![] bcast_S_S160000 : (⟨S_, .f32⟩ : BufTy).Contents (Elt F) → (⟨S160000, .f32⟩ : BufTy).Contents (Elt F)),
    ternary main_v85 main_v91 main_v92 main_v93 ((fun x i u => Host.scatterAdd scatter_S10000_S160000x1_S160000_n_0_0_1 x i u) : (⟨S10000, .f32⟩ : BufTy).Contents (Elt F) → (⟨S160000x1, .i32⟩ : BufTy).Contents (Elt F) → (⟨S160000, .f32⟩ : BufTy).Contents (Elt F) → (⟨S10000, .f32⟩ : BufTy).Contents (Elt F)),
    nullary main_cst_23 (constant S_ .f32 0x3F800000#32),
    unary main_cst_23 main_v94 (broadcastInDim S10000 ![] bcast_S_S10000 : (⟨S_, .f32⟩ : BufTy).Contents (Elt F) → (⟨S10000, .f32⟩ : BufTy).Contents (Elt F)),
    binary main_v93 main_v94 main_v95 (addf : (⟨S10000, .f32⟩ : BufTy).Contents (Elt F) → (⟨S10000, .f32⟩ : BufTy).Contents (Elt F) → (⟨S10000, .f32⟩ : BufTy).Contents (Elt F)),
    unary main_v95 main_v96 (Host.rsqrt : (⟨S10000, .f32⟩ : BufTy).Contents (Elt F) → (⟨S10000, .f32⟩ : BufTy).Contents (Elt F)) ]

abbrev writes3 : List (Ref sig .tc) :=
  [main_v80, main_v81, main_v82, main_v83, main_v84, main_cst_19, main_v85, main_c_20, main_v86, main_v87, main_c_21, main_v88, main_v89, main_v90, main_v91, main_cst_22, main_v92, main_v93, main_cst_23, main_v94, main_v95, main_v96]
theorem writes3_sub : (s3 : List (HloOp τ sig (Elt F))).Forall fun op =>
    op.writes ⊆ (writes3.map (Proc.devRef (τ := τ) .tc)).toFinset := by
  repeat' first | exact True.intro | refine (List.forall_cons _ _ _).2 ⟨?_, ?_⟩
  all_goals exact sing_sub (by decide)

theorem carry3 (V : Valuation τ sig (Elt F)) (b : Ref sig .tc) (hb : b ∉ writes3) :
    after s3 V (Proc.devRef .tc b) = V (Proc.devRef .tc b) :=
  after_of_writes_sub _ V writes3_sub hb

abbrev s4 : List (HloOp τ sig (Elt F)) :=
  [ nullary main_c_24 (constantI S_ 32 0#32),
    unary main_c_24 main_v97 (broadcastInDim S160000 ![] bcast_S_S160000 : (⟨S_, .i32⟩ : BufTy).Contents (Elt F) → (⟨S160000, .i32⟩ : BufTy).Contents (Elt F)),
    binary main_v81 main_v97 main_v98 (cmpi .slt : (⟨S160000, .i32⟩ : BufTy).Contents (Elt F) → (⟨S160000, .i32⟩ : BufTy).Contents (Elt F) → (⟨S160000, .i1⟩ : BufTy).Contents (Elt F)),
    nullary main_c_25 (constantI S_ 32 10000#32),
    unary main_c_25 main_v99 (broadcastInDim S160000 ![] bcast_S_S160000 : (⟨S_, .i32⟩ : BufTy).Contents (Elt F) → (⟨S160000, .i32⟩ : BufTy).Contents (Elt F)),
    binary main_v81 main_v99 main_v100 (addi : (⟨S160000, .i32⟩ : BufTy).Contents (Elt F) → (⟨S160000, .i32⟩ : BufTy).Contents (Elt F) → (⟨S160000, .i32⟩ : BufTy).Contents (Elt F)),
    ternary main_v98 main_v100 main_v81 main_v101 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v101 main_v102 (broadcastInDim S160000x1 ![0] bcast_S160000_S160000x1_0 : (⟨S160000, .i32⟩ : BufTy).Contents (Elt F) → (⟨S160000x1, .i32⟩ : BufTy).Contents (Elt F)),
    binary main_v96 main_v102 main_v103 ((fun x i => Host.gather gather_S10000_S160000x1_S160000_n_0_n_n_0_1_1 x i) : (⟨S10000, .f32⟩ : BufTy).Contents (Elt F) → (⟨S160000x1, .i32⟩ : BufTy).Contents (Elt F) → (⟨S160000, .f32⟩ : BufTy).Contents (Elt F)),
    nullary main_c_26 (constantI S_ 32 0#32),
    unary main_c_26 main_v104 (broadcastInDim S160000 ![] bcast_S_S160000 : (⟨S_, .i32⟩ : BufTy).Contents (Elt F) → (⟨S160000, .i32⟩ : BufTy).Contents (Elt F)),
    binary main_v83 main_v104 main_v105 (cmpi .slt : (⟨S160000, .i32⟩ : BufTy).Contents (Elt F) → (⟨S160000, .i32⟩ : BufTy).Contents (Elt F) → (⟨S160000, .i1⟩ : BufTy).Contents (Elt F)),
    nullary main_c_27 (constantI S_ 32 10000#32),
    unary main_c_27 main_v106 (broadcastInDim S160000 ![] bcast_S_S160000 : (⟨S_, .i32⟩ : BufTy).Contents (Elt F) → (⟨S160000, .i32⟩ : BufTy).Contents (Elt F)),
    binary main_v83 main_v106 main_v107 (addi : (⟨S160000, .i32⟩ : BufTy).Contents (Elt F) → (⟨S160000, .i32⟩ : BufTy).Contents (Elt F) → (⟨S160000, .i32⟩ : BufTy).Contents (Elt F)),
    ternary main_v105 main_v107 main_v83 main_v108 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v108 main_v109 (broadcastInDim S160000x1 ![0] bcast_S160000_S160000x1_0 : (⟨S160000, .i32⟩ : BufTy).Contents (Elt F) → (⟨S160000x1, .i32⟩ : BufTy).Contents (Elt F)),
    binary main_v96 main_v109 main_v110 ((fun x i => Host.gather gather_S10000_S160000x1_S160000_n_0_n_n_0_1_1 x i) : (⟨S10000, .f32⟩ : BufTy).Contents (Elt F) → (⟨S160000x1, .i32⟩ : BufTy).Contents (Elt F) → (⟨S160000, .f32⟩ : BufTy).Contents (Elt F)),
    binary main_v103 main_v110 main_v111 (mulf : (⟨S160000, .f32⟩ : BufTy).Contents (Elt F) → (⟨S160000, .f32⟩ : BufTy).Contents (Elt F) → (⟨S160000, .f32⟩ : BufTy).Contents (Elt F)),
    nullary main_c_28 (constantI S_ 32 0#32),
    unary main_c_28 main_v112 (broadcastInDim S160000 ![] bcast_S_S160000 : (⟨S_, .i32⟩ : BufTy).Contents (Elt F) → (⟨S160000, .i32⟩ : BufTy).Contents (Elt F)),
    binary main_v81 main_v112 main_v113 (cmpi .slt : (⟨S160000, .i32⟩ : BufTy).Contents (Elt F) → (⟨S160000, .i32⟩ : BufTy).Contents (Elt F) → (⟨S160000, .i1⟩ : BufTy).Contents (Elt F)),
    nullary main_c_29 (constantI S_ 32 10000#32),
    unary main_c_29 main_v114 (broadcastInDim S160000 ![] bcast_S_S160000 : (⟨S_, .i32⟩ : BufTy).Contents (Elt F) → (⟨S160000, .i32⟩ : BufTy).Contents (Elt F)),
    binary main_v81 main_v114 main_v115 (addi : (⟨S160000, .i32⟩ : BufTy).Contents (Elt F) → (⟨S160000, .i32⟩ : BufTy).Contents (Elt F) → (⟨S160000, .i32⟩ : BufTy).Contents (Elt F)),
    ternary main_v113 main_v115 main_v81 main_v116 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v116 main_v117 (broadcastInDim S160000x1 ![0] bcast_S160000_S160000x1_0 : (⟨S160000, .i32⟩ : BufTy).Contents (Elt F) → (⟨S160000x1, .i32⟩ : BufTy).Contents (Elt F)),
    binary main_v84 main_v117 main_v118 ((fun x i => Host.gather gather_S10000x1024_S160000x1_S160000x1024_1_0_n_n_0_1_11024 x i) : (⟨S10000x1024, .f32⟩ : BufTy).Contents (Elt F) → (⟨S160000x1, .i32⟩ : BufTy).Contents (Elt F) → (⟨S160000x1024, .f32⟩ : BufTy).Contents (Elt F)),
    unary main_v111 main_v119 (broadcastInDim S160000x1 ![0] bcast_S160000_S160000x1_0 : (⟨S160000, .f32⟩ : BufTy).Contents (Elt F) → (⟨S160000x1, .f32⟩ : BufTy).Contents (Elt F)),
    unary main_v119 main_v120 (broadcastInDim S160000x1024 ![0, 1] bcast_S160000x1_S160000x1024_0_1 : (⟨S160000x1, .f32⟩ : BufTy).Contents (Elt F) → (⟨S160000x1024, .f32⟩ : BufTy).Contents (Elt F)),
    binary main_v118 main_v120 main_v121 (mulf : (⟨S160000x1024, .f32⟩ : BufTy).Contents (Elt F) → (⟨S160000x1024, .f32⟩ : BufTy).Contents (Elt F) → (⟨S160000x1024, .f32⟩ : BufTy).Contents (Elt F)),
    nullary main_cst_30 (constant S_ .f32 0x00000000#32),
    unary main_cst_30 main_v122 (broadcastInDim S10000x1024 ![] bcast_S_S10000x1024 : (⟨S_, .f32⟩ : BufTy).Contents (Elt F) → (⟨S10000x1024, .f32⟩ : BufTy).Contents (Elt F)),
    unary main_v83 main_v123 (broadcastInDim S160000x1 ![0] bcast_S160000_S160000x1_0 : (⟨S160000, .i32⟩ : BufTy).Contents (Elt F) → (⟨S160000x1, .i32⟩ : BufTy).Contents (Elt F)),
    ternary main_v122 main_v123 main_v121 main_v124 ((fun x i u => Host.scatterAdd scatter_S10000x1024_S160000x1_S160000x1024_1_0_0_1 x i u) : (⟨S10000x1024, .f32⟩ : BufTy).Contents (Elt F) → (⟨S160000x1, .i32⟩ : BufTy).Contents (Elt F) → (⟨S160000x1024, .f32⟩ : BufTy).Contents (Elt F) → (⟨S10000x1024, .f32⟩ : BufTy).Contents (Elt F)) ]

abbrev writes4 : List (Ref sig .tc) :=
  [main_c_24, main_v97, main_v98, main_c_25, main_v99, main_v100, main_v101, main_v102, main_v103, main_c_26, main_v104, main_v105, main_c_27, main_v106, main_v107, main_v108, main_v109, main_v110, main_v111, main_c_28, main_v112, main_v113, main_c_29, main_v114, main_v115, main_v116, main_v117, main_v118, main_v119, main_v120, main_v121, main_cst_30, main_v122, main_v123, main_v124]
theorem writes4_sub : (s4 : List (HloOp τ sig (Elt F))).Forall fun op =>
    op.writes ⊆ (writes4.map (Proc.devRef (τ := τ) .tc)).toFinset := by
  repeat' first | exact True.intro | refine (List.forall_cons _ _ _).2 ⟨?_, ?_⟩
  all_goals exact sing_sub (by decide)

theorem carry4 (V : Valuation τ sig (Elt F)) (b : Ref sig .tc) (hb : b ∉ writes4) :
    after s4 V (Proc.devRef .tc b) = V (Proc.devRef .tc b) :=
  after_of_writes_sub _ V writes4_sub hb

abbrev s5 : List (HloOp τ sig (Elt F)) :=
  [ nullary main_cst_31 (constant S_ .f32 0x3F800000#32),
    unary main_cst_31 main_v125 (broadcastInDim S10000 ![] bcast_S_S10000 : (⟨S_, .f32⟩ : BufTy).Contents (Elt F) → (⟨S10000, .f32⟩ : BufTy).Contents (Elt F)),
    binary main_v125 main_v95 main_v126 (Host.divf : (⟨S10000, .f32⟩ : BufTy).Contents (Elt F) → (⟨S10000, .f32⟩ : BufTy).Contents (Elt F) → (⟨S10000, .f32⟩ : BufTy).Contents (Elt F)),
    unary main_v126 main_v127 (broadcastInDim S10000x1 ![0] bcast_S10000_S10000x1_0 : (⟨S10000, .f32⟩ : BufTy).Contents (Elt F) → (⟨S10000x1, .f32⟩ : BufTy).Contents (Elt F)),
    unary main_v127 main_v128 (broadcastInDim S10000x1024 ![0, 1] bcast_S10000x1_S10000x1024_0_1 : (⟨S10000x1, .f32⟩ : BufTy).Contents (Elt F) → (⟨S10000x1024, .f32⟩ : BufTy).Contents (Elt F)),
    binary main_v84 main_v128 main_v129 (mulf : (⟨S10000x1024, .f32⟩ : BufTy).Contents (Elt F) → (⟨S10000x1024, .f32⟩ : BufTy).Contents (Elt F) → (⟨S10000x1024, .f32⟩ : BufTy).Contents (Elt F)),
    binary main_v124 main_v129 main_v130 (addf : (⟨S10000x1024, .f32⟩ : BufTy).Contents (Elt F) → (⟨S10000x1024, .f32⟩ : BufTy).Contents (Elt F) → (⟨S10000x1024, .f32⟩ : BufTy).Contents (Elt F)),
    unary main_arg11 main_v131 (broadcastInDim S1x1024 ![1] bcast_S1024_S1x1024_1 : (⟨S1024, .f32⟩ : BufTy).Contents (Elt F) → (⟨S1x1024, .f32⟩ : BufTy).Contents (Elt F)),
    unary main_v131 main_v132 (broadcastInDim S10000x1024 ![0, 1] bcast_S1x1024_S10000x1024_0_1 : (⟨S1x1024, .f32⟩ : BufTy).Contents (Elt F) → (⟨S10000x1024, .f32⟩ : BufTy).Contents (Elt F)),
    binary main_v130 main_v132 main_v133 (addf : (⟨S10000x1024, .f32⟩ : BufTy).Contents (Elt F) → (⟨S10000x1024, .f32⟩ : BufTy).Contents (Elt F) → (⟨S10000x1024, .f32⟩ : BufTy).Contents (Elt F)),
    nullary main_cst_32 (constant S_ .f32 0x00000000#32),
    unary main_cst_32 main_v134 (broadcastInDim S10000x1024 ![] bcast_S_S10000x1024 : (⟨S_, .f32⟩ : BufTy).Contents (Elt F) → (⟨S10000x1024, .f32⟩ : BufTy).Contents (Elt F)),
    binary main_v133 main_v134 main_v135 (cmpf .oge : (⟨S10000x1024, .f32⟩ : BufTy).Contents (Elt F) → (⟨S10000x1024, .f32⟩ : BufTy).Contents (Elt F) → (⟨S10000x1024, .i1⟩ : BufTy).Contents (Elt F)),
    nullary main_cst_33 (constant S_ .f32 0x3C23D70A#32),
    unary main_cst_33 main_v136 (broadcastInDim S10000x1024 ![] bcast_S_S10000x1024 : (⟨S_, .f32⟩ : BufTy).Contents (Elt F) → (⟨S10000x1024, .f32⟩ : BufTy).Contents (Elt F)),
    binary main_v136 main_v133 main_v137 (mulf : (⟨S10000x1024, .f32⟩ : BufTy).Contents (Elt F) → (⟨S10000x1024, .f32⟩ : BufTy).Contents (Elt F) → (⟨S10000x1024, .f32⟩ : BufTy).Contents (Elt F)),
    TRef.ternary (TRef.of (T := ⟨S10000x1024, .i1⟩) main_v135) (TRef.of (T := ⟨S10000x1024, .f32⟩) main_v133) (TRef.of (T := ⟨S10000x1024, .f32⟩) main_v137) (TRef.of (T := ⟨S10000x1024, .f32⟩) main_v138) select,
    nullary main_cst_34 (constant S_ .f32 0x00000000#32),
    unary main_cst_34 main_v139 (broadcastInDim S64x1024 ![] bcast_S_S64x1024 : (⟨S_, .f32⟩ : BufTy).Contents (Elt F) → (⟨S64x1024, .f32⟩ : BufTy).Contents (Elt F)),
    unary main_arg5 main_v140 (broadcastInDim S10000x1 ![0] bcast_S10000_S10000x1_0 : (⟨S10000, .i32⟩ : BufTy).Contents (Elt F) → (⟨S10000x1, .i32⟩ : BufTy).Contents (Elt F)),
    ternary main_v139 main_v140 main_v138 main_v141 ((fun x i u => Host.scatterAdd scatter_S64x1024_S10000x1_S10000x1024_1_0_0_1 x i u) : (⟨S64x1024, .f32⟩ : BufTy).Contents (Elt F) → (⟨S10000x1, .i32⟩ : BufTy).Contents (Elt F) → (⟨S10000x1024, .f32⟩ : BufTy).Contents (Elt F) → (⟨S64x1024, .f32⟩ : BufTy).Contents (Elt F)),
    nullary main_cst_35 (constant S_ .f32 0x3F800000#32),
    unary main_cst_35 main_v142 (broadcastInDim S10000 ![] bcast_S_S10000 : (⟨S_, .f32⟩ : BufTy).Contents (Elt F) → (⟨S10000, .f32⟩ : BufTy).Contents (Elt F)),
    nullary main_cst_36 (constant S_ .f32 0x00000000#32),
    unary main_cst_36 main_v143 (broadcastInDim S64 ![] bcast_S_S64 : (⟨S_, .f32⟩ : BufTy).Contents (Elt F) → (⟨S64, .f32⟩ : BufTy).Contents (Elt F)),
    unary main_arg5 main_v144 (broadcastInDim S10000x1 ![0] bcast_S10000_S10000x1_0 : (⟨S10000, .i32⟩ : BufTy).Contents (Elt F) → (⟨S10000x1, .i32⟩ : BufTy).Contents (Elt F)),
    ternary main_v143 main_v144 main_v142 main_v145 ((fun x i u => Host.scatterAdd scatter_S64_S10000x1_S10000_n_0_0_1 x i u) : (⟨S64, .f32⟩ : BufTy).Contents (Elt F) → (⟨S10000x1, .i32⟩ : BufTy).Contents (Elt F) → (⟨S10000, .f32⟩ : BufTy).Contents (Elt F) → (⟨S64, .f32⟩ : BufTy).Contents (Elt F)),
    nullary main_cst_37 (constant S_ .f32 0x3F800000#32),
    unary main_cst_37 main_v146 (broadcastInDim S64 ![] bcast_S_S64 : (⟨S_, .f32⟩ : BufTy).Contents (Elt F) → (⟨S64, .f32⟩ : BufTy).Contents (Elt F)),
    binary main_v145 main_v146 main_v147 (maximumf : (⟨S64, .f32⟩ : BufTy).Contents (Elt F) → (⟨S64, .f32⟩ : BufTy).Contents (Elt F) → (⟨S64, .f32⟩ : BufTy).Contents (Elt F)),
    unary main_v147 main_v148 (broadcastInDim S64x1 ![0] bcast_S64_S64x1_0 : (⟨S64, .f32⟩ : BufTy).Contents (Elt F) → (⟨S64x1, .f32⟩ : BufTy).Contents (Elt F)),
    unary main_v148 main_v149 (broadcastInDim S64x1024 ![0, 1] bcast_S64x1_S64x1024_0_1 : (⟨S64x1, .f32⟩ : BufTy).Contents (Elt F) → (⟨S64x1024, .f32⟩ : BufTy).Contents (Elt F)),
    binary main_v141 main_v149 main_v150 (Host.divf : (⟨S64x1024, .f32⟩ : BufTy).Contents (Elt F) → (⟨S64x1024, .f32⟩ : BufTy).Contents (Elt F) → (⟨S64x1024, .f32⟩ : BufTy).Contents (Elt F)),
    binary main_v150 main_arg12 main_v151 ((fun l r => Host.dotGeneral dot_S64x1024_S1024x128_S64x128_1_0_0_1_n_n none l r) : (⟨S64x1024, .f32⟩ : BufTy).Contents (Elt F) → (⟨S1024x128, .f32⟩ : BufTy).Contents (Elt F) → (⟨S64x128, .f32⟩ : BufTy).Contents (Elt F)),
    unary main_arg13 main_v152 (broadcastInDim S1x128 ![1] bcast_S128_S1x128_1 : (⟨S128, .f32⟩ : BufTy).Contents (Elt F) → (⟨S1x128, .f32⟩ : BufTy).Contents (Elt F)),
    unary main_v152 main_v153 (broadcastInDim S64x128 ![0, 1] bcast_S1x128_S64x128_0_1 : (⟨S1x128, .f32⟩ : BufTy).Contents (Elt F) → (⟨S64x128, .f32⟩ : BufTy).Contents (Elt F)),
    binary main_v151 main_v153 main_v154 (addf : (⟨S64x128, .f32⟩ : BufTy).Contents (Elt F) → (⟨S64x128, .f32⟩ : BufTy).Contents (Elt F) → (⟨S64x128, .f32⟩ : BufTy).Contents (Elt F)),
    nullary main_cst_38 (constant S_ .f32 0x00000000#32),
    unary main_cst_38 main_v155 (broadcastInDim S64x128 ![] bcast_S_S64x128 : (⟨S_, .f32⟩ : BufTy).Contents (Elt F) → (⟨S64x128, .f32⟩ : BufTy).Contents (Elt F)),
    binary main_v154 main_v155 main_v156 (cmpf .oge : (⟨S64x128, .f32⟩ : BufTy).Contents (Elt F) → (⟨S64x128, .f32⟩ : BufTy).Contents (Elt F) → (⟨S64x128, .i1⟩ : BufTy).Contents (Elt F)),
    nullary main_cst_39 (constant S_ .f32 0x3C23D70A#32),
    unary main_cst_39 main_v157 (broadcastInDim S64x128 ![] bcast_S_S64x128 : (⟨S_, .f32⟩ : BufTy).Contents (Elt F) → (⟨S64x128, .f32⟩ : BufTy).Contents (Elt F)),
    binary main_v157 main_v154 main_v158 (mulf : (⟨S64x128, .f32⟩ : BufTy).Contents (Elt F) → (⟨S64x128, .f32⟩ : BufTy).Contents (Elt F) → (⟨S64x128, .f32⟩ : BufTy).Contents (Elt F)),
    TRef.ternary (TRef.of (T := ⟨S64x128, .i1⟩) main_v156) (TRef.of (T := ⟨S64x128, .f32⟩) main_v154) (TRef.of (T := ⟨S64x128, .f32⟩) main_v158) (TRef.of (T := ⟨S64x128, .f32⟩) main_v159) select ]

abbrev writes5 : List (Ref sig .tc) :=
  [main_cst_31, main_v125, main_v126, main_v127, main_v128, main_v129, main_v130, main_v131, main_v132, main_v133, main_cst_32, main_v134, main_v135, main_cst_33, main_v136, main_v137, main_v138, main_cst_34, main_v139, main_v140, main_v141, main_cst_35, main_v142, main_cst_36, main_v143, main_v144, main_v145, main_cst_37, main_v146, main_v147, main_v148, main_v149, main_v150, main_v151, main_v152, main_v153, main_v154, main_cst_38, main_v155, main_v156, main_cst_39, main_v157, main_v158, main_v159]
theorem writes5_sub : (s5 : List (HloOp τ sig (Elt F))).Forall fun op =>
    op.writes ⊆ (writes5.map (Proc.devRef (τ := τ) .tc)).toFinset := by
  repeat' first | exact True.intro | refine (List.forall_cons _ _ _).2 ⟨?_, ?_⟩
  all_goals exact sing_sub (by decide)

theorem carry5 (V : Valuation τ sig (Elt F)) (b : Ref sig .tc) (hb : b ∉ writes5) :
    after s5 V (Proc.devRef .tc b) = V (Proc.devRef .tc b) :=
  after_of_writes_sub _ V writes5_sub hb

abbrev s6 : List (HloOp τ sig (Elt F)) :=
  [ binary main_v79 main_v159 main_v160 ((fun a b => concatenate S64x256 1 [⟨S64x128, a⟩, ⟨S64x128, b⟩] concatenates_S64x128_S64x128_S64x256_d1) : (⟨S64x128, .f32⟩ : BufTy).Contents (Elt F) → (⟨S64x128, .f32⟩ : BufTy).Contents (Elt F) → (⟨S64x256, .f32⟩ : BufTy).Contents (Elt F)),
    binary main_v160 main_arg14 main_v161 ((fun l r => Host.dotGeneral dot_S64x256_S256x1_S64x1_1_0_0_1_n_n none l r) : (⟨S64x256, .f32⟩ : BufTy).Contents (Elt F) → (⟨S256x1, .f32⟩ : BufTy).Contents (Elt F) → (⟨S64x1, .f32⟩ : BufTy).Contents (Elt F)),
    unary main_arg15 main_v162 (broadcastInDim S1x1 ![1] bcast_S1_S1x1_1 : (⟨S1, .f32⟩ : BufTy).Contents (Elt F) → (⟨S1x1, .f32⟩ : BufTy).Contents (Elt F)),
    unary main_v162 main_v163 (broadcastInDim S64x1 ![0, 1] bcast_S1x1_S64x1_0_1 : (⟨S1x1, .f32⟩ : BufTy).Contents (Elt F) → (⟨S64x1, .f32⟩ : BufTy).Contents (Elt F)),
    binary main_v161 main_v163 main_v164 (addf : (⟨S64x1, .f32⟩ : BufTy).Contents (Elt F) → (⟨S64x1, .f32⟩ : BufTy).Contents (Elt F) → (⟨S64x1, .f32⟩ : BufTy).Contents (Elt F)) ]

abbrev writes6 : List (Ref sig .tc) :=
  [main_v160, main_v161, main_v162, main_v163, main_v164]
theorem writes6_sub : (s6 : List (HloOp τ sig (Elt F))).Forall fun op =>
    op.writes ⊆ (writes6.map (Proc.devRef (τ := τ) .tc)).toFinset := by
  repeat' first | exact True.intro | refine (List.forall_cons _ _ _).2 ⟨?_, ?_⟩
  all_goals exact sing_sub (by decide)

theorem carry6 (V : Valuation τ sig (Elt F)) (b : Ref sig .tc) (hb : b ∉ writes6) :
    after s6 V (Proc.devRef .tc b) = V (Proc.devRef .tc b) :=
  after_of_writes_sub _ V writes6_sub hb

section Cumulative
variable (V : Valuation τ sig (Elt F))

abbrev W1 : Valuation τ sig (Elt F) := after s0 V
theorem keep1 (b : Ref sig .tc) (hb : b ∉ writes0) : W1 V (Proc.devRef .tc b) = V (Proc.devRef .tc b) :=
  carry0 V b hb

abbrev W2 : Valuation τ sig (Elt F) := after s1 (W1 V)
theorem keep2 (b : Ref sig .tc) (hb : b ∉ writes0 ++ writes1) : W2 V (Proc.devRef .tc b) = V (Proc.devRef .tc b) :=
  (carry1 (W1 V) b (fun h => hb (List.mem_append_right _ h))).trans (keep1 V b (fun h => hb (List.mem_append_left _ h)))

abbrev W3 : Valuation τ sig (Elt F) := after s2 (W2 V)
theorem keep3 (b : Ref sig .tc) (hb : b ∉ writes0 ++ writes1 ++ writes2) : W3 V (Proc.devRef .tc b) = V (Proc.devRef .tc b) :=
  (carry2 (W2 V) b (fun h => hb (List.mem_append_right _ h))).trans (keep2 V b (fun h => hb (List.mem_append_left _ h)))

abbrev W4 : Valuation τ sig (Elt F) := after s3 (W3 V)
theorem keep4 (b : Ref sig .tc) (hb : b ∉ writes0 ++ writes1 ++ writes2 ++ writes3) : W4 V (Proc.devRef .tc b) = V (Proc.devRef .tc b) :=
  (carry3 (W3 V) b (fun h => hb (List.mem_append_right _ h))).trans (keep3 V b (fun h => hb (List.mem_append_left _ h)))

abbrev W5 : Valuation τ sig (Elt F) := after s4 (W4 V)
theorem keep5 (b : Ref sig .tc) (hb : b ∉ writes0 ++ writes1 ++ writes2 ++ writes3 ++ writes4) : W5 V (Proc.devRef .tc b) = V (Proc.devRef .tc b) :=
  (carry4 (W4 V) b (fun h => hb (List.mem_append_right _ h))).trans (keep4 V b (fun h => hb (List.mem_append_left _ h)))

abbrev W6 : Valuation τ sig (Elt F) := after s5 (W5 V)
theorem keep6 (b : Ref sig .tc) (hb : b ∉ writes0 ++ writes1 ++ writes2 ++ writes3 ++ writes4 ++ writes5) : W6 V (Proc.devRef .tc b) = V (Proc.devRef .tc b) :=
  (carry5 (W5 V) b (fun h => hb (List.mem_append_right _ h))).trans (keep5 V b (fun h => hb (List.mem_append_left _ h)))

abbrev W7 : Valuation τ sig (Elt F) := after s6 (W6 V)
theorem keep7 (b : Ref sig .tc) (hb : b ∉ writes0 ++ writes1 ++ writes2 ++ writes3 ++ writes4 ++ writes5 ++ writes6) : W7 V (Proc.devRef .tc b) = V (Proc.devRef .tc b) :=
  (carry6 (W6 V) b (fun h => hb (List.mem_append_right _ h))).trans (keep6 V b (fun h => hb (List.mem_append_left _ h)))

end Cumulative

def tailF (y1 y2 : (⟨S64x128, .f32⟩ : BufTy).Contents (Elt F)) (fw : (⟨S256x1, .f32⟩ : BufTy).Contents (Elt F))
    (fb : (⟨S1, .f32⟩ : BufTy).Contents (Elt F)) : (⟨S64x1, .f32⟩ : BufTy).Contents (Elt F) :=
  addf (Host.dotGeneral dot_S64x256_S256x1_S64x1_1_0_0_1_n_n none
      (concatenate S64x256 1 [⟨S64x128, y1⟩, ⟨S64x128, y2⟩] concatenates_S64x128_S64x128_S64x256_d1) fw)
    (broadcastInDim S64x1 ![0, 1] bcast_S1x1_S64x1_0_1 (broadcastInDim S1x1 ![1] bcast_S1_S1x1_1 fb))

end Cert.ReferenceIdeal.RunHand

end
-- ==== Proof.RefRunS0.lean ====
import proofs.«419261_j25872882991625_3_alg».proof.Proof.RefRunCut
import proofs.«419261_j25872882991625_3_alg».proof.Proof.RefReadP

noncomputable section

namespace Cert.ReferenceIdeal.RunHand

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]
variable (V : Valuation τ sig (Elt F))

theorem s0_vals :
    (after s0 V (Proc.devRef .tc main_v1) = val_main_v1 (F := F) (V (Proc.devRef .tc main_arg1)))
    ∧ (after s0 V (Proc.devRef .tc main_v3) = val_main_v3 (F := F) (V (Proc.devRef .tc main_arg1)))
    ∧ (after s0 V (Proc.devRef .tc main_v4) = val_main_v4 (F := F) (V (Proc.devRef .tc main_arg0)) (V (Proc.devRef .tc main_arg6)))
    ∧ (after s0 V (Proc.devRef .tc main_v15) = val_main_v15 (F := F) (V (Proc.devRef .tc main_arg1)))
    ∧ (after s0 V (Proc.devRef .tc main_v16) = val_main_v16 (F := F) (V (Proc.devRef .tc main_arg1))) := by
  refine ⟨?_, ?_, ?_, ?_, ?_⟩ <;>
    simp (disch := decide) only [after_cons, after_nil, nullary_result', unary_result', binary_result', ternary_result', reshape_result',
      nullary_result_ne', unary_result_ne', binary_result_ne', ternary_result_ne', reshape_result_ne'] <;>
    simp only [val_main_v0, val_main_v1, val_main_v2, val_main_v3, val_main_v4, val_main_cst, val_main_v5, val_main_c, val_main_v6, val_main_v7, val_main_c_0, val_main_v8, val_main_v9, val_main_v10, val_main_v11, val_main_cst_1, val_main_v12, val_main_v13, val_main_cst_2, val_main_v14, val_main_v15, val_main_v16] <;> rfl

end Cert.ReferenceIdeal.RunHand

end
-- ==== Proof.RefRunS1.lean ====
import proofs.«419261_j25872882991625_3_alg».proof.Proof.RefRunCut
import proofs.«419261_j25872882991625_3_alg».proof.Proof.RefReadP

noncomputable section

namespace Cert.ReferenceIdeal.RunHand

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]
variable (V : Valuation τ sig (Elt F))

theorem s1_v44 (a0 : (⟨S10000x1024, .f32⟩ : BufTy).Contents (Elt F)) (a1 : (⟨S2x160000, .i32⟩ : BufTy).Contents (Elt F)) (a6 : (⟨S1024x1024, .f32⟩ : BufTy).Contents (Elt F))
    (h1 : V (Proc.devRef .tc main_v1) = val_main_v1 (F := F) a1) (h3 : V (Proc.devRef .tc main_v3) = val_main_v3 (F := F) a1)
    (h4 : V (Proc.devRef .tc main_v4) = val_main_v4 (F := F) a0 a6) (h16 : V (Proc.devRef .tc main_v16) = val_main_v16 (F := F) a1) :
    after s1 V (Proc.devRef .tc main_v44) = val_main_v44 (F := F) a0 a1 a6 := by
  after_results_simp
  simp only [h1, h3, h4, h16,
    val_main_v44, val_main_v41, val_main_v40, val_main_v39, val_main_v31, val_main_v30, val_main_v29, val_main_v28,
    val_main_v27, val_main_v26, val_main_c_6, val_main_v25, val_main_v24, val_main_c_5, val_main_v23, val_main_v22,
    val_main_v21, val_main_v20, val_main_v19, val_main_c_4, val_main_v18, val_main_v17, val_main_c_3, val_main_v38,
    val_main_v37, val_main_v36, val_main_v35, val_main_v34, val_main_c_8, val_main_v33, val_main_v32, val_main_c_7,
    val_main_v43, val_main_v42, val_main_cst_9, TRef.toBuf, TRef.ofBuf, cast_eq] <;> rfl

end Cert.ReferenceIdeal.RunHand

end
-- ==== Proof.RefRunS2.lean ====
import proofs.«419261_j25872882991625_3_alg».proof.Proof.RefRunCut
import proofs.«419261_j25872882991625_3_alg».proof.Proof.RefReadP

noncomputable section

namespace Cert.ReferenceIdeal.RunHand

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]
variable (V : Valuation τ sig (Elt F))

theorem s2_v79 (a0 : (⟨S10000x1024, .f32⟩ : BufTy).Contents (Elt F)) (a1 : (⟨S2x160000, .i32⟩ : BufTy).Contents (Elt F)) (a6 : (⟨S1024x1024, .f32⟩ : BufTy).Contents (Elt F))
    (h4 : V (Proc.devRef .tc main_v4) = val_main_v4 (F := F) a0 a6) (h15 : V (Proc.devRef .tc main_v15) = val_main_v15 (F := F) a1)
    (h44 : V (Proc.devRef .tc main_v44) = val_main_v44 (F := F) a0 a1 a6) :
    after s2 V (Proc.devRef .tc main_v79)
      = val_main_v79 (F := F) a0 a1 (V (Proc.devRef .tc main_arg2)) a6 (V (Proc.devRef .tc main_arg7)) (V (Proc.devRef .tc main_arg8)) (V (Proc.devRef .tc main_arg9)) := by
  simp (disch := decide) only [after_cons, after_nil,
    nullary_result', unary_result', binary_result', ternary_result', reshape_result',
    nullary_result_ne', unary_result_ne', binary_result_ne', ternary_result_ne', reshape_result_ne',
    TRef.ofBuf, TRef.toBuf, cast_eq, h4, h15, h44]
  simp only [val_main_cst_10, val_main_v45, val_main_v46, val_main_v47, val_main_v48, val_main_v49, val_main_v50, val_main_v51, val_main_v52, val_main_v53, val_main_cst_11, val_main_v54, val_main_v55, val_main_cst_12, val_main_v56, val_main_v57, val_main_v58, val_main_cst_13, val_main_v59, val_main_v60, val_main_v61, val_main_cst_14, val_main_v62, val_main_cst_15, val_main_v63, val_main_v64, val_main_v65, val_main_cst_16, val_main_v66, val_main_v67, val_main_v68, val_main_v69, val_main_v70, val_main_v71, val_main_v72, val_main_v73, val_main_v74, val_main_cst_17, val_main_v75, val_main_v76, val_main_cst_18, val_main_v77, val_main_v78, val_main_v79] <;> rfl

end Cert.ReferenceIdeal.RunHand

end
-- ==== Proof.RefRunS3.lean ====
import proofs.«419261_j25872882991625_3_alg».proof.Proof.RefRunCut
import proofs.«419261_j25872882991625_3_alg».proof.Proof.RefReadP

noncomputable section

namespace Cert.ReferenceIdeal.RunHand

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]
variable (V : Valuation τ sig (Elt F))

theorem s3_vals :
    (after s3 V (Proc.devRef .tc main_v81) = val_main_v81 (F := F) (V (Proc.devRef .tc main_arg4)))
    ∧ (after s3 V (Proc.devRef .tc main_v83) = val_main_v83 (F := F) (V (Proc.devRef .tc main_arg4)))
    ∧ (after s3 V (Proc.devRef .tc main_v84) = val_main_v84 (F := F) (V (Proc.devRef .tc main_arg3)) (V (Proc.devRef .tc main_arg10)))
    ∧ (after s3 V (Proc.devRef .tc main_v95) = val_main_v95 (F := F) (V (Proc.devRef .tc main_arg4)))
    ∧ (after s3 V (Proc.devRef .tc main_v96) = val_main_v96 (F := F) (V (Proc.devRef .tc main_arg4))) := by
  refine ⟨?_, ?_, ?_, ?_, ?_⟩ <;>
    simp (disch := decide) only [after_cons, after_nil, nullary_result', unary_result', binary_result', ternary_result', reshape_result',
      nullary_result_ne', unary_result_ne', binary_result_ne', ternary_result_ne', reshape_result_ne'] <;>
    simp only [val_main_v80, val_main_v81, val_main_v82, val_main_v83, val_main_v84, val_main_cst_19, val_main_v85, val_main_c_20, val_main_v86, val_main_v87, val_main_c_21, val_main_v88, val_main_v89, val_main_v90, val_main_v91, val_main_cst_22, val_main_v92, val_main_v93, val_main_cst_23, val_main_v94, val_main_v95, val_main_v96] <;> rfl

end Cert.ReferenceIdeal.RunHand

end
-- ==== Proof.RefRunS4.lean ====
import proofs.«419261_j25872882991625_3_alg».proof.Proof.RefRunCut
import proofs.«419261_j25872882991625_3_alg».proof.Proof.RefReadP

noncomputable section

namespace Cert.ReferenceIdeal.RunHand

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]
variable (V : Valuation τ sig (Elt F))

theorem s4_v124 (a3 : (⟨S10000x1024, .f32⟩ : BufTy).Contents (Elt F)) (a4 : (⟨S2x160000, .i32⟩ : BufTy).Contents (Elt F)) (a10 : (⟨S1024x1024, .f32⟩ : BufTy).Contents (Elt F))
    (h1 : V (Proc.devRef .tc main_v81) = val_main_v81 (F := F) a4) (h3 : V (Proc.devRef .tc main_v83) = val_main_v83 (F := F) a4)
    (h4 : V (Proc.devRef .tc main_v84) = val_main_v84 (F := F) a3 a10) (h16 : V (Proc.devRef .tc main_v96) = val_main_v96 (F := F) a4) :
    after s4 V (Proc.devRef .tc main_v124) = val_main_v124 (F := F) a3 a4 a10 := by
  after_results_simp
  simp only [h1, h3, h4, h16,
    val_main_v124, val_main_v121, val_main_v120, val_main_v119, val_main_v111, val_main_v110, val_main_v109,
    val_main_v108, val_main_v107, val_main_v106, val_main_c_27, val_main_v105, val_main_v104, val_main_c_26,
    val_main_v103, val_main_v102, val_main_v101, val_main_v100, val_main_v99, val_main_c_25, val_main_v98,
    val_main_v97, val_main_c_24, val_main_v118, val_main_v117, val_main_v116, val_main_v115, val_main_v114,
    val_main_c_29, val_main_v113, val_main_v112, val_main_c_28, val_main_v123, val_main_v122, val_main_cst_30,
    TRef.toBuf, TRef.ofBuf, cast_eq] <;> rfl

end Cert.ReferenceIdeal.RunHand

end
-- ==== Proof.RefRunS5.lean ====
import proofs.«419261_j25872882991625_3_alg».proof.Proof.RefRunCut
import proofs.«419261_j25872882991625_3_alg».proof.Proof.RefReadP

noncomputable section

namespace Cert.ReferenceIdeal.RunHand

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]
variable (V : Valuation τ sig (Elt F))

theorem s5_v159 (a3 : (⟨S10000x1024, .f32⟩ : BufTy).Contents (Elt F)) (a4 : (⟨S2x160000, .i32⟩ : BufTy).Contents (Elt F)) (a10 : (⟨S1024x1024, .f32⟩ : BufTy).Contents (Elt F))
    (h4 : V (Proc.devRef .tc main_v84) = val_main_v84 (F := F) a3 a10) (h15 : V (Proc.devRef .tc main_v95) = val_main_v95 (F := F) a4)
    (h44 : V (Proc.devRef .tc main_v124) = val_main_v124 (F := F) a3 a4 a10) :
    after s5 V (Proc.devRef .tc main_v159)
      = val_main_v159 (F := F) a3 a4 (V (Proc.devRef .tc main_arg5)) a10 (V (Proc.devRef .tc main_arg11)) (V (Proc.devRef .tc main_arg12)) (V (Proc.devRef .tc main_arg13)) := by
  simp (disch := decide) only [after_cons, after_nil,
    nullary_result', unary_result', binary_result', ternary_result', reshape_result',
    nullary_result_ne', unary_result_ne', binary_result_ne', ternary_result_ne', reshape_result_ne',
    TRef.ofBuf, TRef.toBuf, cast_eq, h4, h15, h44]
  simp only [val_main_cst_31, val_main_v125, val_main_v126, val_main_v127, val_main_v128, val_main_v129, val_main_v130, val_main_v131, val_main_v132, val_main_v133, val_main_cst_32, val_main_v134, val_main_v135, val_main_cst_33, val_main_v136, val_main_v137, val_main_v138, val_main_cst_34, val_main_v139, val_main_v140, val_main_v141, val_main_cst_35, val_main_v142, val_main_cst_36, val_main_v143, val_main_v144, val_main_v145, val_main_cst_37, val_main_v146, val_main_v147, val_main_v148, val_main_v149, val_main_v150, val_main_v151, val_main_v152, val_main_v153, val_main_v154, val_main_cst_38, val_main_v155, val_main_v156, val_main_cst_39, val_main_v157, val_main_v158, val_main_v159] <;> rfl

end Cert.ReferenceIdeal.RunHand

end
-- ==== Proof.RefRunS6.lean ====
import proofs.«419261_j25872882991625_3_alg».proof.Proof.RefRunCut
import proofs.«419261_j25872882991625_3_alg».proof.Proof.RefReadP

noncomputable section

namespace Cert.ReferenceIdeal.RunHand

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]
variable (V : Valuation τ sig (Elt F))

theorem s6_v164 :
    after s6 V (Proc.devRef .tc main_v164)
      = tailF (F := F) (V (Proc.devRef .tc main_v79)) (V (Proc.devRef .tc main_v159)) (V (Proc.devRef .tc main_arg14)) (V (Proc.devRef .tc main_arg15)) := by
  after_results_simp
  rfl

end Cert.ReferenceIdeal.RunHand

end
-- ==== Proof.RefRun.lean ====
import proofs.«419261_j25872882991625_3_alg».proof.Proof.RefRunP
import proofs.«419261_j25872882991625_3_alg».proof.Proof.RefReadP
import proofs.«419261_j25872882991625_3_alg».proof.Proof.RefRunCut
import proofs.«419261_j25872882991625_3_alg».proof.Proof.RefRunS0
import proofs.«419261_j25872882991625_3_alg».proof.Proof.RefRunS1
import proofs.«419261_j25872882991625_3_alg».proof.Proof.RefRunS2
import proofs.«419261_j25872882991625_3_alg».proof.Proof.RefRunS3
import proofs.«419261_j25872882991625_3_alg».proof.Proof.RefRunS4
import proofs.«419261_j25872882991625_3_alg».proof.Proof.RefRunS5
import proofs.«419261_j25872882991625_3_alg».proof.Proof.RefRunS6

noncomputable section

namespace Cert.ReferenceIdeal.RunHand

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

theorem ops_eq : (ValueP.ops : List (HloOp τ sig (Elt F))) = s0 ++ s1 ++ s2 ++ s3 ++ s4 ++ s5 ++ s6 := rfl

theorem after_ops (V : Valuation τ sig (Elt F)) : after (ValueP.ops (F := F)) V = W7 V := by
  rw [ops_eq]
  simp only [after_append]

section Assemble
variable (V : Valuation τ sig (Elt F))

theorem w3_v79 :
    W3 V (Proc.devRef .tc main_v79) = val_main_v79 (F := F) (V (Proc.devRef .tc main_arg0)) (V (Proc.devRef .tc main_arg1)) (V (Proc.devRef .tc main_arg2)) (V (Proc.devRef .tc main_arg6)) (V (Proc.devRef .tc main_arg7)) (V (Proc.devRef .tc main_arg8)) (V (Proc.devRef .tc main_arg9)) := by
  have h4 : W2 V (Proc.devRef .tc main_v4) = val_main_v4 (F := F) (V (Proc.devRef .tc main_arg0)) (V (Proc.devRef .tc main_arg6)) :=
    (carry1 (W1 V) main_v4 (by decide)).trans (s0_vals V).2.2.1
  have h15 : W2 V (Proc.devRef .tc main_v15) = val_main_v15 (F := F) (V (Proc.devRef .tc main_arg1)) :=
    (carry1 (W1 V) main_v15 (by decide)).trans (s0_vals V).2.2.2.1
  have h44 : W2 V (Proc.devRef .tc main_v44) = val_main_v44 (F := F) (V (Proc.devRef .tc main_arg0)) (V (Proc.devRef .tc main_arg1)) (V (Proc.devRef .tc main_arg6)) :=
    s1_v44 (W1 V) _ _ _ (s0_vals V).1 (s0_vals V).2.1 (s0_vals V).2.2.1 (s0_vals V).2.2.2.2
  have h := s2_v79 (W2 V) _ _ _ h4 h15 h44
  rw [keep2 V main_arg2 (by decide), keep2 V main_arg7 (by decide), keep2 V main_arg8 (by decide),
    keep2 V main_arg9 (by decide)] at h
  exact h

theorem w6_v159 :
    W6 V (Proc.devRef .tc main_v159) = val_main_v159 (F := F) (V (Proc.devRef .tc main_arg3)) (V (Proc.devRef .tc main_arg4)) (V (Proc.devRef .tc main_arg5)) (V (Proc.devRef .tc main_arg10)) (V (Proc.devRef .tc main_arg11)) (V (Proc.devRef .tc main_arg12)) (V (Proc.devRef .tc main_arg13)) := by
  have k3 := keep3 V main_arg3 (by decide)
  have k4 := keep3 V main_arg4 (by decide)
  have k10 := keep3 V main_arg10 (by decide)
  have e81 : W4 V (Proc.devRef .tc main_v81) = val_main_v81 (F := F) (V (Proc.devRef .tc main_arg4)) := by
    have h := (s3_vals (W3 V)).1; rw [k4] at h; exact h
  have e83 : W4 V (Proc.devRef .tc main_v83) = val_main_v83 (F := F) (V (Proc.devRef .tc main_arg4)) := by
    have h := (s3_vals (W3 V)).2.1; rw [k4] at h; exact h
  have e84 : W4 V (Proc.devRef .tc main_v84) = val_main_v84 (F := F) (V (Proc.devRef .tc main_arg3)) (V (Proc.devRef .tc main_arg10)) := by
    have h := (s3_vals (W3 V)).2.2.1; rw [k3, k10] at h; exact h
  have e95 : W4 V (Proc.devRef .tc main_v95) = val_main_v95 (F := F) (V (Proc.devRef .tc main_arg4)) := by
    have h := (s3_vals (W3 V)).2.2.2.1; rw [k4] at h; exact h
  have e96 : W4 V (Proc.devRef .tc main_v96) = val_main_v96 (F := F) (V (Proc.devRef .tc main_arg4)) := by
    have h := (s3_vals (W3 V)).2.2.2.2; rw [k4] at h; exact h
  have h84 : W5 V (Proc.devRef .tc main_v84) = val_main_v84 (F := F) (V (Proc.devRef .tc main_arg3)) (V (Proc.devRef .tc main_arg10)) :=
    (carry4 (W4 V) main_v84 (by decide)).trans e84
  have h95 : W5 V (Proc.devRef .tc main_v95) = val_main_v95 (F := F) (V (Proc.devRef .tc main_arg4)) :=
    (carry4 (W4 V) main_v95 (by decide)).trans e95
  have h124 : W5 V (Proc.devRef .tc main_v124) = val_main_v124 (F := F) (V (Proc.devRef .tc main_arg3)) (V (Proc.devRef .tc main_arg4)) (V (Proc.devRef .tc main_arg10)) :=
    s4_v124 (W4 V) _ _ _ e81 e83 e84 e96
  have h := s5_v159 (W5 V) _ _ _ h84 h95 h124
  rw [keep5 V main_arg5 (by decide), keep5 V main_arg11 (by decide), keep5 V main_arg12 (by decide),
    keep5 V main_arg13 (by decide)] at h
  exact h

theorem w7_v164 :
    W7 V (Proc.devRef .tc main_v164)
      = val_main_v164 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) := by
  have h79 : W6 V (Proc.devRef .tc main_v79) = val_main_v79 (F := F) (V (Proc.devRef .tc main_arg0)) (V (Proc.devRef .tc main_arg1)) (V (Proc.devRef .tc main_arg2)) (V (Proc.devRef .tc main_arg6)) (V (Proc.devRef .tc main_arg7)) (V (Proc.devRef .tc main_arg8)) (V (Proc.devRef .tc main_arg9)) :=
    (carry5 (W5 V) main_v79 (by decide)).trans ((carry4 (W4 V) main_v79 (by decide)).trans
      ((carry3 (W3 V) main_v79 (by decide)).trans (w3_v79 V)))
  have h := s6_v164 (W6 V)
  rw [h79, w6_v159 V, keep6 V main_arg14 (by decide), keep6 V main_arg15 (by decide)] at h
  exact h

end Assemble

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v164)
        = val_main_v164 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c =>
    have ha : ∀ b : Ref sig .tc, b ∉ writes0 ++ writes1 ++ writes2 ++ writes3 ++ writes4 ++ writes5 ++ writes6 →
        _ = m ((c.tc : Thread nD τ).loc b) := fun b hb =>
      (h c b).trans ((congrFun (after_ops _) _).trans (keep7 _ b hb))
    ⟨(h c main_v164).trans ((congrFun (after_ops _) _).trans (w7_v164 _)),
      ha main_arg0 (by decide),
      ha main_arg1 (by decide),
      ha main_arg2 (by decide),
      ha main_arg3 (by decide),
      ha main_arg4 (by decide),
      ha main_arg5 (by decide),
      ha main_arg6 (by decide),
      ha main_arg7 (by decide),
      ha main_arg8 (by decide),
      ha main_arg9 (by decide),
      ha main_arg10 (by decide),
      ha main_arg11 (by decide),
      ha main_arg12 (by decide),
      ha main_arg13 (by decide),
      ha main_arg14 (by decide),
      ha main_arg15 (by decide)⟩)
    (ValueP.run0 m ρ)

end Cert.ReferenceIdeal.RunHand

end
-- ==== Proof.RefSG.lean ====
import proofs.«419261_j25872882991625_3_alg».proof.ReferenceIdeal
import Idealize.ShloMosaic.PureOps.Ideal
import Idealize.ShloMosaic.Lib.ValueIdx

open scoped BigOperators

noncomputable section

namespace Cert.ReferenceIdeal.HostRead

open Idealize.ShloMosaic Idealize.ShloMosaic.ValueIdx

theorem lands_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hi a
      have h1 := (h a).1
      have h2 : (i a).val = (d.start j idx a + (d.window j a : ℤ)).toNat := by rw [← hi]
      omega
    · intro hi
      funext a
      refine Fin.ext ?_
      show (d.start j idx a + (d.window j a : ℤ)).toNat = (i a).val
      have := hi a
      omega
  · rename_i h
    constructor
    · intro hn
      exact absurd hn (by simp)
    · intro hi
      refine absurd (fun a => ?_) h
      have h1 := hi a
      have h2 := (i a).isLt
      constructor <;> omega

theorem scatter_reindex {s si su : Shape} (d : ScatterDims s si su) {w : Nat} (x : s.Idx → EReal) (idx : IVec si w)
    (upd : su.Idx → EReal) (i : s.Idx) {E : Nat} (p : Fin E → Prop) [DecidablePred p] (f : Fin E → su.Idx)
    (g : su.Idx → Fin E)
    (hfg : ∀ j, d.resultIdx? j idx = some i → f (g j) = j ∧ p (g j))
    (hgf : ∀ e, p e → g (f e) = e ∧ d.resultIdx? (f e) idx = some i) :
    Ideal.hostScatterAdd d x idx upd i = x i + ∑ e ∈ Finset.univ.filter p, upd (f e) := by
  unfold Ideal.hostScatterAdd
  congr 1
  refine Finset.sum_nbij' g f ?_ ?_ ?_ ?_ ?_
  · intro j hj
    rw [Finset.mem_filter] at hj ⊢
    exact ⟨Finset.mem_univ _, (hfg j hj.2).2⟩
  · intro e he
    rw [Finset.mem_filter] at he ⊢
    exact ⟨Finset.mem_univ _, (hgf e he.2).2⟩
  · intro j hj
    rw [Finset.mem_filter] at hj
    exact (hfg j hj.2).1
  · intro e he
    rw [Finset.mem_filter] at he
    exact (hgf e he.2).1
  · intro j hj
    rw [Finset.mem_filter] at hj
    rw [(hfg j hj.2).1]

abbrev eltDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section
variable {N E w : Nat} (wf : ScatterDims.WF ⟨1, ![N]⟩ ⟨2, ![E, 1]⟩ ⟨1, ![E]⟩ [] [0] [0] 1)

theorem eltDims_siIdx (j : (⟨1, ![E]⟩ : Shape).Idx) (c : Fin (eltDims N E wf).scatterDimsToOperandDims.length) :
    (eltDims N E wf).siIdx j c = ix2 (j 0) (0 : Fin 1) := by
  funext b
  refine Fin.ext ?_
  match b with
  | ⟨0, _⟩ => rfl
  | ⟨1, _⟩ =>
    have : c.val = 0 := by have := c.isLt; simpa using this
    show c.val = 0
    exact this

theorem eltDims_start (j : (⟨1, ![E]⟩ : Shape).Idx) (idx : IVec ⟨2, ![E, 1]⟩ w) :
    (eltDims N E wf).start j idx 0 = (idx (ix2 (j 0) (0 : Fin 1))).toInt := by
  unfold ScatterDims.start
  rw [dif_pos (show (0 : Fin 1) ∈ (eltDims N E wf).scatterDimsToOperandDims from List.mem_singleton.mpr rfl),
    eltDims_siIdx]
  rfl

theorem eltDims_window (j : (⟨1, ![E]⟩ : Shape).Idx) : (eltDims N E wf).window j 0 = 0 := rfl

theorem eltDims_lands (j : (⟨1, ![E]⟩ : Shape).Idx) (idx : IVec ⟨2, ![E, 1]⟩ w) (n : Fin N) :
    (eltDims N E wf).resultIdx? j idx = some (ix1 n) ↔ (idx (ix2 (j 0) (0 : Fin 1))).toInt = (n.val : ℤ) := by
  rw [lands_iff]
  constructor
  · intro h
    have h0 : (eltDims N E wf).start j idx 0 + ((eltDims N E wf).window j 0 : ℤ) = (n.val : ℤ) := h 0
    rw [eltDims_start, eltDims_window] at h0
    simpa using h0
  · intro h a
    obtain rfl : a = 0 := Subsingleton.elim _ _
    show (eltDims N E wf).start j idx 0 + ((eltDims N E wf).window j 0 : ℤ) = (n.val : ℤ)
    rw [eltDims_start, eltDims_window]
    simpa using h

theorem eltDims_apply (x : FVec Ideal ⟨1, ![N]⟩ .f32) (idx : IVec ⟨2, ![E, 1]⟩ w) (u : FVec Ideal ⟨1, ![E]⟩ .f32)
    (n : Fin N) :
    Host.scatterAdd (eltDims N E wf) x idx u (ix1 n)
      = x (ix1 n) + ∑ e ∈ Finset.univ.filter
          (fun e : Fin E => (idx (ix2 e (0 : Fin 1))).toInt = (n.val : ℤ)), u (ix1 e) := by
  refine scatter_reindex (eltDims N E wf) x idx u (ix1 n) _ (fun e => ix1 e) (fun j => j 0) ?_ ?_
  · intro j hj
    exact ⟨(eq_ix1 j).symm, (eltDims_lands wf j idx n).mp hj⟩
  · intro e he
    exact ⟨rfl, (eltDims_lands wf (ix1 e) idx n).mpr he⟩
end

abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section
variable {N E C w : Nat} (wf : ScatterDims.WF ⟨2, ![N, C]⟩ ⟨2, ![E, 1]⟩ ⟨2, ![E, C]⟩ [1] [0] [0] 1)

theorem rowDims_siIdx (j : (⟨2, ![E, C]⟩ : Shape).Idx) (c : Fin (rowDims N E C wf).scatterDimsToOperandDims.length) :
    (rowDims N E C wf).siIdx j c = ix2 (j 0) (0 : Fin 1) := by
  funext b
  refine Fin.ext ?_
  match b with
  | ⟨0, _⟩ => rfl
  | ⟨1, _⟩ =>
    have : c.val = 0 := by have := c.isLt; simpa using this
    show c.val = 0
    exact this

theorem rowDims_start0 (j : (⟨2, ![E, C]⟩ : Shape).Idx) (idx : IVec ⟨2, ![E, 1]⟩ w) :
    (rowDims N E C wf).start j idx 0 = (idx (ix2 (j 0) (0 : Fin 1))).toInt := by
  unfold ScatterDims.start
  rw [dif_pos (show (0 : Fin 2) ∈ (rowDims N E C wf).scatterDimsToOperandDims from List.mem_singleton.mpr rfl),
    rowDims_siIdx]
  rfl

theorem rowDims_start1 (j : (⟨2, ![E, C]⟩ : Shape).Idx) (idx : IVec ⟨2, ![E, 1]⟩ w) :
    (rowDims N E C wf).start j idx 1 = 0 := rfl

theorem rowDims_window0 (j : (⟨2, ![E, C]⟩ : Shape).Idx) : (rowDims N E C wf).window j 0 = 0 := rfl

theorem rowDims_window1 (j : (⟨2, ![E, C]⟩ : Shape).Idx) : (rowDims N E C wf).window j 1 = (j 1).val := rfl

theorem rowDims_lands (j : (⟨2, ![E, C]⟩ : Shape).Idx) (idx : IVec ⟨2, ![E, 1]⟩ w) (n : Fin N) (c : Fin C) :
    (rowDims N E C wf).resultIdx? j idx = some (ix2 n c)
      ↔ (idx (ix2 (j 0) (0 : Fin 1))).toInt = (n.val : ℤ) ∧ j 1 = c := by
  rw [lands_iff]
  constructor
  · intro h
    have h0 : (rowDims N E C wf).start j idx 0 + ((rowDims N E C wf).window j 0 : ℤ) = (n.val : ℤ) := h 0
    have h1 : (rowDims N E C wf).start j idx 1 + ((rowDims N E C wf).window j 1 : ℤ) = (c.val : ℤ) := h 1
    rw [rowDims_start0, rowDims_window0] at h0
    rw [rowDims_start1, rowDims_window1] at h1
    refine ⟨by simpa using h0, Fin.ext ?_⟩
    have : ((j 1).val : ℤ) = (c.val : ℤ) := by simpa using h1
    exact_mod_cast this
  · rintro ⟨h0, h1⟩ a
    match a with
    | ⟨0, _⟩ =>
      show (rowDims N E C wf).start j idx 0 + ((rowDims N E C wf).window j 0 : ℤ) = (n.val : ℤ)
      rw [rowDims_start0, rowDims_window0]
      simpa using h0
    | ⟨1, _⟩ =>
      show (rowDims N E C wf).start j idx 1 + ((rowDims N E C wf).window j 1 : ℤ) = (c.val : ℤ)
      rw [rowDims_start1, rowDims_window1, h1]
      simp

theorem rowDims_apply (x : FVec Ideal ⟨2, ![N, C]⟩ .f32) (idx : IVec ⟨2, ![E, 1]⟩ w)
    (u : FVec Ideal ⟨2, ![E, C]⟩ .f32) (n : Fin N) (c : Fin C) :
    Host.scatterAdd (rowDims N E C wf) x idx u (ix2 n c)
      = x (ix2 n c) + ∑ e ∈ Finset.univ.filter
          (fun e : Fin E => (idx (ix2 e (0 : Fin 1))).toInt = (n.val : ℤ)), u (ix2 e c) := by
  refine scatter_reindex (rowDims N E C wf) x idx u (ix2 n c) _ (fun e => ix2 e c) (fun j => j 0) ?_ ?_
  · intro j hj
    have h := (rowDims_lands wf j idx n c).mp hj
    refine ⟨?_, h.1⟩
    show ix2 (j 0) c = j
    rw [← h.2]
    exact (eq_ix2 j).symm
  · intro e he
    exact ⟨rfl, (rowDims_lands wf (ix2 e c) idx n c).mpr ⟨he, rfl⟩⟩
end

abbrev gEltDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

abbrev gRowDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

section
variable {α : Type} {N E w : Nat} (wf : GatherDims.WF ⟨1, ![N]⟩ ⟨2, ![E, 1]⟩ ⟨1, ![E]⟩ [] [0] [] [0] [] 1 ![1])

theorem gEltDims_siIdx (y : (⟨1, ![E]⟩ : Shape).Idx) (c : Fin (gEltDims N E wf).startIndexMap.length) :
    (gEltDims N E wf).siIdx y c = ix2 (y 0) (0 : Fin 1) := by
  funext b
  refine Fin.ext ?_
  match b with
  | ⟨0, _⟩ => rfl
  | ⟨1, _⟩ =>
    have : c.val = 0 := by have := c.isLt; simpa using this
    show c.val = 0
    exact this

theorem gEltDims_start (y : (⟨1, ![E]⟩ : Shape).Idx) (idx : IVec ⟨2, ![E, 1]⟩ w) :
    (gEltDims N E wf).start y idx 0 = min (idx (ix2 (y 0) (0 : Fin 1))).toInt.toNat (N - 1) := by
  unfold GatherDims.start
  rw [dif_pos (show (0 : Fin 1) ∈ (gEltDims N E wf).startIndexMap from List.mem_singleton.mpr rfl), gEltDims_siIdx]
  rfl

theorem gEltDims_apply (x : (⟨1, ![N]⟩ : Shape).Idx → α) (idx : IVec ⟨2, ![E, 1]⟩ w) (e : Fin E)
    (h0 : 0 ≤ (idx (ix2 e (0 : Fin 1))).toInt) (h1 : (idx (ix2 e (0 : Fin 1))).toInt < N) :
    Host.gather (gEltDims N E wf) x idx (ix1 e)
      = x (ix1 ⟨(idx (ix2 e (0 : Fin 1))).toInt.toNat, by omega⟩) := by
  unfold Host.gather
  congr 1
  funext a
  obtain rfl : a = 0 := Subsingleton.elim _ _
  refine Fin.ext ?_
  show (gEltDims N E wf).start (ix1 e) idx 0 + (gEltDims N E wf).batchCoord (ix1 e) 0
    + (gEltDims N E wf).offCoord (ix1 e) 0 = (idx (ix2 e (0 : Fin 1))).toInt.toNat
  have hb : (gEltDims N E wf).batchCoord (ix1 e) 0 = 0 := rfl
  have ho : (gEltDims N E wf).offCoord (ix1 e) 0 = 0 := rfl
  rw [hb, ho, gEltDims_start]
  show min (idx (ix2 e (0 : Fin 1))).toInt.toNat (N - 1) + 0 + 0 = _
  omega
end

section
variable {α : Type} {N E C w : Nat}
  (wf : GatherDims.WF ⟨2, ![N, C]⟩ ⟨2, ![E, 1]⟩ ⟨2, ![E, C]⟩ [1] [0] [] [0] [] 1 ![1, C])

theorem gRowDims_siIdx (y : (⟨2, ![E, C]⟩ : Shape).Idx) (c : Fin (gRowDims N E C wf).startIndexMap.length) :
    (gRowDims N E C wf).siIdx y c = ix2 (y 0) (0 : Fin 1) := by
  funext b
  refine Fin.ext ?_
  match b with
  | ⟨0, _⟩ => rfl
  | ⟨1, _⟩ =>
    have : c.val = 0 := by have := c.isLt; simpa using this
    show c.val = 0
    exact this

theorem gRowDims_start0 (y : (⟨2, ![E, C]⟩ : Shape).Idx) (idx : IVec ⟨2, ![E, 1]⟩ w) :
    (gRowDims N E C wf).start y idx 0 = min (idx (ix2 (y 0) (0 : Fin 1))).toInt.toNat (N - 1) := by
  unfold GatherDims.start
  rw [dif_pos (show (0 : Fin 2) ∈ (gRowDims N E C wf).startIndexMap from List.mem_singleton.mpr rfl),
    gRowDims_siIdx]
  rfl

theorem gRowDims_apply (x : (⟨2, ![N, C]⟩ : Shape).Idx → α) (idx : IVec ⟨2, ![E, 1]⟩ w) (e : Fin E) (c : Fin C)
    (h0 : 0 ≤ (idx (ix2 e (0 : Fin 1))).toInt) (h1 : (idx (ix2 e (0 : Fin 1))).toInt < N) :
    Host.gather (gRowDims N E C wf) x idx (ix2 e c)
      = x (ix2 ⟨(idx (ix2 e (0 : Fin 1))).toInt.toNat, by omega⟩ c) := by
  unfold Host.gather
  congr 1
  funext a
  refine Fin.ext ?_
  match a with
  | ⟨0, _⟩ =>
    show (gRowDims N E C wf).start (ix2 e c) idx 0 + (gRowDims N E C wf).batchCoord (ix2 e c) 0
      + (gRowDims N E C wf).offCoord (ix2 e c) 0 = (idx (ix2 e (0 : Fin 1))).toInt.toNat
    have hb : (gRowDims N E C wf).batchCoord (ix2 e c) 0 = 0 := rfl
    have ho : (gRowDims N E C wf).offCoord (ix2 e c) 0 = 0 := rfl
    rw [hb, ho, gRowDims_start0]
    show min (idx (ix2 e (0 : Fin 1))).toInt.toNat (N - 1) + 0 + 0 = _
    omega
  | ⟨1, _⟩ =>
    show (gRowDims N E C wf).start (ix2 e c) idx 1 + (gRowDims N E C wf).batchCoord (ix2 e c) 1
      + (gRowDims N E C wf).offCoord (ix2 e c) 1 = c.val
    have hs : (gRowDims N E C wf).start (ix2 e c) idx 1 = 0 := rfl
    have hb : (gRowDims N E C wf).batchCoord (ix2 e c) 1 = 0 := rfl
    have ho : (gRowDims N E C wf).offCoord (ix2 e c) 1 = c.val := rfl
    rw [hs, hb, ho]
    omega
end

variable [Facts₀]

theorem scatterDeg_apply (x : FVec Ideal S10000 .f32) (idx : IVec S160000x1 32) (u : FVec Ideal S160000 .f32)
    (n : Fin 10000) :
    Host.scatterAdd scatter_S10000_S160000x1_S160000_n_0_0_1 x idx u (ix1 n)
      = x (ix1 n) + ∑ e ∈ Finset.univ.filter
          (fun e : Fin 160000 => (idx (ix2 e (0 : Fin 1))).toInt = (n.val : ℤ)), u (ix1 e) :=
  eltDims_apply Facts₀.scatter_S10000_S160000x1_S160000_n_0_0_1_wf x idx u n

theorem scatterRows_apply (x : FVec Ideal S10000x1024 .f32) (idx : IVec S160000x1 32)
    (u : FVec Ideal S160000x1024 .f32) (n : Fin 10000) (j : Fin 1024) :
    Host.scatterAdd scatter_S10000x1024_S160000x1_S160000x1024_1_0_0_1 x idx u (ix2 n j)
      = x (ix2 n j) + ∑ e ∈ Finset.univ.filter
          (fun e : Fin 160000 => (idx (ix2 e (0 : Fin 1))).toInt = (n.val : ℤ)), u (ix2 e j) :=
  rowDims_apply Facts₀.scatter_S10000x1024_S160000x1_S160000x1024_1_0_0_1_wf x idx u n j

theorem scatterPool_apply (x : FVec Ideal S64x1024 .f32) (idx : IVec S10000x1 32)
    (u : FVec Ideal S10000x1024 .f32) (n : Fin 64) (j : Fin 1024) :
    Host.scatterAdd scatter_S64x1024_S10000x1_S10000x1024_1_0_0_1 x idx u (ix2 n j)
      = x (ix2 n j) + ∑ e ∈ Finset.univ.filter
          (fun e : Fin 10000 => (idx (ix2 e (0 : Fin 1))).toInt = (n.val : ℤ)), u (ix2 e j) :=
  rowDims_apply Facts₀.scatter_S64x1024_S10000x1_S10000x1024_1_0_0_1_wf x idx u n j

theorem scatterCnt_apply (x : FVec Ideal S64 .f32) (idx : IVec S10000x1 32) (u : FVec Ideal S10000 .f32)
    (n : Fin 64) :
    Host.scatterAdd scatter_S64_S10000x1_S10000_n_0_0_1 x idx u (ix1 n)
      = x (ix1 n) + ∑ e ∈ Finset.univ.filter
          (fun e : Fin 10000 => (idx (ix2 e (0 : Fin 1))).toInt = (n.val : ℤ)), u (ix1 e) :=
  eltDims_apply Facts₀.scatter_S64_S10000x1_S10000_n_0_0_1_wf x idx u n

theorem gatherElt_apply {α : Type} (x : S10000.Idx → α) (idx : IVec S160000x1 32) (e : Fin 160000)
    (h0 : 0 ≤ (idx (ix2 e (0 : Fin 1))).toInt) (h1 : (idx (ix2 e (0 : Fin 1))).toInt < 10000) :
    Host.gather gather_S10000_S160000x1_S160000_n_0_n_n_0_1_1 x idx (ix1 e)
      = x (ix1 ⟨(idx (ix2 e (0 : Fin 1))).toInt.toNat, by omega⟩) :=
  gEltDims_apply Facts₀.gather_S10000_S160000x1_S160000_n_0_n_n_0_1_1_wf x idx e h0 h1

theorem gatherRows_apply {α : Type} (x : S10000x1024.Idx → α) (idx : IVec S160000x1 32) (e : Fin 160000)
    (j : Fin 1024)
    (h0 : 0 ≤ (idx (ix2 e (0 : Fin 1))).toInt) (h1 : (idx (ix2 e (0 : Fin 1))).toInt < 10000) :
    Host.gather gather_S10000x1024_S160000x1_S160000x1024_1_0_n_n_0_1_11024 x idx (ix2 e j)
      = x (ix2 ⟨(idx (ix2 e (0 : Fin 1))).toInt.toNat, by omega⟩ j) :=
  gRowDims_apply Facts₀.gather_S10000x1024_S160000x1_S160000x1024_1_0_n_n_0_1_11024_wf x idx e j h0 h1

end Cert.ReferenceIdeal.HostRead

end
-- ==== Proof.RefVal.lean ====
import proofs.«419261_j25872882991625_3_alg».proof.Defs
import proofs.«419261_j25872882991625_3_alg».proof.Proof.RefReadP
import proofs.«419261_j25872882991625_3_alg».proof.Proof.SpecFns
import proofs.«419261_j25872882991625_3_alg».proof.Proof.SpecMk
import proofs.«419261_j25872882991625_3_alg».proof.Proof.RefSG

open scoped BigOperators

noncomputable section

namespace Cert.ReferenceIdeal.RefValue

open Cert.ReferenceIdeal Cert.ReferenceIdeal.Gen Idealize.ShloMosaic Idealize.ShloMosaic.ValueIdx Cert.Spec
open Cert.ReferenceIdeal.ReadP Cert.ReferenceIdeal.HostRead

abbrev FA (s : Shape) : Type := (⟨s, .f32⟩ : BufTy).Contents (Elt Ideal)

abbrev IA (s : Shape) : Type := (⟨s, .i32⟩ : BufTy).Contents (Elt Ideal)

theorem ofBits_one_f32 : Ideal.ofBits .f32 0x3F800000#32 = 1 := by
  simp [Ideal.ofBits, Ideal.ieee, -EReal.coe_mul]; norm_num

theorem normIdx_of_nonneg (z : BitVec 32) (h0 : 0 ≤ z.toInt) :
    Scalar.select (IntOp.cmpi .slt z 0#32) (IntOp.addi z 10000#32) z = z := by
  have hc : IntOp.cmpi .slt z 0#32 = 0#1 := by
    have hs : z.slt 0#32 = false := by
      simp only [BitVec.slt, BitVec.toInt_zero, decide_eq_false_iff_not, not_lt]; exact h0
    show BitVec.ofBool (z.slt 0#32) = 0#1
    rw [hs]; rfl
  rw [hc, select_zero]

theorem leaky_read (y : EReal) :
    Scalar.select (Ideal.cmp .oge y 0) y (Ideal.ofBits .f32 0x3C23D70A#32 * y) = leakyE y := by
  unfold leakyE Cert.Spec.slope Ideal.cmp
  by_cases h : (0 : EReal) ≤ y
  · simp only [h, decide_true, BitVec.ofBool_true, if_true]; exact select_one _ _
  · simp only [h, decide_false, BitVec.ofBool_false, if_false]; exact select_zero _ _

theorem nodeOf_val {z : ℤ} (h0 : 0 ≤ z) (h1 : z < 10000) : (nodeOf z).val = z.toNat := by
  unfold nodeOf; show z.toNat % 10000 = z.toNat; omega

theorem nodeOf_eq_iff {z : ℤ} (h0 : 0 ≤ z) (h1 : z < 10000) (n : Fin 10000) : nodeOf z = n ↔ z = (n.val : ℤ) := by
  rw [Fin.ext_iff, nodeOf_val h0 h1]; omega

theorem nodeOf_mk {z : ℤ} (h0 : 0 ≤ z) (h1 : z < 10000) (h : z.toNat < 10000) : (⟨z.toNat, h⟩ : Fin 10000) = nodeOf z :=
  Fin.ext (nodeOf_val h0 h1).symm

section Branch

variable (x : FA S10000x1024) (ei : IA S2x160000) (bt : IA S10000) (W : FA S1024x1024) (b : FA S1024)
  (fcW : FA S1024x128) (fcb : FA S128)

local notation "𝓘" => mkBranch x ei bt W b fcW fcb

local macro "idx1" : tactic => `(tactic| (funext a; match a with | ⟨0, _⟩ => rfl))

local macro "idx2" : tactic => `(tactic| (funext a; match a with | ⟨0, _⟩ => rfl | ⟨1, _⟩ => rfl))

theorem src_apply (e : Fin 160000) : val_main_v1 (F := Ideal) ei (ix1 e) = ei (ix2 (0 : Fin 2) e) := by
  rw [val_main_v1_apply, val_main_v0_apply]
  congr 1
  funext a
  match a with
  | ⟨0, _⟩ => rfl
  | ⟨1, _⟩ => exact Fin.ext (Nat.mod_eq_of_lt e.isLt)

theorem dst_apply (e : Fin 160000) : val_main_v3 (F := Ideal) ei (ix1 e) = ei (ix2 (1 : Fin 2) e) := by
  rw [val_main_v3_apply, val_main_v2_apply]
  congr 1
  funext a
  match a with
  | ⟨0, _⟩ => rfl
  | ⟨1, _⟩ => exact Fin.ext (Nat.mod_eq_of_lt e.isLt)

theorem v11_apply (e : Fin 160000) (h0 : 0 ≤ (ei (ix2 (1 : Fin 2) e)).toInt) :
    val_main_v11 (F := Ideal) ei (ix2 e (0 : Fin 1)) = ei (ix2 (1 : Fin 2) e) := by
  rw [val_main_v11_apply, show idx_main_v11 (ix2 e (0 : Fin 1)) = ix1 e from by idx1,
    val_main_v10_apply, val_main_v7_apply, val_main_v9_apply, val_main_v6_apply, val_main_c_apply,
    val_main_v8_apply, val_main_c_0_apply, dst_apply]
  exact normIdx_of_nonneg _ h0

theorem v22_apply (e : Fin 160000) (h0 : 0 ≤ (ei (ix2 (0 : Fin 2) e)).toInt) :
    val_main_v22 (F := Ideal) ei (ix2 e (0 : Fin 1)) = ei (ix2 (0 : Fin 2) e) := by
  rw [val_main_v22_apply, show idx_main_v22 (ix2 e (0 : Fin 1)) = ix1 e from by idx1,
    val_main_v21_apply, val_main_v18_apply, val_main_v20_apply, val_main_v17_apply, val_main_c_3_apply,
    val_main_v19_apply, val_main_c_4_apply, src_apply]
  exact normIdx_of_nonneg _ h0

theorem v29_apply (e : Fin 160000) (h0 : 0 ≤ (ei (ix2 (1 : Fin 2) e)).toInt) :
    val_main_v29 (F := Ideal) ei (ix2 e (0 : Fin 1)) = ei (ix2 (1 : Fin 2) e) := by
  rw [val_main_v29_apply, show idx_main_v29 (ix2 e (0 : Fin 1)) = ix1 e from by idx1,
    val_main_v28_apply, val_main_v25_apply, val_main_v27_apply, val_main_v24_apply, val_main_c_5_apply,
    val_main_v26_apply, val_main_c_6_apply, dst_apply]
  exact normIdx_of_nonneg _ h0

theorem v37_apply (e : Fin 160000) (h0 : 0 ≤ (ei (ix2 (0 : Fin 2) e)).toInt) :
    val_main_v37 (F := Ideal) ei (ix2 e (0 : Fin 1)) = ei (ix2 (0 : Fin 2) e) := by
  rw [val_main_v37_apply, show idx_main_v37 (ix2 e (0 : Fin 1)) = ix1 e from by idx1,
    val_main_v36_apply, val_main_v33_apply, val_main_v35_apply, val_main_v32_apply, val_main_c_7_apply,
    val_main_v34_apply, val_main_c_8_apply, src_apply]
  exact normIdx_of_nonneg _ h0

theorem v43_apply (e : Fin 160000) :
    val_main_v43 (F := Ideal) ei (ix2 e (0 : Fin 1)) = ei (ix2 (1 : Fin 2) e) := by
  rw [val_main_v43_apply, show idx_main_v43 (ix2 e (0 : Fin 1)) = ix1 e from by idx1, dst_apply]

theorem filter_dst (hI : (𝓘).Ok) (idx : IA S160000x1)
    (hidx : ∀ e : Fin 160000, idx (ix2 e (0 : Fin 1)) = ei (ix2 (1 : Fin 2) e)) (n : Fin 10000) :
    Finset.univ.filter (fun e : Fin 160000 => (idx (ix2 e (0 : Fin 1))).toInt = (n.val : ℤ))
      = Finset.univ.filter (fun e : Fin 160000 => nodeOf ((𝓘).dst e) = n) := by
  apply Finset.filter_congr
  intro e _
  rw [hidx e]
  exact (nodeOf_eq_iff (hI.dst_rng e).1 (hI.dst_rng e).2 n).symm

theorem v15_apply (hI : (𝓘).Ok) (n : Fin 10000) : val_main_v15 (F := Ideal) ei (ix1 n) = (𝓘).deg n := by
  rw [val_main_v15_apply]
  unfold val_main_v13
  rw [scatterDeg_apply, filter_dst x ei bt W b fcW fcb hI _ (fun e => v11_apply ei e (hI.dst_rng e).1) n,
    val_main_v5_apply, val_main_cst_apply, val_main_v14_apply, val_main_cst_2_apply]
  simp only [val_main_v12_apply, val_main_cst_1_apply, Ideal.ofBits_def, Ideal.addf_def, Ideal.ofBits_zero_f32,
    ofBits_one_f32, zero_add]
  rfl

theorem v16_apply (hI : (𝓘).Ok) (n : Fin 10000) : val_main_v16 (F := Ideal) ei (ix1 n) = (𝓘).dinv n := by
  rw [val_main_v16_apply, v15_apply x ei bt W b fcW fcb hI, Ideal.hostUnary_rsqrt_def, BranchIn.dinv]

theorem v23_apply (hI : (𝓘).Ok) (e : Fin 160000) :
    val_main_v23 (F := Ideal) ei (ix1 e) = (𝓘).dinv (nodeOf ((𝓘).src e)) := by
  have hs := hI.src_rng e
  have h22 := v22_apply ei e hs.1
  unfold val_main_v23
  rw [gatherElt_apply _ _ e (by rw [h22]; exact hs.1) (by rw [h22]; exact hs.2), v16_apply x ei bt W b fcW fcb hI]
  congr 1
  apply Fin.ext
  show (val_main_v22 (F := Ideal) ei (ix2 e (0 : Fin 1))).toInt.toNat = (nodeOf ((𝓘).src e)).val
  rw [h22, nodeOf_val hs.1 hs.2]
  rfl

theorem v30_apply (hI : (𝓘).Ok) (e : Fin 160000) :
    val_main_v30 (F := Ideal) ei (ix1 e) = (𝓘).dinv (nodeOf ((𝓘).dst e)) := by
  have hs := hI.dst_rng e
  have h29 := v29_apply ei e hs.1
  unfold val_main_v30
  rw [gatherElt_apply _ _ e (by rw [h29]; exact hs.1) (by rw [h29]; exact hs.2), v16_apply x ei bt W b fcW fcb hI]
  congr 1
  apply Fin.ext
  show (val_main_v29 (F := Ideal) ei (ix2 e (0 : Fin 1))).toInt.toNat = (nodeOf ((𝓘).dst e)).val
  rw [h29, nodeOf_val hs.1 hs.2]
  rfl

theorem v31_apply (hI : (𝓘).Ok) (e : Fin 160000) : val_main_v31 (F := Ideal) ei (ix1 e) = (𝓘).norm e := by
  rw [val_main_v31_apply, v23_apply x ei bt W b fcW fcb hI, v30_apply x ei bt W b fcW fcb hI]
  rfl

theorem v4_apply (n : Fin 10000) (j : Fin 1024) : val_main_v4 (F := Ideal) x W (ix2 n j) = (𝓘).h n j := by
  rw [val_main_v4_apply]
  show _ = ∑ k : Fin 1024, x (ix2 n k) * W (ix2 k j)
  refine Finset.sum_congr rfl (fun k _ => ?_)
  rw [show lidx_main_v4 (ix2 n j) k = ix2 n k from by idx2, show ridx_main_v4 (ix2 n j) k = ix2 k j from by idx2]

theorem v41_apply (hI : (𝓘).Ok) (e : Fin 160000) (j : Fin 1024) :
    val_main_v41 (F := Ideal) x ei W (ix2 e j) = (𝓘).h (nodeOf ((𝓘).src e)) j * (𝓘).norm e := by
  have hs := hI.src_rng e
  have h37 := v37_apply ei e hs.1
  rw [val_main_v41_apply]
  unfold val_main_v38
  rw [gatherRows_apply _ _ e j (by rw [h37]; exact hs.1) (by rw [h37]; exact hs.2), v4_apply x ei bt W b fcW fcb,
    val_main_v40_apply, show idx_main_v40 (ix2 e j) = ix2 e (0 : Fin 1) from by idx2,
    val_main_v39_apply, show idx_main_v39 (ix2 e (0 : Fin 1)) = ix1 e from by idx1,
    v31_apply x ei bt W b fcW fcb hI, Ideal.mulf_def]
  congr 2
  apply Fin.ext
  show (val_main_v37 (F := Ideal) ei (ix2 e (0 : Fin 1))).toInt.toNat = (nodeOf ((𝓘).src e)).val
  rw [h37, nodeOf_val hs.1 hs.2]
  rfl

theorem v44_apply (hI : (𝓘).Ok) (n : Fin 10000) (j : Fin 1024) :
    val_main_v44 (F := Ideal) x ei W (ix2 n j)
      = ∑ e ∈ Finset.univ.filter (fun e : Fin 160000 => nodeOf ((𝓘).dst e) = n),
          (𝓘).h (nodeOf ((𝓘).src e)) j * (𝓘).norm e := by
  unfold val_main_v44
  rw [scatterRows_apply, filter_dst x ei bt W b fcW fcb hI (val_main_v43 (F := Ideal) ei) (fun e => v43_apply ei e) n,
    val_main_v42_apply, val_main_cst_9_apply, Ideal.ofBits_def, Ideal.ofBits_zero_f32, zero_add]
  exact Finset.sum_congr rfl (fun e _ => v41_apply x ei bt W b fcW fcb hI e j)

theorem v53_apply (hI : (𝓘).Ok) (n : Fin 10000) (j : Fin 1024) :
    val_main_v53 (F := Ideal) x ei W b (ix2 n j)
      = ((∑ e ∈ Finset.univ.filter (fun e : Fin 160000 => nodeOf ((𝓘).dst e) = n),
            (𝓘).h (nodeOf ((𝓘).src e)) j * (𝓘).norm e)
          + (𝓘).h n j * Ideal.div 1 ((𝓘).deg n)) + (𝓘).b j := by
  rw [val_main_v53_apply, val_main_v50_apply, v44_apply x ei bt W b fcW fcb hI, val_main_v49_apply,
    v4_apply x ei bt W b fcW fcb,
    val_main_v48_apply, show idx_main_v48 (ix2 n j) = ix2 n (0 : Fin 1) from by idx2,
    val_main_v47_apply, show idx_main_v47 (ix2 n (0 : Fin 1)) = ix1 n from by idx1,
    val_main_v46_apply, v15_apply x ei bt W b fcW fcb hI, val_main_v45_apply, val_main_cst_10_apply,
    val_main_v52_apply, show idx_main_v52 (ix2 n j) = ix2 (0 : Fin 1) j from by idx2,
    val_main_v51_apply, show idx_main_v51 (ix2 (0 : Fin 1) j) = ix1 j from by idx1]
  simp only [Ideal.addf_def, Ideal.mulf_def, Ideal.hostDivf_def, Ideal.ofBits_def, ofBits_one_f32]
  rfl

theorem v58_apply (hI : (𝓘).Ok) (n : Fin 10000) (j : Fin 1024) :
    val_main_v58 (F := Ideal) x ei W b (ix2 n j) = (𝓘).refConv n j := by
  rw [val_main_v58_apply, val_main_v55_apply, val_main_v57_apply, val_main_v54_apply, val_main_cst_11_apply,
    val_main_v56_apply, val_main_cst_12_apply, v53_apply x ei bt W b fcW fcb hI]
  simp only [Ideal.cmpf_def, Ideal.mulf_def, Ideal.ofBits_def, Ideal.ofBits_zero_f32]
  exact leaky_read _

theorem filter_batch (idx : IA S10000x1) (hidx : ∀ n : Fin 10000, idx (ix2 n (0 : Fin 1)) = bt (ix1 n)) (g : Fin 64) :
    Finset.univ.filter (fun n : Fin 10000 => (idx (ix2 n (0 : Fin 1))).toInt = (g.val : ℤ))
      = Finset.univ.filter (fun n : Fin 10000 => (𝓘).batch n = (g.val : ℤ)) := by
  apply Finset.filter_congr
  intro n _
  rw [hidx n]
  exact Iff.rfl

theorem v61_apply (hI : (𝓘).Ok) (g : Fin 64) (j : Fin 1024) :
    val_main_v61 (F := Ideal) x ei bt W b (ix2 g j) = (𝓘).refSum g j := by
  unfold val_main_v61
  rw [scatterPool_apply, filter_batch x ei bt W b fcW fcb (val_main_v60 (F := Ideal) bt)
      (fun n => by rw [val_main_v60_apply, show idx_main_v60 (ix2 n (0 : Fin 1)) = ix1 n from by idx1]) g,
    val_main_v59_apply, val_main_cst_13_apply, Ideal.ofBits_def, Ideal.ofBits_zero_f32, zero_add, BranchIn.refSum]
  exact Finset.sum_congr rfl (fun n _ => v58_apply x ei bt W b fcW fcb hI n j)

theorem v65_apply (g : Fin 64) : val_main_v65 (F := Ideal) bt (ix1 g) = (𝓘).refCnt g := by
  unfold val_main_v65
  rw [scatterCnt_apply, filter_batch x ei bt W b fcW fcb (val_main_v64 (F := Ideal) bt)
      (fun n => by rw [val_main_v64_apply, show idx_main_v64 (ix2 n (0 : Fin 1)) = ix1 n from by idx1]) g,
    val_main_v63_apply, val_main_cst_15_apply, Ideal.ofBits_def, Ideal.ofBits_zero_f32, zero_add, BranchIn.refCnt]
  refine Finset.sum_congr rfl (fun n _ => ?_)
  rw [val_main_v62_apply, val_main_cst_14_apply, Ideal.ofBits_def, ofBits_one_f32]

theorem v70_apply (hI : (𝓘).Ok) (g : Fin 64) (j : Fin 1024) :
    val_main_v70 (F := Ideal) x ei bt W b (ix2 g j) = (𝓘).refPool g j := by
  rw [val_main_v70_apply, v61_apply x ei bt W b fcW fcb hI, val_main_v69_apply,
    show idx_main_v69 (ix2 g j) = ix2 g (0 : Fin 1) from by idx2,
    val_main_v68_apply, show idx_main_v68 (ix2 g (0 : Fin 1)) = ix1 g from by idx1,
    val_main_v67_apply, v65_apply x ei bt W b fcW fcb, val_main_v66_apply, val_main_cst_16_apply,
    Ideal.hostDivf_def, Ideal.maximumf_def, Ideal.ofBits_def, ofBits_one_f32, BranchIn.refPool]

theorem v74_apply (hI : (𝓘).Ok) (g : Fin 64) (o : Fin 128) :
    val_main_v74 (F := Ideal) x ei bt W b fcW fcb (ix2 g o)
      = (∑ k : Fin 1024, (𝓘).refPool g k * (𝓘).fcW k o) + (𝓘).fcb o := by
  rw [val_main_v74_apply, val_main_v71_apply, val_main_v73_apply,
    show idx_main_v73 (ix2 g o) = ix2 (0 : Fin 1) o from by idx2,
    val_main_v72_apply, show idx_main_v72 (ix2 (0 : Fin 1) o) = ix1 o from by idx1, Ideal.addf_def]
  congr 1
  refine Finset.sum_congr rfl (fun k _ => ?_)
  rw [show lidx_main_v71 (ix2 g o) k = ix2 g k from by idx2, show ridx_main_v71 (ix2 g o) k = ix2 k o from by idx2,
    v70_apply x ei bt W b fcW fcb hI]
  rfl

theorem branch_apply (hI : (𝓘).Ok) (g : Fin 64) (o : Fin 128) :
    val_main_v79 (F := Ideal) x ei bt W b fcW fcb (ix2 g o) = (𝓘).refOut g o := by
  rw [val_main_v79_apply, val_main_v76_apply, val_main_v78_apply, val_main_v75_apply, val_main_cst_17_apply,
    val_main_v77_apply, val_main_cst_18_apply, v74_apply x ei bt W b fcW fcb hI]
  simp only [Ideal.cmpf_def, Ideal.mulf_def, Ideal.ofBits_def, Ideal.ofBits_zero_f32]
  exact leaky_read _

end Branch

theorem ref_branch1_apply (a0 : FA S10000x1024) (a1 : IA S2x160000) (a2 : IA S10000) (a6 : FA S1024x1024)
    (a7 : FA S1024) (a8 : FA S1024x128) (a9 : FA S128) (hI : (mkBranch a0 a1 a2 a6 a7 a8 a9).Ok)
    (g : Fin 64) (o : Fin 128) :
    val_main_v79 (F := Ideal) a0 a1 a2 a6 a7 a8 a9 (ix2 g o) = (mkBranch a0 a1 a2 a6 a7 a8 a9).refOut g o :=
  branch_apply a0 a1 a2 a6 a7 a8 a9 hI g o

theorem branch2_eq_branch1 (a3 : FA S10000x1024) (a4 : IA S2x160000) (a5 : IA S10000) (a10 : FA S1024x1024)
    (a11 : FA S1024) (a12 : FA S1024x128) (a13 : FA S128) :
    val_main_v159 (F := Ideal) a3 a4 a5 a10 a11 a12 a13 = val_main_v79 (F := Ideal) a3 a4 a5 a10 a11 a12 a13 :=
  rfl

theorem ref_branch2_apply (a3 : FA S10000x1024) (a4 : IA S2x160000) (a5 : IA S10000) (a10 : FA S1024x1024)
    (a11 : FA S1024) (a12 : FA S1024x128) (a13 : FA S128) (hI : (mkBranch a3 a4 a5 a10 a11 a12 a13).Ok)
    (g : Fin 64) (o : Fin 128) :
    val_main_v159 (F := Ideal) a3 a4 a5 a10 a11 a12 a13 (ix2 g o) = (mkBranch a3 a4 a5 a10 a11 a12 a13).refOut g o := by
  rw [branch2_eq_branch1]
  exact branch_apply a3 a4 a5 a10 a11 a12 a13 hI g o

def tailR (y1 y2 : FVec Ideal S64x128 .f32) (fw : FVec Ideal S256x1 .f32) (fb : FVec Ideal S1 .f32) :
    FVec Ideal S64x1 .f32 :=
  addf (Host.dotGeneral dot_S64x256_S256x1_S64x1_1_0_0_1_n_n none
      (concatenate S64x256 1 [⟨S64x128, y1⟩, ⟨S64x128, y2⟩] concatenates_S64x128_S64x128_S64x256_d1) fw)
    (broadcastInDim S64x1 ![0, 1] bcast_S1x1_S64x1_0_1 (broadcastInDim S1x1 ![1] bcast_S1_S1x1_1 fb))

theorem ref_result_eq (a0 : FA S10000x1024) (a1 : IA S2x160000) (a2 : IA S10000) (a3 : FA S10000x1024)
    (a4 : IA S2x160000) (a5 : IA S10000) (a6 : FA S1024x1024) (a7 : FA S1024) (a8 : FA S1024x128) (a9 : FA S128)
    (a10 : FA S1024x1024) (a11 : FA S1024) (a12 : FA S1024x128) (a13 : FA S128) (a14 : FA S256x1) (a15 : FA S1) :
    val_main_v164 (F := Ideal) a0 a1 a2 a3 a4 a5 a6 a7 a8 a9 a10 a11 a12 a13 a14 a15
      = tailR (val_main_v79 (F := Ideal) a0 a1 a2 a6 a7 a8 a9) (val_main_v159 (F := Ideal) a3 a4 a5 a10 a11 a12 a13)
          a14 a15 :=
  rfl

theorem ref_branch1_eq (a0 : FA S10000x1024) (a1 : IA S2x160000) (a2 : IA S10000) (a6 : FA S1024x1024)
    (a7 : FA S1024) (a8 : FA S1024x128) (a9 : FA S128) (hI : (mkBranch a0 a1 a2 a6 a7 a8 a9).Ok) :
    val_main_v79 (F := Ideal) a0 a1 a2 a6 a7 a8 a9
      = fun i => (mkBranch a0 a1 a2 a6 a7 a8 a9).refOut (i 0) (i 1) := by
  funext i
  obtain ⟨g, o, rfl⟩ : ∃ g o, i = ix2 g o := ⟨i 0, i 1, eq_ix2 i⟩
  exact ref_branch1_apply a0 a1 a2 a6 a7 a8 a9 hI g o

theorem ref_branch2_eq (a3 : FA S10000x1024) (a4 : IA S2x160000) (a5 : IA S10000) (a10 : FA S1024x1024)
    (a11 : FA S1024) (a12 : FA S1024x128) (a13 : FA S128) (hI : (mkBranch a3 a4 a5 a10 a11 a12 a13).Ok) :
    val_main_v159 (F := Ideal) a3 a4 a5 a10 a11 a12 a13
      = fun i => (mkBranch a3 a4 a5 a10 a11 a12 a13).refOut (i 0) (i 1) := by
  funext i
  obtain ⟨g, o, rfl⟩ : ∃ g o, i = ix2 g o := ⟨i 0, i 1, eq_ix2 i⟩
  exact ref_branch2_apply a3 a4 a5 a10 a11 a12 a13 hI g o

end Cert.ReferenceIdeal.RefValue

end
-- ==== Proof.GraphAlg.lean ====
import proofs.«419261_j25872882991625_3_alg».proof.Proof.SpecBranch
import Mathlib.Algebra.BigOperators.Fin
import Mathlib.Algebra.BigOperators.Ring.Finset
import Mathlib.Analysis.Real.Sqrt
import Mathlib.Data.EReal.Basic

noncomputable section

namespace Cert.Spec

open Idealize.ShloMosaic

theorem coe_sum {ι : Type*} (s : Finset ι) (f : ι → ℝ) :
    ∑ i ∈ s, ((f i : ℝ) : EReal) = ((∑ i ∈ s, f i : ℝ) : EReal) := by
  classical
  refine Finset.induction_on s (by simp) ?_
  intro a s ha ih
  rw [Finset.sum_insert ha, Finset.sum_insert ha, ih, EReal.coe_add]

theorem sum_pad240 {M : Type*} [AddCommMonoid M] (f : Fin 10240 → M)
    (hf : ∀ s : Fin 10240, 10000 ≤ s.val → f s = 0) :
    ∑ s, f s = ∑ m : Fin 10000, f ⟨m.val, by omega⟩ := by
  have hz : ∑ i : Fin 240, f (Fin.natAdd 10000 i) = 0 :=
    Finset.sum_eq_zero (fun i _ => hf (Fin.natAdd 10000 i) (Nat.le_add_right 10000 i.val))
  have h := Fin.sum_univ_add (a := 10000) (b := 240) f
  rw [hz, add_zero] at h
  exact h

theorem real_core {E N : Type*} [Fintype E] [Fintype N] [DecidableEq N]
    (D S : E → N) (nr : E → ℝ) (hr dr : N → ℝ) (n : N) :
    ∑ m, ((∑ e ∈ Finset.univ.filter (fun e => D e = n ∧ S e = m), nr e)
          + (∑ i ∈ Finset.univ.filter (fun i : N => i = n ∧ i = m), dr i)) * hr m
      = (∑ e ∈ Finset.univ.filter (fun e => D e = n), hr (S e) * nr e) + hr n * dr n := by
  simp only [add_mul, Finset.sum_add_distrib]
  congr 1
  · simp only [Finset.sum_mul, Finset.sum_filter]
    rw [Finset.sum_comm]
    refine Finset.sum_congr rfl fun e _ => ?_
    by_cases h : D e = n
    · simp [h, mul_comm]
    · simp [h]
  · simp only [Finset.sum_mul, Finset.sum_filter]
    rw [Finset.sum_comm, Finset.sum_eq_single n]
    · simp [mul_comm]
    · intro i _ hi
      simp [hi]
    · intro hn
      exact absurd (Finset.mem_univ n) hn

theorem ereal_core {E N : Type*} [Fintype E] [Fintype N] [DecidableEq N]
    (D S : E → N) (nr : E → ℝ) (hr dr : N → ℝ) (n : N) :
    ∑ m, ((∑ e ∈ Finset.univ.filter (fun e => D e = n ∧ S e = m), (nr e : EReal))
          + (∑ i ∈ Finset.univ.filter (fun i : N => i = n ∧ i = m), (dr i : EReal))) * (hr m : EReal)
      = (∑ e ∈ Finset.univ.filter (fun e => D e = n), (hr (S e) : EReal) * (nr e : EReal))
          + (hr n : EReal) * (dr n : EReal) := by
  simp only [coe_sum, ← EReal.coe_add, ← EReal.coe_mul]
  exact congrArg _ (real_core D S nr hr dr n)

theorem rsqrt_pos_coe {d : ℝ} (hd : 0 < d) :
    Ideal.rsqrt (d : EReal) = (((Real.sqrt d)⁻¹ : ℝ) : EReal) := by
  rw [Ideal.rsqrt_coe, if_neg (not_lt.mpr hd.le), if_neg hd.ne']

theorem rsqrt_mul_self {d : ℝ} (hd : 0 < d) :
    Ideal.rsqrt (d : EReal) * Ideal.rsqrt (d : EReal) = Ideal.div 1 (d : EReal) := by
  rw [rsqrt_pos_coe hd, Ideal.div_coe hd.ne', one_mul, ← EReal.coe_mul, ← mul_inv,
    Real.mul_self_sqrt hd.le, one_div]

namespace BranchIn

variable (I : BranchIn)

theorem deg_real (n : Fin 10000) : ∃ d : ℝ, 0 < d ∧ I.deg n = (d : EReal) := by
  refine ⟨(∑ _e ∈ Finset.univ.filter (fun e : Fin 160000 => nodeOf (I.dst e) = n), (1 : ℝ)) + 1, ?_, ?_⟩
  · have h0 : (0 : ℝ) ≤ ∑ _e ∈ Finset.univ.filter (fun e : Fin 160000 => nodeOf (I.dst e) = n), (1 : ℝ) :=
      Finset.sum_nonneg (fun _ _ => zero_le_one)
    linarith
  · rw [deg, ← EReal.coe_one, coe_sum, ← EReal.coe_add]

theorem dinv_real (n : Fin 10000) : ∃ r : ℝ, I.dinv n = (r : EReal) := by
  obtain ⟨d, hd, h⟩ := I.deg_real n
  exact ⟨(Real.sqrt d)⁻¹, by rw [dinv, h, rsqrt_pos_coe hd]⟩

theorem dinv_sq (n : Fin 10000) : I.dinv n * I.dinv n = Ideal.div 1 (I.deg n) := by
  obtain ⟨d, hd, h⟩ := I.deg_real n
  rw [dinv, h, rsqrt_mul_self hd]

theorem norm_real (e : Fin 160000) : ∃ r : ℝ, I.norm e = (r : EReal) := by
  obtain ⟨a, ha⟩ := I.dinv_real (nodeOf (I.src e))
  obtain ⟨b, hb⟩ := I.dinv_real (nodeOf (I.dst e))
  exact ⟨a * b, by rw [norm, ha, hb, EReal.coe_mul]⟩

theorem h_real (hI : I.Ok) (n : Fin 10000) (j : Fin 1024) : ∃ r : ℝ, I.h n j = (r : EReal) := by
  choose xr hx using hI.x_fin
  choose wr hw using hI.W_fin
  exact ⟨∑ k, xr n k * wr k j, by simp only [h, hx, hw, ← EReal.coe_mul, coe_sum]⟩

theorem kerH_node (m : Fin 10000) (j : Fin 1024) : I.kerH ⟨m.val, by omega⟩ j = I.h m j := by
  unfold kerH h xp
  refine Finset.sum_congr rfl fun k _ => ?_
  rw [dif_pos m.isLt]

theorem kerH_pad (s : Fin 10240) (hs : 10000 ≤ s.val) (j : Fin 1024) : I.kerH s j = 0 := by
  unfold kerH xp
  refine Finset.sum_eq_zero fun k _ => ?_
  rw [dif_neg (by omega), zero_mul]

theorem kerA_node (n m : Fin 10000) :
    I.kerA ⟨n.val, by omega⟩ ⟨m.val, by omega⟩
      = (∑ e ∈ Finset.univ.filter (fun e : Fin 160000 => nodeOf (I.dst e) = n ∧ nodeOf (I.src e) = m), I.norm e)
        + ∑ i ∈ Finset.univ.filter (fun i : Fin 10000 => i = n ∧ i = m), I.dinv i * I.dinv i := by
  unfold kerA
  exact congrArg₂ (· + ·)
    (Finset.sum_congr (Finset.filter_congr (fun e _ => and_congr Fin.ext_iff.symm Fin.ext_iff.symm))
      (fun _ _ => rfl))
    (Finset.sum_congr (Finset.filter_congr (fun i _ => and_congr Fin.ext_iff.symm Fin.ext_iff.symm))
      (fun _ _ => rfl))

theorem kerP_node (g : Fin 64) (m : Fin 10000) :
    I.kerP g ⟨m.val, by omega⟩ = if I.batch m = (g.val : ℤ) then 1 else 0 := by
  unfold kerP
  rw [dif_pos m.isLt]

theorem kerP_pad (g : Fin 64) (s : Fin 10240) (hs : 10000 ≤ s.val) : I.kerP g s = 0 := by
  unfold kerP
  rw [dif_neg (by omega)]

theorem conv_core (hI : I.Ok) (n : Fin 10000) (j : Fin 1024) :
    ∑ s : Fin 10240, I.kerA ⟨n.val, by omega⟩ s * I.kerH s j
      = (∑ e ∈ Finset.univ.filter (fun e : Fin 160000 => nodeOf (I.dst e) = n),
            I.h (nodeOf (I.src e)) j * I.norm e)
        + I.h n j * Ideal.div 1 (I.deg n) := by
  rw [sum_pad240 _ (fun s hs => by rw [I.kerH_pad s hs j, mul_zero])]
  choose hr hh using fun m => I.h_real hI m j
  choose nr hn using I.norm_real
  choose di hd using I.dinv_real
  have hdd : ∀ i, I.dinv i * I.dinv i = ((di i * di i : ℝ) : EReal) := fun i => by
    rw [hd i, EReal.coe_mul]
  simp only [I.kerA_node, I.kerH_node, ← I.dinv_sq]
  simp only [hh, hn, hdd]
  exact ereal_core _ _ nr hr (fun i => di i * di i) n

theorem kerAgg_eq_refConv (hI : I.Ok) (n : Fin 10000) (j : Fin 1024) :
    I.kerAgg ⟨n.val, by omega⟩ j = I.refConv n j := by
  unfold kerAgg refConv
  rw [I.conv_core hI n j]

theorem kerSum_eq_refSum (hI : I.Ok) (g : Fin 64) (j : Fin 1024) : I.kerSum g j = I.refSum g j := by
  unfold kerSum refSum
  rw [sum_pad240 _ (fun s hs => by rw [I.kerP_pad g s hs, zero_mul]), Finset.sum_filter]
  refine Finset.sum_congr rfl fun m _ => ?_
  rw [I.kerP_node g m, I.kerAgg_eq_refConv hI m j]
  split_ifs
  · rw [one_mul]
  · rw [zero_mul]

theorem kerCnt_eq_refCnt (g : Fin 64) : I.kerCnt g = I.refCnt g := by
  unfold kerCnt refCnt
  rw [sum_pad240 _ (fun s hs => I.kerP_pad g s hs), Finset.sum_filter]
  exact Finset.sum_congr rfl fun m _ => I.kerP_node g m

theorem kerPool_eq_refPool (hI : I.Ok) (g : Fin 64) (j : Fin 1024) : I.kerPool g j = I.refPool g j := by
  unfold kerPool refPool
  rw [I.kerSum_eq_refSum hI g j, I.kerCnt_eq_refCnt g]

theorem kerOut_eq_refOut (hI : I.Ok) (g : Fin 64) (o : Fin 128) : I.kerOut g o = I.refOut g o := by
  unfold kerOut refOut
  simp only [I.kerPool_eq_refPool hI]

end BranchIn

end Cert.Spec

end
-- ==== Proof.PreFacts.lean ====
import proofs.«419261_j25872882991625_3_alg».proof.Pre_finite_inputs
import proofs.«419261_j25872882991625_3_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

namespace Cert.PreFacts

open Idealize.ShloMosaic Cert.Pre_finite_inputs

instance : Subsingleton S_.Idx := ⟨fun a b => funext fun d => d.elim0⟩

theorem andi_ix {s : Shape} {w : Nat} (x y : IVec s w) (i : s.Idx) : andi x y i = IntOp.andi (x i) (y i) := rfl

theorem inf_bits : Ideal.ofBits .f32 0x7F800000#32 = (⊤ : EReal) := by
  simp [Ideal.ofBits, Ideal.ieee]

theorem real_of_abs_lt_inf (x : Ideal .f32)
    (h : FloatOps.cmpf .olt (FloatOps.hostAbsf x) (FloatOps.ofBits (F := Ideal) .f32 0x7F800000#32) = 1#1) :
    ∃ r : ℝ, x = (r : EReal) := by
  have h' : Ideal.cmp .olt (max x (-x)) (Ideal.ofBits .f32 0x7F800000#32) = 1#1 := h
  rw [inf_bits] at h'
  have hlt : max x (-x) < (⊤ : EReal) := by
    simpa [Ideal.cmp, StableHlo.Predicate.ofBool_eq_one_iff] using h'
  induction x using EReal.rec with
  | bot => simp at hlt
  | coe r => exact ⟨r, rfl⟩
  | top => simp at hlt

theorem finite_of_all {s : Shape} {axes : List (Fin s.rank)} (a : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
        (cmpf .olt (Host.absf a) (broadcastInDim s ![] hb (constant (F := Ideal) S_ .f32 0x7F800000#32))) init hr hu j = 1#1) :
    ∀ i, ∃ r : ℝ, a i = (r : EReal) := fun i =>
  real_of_abs_lt_inf (a i) (Host.reduce_andi_all _ init hr hu j e i)

theorem range_of_all {s : Shape} {axes : List (Fin s.rank)} (a : IVec s 32)
    (hb : S_.BroadcastsInDim s (![] : Fin 0 → Fin s.rank)) (hr : s.ReducesTo axes S_) (hu : 0 < S_.numel)
    (init : IVec S_ 1) (j : S_.Idx)
    (e : Host.reduce IntOp.andi
        (andi (cmpi .sge a (broadcastInDim s ![] hb (constantI S_ 32 0#32)))
              (cmpi .slt a (broadcastInDim s ![] hb (constantI S_ 32 10000#32)))) init hr hu j = 1#1) :
    ∀ i, 0 ≤ (a i).toInt ∧ (a i).toInt < 10000 := fun i => by
  have hi := Host.reduce_andi_all _ init hr hu j e i
  rw [andi_ix, IntOp.andi_eq_one] at hi
  obtain ⟨hge, hlt⟩ := hi
  have hge' : IntOp.cmpi .sge (a i) 0#32 = 1#1 := hge
  have hlt' : IntOp.cmpi .slt (a i) 10000#32 = 1#1 := hlt
  rw [IntOp.cmpi_sge] at hge'
  rw [IntOp.cmpi_slt] at hlt'
  exact ⟨by simpa using hge', by simpa using hlt'⟩

theorem of_pre (a0 : FVec Ideal S10000x1024 .f32) (a1 : IVec S2x160000 32) (a2 : IVec S10000 32)
    (a3 : FVec Ideal S10000x1024 .f32) (a4 : IVec S2x160000 32) (a5 : IVec S10000 32)
    (a6 : FVec Ideal S1024x1024 .f32) (a7 : FVec Ideal S1024 .f32) (a8 : FVec Ideal S1024x128 .f32)
    (a9 : FVec Ideal S128 .f32) (a10 : FVec Ideal S1024x1024 .f32) (a11 : FVec Ideal S1024 .f32)
    (a12 : FVec Ideal S1024x128 .f32) (a13 : FVec Ideal S128 .f32) (a14 : FVec Ideal S256x1 .f32)
    (a15 : FVec Ideal S1 .f32) [Cert.Pre_finite_inputs.Facts]
    (h : Cert.Pre_finite_inputs.fn (F := Ideal) a0 a1 a2 a3 a4 a5 a6 a7 a8 a9 a10 a11 a12 a13 a14 a15 = fun _ => 1#1) :
    (∀ i, ∃ r : ℝ, a0 i = (r : EReal)) ∧ (∀ i, ∃ r : ℝ, a3 i = (r : EReal)) ∧ (∀ i, ∃ r : ℝ, a6 i = (r : EReal))
      ∧ (∀ i, ∃ r : ℝ, a7 i = (r : EReal)) ∧ (∀ i, ∃ r : ℝ, a10 i = (r : EReal)) ∧ (∀ i, ∃ r : ℝ, a11 i = (r : EReal))
      ∧ (∀ i, 0 ≤ (a1 i).toInt ∧ (a1 i).toInt < 10000) ∧ (∀ i, 0 ≤ (a4 i).toInt ∧ (a4 i).toInt < 10000) := by

  have h0 := congrFun h (fun d => d.elim0)
  dsimp only [fn, fn_part1, fn_part2, fn_part3, fn_part4] at h0
  simp only [andi_ix, IntOp.andi_eq_one] at h0
  obtain ⟨⟨⟨⟨⟨⟨⟨⟨⟨⟨⟨⟨⟨h3, h7⟩, h12⟩, h17⟩, _⟩, _⟩, h32⟩, h37⟩, _⟩, _⟩, _⟩, _⟩, h64⟩, h71⟩ := h0
  exact ⟨finite_of_all a0 _ _ _ _ _ h3, finite_of_all a3 _ _ _ _ _ h7, finite_of_all a6 _ _ _ _ _ h12,
    finite_of_all a7 _ _ _ _ _ h17, finite_of_all a10 _ _ _ _ _ h32, finite_of_all a11 _ _ _ _ _ h37,
    range_of_all a1 _ _ _ _ _ h64, range_of_all a4 _ _ _ _ _ h71⟩

end Cert.PreFacts
-- ==== Proof.Bridge.lean ====
import proofs.«419261_j25872882991625_3_alg».proof.Defs
import proofs.«419261_j25872882991625_3_alg».proof.Proof.KIRun
import proofs.«419261_j25872882991625_3_alg».proof.Proof.KICarry
import proofs.«419261_j25872882991625_3_alg».proof.Proof.KIEntry1
import proofs.«419261_j25872882991625_3_alg».proof.Proof.KIEntry2
import proofs.«419261_j25872882991625_3_alg».proof.Proof.KIRead
import proofs.«419261_j25872882991625_3_alg».proof.Proof.KRun
import proofs.«419261_j25872882991625_3_alg».proof.Proof.KCarry
import proofs.«419261_j25872882991625_3_alg».proof.Proof.RefRun
import proofs.«419261_j25872882991625_3_alg».proof.Proof.RefVal
import proofs.«419261_j25872882991625_3_alg».proof.Proof.GraphAlg
import proofs.«419261_j25872882991625_3_alg».proof.Proof.PreFacts
import proofs.«419261_j25872882991625_3_alg».proof.Proof.Gen.Kernel
import proofs.«419261_j25872882991625_3_alg».proof.Proof.Gen.KernelIdeal
import proofs.«419261_j25872882991625_3_alg».proof.Proof.Gen.ReferenceIdeal
import proofs.«419261_j25872882991625_3_alg».proof.Proof.Gen.Pre_finite_inputs
import Idealize.ShloMosaic.Lib.ValueIdx

noncomputable section

namespace Cert.Proof.Parts

open Idealize.ShloMosaic Idealize.ShloMosaic.TcCoe Idealize.SL.Sem Idealize.ShloMosaic.ValueIdx

theorem mem_uc_ki (b : Ref Cert.KernelIdeal.sig .tc) (h : ¬ (Proc.devRef .tc b : DevRef Cert.KernelIdeal.τ Cert.KernelIdeal.sig).isScoped) :
    Proc.devRef .tc b ∈ Pipeline.ucRefs Cert.KernelIdeal.τ Cert.KernelIdeal.sig :=
  Finset.mem_filter.mpr ⟨StableHlo.devRef_mem_tcRefs b, h⟩

theorem frame_k : Cert.frame_Kernel := fun m ρ _ =>
  (θ_run (Cert.Kernel.defs (F := Bits)) _ _).mono (fun r h c =>
    have k := Cert.Kernel.Hand.args_end m c (h c)
    ⟨k Cert.Kernel.main_arg0 (by decide) (by decide), k Cert.Kernel.main_arg1 (by decide) (by decide), k Cert.Kernel.main_arg2 (by decide) (by decide), k Cert.Kernel.main_arg3 (by decide) (by decide),
     k Cert.Kernel.main_arg4 (by decide) (by decide), k Cert.Kernel.main_arg5 (by decide) (by decide), k Cert.Kernel.main_arg6 (by decide) (by decide), k Cert.Kernel.main_arg7 (by decide) (by decide),
     k Cert.Kernel.main_arg8 (by decide) (by decide), k Cert.Kernel.main_arg9 (by decide) (by decide), k Cert.Kernel.main_arg10 (by decide) (by decide), k Cert.Kernel.main_arg11 (by decide) (by decide),
     k Cert.Kernel.main_arg12 (by decide) (by decide), k Cert.Kernel.main_arg13 (by decide) (by decide), k Cert.Kernel.main_arg14 (by decide) (by decide), k Cert.Kernel.main_arg15 (by decide) (by decide)⟩)
    (Cert.Kernel.Hand.run_main (F := Bits) m ρ)

theorem frame_ki : Cert.frame_KernelIdeal := fun m ρ _ =>
  (θ_run (Cert.KernelIdeal.defs (F := Ideal)) _ _).mono (fun r h c =>
    have k := Cert.KernelIdeal.Hand.args_end m c (h c)
    ⟨k Cert.KernelIdeal.main_arg0 (by decide) (by decide), k Cert.KernelIdeal.main_arg1 (by decide) (by decide), k Cert.KernelIdeal.main_arg2 (by decide) (by decide), k Cert.KernelIdeal.main_arg3 (by decide) (by decide),
     k Cert.KernelIdeal.main_arg4 (by decide) (by decide), k Cert.KernelIdeal.main_arg5 (by decide) (by decide), k Cert.KernelIdeal.main_arg6 (by decide) (by decide), k Cert.KernelIdeal.main_arg7 (by decide) (by decide),
     k Cert.KernelIdeal.main_arg8 (by decide) (by decide), k Cert.KernelIdeal.main_arg9 (by decide) (by decide), k Cert.KernelIdeal.main_arg10 (by decide) (by decide), k Cert.KernelIdeal.main_arg11 (by decide) (by decide),
     k Cert.KernelIdeal.main_arg12 (by decide) (by decide), k Cert.KernelIdeal.main_arg13 (by decide) (by decide), k Cert.KernelIdeal.main_arg14 (by decide) (by decide), k Cert.KernelIdeal.main_arg15 (by decide) (by decide)⟩)
    (Cert.KernelIdeal.Hand.run_main (F := Ideal) m ρ)

theorem frame_ri : Cert.frame_ReferenceIdeal := fun m ρ _ =>
  (θ_run Cert.ReferenceIdeal.defs _ _).mono (fun _ h c => (h c).2) (Cert.ReferenceIdeal.RunHand.run (F := Ideal) m ρ)

theorem ok_branch (x : FVec Ideal Cert.KernelIdeal.S10000x1024 .f32) (ei : IVec Cert.KernelIdeal.S2x160000 32) (bt : IVec Cert.KernelIdeal.S10000 32)
    (W : FVec Ideal Cert.KernelIdeal.S1024x1024 .f32) (b : FVec Ideal Cert.KernelIdeal.S1024 .f32) (fcW : FVec Ideal Cert.KernelIdeal.S1024x128 .f32) (fcb : FVec Ideal Cert.KernelIdeal.S128 .f32)
    (hx : ∀ i, ∃ r : ℝ, x i = (r : EReal)) (hW : ∀ i, ∃ r : ℝ, W i = (r : EReal)) (hb : ∀ i, ∃ r : ℝ, b i = (r : EReal))
    (he : ∀ i, 0 ≤ (ei i).toInt ∧ (ei i).toInt < 10000) : (Cert.Spec.mkBranch x ei bt W b fcW fcb).Ok :=
  ⟨fun n k => hx (ix2 n k), fun k j => hW (ix2 k j), fun j => hb (ix1 j), fun e => he (ix2 (0 : Fin 2) e),
    fun e => he (ix2 (1 : Fin 2) e)⟩

theorem branch1_eq (a0 : FVec Ideal Cert.KernelIdeal.S10000x1024 .f32) (a1 : IVec Cert.KernelIdeal.S2x160000 32) (a2 : IVec Cert.KernelIdeal.S10000 32)
    (a6 : FVec Ideal Cert.KernelIdeal.S1024x1024 .f32) (a7 : FVec Ideal Cert.KernelIdeal.S1024 .f32) (a8 : FVec Ideal Cert.KernelIdeal.S1024x128 .f32) (a9 : FVec Ideal Cert.KernelIdeal.S128 .f32)
    (hI : (Cert.Spec.mkBranch a0 a1 a2 a6 a7 a8 a9).Ok) :
    Cert.ReferenceIdeal.ReadP.val_main_v79 (F := Ideal) a0 a1 a2 a6 a7 a8 a9 = Cert.KernelIdeal.Terms.kerBranchT a0 a1 a2 a6 a7 a8 a9 := by
  funext i
  obtain ⟨g, o, rfl⟩ : ∃ g o, i = ix2 g o := ⟨i 0, i 1, eq_ix2 i⟩
  rw [Cert.ReferenceIdeal.RefValue.ref_branch1_apply a0 a1 a2 a6 a7 a8 a9 hI g o,
    Cert.KernelIdeal.Terms.kerBranchT_apply a0 a1 a2 a6 a7 a8 a9 hI g o, Cert.Spec.BranchIn.kerOut_eq_refOut _ hI g o]

theorem branch2_eq (a3 : FVec Ideal Cert.KernelIdeal.S10000x1024 .f32) (a4 : IVec Cert.KernelIdeal.S2x160000 32) (a5 : IVec Cert.KernelIdeal.S10000 32)
    (a10 : FVec Ideal Cert.KernelIdeal.S1024x1024 .f32) (a11 : FVec Ideal Cert.KernelIdeal.S1024 .f32) (a12 : FVec Ideal Cert.KernelIdeal.S1024x128 .f32) (a13 : FVec Ideal Cert.KernelIdeal.S128 .f32)
    (hI : (Cert.Spec.mkBranch a3 a4 a5 a10 a11 a12 a13).Ok) :
    Cert.ReferenceIdeal.ReadP.val_main_v159 (F := Ideal) a3 a4 a5 a10 a11 a12 a13 = Cert.KernelIdeal.Terms.kerBranchT a3 a4 a5 a10 a11 a12 a13 := by
  funext i
  obtain ⟨g, o, rfl⟩ : ∃ g o, i = ix2 g o := ⟨i 0, i 1, eq_ix2 i⟩
  rw [Cert.ReferenceIdeal.RefValue.ref_branch2_apply a3 a4 a5 a10 a11 a12 a13 hI g o,
    Cert.KernelIdeal.Terms.kerBranchT_apply a3 a4 a5 a10 a11 a12 a13 hI g o, Cert.Spec.BranchIn.kerOut_eq_refOut _ hI g o]

theorem tail_eq (y1 y2 : FVec Ideal Cert.KernelIdeal.S64x128 .f32) (fw : FVec Ideal Cert.KernelIdeal.S256x1 .f32) (fb : FVec Ideal Cert.KernelIdeal.S1 .f32) :
    Cert.ReferenceIdeal.RefValue.tailR y1 y2 fw fb = Cert.KernelIdeal.Terms.tailT (F := Ideal) y1 y2 fw fb := rfl

theorem ref_value (a0 : FVec Ideal Cert.KernelIdeal.S10000x1024 .f32) (a1 : IVec Cert.KernelIdeal.S2x160000 32) (a2 : IVec Cert.KernelIdeal.S10000 32)
    (a6 : FVec Ideal Cert.KernelIdeal.S1024x1024 .f32) (a7 : FVec Ideal Cert.KernelIdeal.S1024 .f32) (a8 : FVec Ideal Cert.KernelIdeal.S1024x128 .f32) (a9 : FVec Ideal Cert.KernelIdeal.S128 .f32)
    (a3 : FVec Ideal Cert.KernelIdeal.S10000x1024 .f32) (a4 : IVec Cert.KernelIdeal.S2x160000 32) (a5 : IVec Cert.KernelIdeal.S10000 32)
    (a10 : FVec Ideal Cert.KernelIdeal.S1024x1024 .f32) (a11 : FVec Ideal Cert.KernelIdeal.S1024 .f32) (a12 : FVec Ideal Cert.KernelIdeal.S1024x128 .f32) (a13 : FVec Ideal Cert.KernelIdeal.S128 .f32)
    (a14 : FVec Ideal Cert.KernelIdeal.S256x1 .f32) (a15 : FVec Ideal Cert.KernelIdeal.S1 .f32)
    (hI₁ : (Cert.Spec.mkBranch a0 a1 a2 a6 a7 a8 a9).Ok) (hI₂ : (Cert.Spec.mkBranch a3 a4 a5 a10 a11 a12 a13).Ok) :
    Cert.ReferenceIdeal.ReadP.val_main_v164 (F := Ideal) a0 a1 a2 a3 a4 a5 a6 a7 a8 a9 a10 a11 a12 a13 a14 a15
      = Cert.KernelIdeal.Terms.tailT (F := Ideal) (Cert.KernelIdeal.Terms.kerBranchT a0 a1 a2 a6 a7 a8 a9)
          (Cert.KernelIdeal.Terms.kerBranchT a3 a4 a5 a10 a11 a12 a13) a14 a15 := by
  rw [Cert.ReferenceIdeal.RefValue.ref_result_eq, branch1_eq a0 a1 a2 a6 a7 a8 a9 hI₁, branch2_eq a3 a4 a5 a10 a11 a12 a13 hI₂]
  exact tail_eq _ _ _ _

/-- The launch memory at a reference of the idealized kernel. -/
abbrev inp (m : (ℓ : Loc Cert.KernelIdeal.nD Cert.KernelIdeal.τ Cert.KernelIdeal.sig) → Buf (Elt Ideal) ℓ) (c : Dev Cert.KernelIdeal.nD) (b : Ref Cert.KernelIdeal.sig .tc) :
    Buf (Elt Ideal) ((c.tc : Thread Cert.KernelIdeal.nD Cert.KernelIdeal.τ).loc b) :=
  m ((c.tc : Thread Cert.KernelIdeal.nD Cert.KernelIdeal.τ).loc b)

/-- The kernel's result as a term of the launch memory's sixteen argument arrays. -/
abbrev kerResult (m : (ℓ : Loc Cert.KernelIdeal.nD Cert.KernelIdeal.τ Cert.KernelIdeal.sig) → Buf (Elt Ideal) ℓ) (c : Dev Cert.KernelIdeal.nD) : FVec Ideal Cert.KernelIdeal.S64x1 .f32 :=
  Cert.KernelIdeal.Terms.tailT (F := Ideal) (Cert.KernelIdeal.Terms.kerBranchT (inp m c Cert.KernelIdeal.main_arg0) (inp m c Cert.KernelIdeal.main_arg1) (inp m c Cert.KernelIdeal.main_arg2) (inp m c Cert.KernelIdeal.main_arg6) (inp m c Cert.KernelIdeal.main_arg7) (inp m c Cert.KernelIdeal.main_arg8) (inp m c Cert.KernelIdeal.main_arg9))
    (Cert.KernelIdeal.Terms.kerBranchT (inp m c Cert.KernelIdeal.main_arg3) (inp m c Cert.KernelIdeal.main_arg4) (inp m c Cert.KernelIdeal.main_arg5) (inp m c Cert.KernelIdeal.main_arg10) (inp m c Cert.KernelIdeal.main_arg11) (inp m c Cert.KernelIdeal.main_arg12) (inp m c Cert.KernelIdeal.main_arg13))
    (inp m c Cert.KernelIdeal.main_arg14) (inp m c Cert.KernelIdeal.main_arg15)

theorem kernel_value (m : (ℓ : Loc Cert.KernelIdeal.nD Cert.KernelIdeal.τ Cert.KernelIdeal.sig) → Buf (Elt Ideal) ℓ) (c : Dev Cert.KernelIdeal.nD) :
    Cert.KernelIdeal.Hand.W28 m c (Proc.devRef .tc Cert.KernelIdeal.main_v158)
      = kerResult m c := by
  rw [Cert.KernelIdeal.Hand.W28_result m c, Cert.KernelIdeal.Hand.W13_branch1 m c, Cert.KernelIdeal.Hand.W27_branch2 m c]

theorem algebraic : Cert.algebraic_KernelIdeal_ReferenceIdeal := by
  intro m ρ m' ρ' hpre hagree
  have hI₁ : ∀ c : Dev Cert.KernelIdeal.nD, (Cert.Spec.mkBranch (inp m c Cert.KernelIdeal.main_arg0) (inp m c Cert.KernelIdeal.main_arg1) (inp m c Cert.KernelIdeal.main_arg2) (inp m c Cert.KernelIdeal.main_arg6) (inp m c Cert.KernelIdeal.main_arg7) (inp m c Cert.KernelIdeal.main_arg8) (inp m c Cert.KernelIdeal.main_arg9)).Ok := fun c => by
    obtain ⟨h0, _, h6, h7, _, _, h1, _⟩ := Cert.PreFacts.of_pre _ _ _ _ _ _ _ _ _ _ _ _ _ _ _ _ (hpre c)
    exact ok_branch _ _ _ _ _ _ _ h0 h6 h7 h1
  have hI₂ : ∀ c : Dev Cert.KernelIdeal.nD, (Cert.Spec.mkBranch (inp m c Cert.KernelIdeal.main_arg3) (inp m c Cert.KernelIdeal.main_arg4) (inp m c Cert.KernelIdeal.main_arg5) (inp m c Cert.KernelIdeal.main_arg10) (inp m c Cert.KernelIdeal.main_arg11) (inp m c Cert.KernelIdeal.main_arg12) (inp m c Cert.KernelIdeal.main_arg13)).Ok := fun c => by
    obtain ⟨_, h3, _, _, h10, h11, _, h4⟩ := Cert.PreFacts.of_pre _ _ _ _ _ _ _ _ _ _ _ _ _ _ _ _ (hpre c)
    exact ok_branch _ _ _ _ _ _ _ h3 h10 h11 h4
  refine ⟨fun c => kerResult m c, ?_, ?_⟩
  · exact (θ_run (Cert.KernelIdeal.defs (F := Ideal)) _ _).mono (fun r h c =>
      have k := Cert.KernelIdeal.Hand.args_end m c (h c)
      ⟨(h c _ (mem_uc_ki Cert.KernelIdeal.main_v158 (by decide))).trans (kernel_value m c),
     k Cert.KernelIdeal.main_arg0 (by decide) (by decide), k Cert.KernelIdeal.main_arg1 (by decide) (by decide), k Cert.KernelIdeal.main_arg2 (by decide) (by decide), k Cert.KernelIdeal.main_arg3 (by decide) (by decide),
     k Cert.KernelIdeal.main_arg4 (by decide) (by decide), k Cert.KernelIdeal.main_arg5 (by decide) (by decide), k Cert.KernelIdeal.main_arg6 (by decide) (by decide), k Cert.KernelIdeal.main_arg7 (by decide) (by decide),
     k Cert.KernelIdeal.main_arg8 (by decide) (by decide), k Cert.KernelIdeal.main_arg9 (by decide) (by decide), k Cert.KernelIdeal.main_arg10 (by decide) (by decide), k Cert.KernelIdeal.main_arg11 (by decide) (by decide),
     k Cert.KernelIdeal.main_arg12 (by decide) (by decide), k Cert.KernelIdeal.main_arg13 (by decide) (by decide), k Cert.KernelIdeal.main_arg14 (by decide) (by decide), k Cert.KernelIdeal.main_arg15 (by decide) (by decide)⟩)
      (Cert.KernelIdeal.Hand.run_main (F := Ideal) m ρ)
  · refine (θ_run Cert.ReferenceIdeal.defs _ _).mono (fun r h c => ⟨?_, (h c).2⟩) (Cert.ReferenceIdeal.RunHand.run (F := Ideal) m' ρ')
    rw [(h c).1, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2]
    exact ref_value _ _ _ _ _ _ _ _ _ _ _ _ _ _ _ _ (hI₁ c) (hI₂ c)

end Cert.Proof.Parts

end
-- ==== Proof.lean ====
import proofs.«419261_j25872882991625_3_alg».proof.Defs
import proofs.«419261_j25872882991625_3_alg».proof.Proof.Bridge
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Parts.frame_k, Parts.frame_ki, Parts.frame_ri, trivial, Parts.algebraic⟩

end Cert.Proof

end
